-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v64)) (v3 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S16384x1024 : Shape := ⟨2, ![16384, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_arg4 : IVec S8192 32) (main_v13 : IVec S_ 1) (main_v15 : IVec S8192 1) (main_c_5 : IVec S_ 32) : IVec S_ 1 :=
  let main_v16 : IVec S8192 32 := broadcastInDim S8192 ![] bcast_S_S8192 main_c_5
  let main_v17 : IVec S8192 1 := cmpi .slt main_arg3 main_v16
  let main_v18 : IVec S8192 1 := andi main_v15 main_v17
  let main_c_6 : IVec S_ 1 := constantI S_ 1 1#1
  let main_v19 : IVec S_ 1 := (fun x v => Host.reduce IntOp.andi x v reducesTo_S8192_S_d0 h_S_) main_v18 main_c_6
  let main_v20 : IVec S_ 1 := andi main_v13 main_v19
  let main_c_7 : IVec S_ 32 := constantI S_ 32 0#32
  let main_v21 : IVec S8192 32 := broadcastInDim S8192 ![] bcast_S_S8192 main_c_7
  let main_v22 : IVec S8192 1 := cmpi .sge main_arg4 main_v21
  let main_c_8 : IVec S_ 32 := constantI S_ 32 64#32
  let main_v23 : IVec S8192 32 := broadcastInDim S8192 ![] bcast_S_S8192 main_c_8
  let main_v24 : IVec S8192 1 := cmpi .slt main_arg4 main_v23
  let main_v25 : IVec S8192 1 := andi main_v22 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v20 main_v26
  main_v27

def fn {F : FTy → Type} [FloatOps F] (main_arg0 : FVec F S8192x1024 .f32) (main_arg1 : FVec F S8192x1024 .f32) (main_arg2 : FVec F S16384x1024 .f32) (main_arg3 : IVec S8192 32) (main_arg4 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg3 main_v14
  let main_c_5 : IVec S_ 32 := constantI S_ 32 64#32
  fn_part1 (F := F) main_arg3 main_arg4 main_v13 main_v15 main_c_5
-- ==== Kernel.lean ====
abbrev S8192x1024 : Shape := ⟨2, ![8192, 1024]⟩
abbrev S16384x1024 : Shape := ⟨2, ![16384, 1024]⟩
abbrev S8192 : Shape := ⟨1, ![8192]⟩
abbrev S8192x1 : Shape := ⟨2, ![8192, 1]⟩
abbrev S2x64x1024 : Shape := ⟨3, ![2, 64, 1024]⟩
abbrev S2x1x64 : Shape := ⟨3, ![2, 1, 64]⟩
abbrev S1024x1024 : Shape := ⟨2, ![1024, 1024]⟩
abbrev S1024x1 : Shape := ⟨2, ![1024, 1]⟩
abbrev S1x64x1024 : Shape := ⟨3, ![1, 64, 1024]⟩
abbrev S1x1x64 : Shape := ⟨3, ![1, 1, 64]⟩
abbrev S64x1024 : Shape := ⟨2, ![64, 1024]⟩
abbrev S1x64 : Shape := ⟨2, ![1, 64]⟩
abbrev S1024x64 : Shape := ⟨2, ![1024, 64]⟩
abbrev S64 : Shape := ⟨1, ![64]⟩
abbrev S_ : Shape := ⟨0, ![]⟩
abbrev S64x1 : Shape := ⟨2, ![64, 1]⟩
abbrev S1024x192 : Shape := ⟨2, ![1024, 192]⟩
abbrev S2x1x128 : Shape := ⟨3, ![2, 1, 128]⟩
abbrev S2048x1024 : Shape := ⟨2, ![2048, 1024]⟩
abbrev S2048x1 : Shape := ⟨2, ![2048, 1]⟩
abbrev S1x1x128 : Shape := ⟨3, ![1, 1, 128]⟩
abbrev S1x128 : Shape := ⟨2, ![1, 128]⟩
abbrev S2048x192 : Shape := ⟨2, ![2048, 192]⟩
abbrev S2048x64 : Shape := ⟨2, ![2048, 64]⟩
abbrev S2048 : Shape := ⟨1, ![2048]⟩
abbrev S1 : Shape := ⟨1, ![1]⟩
abbrev S1x1 : Shape := ⟨2, ![1, 1]⟩

abbrev nBuf : Space → Nat
  | .hbm => 102
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S16384x1024, .f32⟩
  | .hbm, ⟨3, _⟩ => ⟨S8192, .i32⟩
  | .hbm, ⟨4, _⟩ => ⟨S8192, .i32⟩
  | .hbm, ⟨5, _⟩ => ⟨S8192x1, .i32⟩
  | .hbm, ⟨6, _⟩ => ⟨S8192x1, .i32⟩
  | .hbm, ⟨7, _⟩ => ⟨S2x64x1024, .f32⟩
  | .hbm, ⟨8, _⟩ => ⟨S2x64x1024, .f32⟩
  | .hbm, ⟨9, _⟩ => ⟨S2x1x64, .f32⟩
  | .hbm, ⟨10, _⟩ => ⟨S2x1x64, .f32⟩
  | .hbm, ⟨11, _⟩ => ⟨S_, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x1024, .f32⟩
  | .hbm, ⟨26, _⟩ => ⟨S64x1024, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64x1, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64x1024, .f32⟩
  | .hbm, ⟨48, _⟩ => ⟨S64x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64x1024, .f32⟩
  | .hbm, ⟨55, _⟩ => ⟨S64x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1024x64, .f32⟩
  | .hbm, ⟨64, _⟩ => ⟨S1024x64, .f32⟩
  | .hbm, ⟨65, _⟩ => ⟨S1024x64, .f32⟩
  | .hbm, ⟨66, _⟩ => ⟨S1024x192, .f32⟩
  | .hbm, ⟨67, _⟩ => ⟨S2x1x128, .f32⟩
  | .hbm, ⟨68, _⟩ => ⟨S2x1x128, .f32⟩
  | .hbm, ⟨69, _⟩ => ⟨S2x1x128, .f32⟩
  | .hbm, ⟨70, _⟩ => ⟨S_, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S_, .f32⟩
  | .hbm, ⟨82, _⟩ => ⟨S1x1, .f32⟩
  | .hbm, ⟨83, _⟩ => ⟨S_, .f32⟩
  | .hbm, ⟨84, _⟩ => ⟨S1x1, .f32⟩
  | .hbm, ⟨85, _⟩ => ⟨S_, .f32⟩
  | .hbm, ⟨86, _⟩ => ⟨S1x1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .i32⟩
  | .local _ .vmem, ⟨5, _⟩ => ⟨S1024x1, .i32⟩
  | .local _ .vmem, ⟨6, _⟩ => ⟨S1024x1, .i32⟩
  | .local _ .vmem, ⟨7, _⟩ => ⟨S1024x1, .i32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S64x1024, .f32⟩
  | .local _ .vmem, ⟨17, _⟩ => ⟨S64x1024, .f32⟩
  | .local _ .vmem, ⟨18, _⟩ => ⟨S1x64, .f32⟩
  | .local _ .vmem, ⟨19, _⟩ => ⟨S1x64, .f32⟩
  | .local _ .vmem, ⟨20, _⟩ => ⟨S2048x1024, .f32⟩
  | .local _ .vmem, ⟨21, _⟩ => ⟨S2048x1024, .f32⟩
  | .local _ .vmem, ⟨22, _⟩ => ⟨S2048x1, .i32⟩
  | .local _ .vmem, ⟨23, _⟩ => ⟨S2048x1, .i32⟩
  | .local _ .vmem, ⟨24, _⟩ => ⟨S1024x192, .f32⟩
  | .local _ .vmem, ⟨25, _⟩ => ⟨S1x1x128, .f32⟩
  | .local _ .vmem, ⟨26, _⟩ => ⟨S1x1x128, .f32⟩
  | .local _ .vmem, ⟨27, _⟩ => ⟨S1x128, .f32⟩
  | .local _ .vmem, ⟨28, _⟩ => ⟨S2048x1024, .f32⟩
  | .local _ .vmem, ⟨29, _⟩ => ⟨S2048x1024, .f32⟩
  | .local _ .vmem, ⟨30, _⟩ => ⟨S2048x1, .i32⟩
  | .local _ .vmem, ⟨31, _⟩ => ⟨S2048x1, .i32⟩
  | .local _ .vmem, ⟨32, _⟩ => ⟨S1024x192, .f32⟩
  | .local _ .vmem, ⟨33, _⟩ => ⟨S1x1x128, .f32⟩
  | .local _ .vmem, ⟨34, _⟩ => ⟨S1x1x128, .f32⟩
  | .local _ .vmem, ⟨35, _⟩ => ⟨S1x128, .f32⟩
  | .local _ .vmem, ⟨36, _⟩ => ⟨S2048x1024, .f32⟩
  | .local _ .vmem, ⟨37, _⟩ => ⟨S2048x1024, .f32⟩
  | .local _ .vmem, ⟨38, _⟩ => ⟨S1024x192, .f32⟩
  | .local _ .vmem, ⟨39, _⟩ => ⟨S1x1x128, .f32⟩
  | .local _ .vmem, ⟨40, _⟩ => ⟨S1x1x128, .f32⟩
  | .local _ .vmem, ⟨41, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg3_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg2_1 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_27 : BitVec 32 := 0#32
  let v46 : BitVec 1 := Scalar.cmpi .ne v45 c0_i32_27
  v46

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v131 : BitVec 1 := Scalar.cmpi .eq arg1 c1_i32
  let v132 : BitVec 32 := Scalar.extui v131
  let c0_i32_29 : BitVec 32 := 0#32
  let v133 : BitVec 1 := Scalar.cmpi .ne v132 c0_i32_29
  v133

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32_28 : BitVec 32 := 1#32
  let v131 : BitVec 1 := Scalar.cmpi .eq arg1 c1_i32_28
  let v132 : BitVec 32 := Scalar.extui v131
  let c0_i32_29 : BitVec 32 := 0#32
  let v133 : BitVec 1 := Scalar.cmpi .ne v132 c0_i32_29
  v133

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 4], ![false, false]⟩

def k3_cond2 (i : grid3.Coords) : BitVec 1 :=
  let arg1 : BitVec 32 := BitVec.ofNat 32 (i 1).val
  let c3_i32_23 : BitVec 32 := 3#32
  let v109 : BitVec 1 := Scalar.cmpi .eq arg1 c3_i32_23
  let v110 : BitVec 32 := Scalar.extui v109
  let c0_i32_24 : BitVec 32 := 0#32
  let v111 : BitVec 1 := Scalar.cmpi .ne v110 c0_i32_24
  v111

def cc3_transform_0 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1024x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  shapeCasts_S8192_S8192x1 : S8192.ShapeCasts S8192x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S1024x64_d1_w32 : S1024x64.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  natLt_1_32 : 1 < 32
  inb_S1024x1024_S1024x1024_0_0 : ∀ a, (![0, 0] : Fin 2 → Nat) a + S1024x1024.size a ≤ S1024x1024.size a
  h_S1024x1024 : 0 < S1024x1024.numel
  reduces_S1024x64_S64 : S1024x64.Reduces [0] S64
  shapeCasts_S64_S1x64 : S64.ShapeCasts S1x64
  shapeCasts_S64x1024_S1x64x1024 : S64x1024.ShapeCasts S1x64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S2x64x1024_S64x1024_d0 : S2x64x1024.ReducesTo [0] S64x1024
  h_S_ : 0 < S_.numel
  reducesTo_S2x1x64_S1x64_d0 : S2x1x64.ReducesTo [0] S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  reducesTo_S64x1024_S_d0_1 : S64x1024.ReducesTo [0, 1] S_
  transposes_S64x1024_S1024x64_1_0 : S64x1024.Transposes [1, 0] S1024x64
  concatenates_S1024x64_S1024x64_S1024x64_S1024x192_d1 : Shape.Concatenates [S1024x64, S1024x64, S1024x64] S1024x192 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  reduces_S2048x64_S2048 : S2048x64.Reduces [1] S2048
  shapeCasts_S2048_S2048x1 : S2048.ShapeCasts S2048x1
  broadcasts_S2048x1_S2048x64 : S2048x1.Broadcasts S2048x64
  reduces_S2048x1_S1 : S2048x1.Reduces [0] S1
  shapeCasts_S1_S1x1 : S1.ShapeCasts S1x1
  iota_S2048x64_d1_w32 : S2048x64.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x128_d1_w32 : S1x128.Iotas .tc 32 [1]
  broadcasts_S1x1_S1x128 : S1x1.Broadcasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S2x1x128_S1x128_d0 : S2x1x128.ReducesTo [0] S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  slices_S1x128_S1x1_0_4 : S1x128.Slices ![0, 4] S1x1
  dot_S1024x64_S1024x1024_S64x1024_0_0_1_1_n_n_wf : DotDims.WF S1024x64 S1024x1024 S64x1024 [0] [0] [1] [1] [] []
  dot_S2048x1024_S1024x192_S2048x192_1_0_0_1_n_n_wf : DotDims.WF S2048x1024 S1024x192 S2048x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S2x64x1024.size a
  hwx0_4 : ∀ i : grid0.Coords, EltTy.bits .f32 = 32 ∨ (Rect.block (s := S2x64x1024) S1x64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S2x64x1024.size a
  hwx0_5 : ∀ i : grid0.Coords, EltTy.bits .f32 = 32 ∨ (Rect.block (s := S2x64x1024) S1x64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S2x1x64.size a
  hwx0_6 : ∀ i : grid0.Coords, EltTy.bits .f32 = 32 ∨ (Rect.block (s := S2x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S2x1x64.size a
  hwx0_7 : ∀ i : grid0.Coords, EltTy.bits .f32 = 32 ∨ (Rect.block (s := S2x1x64) S1x1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .f32 = 32 ∨ (Rect.block (s := S8192x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .i32 = 32 ∨ (Rect.block (s := S8192x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x192.size a ≤ S1024x192.size a
  hwx1_2 : ∀ i : grid1.Coords, EltTy.bits .f32 = 32 ∨ (Rect.block (s := S1024x192) S1024x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x1024.size a
  hwx2_0 : ∀ i : grid2.Coords, EltTy.bits .f32 = 32 ∨ (Rect.block (s := S8192x1024) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .i32 = 32 ∨ (Rect.block (s := S8192x1) S2048x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x192.size a ≤ S1024x192.size a
  hwx2_2 : ∀ i : grid2.Coords, EltTy.bits .f32 = 32 ∨ (Rect.block (s := S1024x192) S1024x192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S2x1x128.size a
  hwx2_3 : ∀ i : grid2.Coords, EltTy.bits .f32 = 32 ∨ (Rect.block (s := S2x1x128) S1x1x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S16384x1024.size a
  hwx3_0 : ∀ i : grid3.Coords, EltTy.bits .f32 = 32 ∨ (Rect.block (s := S16384x1024) S2048x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x192.size a ≤ S1024x192.size a
  hwx3_1 : ∀ i : grid3.Coords, EltTy.bits .f32 = 32 ∨ (Rect.block (s := S1024x192) S1024x192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S2x1x128.size a
  hwx3_2 : ∀ i : grid3.Coords, EltTy.bits .f32 = 32 ∨ (Rect.block (s := S2x1x128) S1x1x128.size (cc3_transform_2 i) (hinb3_2 i)).WholeWords (EltTy.packing .f32)

variable [Facts₀]

def dot_S1024x64_S1024x1024_S64x1024_0_0_1_1_n_n : DotDims S1024x64 S1024x1024 S64x1024 where
  lhsContracting := [0]
  rhsContracting := [0]
  lhsNonContracting := [1]
  rhsNonContracting := [1]
  lhsBatch := []
  rhsBatch := []
  wf := dot_S1024x64_S1024x1024_S64x1024_0_0_1_1_n_n_wf
def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x64x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1024x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1024x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x1x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg2) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1024x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x1x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S16384x1024 : Shape := ⟨2, ![16384, 1024]⟩
abbrev S8192 : Shape := ⟨1, ![8192]⟩
abbrev S_ : Shape := ⟨0, ![]⟩
abbrev S64 : Shape := ⟨1, ![64]⟩
abbrev S8192x1 : Shape := ⟨2, ![8192, 1]⟩
abbrev S64x1024 : Shape := ⟨2, ![64, 1024]⟩
abbrev S64x1 : Shape := ⟨2, ![64, 1]⟩
abbrev S32768x1024 : Shape := ⟨2, ![32768, 1024]⟩
abbrev S1024x64 : Shape := ⟨2, ![1024, 64]⟩
abbrev S32768x64 : Shape := ⟨2, ![32768, 64]⟩
abbrev S8192x64 : Shape := ⟨2, ![8192, 64]⟩
abbrev S8192x1x1 : Shape := ⟨3, ![8192, 1, 1]⟩
abbrev S1 : Shape := ⟨1, ![1]⟩
abbrev S1x1x1 : Shape := ⟨3, ![1, 1, 1]⟩
abbrev S32768 : Shape := ⟨1, ![32768]⟩
abbrev S32768x1 : Shape := ⟨2, ![32768, 1]⟩

abbrev nBuf : Space → Nat
  | .hbm => 307
  | .vmem => 0
  | .smem => 0
  | _ => 0

abbrev hbmTy0_0 (i : Nat) : BufTy := match i % 128 with
  | 0 => ⟨S8192x1024, .f32⟩
  | 1 => ⟨S8192x1024, .f32⟩
  | 2 => ⟨S16384x1024, .f32⟩
  | 3 => ⟨S8192, .i32⟩
  | 4 => ⟨S8192, .i32⟩
  | 5 => ⟨S_, .f32⟩
  | 6 => ⟨S8192, .f32⟩
  | 7 => ⟨S_, .f32⟩
  | 8 => ⟨S64, .f32⟩
  | 9 => ⟨S8192x1, .i32⟩
  | 10 => ⟨S64, .f32⟩
  | 11 => ⟨S_, .f32⟩
  | 12 => ⟨S8192, .f32⟩
  | 13 => ⟨S_, .f32⟩
  | 14 => ⟨S64, .f32⟩
  | 15 => ⟨S8192x1, .i32⟩
  | 16 => ⟨S64, .f32⟩
  | 17 => ⟨S_, .f32⟩
  | 18 => ⟨S64x1024, .f32⟩
  | 19 => ⟨S8192x1, .i32⟩
  | 20 => ⟨S64x1024, .f32⟩
  | 21 => ⟨S_, .f32⟩
  | 22 => ⟨S64x1024, .f32⟩
  | 23 => ⟨S8192x1, .i32⟩
  | 24 => ⟨S64x1024, .f32⟩
  | 25 => ⟨S_, .f32⟩
  | 26 => ⟨S64, .f32⟩
  | 27 => ⟨S64, .f32⟩
  | 28 => ⟨S64x1, .f32⟩
  | 29 => ⟨S64x1024, .f32⟩
  | 30 => ⟨S64x1024, .f32⟩
  | 31 => ⟨S_, .f32⟩
  | 32 => ⟨S64, .f32⟩
  | 33 => ⟨S64, .f32⟩
  | 34 => ⟨S64x1, .f32⟩
  | 35 => ⟨S64x1024, .f32⟩
  | 36 => ⟨S64x1024, .f32⟩
  | 37 => ⟨S64x1024, .f32⟩
  | 38 => ⟨S64, .f32⟩
  | 39 => ⟨S_, .f32⟩
  | 40 => ⟨S64, .f32⟩
  | 41 => ⟨S64, .f32⟩
  | 42 => ⟨S64x1, .f32⟩
  | 43 => ⟨S64x1024, .f32⟩
  | 44 => ⟨S64x1024, .f32⟩
  | 45 => ⟨S64x1024, .f32⟩
  | 46 => ⟨S64x1024, .f32⟩
  | 47 => ⟨S_, .f32⟩
  | 48 => ⟨S_, .f32⟩
  | 49 => ⟨S_, .f32⟩
  | 50 => ⟨S_, .f32⟩
  | 51 => ⟨S64x1024, .f32⟩
  | 52 => ⟨S64x1024, .f32⟩
  | 53 => ⟨S_, .f32⟩
  | 54 => ⟨S_, .f32⟩
  | 55 => ⟨S_, .f32⟩
  | 56 => ⟨S_, .f32⟩
  | 57 => ⟨S_, .f32⟩
  | 58 => ⟨S64x1024, .f32⟩
  | 59 => ⟨S64x1024, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S32768x1024, .f32⟩
  | 68 => ⟨S1024x64, .f32⟩
  | 69 => ⟨S32768x64, .f32⟩
  | 70 => ⟨S1024x64, .f32⟩
  | 71 => ⟨S32768x64, .f32⟩
  | 72 => ⟨S1024x64, .f32⟩
  | 73 => ⟨S32768x64, .f32⟩
  | 74 => ⟨S8192x64, .f32⟩
  | 75 => ⟨S_, .f32⟩
  | 76 => ⟨S8192, .f32⟩
  | 77 => ⟨S_, .f32⟩
  | 78 => ⟨S8192, .f32⟩
  | 79 => ⟨S8192, .f32⟩
  | 80 => ⟨S8192x1, .f32⟩
  | 81 => ⟨S8192x64, .f32⟩
  | 82 => ⟨S8192x64, .f32⟩
  | 83 => ⟨S8192x64, .f32⟩
  | 84 => ⟨S_, .f32⟩
  | 85 => ⟨S8192, .f32⟩
  | 86 => ⟨S8192x1, .f32⟩
  | 87 => ⟨S8192x1, .f32⟩
  | 88 => ⟨S8192x64, .f32⟩
  | 89 => ⟨S8192x64, .f32⟩
  | 90 => ⟨S8192x1, .i32⟩
  | 91 => ⟨S_, .i32⟩
  | 92 => ⟨S8192x1, .i32⟩
  | 93 => ⟨S8192x1, .i1⟩
  | 94 => ⟨S_, .i32⟩
  | 95 => ⟨S8192x1, .i32⟩
  | 96 => ⟨S8192x1, .i32⟩
  | 97 => ⟨S8192x1, .i32⟩
  | 98 => ⟨S8192x1x1, .i32⟩
  | 99 => ⟨S1, .i32⟩
  | 100 => ⟨S_, .i32⟩
  | 101 => ⟨S8192x1x1, .i32⟩
  | 102 => ⟨S8192x1x1, .i1⟩
  | 103 => ⟨S1x1x1, .i32⟩
  | 104 => ⟨S8192x1x1, .i32⟩
  | 105 => ⟨S8192x1x1, .i1⟩
  | 106 => ⟨S8192x1x1, .i1⟩
  | 107 => ⟨S_, .i1⟩
  | 108 => ⟨S8192x1, .i1⟩
  | 109 => ⟨S8192x1, .f32⟩
  | 110 => ⟨S_, .f32⟩
  | 111 => ⟨S8192x1, .f32⟩
  | 112 => ⟨S8192x1, .f32⟩
  | 113 => ⟨S_, .f32⟩
  | 114 => ⟨S_, .f32⟩
  | 115 => ⟨S_, .f32⟩
  | 116 => ⟨S_, .f32⟩
  | 117 => ⟨S_, .f32⟩
  | 118 => ⟨S8192x64, .f32⟩
  | 119 => ⟨S_, .f32⟩
  | 120 => ⟨S8192, .f32⟩
  | 121 => ⟨S_, .f32⟩
  | 122 => ⟨S8192, .f32⟩
  | 123 => ⟨S8192, .f32⟩
  | 124 => ⟨S8192x1, .f32⟩
  | 125 => ⟨S8192x64, .f32⟩
  | 126 => ⟨S8192x64, .f32⟩
  | 127 => ⟨S8192x64, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1, .f32⟩
  | 4 => ⟨S8192x64, .f32⟩
  | 5 => ⟨S8192x64, .f32⟩
  | 6 => ⟨S8192x1, .i32⟩
  | 7 => ⟨S_, .i32⟩
  | 8 => ⟨S8192x1, .i32⟩
  | 9 => ⟨S8192x1, .i1⟩
  | 10 => ⟨S_, .i32⟩
  | 11 => ⟨S8192x1, .i32⟩
  | 12 => ⟨S8192x1, .i32⟩
  | 13 => ⟨S8192x1, .i32⟩
  | 14 => ⟨S8192x1x1, .i32⟩
  | 15 => ⟨S1, .i32⟩
  | 16 => ⟨S_, .i32⟩
  | 17 => ⟨S8192x1x1, .i32⟩
  | 18 => ⟨S8192x1x1, .i1⟩
  | 19 => ⟨S1x1x1, .i32⟩
  | 20 => ⟨S8192x1x1, .i32⟩
  | 21 => ⟨S8192x1x1, .i1⟩
  | 22 => ⟨S8192x1x1, .i1⟩
  | 23 => ⟨S_, .i1⟩
  | 24 => ⟨S8192x1, .i1⟩
  | 25 => ⟨S8192x1, .f32⟩
  | 26 => ⟨S_, .f32⟩
  | 27 => ⟨S8192x1, .f32⟩
  | 28 => ⟨S8192x1, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S32768, .f32⟩
  | 36 => ⟨S_, .f32⟩
  | 37 => ⟨S32768, .f32⟩
  | 38 => ⟨S32768, .f32⟩
  | 39 => ⟨S32768x1, .f32⟩
  | 40 => ⟨S32768x64, .f32⟩
  | 41 => ⟨S32768x64, .f32⟩
  | 42 => ⟨S32768x64, .f32⟩
  | 43 => ⟨S_, .f32⟩
  | 44 => ⟨S32768, .f32⟩
  | 45 => ⟨S32768x1, .f32⟩
  | 46 => ⟨S32768x1, .f32⟩
  | 47 => ⟨S32768x64, .f32⟩
  | 48 => ⟨S32768x64, .f32⟩
  | 49 => ⟨S_, .f32⟩
  | 50 => ⟨S32768, .f32⟩
  | 51 => ⟨S_, .f32⟩
  | 52 => ⟨S32768, .f32⟩
  | 53 => ⟨S32768, .f32⟩
  | 54 => ⟨S32768x1, .f32⟩
  | 55 => ⟨S32768x64, .f32⟩
  | 56 => ⟨S32768x64, .f32⟩
  | 57 => ⟨S32768x64, .f32⟩
  | 58 => ⟨S_, .f32⟩
  | 59 => ⟨S32768, .f32⟩
  | 60 => ⟨S32768x1, .f32⟩
  | 61 => ⟨S32768x1, .f32⟩
  | 62 => ⟨S32768x64, .f32⟩
  | 63 => ⟨S32768x64, .f32⟩
  | 64 => ⟨S32768x64, .f32⟩
  | 65 => ⟨S32768x64, .f32⟩
  | 66 => ⟨S32768x64, .f32⟩
  | 67 => ⟨S_, .f32⟩
  | 68 => ⟨S_, .f32⟩
  | 69 => ⟨S_, .f32⟩
  | 70 => ⟨S_, .f32⟩
  | 71 => ⟨S32768x64, .f32⟩
  | 72 => ⟨S32768x64, .f32⟩
  | 73 => ⟨S32768x64, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S32768, .f32⟩
  | 83 => ⟨S_, .f32⟩
  | 84 => ⟨S32768, .f32⟩
  | 85 => ⟨S32768, .f32⟩
  | 86 => ⟨S32768x1, .f32⟩
  | 87 => ⟨S32768x64, .f32⟩
  | 88 => ⟨S32768x64, .f32⟩
  | 89 => ⟨S32768x64, .f32⟩
  | 90 => ⟨S_, .f32⟩
  | 91 => ⟨S32768, .f32⟩
  | 92 => ⟨S32768x1, .f32⟩
  | 93 => ⟨S32768x1, .f32⟩
  | 94 => ⟨S32768x64, .f32⟩
  | 95 => ⟨S32768x64, .f32⟩
  | 96 => ⟨S_, .f32⟩
  | 97 => ⟨S32768, .f32⟩
  | 98 => ⟨S_, .f32⟩
  | 99 => ⟨S32768, .f32⟩
  | 100 => ⟨S32768, .f32⟩
  | 101 => ⟨S32768x1, .f32⟩
  | 102 => ⟨S32768x64, .f32⟩
  | 103 => ⟨S32768x64, .f32⟩
  | 104 => ⟨S32768x64, .f32⟩
  | 105 => ⟨S_, .f32⟩
  | 106 => ⟨S32768, .f32⟩
  | 107 => ⟨S32768x1, .f32⟩
  | 108 => ⟨S32768x1, .f32⟩
  | 109 => ⟨S32768x64, .f32⟩
  | 110 => ⟨S32768x64, .f32⟩
  | 111 => ⟨S32768x64, .f32⟩
  | 112 => ⟨S32768x64, .f32⟩
  | 113 => ⟨S32768x64, .f32⟩
  | 114 => ⟨S_, .f32⟩
  | 115 => ⟨S_, .f32⟩
  | 116 => ⟨S_, .f32⟩
  | 117 => ⟨S_, .f32⟩
  | 118 => ⟨S32768x64, .f32⟩
  | 119 => ⟨S32768x64, .f32⟩
  | 120 => ⟨S32768x64, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x1024, .f32⟩

abbrev hbmTy0_2 (i : Nat) : BufTy := match i % 128 with
  | 0 => ⟨S_, .f32⟩
  | 1 => ⟨S_, .f32⟩
  | 2 => ⟨S32768, .f32⟩
  | 3 => ⟨S_, .f32⟩
  | 4 => ⟨S32768, .f32⟩
  | 5 => ⟨S32768, .f32⟩
  | 6 => ⟨S32768x1, .f32⟩
  | 7 => ⟨S32768x64, .f32⟩
  | 8 => ⟨S32768x64, .f32⟩
  | 9 => ⟨S32768x64, .f32⟩
  | 10 => ⟨S_, .f32⟩
  | 11 => ⟨S32768, .f32⟩
  | 12 => ⟨S32768x1, .f32⟩
  | 13 => ⟨S32768x1, .f32⟩
  | 14 => ⟨S32768x64, .f32⟩
  | 15 => ⟨S32768x64, .f32⟩
  | 16 => ⟨S_, .f32⟩
  | 17 => ⟨S32768, .f32⟩
  | 18 => ⟨S_, .f32⟩
  | 19 => ⟨S32768, .f32⟩
  | 20 => ⟨S32768, .f32⟩
  | 21 => ⟨S32768x1, .f32⟩
  | 22 => ⟨S32768x64, .f32⟩
  | 23 => ⟨S32768x64, .f32⟩
  | 24 => ⟨S32768x64, .f32⟩
  | 25 => ⟨S_, .f32⟩
  | 26 => ⟨S32768, .f32⟩
  | 27 => ⟨S32768x1, .f32⟩
  | 28 => ⟨S32768x1, .f32⟩
  | 29 => ⟨S32768x64, .f32⟩
  | 30 => ⟨S32768x64, .f32⟩
  | 31 => ⟨S32768x64, .f32⟩
  | 32 => ⟨S32768x64, .f32⟩
  | 33 => ⟨S32768x64, .f32⟩
  | 34 => ⟨S_, .f32⟩
  | 35 => ⟨S_, .f32⟩
  | 36 => ⟨S_, .f32⟩
  | 37 => ⟨S_, .f32⟩
  | 38 => ⟨S32768x64, .f32⟩
  | 39 => ⟨S32768x64, .f32⟩
  | 40 => ⟨S32768x64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_call0_cst_0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_cst_1 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_v54 : Ref sig .tc := ⟨.hbm, 89, rfl⟩
abbrev main_v55 : Ref sig .tc := ⟨.hbm, 90, rfl⟩
abbrev main_call1_c : Ref sig .tc := ⟨.hbm, 91, rfl⟩
abbrev main_call1_v0 : Ref sig .tc := ⟨.hbm, 92, rfl⟩
abbrev main_call1_v1 : Ref sig .tc := ⟨.hbm, 93, rfl⟩
abbrev main_call1_c_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_c_1 : Ref sig .tc := ⟨.hbm, 99, rfl⟩
abbrev main_call1_c_2 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_3 : Ref sig .tc := ⟨.hbm, 107, rfl⟩
abbrev main_call1_v12 : Ref sig .tc := ⟨.hbm, 108, rfl⟩
abbrev main_call1_v13 : Ref sig .tc := ⟨.hbm, 109, rfl⟩
abbrev main_call1_cst : Ref sig .tc := ⟨.hbm, 110, rfl⟩
abbrev main_call1_v14 : Ref sig .tc := ⟨.hbm, 111, rfl⟩
abbrev main_v56 : Ref sig .tc := ⟨.hbm, 112, rfl⟩
abbrev main_cst_15 : Ref sig .tc := ⟨.hbm, 113, rfl⟩
abbrev main_v57 : Ref sig .tc := ⟨.hbm, 114, rfl⟩
abbrev main_cst_16 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_call2_cst : Ref sig .tc := ⟨.hbm, 119, rfl⟩
abbrev main_call2_v0 : Ref sig .tc := ⟨.hbm, 120, rfl⟩
abbrev main_call2_cst_0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_cst_1 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_v61 : Ref sig .tc := ⟨.hbm, 133, rfl⟩
abbrev main_v62 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_cst : Ref sig .tc := ⟨.hbm, 154, rfl⟩
abbrev main_call3_v14 : Ref sig .tc := ⟨.hbm, 155, rfl⟩
abbrev main_v63 : Ref sig .tc := ⟨.hbm, 156, rfl⟩
abbrev main_cst_17 : Ref sig .tc := ⟨.hbm, 157, rfl⟩
abbrev main_v64 : Ref sig .tc := ⟨.hbm, 158, rfl⟩
abbrev main_cst_18 : Ref sig .tc := ⟨.hbm, 159, rfl⟩
abbrev main_v65 : Ref sig .tc := ⟨.hbm, 160, rfl⟩
abbrev main_v66 : Ref sig .tc := ⟨.hbm, 161, rfl⟩
abbrev main_call4_cst : Ref sig .tc := ⟨.hbm, 162, rfl⟩
abbrev main_call4_v0 : Ref sig .tc := ⟨.hbm, 163, rfl⟩
abbrev main_call4_cst_0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_v6 : Ref sig .tc := ⟨.hbm, 170, rfl⟩
abbrev main_call4_cst_1 : Ref sig .tc := ⟨.hbm, 171, rfl⟩
abbrev main_call4_v7 : Ref sig .tc := ⟨.hbm, 172, rfl⟩
abbrev main_call4_v8 : Ref sig .tc := ⟨.hbm, 173, rfl⟩
abbrev main_call4_v9 : Ref sig .tc := ⟨.hbm, 174, rfl⟩
abbrev main_call4_v10 : Ref sig .tc := ⟨.hbm, 175, rfl⟩
abbrev main_v67 : Ref sig .tc := ⟨.hbm, 176, rfl⟩
abbrev main_call5_cst : Ref sig .tc := ⟨.hbm, 177, rfl⟩
abbrev main_call5_v0 : Ref sig .tc := ⟨.hbm, 178, rfl⟩
abbrev main_call5_cst_0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_v6 : Ref sig .tc := ⟨.hbm, 185, rfl⟩
abbrev main_call5_cst_1 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_cst_19 : Ref sig .tc := ⟨.hbm, 195, rfl⟩
abbrev main_v72 : Ref sig .tc := ⟨.hbm, 196, rfl⟩
abbrev main_cst_20 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_cst_21 : Ref sig .tc := ⟨.hbm, 202, rfl⟩
abbrev main_v77 : Ref sig .tc := ⟨.hbm, 203, rfl⟩
abbrev main_cst_22 : Ref sig .tc := ⟨.hbm, 204, rfl⟩
abbrev main_v78 : Ref sig .tc := ⟨.hbm, 205, rfl⟩
abbrev main_v79 : Ref sig .tc := ⟨.hbm, 206, rfl⟩
abbrev main_cst_23 : Ref sig .tc := ⟨.hbm, 207, rfl⟩
abbrev main_v80 : Ref sig .tc := ⟨.hbm, 208, rfl⟩
abbrev main_call6_cst : Ref sig .tc := ⟨.hbm, 209, rfl⟩
abbrev main_call6_v0 : Ref sig .tc := ⟨.hbm, 210, rfl⟩
abbrev main_call6_cst_0 : Ref sig .tc := ⟨.hbm, 211, rfl⟩
abbrev main_call6_v1 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_call6_v5 : Ref sig .tc := ⟨.hbm, 216, rfl⟩
abbrev main_call6_v6 : Ref sig .tc := ⟨.hbm, 217, rfl⟩
abbrev main_call6_cst_1 : Ref sig .tc := ⟨.hbm, 218, rfl⟩
abbrev main_call6_v7 : Ref sig .tc := ⟨.hbm, 219, rfl⟩
abbrev main_call6_v8 : Ref sig .tc := ⟨.hbm, 220, rfl⟩
abbrev main_call6_v9 : Ref sig .tc := ⟨.hbm, 221, rfl⟩
abbrev main_call6_v10 : Ref sig .tc := ⟨.hbm, 222, rfl⟩
abbrev main_v81 : Ref sig .tc := ⟨.hbm, 223, rfl⟩
abbrev main_call7_cst : Ref sig .tc := ⟨.hbm, 224, rfl⟩
abbrev main_call7_v0 : Ref sig .tc := ⟨.hbm, 225, rfl⟩
abbrev main_call7_cst_0 : Ref sig .tc := ⟨.hbm, 226, rfl⟩
abbrev main_call7_v1 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_v6 : Ref sig .tc := ⟨.hbm, 232, rfl⟩
abbrev main_call7_cst_1 : Ref sig .tc := ⟨.hbm, 233, rfl⟩
abbrev main_call7_v7 : Ref sig .tc := ⟨.hbm, 234, rfl⟩
abbrev main_call7_v8 : Ref sig .tc := ⟨.hbm, 235, rfl⟩
abbrev main_call7_v9 : Ref sig .tc := ⟨.hbm, 236, rfl⟩
abbrev main_call7_v10 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_cst_24 : Ref sig .tc := ⟨.hbm, 242, rfl⟩
abbrev main_v86 : Ref sig .tc := ⟨.hbm, 243, rfl⟩
abbrev main_cst_25 : Ref sig .tc := ⟨.hbm, 244, rfl⟩
abbrev main_v87 : Ref sig .tc := ⟨.hbm, 245, rfl⟩
abbrev main_v88 : Ref sig .tc := ⟨.hbm, 246, rfl⟩
abbrev main_v89 : Ref sig .tc := ⟨.hbm, 247, rfl⟩
abbrev main_v90 : Ref sig .tc := ⟨.hbm, 248, rfl⟩
abbrev main_cst_26 : Ref sig .tc := ⟨.hbm, 249, rfl⟩
abbrev main_v91 : Ref sig .tc := ⟨.hbm, 250, rfl⟩
abbrev main_cst_27 : Ref sig .tc := ⟨.hbm, 251, rfl⟩
abbrev main_v92 : Ref sig .tc := ⟨.hbm, 252, rfl⟩
abbrev main_v93 : Ref sig .tc := ⟨.hbm, 253, rfl⟩
abbrev main_cst_28 : Ref sig .tc := ⟨.hbm, 254, rfl⟩
abbrev main_v94 : Ref sig .tc := ⟨.hbm, 255, rfl⟩
abbrev main_v95 : Ref sig .tc := ⟨.hbm, 256, rfl⟩
abbrev main_call8_cst : Ref sig .tc := ⟨.hbm, 257, rfl⟩
abbrev main_call8_v0 : Ref sig .tc := ⟨.hbm, 258, rfl⟩
abbrev main_call8_cst_0 : Ref sig .tc := ⟨.hbm, 259, rfl⟩
abbrev main_call8_v1 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_call8_v5 : Ref sig .tc := ⟨.hbm, 264, rfl⟩
abbrev main_call8_v6 : Ref sig .tc := ⟨.hbm, 265, rfl⟩
abbrev main_call8_cst_1 : Ref sig .tc := ⟨.hbm, 266, rfl⟩
abbrev main_call8_v7 : Ref sig .tc := ⟨.hbm, 267, rfl⟩
abbrev main_call8_v8 : Ref sig .tc := ⟨.hbm, 268, rfl⟩
abbrev main_call8_v9 : Ref sig .tc := ⟨.hbm, 269, rfl⟩
abbrev main_call8_v10 : Ref sig .tc := ⟨.hbm, 270, rfl⟩
abbrev main_v96 : Ref sig .tc := ⟨.hbm, 271, rfl⟩
abbrev main_call9_cst : Ref sig .tc := ⟨.hbm, 272, rfl⟩
abbrev main_call9_v0 : Ref sig .tc := ⟨.hbm, 273, rfl⟩
abbrev main_call9_cst_0 : Ref sig .tc := ⟨.hbm, 274, rfl⟩
abbrev main_call9_v1 : Ref sig .tc := ⟨.hbm, 275, rfl⟩
abbrev main_call9_v2 : Ref sig .tc := ⟨.hbm, 276, rfl⟩
abbrev main_call9_v3 : Ref sig .tc := ⟨.hbm, 277, rfl⟩
abbrev main_call9_v4 : Ref sig .tc := ⟨.hbm, 278, rfl⟩
abbrev main_call9_v5 : Ref sig .tc := ⟨.hbm, 279, rfl⟩
abbrev main_call9_v6 : Ref sig .tc := ⟨.hbm, 280, rfl⟩
abbrev main_call9_cst_1 : Ref sig .tc := ⟨.hbm, 281, rfl⟩
abbrev main_call9_v7 : Ref sig .tc := ⟨.hbm, 282, rfl⟩
abbrev main_call9_v8 : Ref sig .tc := ⟨.hbm, 283, rfl⟩
abbrev main_call9_v9 : Ref sig .tc := ⟨.hbm, 284, rfl⟩
abbrev main_call9_v10 : Ref sig .tc := ⟨.hbm, 285, rfl⟩
abbrev main_v97 : Ref sig .tc := ⟨.hbm, 286, rfl⟩
abbrev main_v98 : Ref sig .tc := ⟨.hbm, 287, rfl⟩
abbrev main_v99 : Ref sig .tc := ⟨.hbm, 288, rfl⟩
abbrev main_v100 : Ref sig .tc := ⟨.hbm, 289, rfl⟩
abbrev main_cst_29 : Ref sig .tc := ⟨.hbm, 290, rfl⟩
abbrev main_v101 : Ref sig .tc := ⟨.hbm, 291, rfl⟩
abbrev main_cst_30 : Ref sig .tc := ⟨.hbm, 292, rfl⟩
abbrev main_v102 : Ref sig .tc := ⟨.hbm, 293, rfl⟩
abbrev main_v103 : Ref sig .tc := ⟨.hbm, 294, rfl⟩
abbrev main_v104 : Ref sig .tc := ⟨.hbm, 295, rfl⟩
abbrev main_v105 : Ref sig .tc := ⟨.hbm, 296, rfl⟩
abbrev main_cst_31 : Ref sig .tc := ⟨.hbm, 297, rfl⟩
abbrev main_v106 : Ref sig .tc := ⟨.hbm, 298, rfl⟩
abbrev main_cst_32 : Ref sig .tc := ⟨.hbm, 299, rfl⟩
abbrev main_v107 : Ref sig .tc := ⟨.hbm, 300, rfl⟩
abbrev main_v108 : Ref sig .tc := ⟨.hbm, 301, rfl⟩
abbrev main_cst_33 : Ref sig .tc := ⟨.hbm, 302, rfl⟩
abbrev main_v109 : Ref sig .tc := ⟨.hbm, 303, rfl⟩
abbrev main_v110 : Ref sig .tc := ⟨.hbm, 304, rfl⟩
abbrev main_cst_34 : Ref sig .tc := ⟨.hbm, 305, rfl⟩
abbrev main_v111 : Ref sig .tc := ⟨.hbm, 306, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S_S64 : S_.BroadcastsInDim S64 (![] : Fin 0 → Fin S64.rank)
  bcast_S8192_S8192x1_0 : S8192.BroadcastsInDim S8192x1 (![0] : Fin 1 → Fin S8192x1.rank)
  bcast_S_S64x1024 : S_.BroadcastsInDim S64x1024 (![] : Fin 0 → Fin S64x1024.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  reducesTo_S64x1024_S_d0_1 : S64x1024.ReducesTo [0, 1] S_
  h_S_ : 0 < S_.numel
  concatenates_S8192x1024_S8192x1024_S16384x1024_S32768x1024_d0 : Shape.Concatenates [S8192x1024, S8192x1024, S16384x1024] S32768x1024 0
  transposes_S64x1024_S1024x64_1_0 : S64x1024.Transposes [1, 0] S1024x64
  slices_S32768x64_S8192x64_0_0 : S32768x64.Slices ![0, 0] S8192x64
  reducesTo_S8192x64_S8192_d1 : S8192x64.ReducesTo [1] S8192
  bcast_S8192x1_S8192x64_0_1 : S8192x1.BroadcastsInDim S8192x64 (![0, 1] : Fin 2 → Fin S8192x64.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  slices_S32768x64_S8192x64_8192_0 : S32768x64.Slices ![8192, 0] S8192x64
  reducesTo_S32768x64_S32768_d1 : S32768x64.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  reducesTo_S32768x64_S_d0_1 : S32768x64.ReducesTo [0, 1] S_
  scatter_S64_S8192x1_S8192_n_0_0_1_wf : ScatterDims.WF S64 S8192x1 S8192 [] [0] [0] 1
  scatter_S64x1024_S8192x1_S8192x1024_1_0_0_1_wf : ScatterDims.WF S64x1024 S8192x1 S8192x1024 [1] [0] [0] 1
  dot_S32768x1024_S1024x64_S32768x64_1_0_0_1_n_n_wf : DotDims.WF S32768x1024 S1024x64 S32768x64 [1] [0] [0] [1] [] []
  gather_S8192x64_S8192x1x1_S8192x1_n_1_0_0_1_2_11_wf : GatherDims.WF S8192x64 S8192x1x1 S8192x1 [] [1] [0] [1] [0] 2 ![1, 1]

variable [Facts₀]

def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def scatter_S64x1024_S8192x1_S8192x1024_1_0_0_1 : ScatterDims S64x1024 S8192x1 S8192x1024 where
  updateWindowDims := [1]
  insertedWindowDims := [0]
  scatterDimsToOperandDims := [0]
  indexVectorDim := 1
  wf := scatter_S64x1024_S8192x1_S8192x1024_1_0_0_1_wf
def dot_S32768x1024_S1024x64_S32768x64_1_0_0_1_n_n : DotDims S32768x1024 S1024x64 S32768x64 where
  lhsContracting := [1]
  rhsContracting := [0]
  lhsNonContracting := [0]
  rhsNonContracting := [1]
  lhsBatch := []
  rhsBatch := []
  wf := dot_S32768x1024_S1024x64_S32768x64_1_0_0_1_n_n_wf
def gather_S8192x64_S8192x1x1_S8192x1_n_1_0_0_1_2_11 : GatherDims S8192x64 S8192x1x1 S8192x1 where
  offsetDims := []
  collapsedSliceDims := [1]
  operandBatchingDims := [0]
  startIndicesBatchingDims := [0]
  startIndexMap := [1]
  indexVectorDim := 2
  sliceSizes := ![1, 1]
  wf := gather_S8192x64_S8192x1x1_S8192x1_n_1_0_0_1_2_11_wf

class Facts : Prop extends Facts₀ where

variable [Facts]
-- ==== Proof.K.Reg0Body.lean ====
import proofs.«422586_j33337536151702_2_alg».proof.Proof.Gen.Kernel.Launch
import proofs.«422586_j33337536151702_2_alg».proof.Proof.Gen.Kernel.Skeleton
import proofs.«422586_j33337536151702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

theorem hz2 : (![0, 0] : Fin 2 → ℕ) = fun _ => 0 := by funext a; fin_cases a <;> rfl
theorem hz3 : (![0, 0, 0] : Fin 3 → ℕ) = fun _ => 0 := by funext a; fin_cases a <;> rfl

theorem rd_whole (S : Shape) {e : EltTy} {off : Fin S.rank → ℕ} (hz : off = fun _ => 0) (inb : ∀ a, off a + S.size a ≤ S.size a)
    (M : Memref sig .tc .vmem S e) (hM : M.IsWhole) (x : S.Idx → Elt F e) :
    View.readAt (Elt F) M.view (Rect.unit off S.size inb).toLoadRect (hM.unread x) = x := by
  rw [View.readAt_eq_ld, hM.read_unread, View.ld_unit_zero hz]

theorem wr_whole (S : Shape) {e : EltTy} {off : Fin S.rank → ℕ} (hz : off = fun _ => 0) (inb : ∀ a, off a + S.size a ≤ S.size a)
    (v : View sig .tc .vmem S e) (f : v.ty.Contents (Elt F)) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

theorem rc_whole (S : Shape) {e : EltTy} {off : Fin S.rank → ℕ} (hz : off = fun _ => 0) (inb : ∀ a, off a + S.size a ≤ S.size a)
    (v : View sig .tc .vmem S e) (w : S.Idx → Elt F e) :
    v.readCov [(⟨Rect.unit off S.size inb, w⟩ : View.Piece (Elt F) S e)] (Rect.unit off S.size inb).toLoadRect = w :=
  View.readCov_unit_zero v hz inb w

theorem owns_unread {sp : Space} {S : Shape} {e : EltTy} (c : Dev nD) {M : Memref sig .tc sp S e} (hM : M.IsWhole) (x : S.Idx → Elt F e) :
    (owns (c : Thread nD τ) M fullShare x : sProp 𝕄) = pointsTo (M.view.loc (c : Thread nD τ)) M.view.set fullShare (hM.unread x) := by
  have h₁ : (owns (c : Thread nD τ) M fullShare x : sProp 𝕄)
      ⊢ (pointsTo (M.view.loc (c : Thread nD τ)) M.view.set fullShare (hM.unread x) : sProp 𝕄) := by
    unfold owns; iintro ⟨%f, %hf, H⟩; obtain rfl := hM.eq_unread hf; iexact H
  have h₂ := owns_intro (Ix := Unit) (Name := ℕ) (U := UR sig nD τ) (Lvl := ℕ) (c : Thread nD τ) M fullShare (hM.unread x)
  rw [hM.read_unread] at h₂
  exact BI.equiv_iff.mp ⟨h₁, h₂⟩

variable (c : Dev nD) (E : Set ℕ) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S1x64 .f32) (harg12 : arg12.IsWhole) (arg13 : Memref sig .tc .vmem S1x64 .f32) (harg13 : arg13.IsWhole)

theorem sound_B (hc0 : ¬cond0 i) (hc1 : ¬cond1 i)
    (x0 x1 : Vec F S1024x1024 .f32) (x2 x3 : Vec F S1024x1 .i32)
    (s0 s1 : Vec F S64x1024 .f32) (s2 s3 : Vec F S1x64 .f32) (K : PUnit → sProp 𝕄) :
    iprop(owns c arg2 fullShare x0
        ∗ owns c arg3 fullShare x1
        ∗ owns c arg4 fullShare x2
        ∗ owns c arg5 fullShare x3
        ∗ owns c arg10 fullShare s0
        ∗ owns c arg11 fullShare s1
        ∗ owns c arg12 fullShare s2
        ∗ owns c arg13 fullShare s3
        ∗ (iprop(owns c arg2 fullShare x0
            ∗ owns c arg3 fullShare x1
            ∗ owns c arg4 fullShare x2
            ∗ owns c arg5 fullShare x3
            ∗ owns c arg10 fullShare (k0_pay13 x2 x0 s0)
            ∗ owns c arg11 fullShare (k0_pay14 x3 x1 s1)
            ∗ owns c arg12 fullShare (k0_pay1 s2 (k0_pay15 x2))
            ∗ owns c arg13 fullShare (k0_pay2 (k0_pay12 x3) s3)) -∗ K ⟨⟩))
      ⊢ wp frame (wpE (defs₀ (F := F)) Variants.none c none) E (cc0__segstat_kernel i arg2 harg2 arg3 harg3 arg4 harg4 arg5 harg5 arg6 harg6 arg7 harg7 arg8 harg8 arg9 harg9 arg10 harg10 arg11 harg11 arg12 harg12 arg13 harg13) K := by
  simp only [cc0__segstat_kernel_eq_skeleton]; unfold cc0__segstat_kernel_skel
  simp only [k0_part1_eq_skeleton]; unfold k0_part1_skel
  rw [owns_unread c harg2, owns_unread c harg3, owns_unread c harg4, owns_unread c harg5,
    owns_unread c harg10 s0, owns_unread c harg11 s1, owns_unread c harg12 s2, owns_unread c harg13 s3]
  unfold owns
  iintro ⟨H0, H1, H2, H3, S0, S1, S2, S3, Hk⟩
  sl_exec (disch := first | exact hc0 | exact hc1)
  sl_step
  iapply Hk
  iframe H0 H1 H2 H3
  isplitl [S0]
  · iexists _; isplitr; swap; iexact S0; ipureintro
    refine (wr_whole S64x1024 hz2 _ _ _ _ _).trans ?_
    rw [rd_whole S1024x1 hz2, rd_whole S1024x1024 hz2, rd_whole S64x1024 hz2]
  isplitl [S1]
  · iexists _; isplitr; swap; iexact S1; ipureintro
    refine (wr_whole S64x1024 hz2 _ _ _ _ _).trans ?_
    rw [rd_whole S1024x1 hz2, rd_whole S1024x1024 hz2, rd_whole S64x1024 hz2]
  isplitl [S2]
  · iexists _; isplitr; swap; iexact S2; ipureintro
    refine (wr_whole S1x64 hz2 _ _ _ _ _).trans ?_
    dsimp only
    rw [rd_whole S1024x1 hz2, rd_whole S1x64 hz2]
  · iexists _; isplitr; swap; iexact S3; ipureintro
    refine (wr_whole S1x64 hz2 _ _ _ _ _).trans ?_
    dsimp only
    rw [rd_whole S1024x1 hz2, rd_whole S1x64 hz2]

theorem sound_A (hc0 : cond0 i) (hc1 : ¬cond1 i)
    (x0 x1 : Vec F S1024x1024 .f32) (x2 x3 : Vec F S1024x1 .i32) (K : PUnit → sProp 𝕄) :
    iprop(owns c arg2 fullShare x0
        ∗ owns c arg3 fullShare x1
        ∗ owns c arg4 fullShare x2
        ∗ owns c arg5 fullShare x3
        ∗ (∃ d, owns c arg10 fullShare d)
        ∗ (∃ d, owns c arg11 fullShare d)
        ∗ (∃ d, owns c arg12 fullShare d)
        ∗ (∃ d, owns c arg13 fullShare d)
        ∗ (iprop(owns c arg2 fullShare x0
            ∗ owns c arg3 fullShare x1
            ∗ owns c arg4 fullShare x2
            ∗ owns c arg5 fullShare x3
            ∗ owns c arg10 fullShare (k0_pay13 x2 x0 k0_pay7)
            ∗ owns c arg11 fullShare (k0_pay14 x3 x1 k0_pay8)
            ∗ owns c arg12 fullShare (k0_pay1 k0_pay9 (k0_pay15 x2))
            ∗ owns c arg13 fullShare (k0_pay2 (k0_pay12 x3) k0_pay10)) -∗ K ⟨⟩))
      ⊢ wp frame (wpE (defs₀ (F := F)) Variants.none c none) E (cc0__segstat_kernel i arg2 harg2 arg3 harg3 arg4 harg4 arg5 harg5 arg6 harg6 arg7 harg7 arg8 harg8 arg9 harg9 arg10 harg10 arg11 harg11 arg12 harg12 arg13 harg13) K := by
  simp only [cc0__segstat_kernel_eq_skeleton]; unfold cc0__segstat_kernel_skel
  simp only [k0_part1_eq_skeleton]; unfold k0_part1_skel
  rw [owns_unread c harg2, owns_unread c harg3, owns_unread c harg4, owns_unread c harg5]
  unfold owns
  iintro ⟨H0, H1, H2, H3, ⟨%d0, %g0, -, S0⟩, ⟨%d1, %g1, -, S1⟩, ⟨%d2, %g2, -, S2⟩, ⟨%d3, %g3, -, S3⟩, Hk⟩
  sl_exec (disch := first | exact hc0 | exact hc1)
  sl_step
  iapply Hk
  iframe H0 H1 H2 H3
  isplitl [S0]
  · iexists _; isplitr; swap; iexact S0; ipureintro
    refine (wr_whole S64x1024 hz2 _ _ _ _ _).trans ?_
    sl_unfold_run_names
    rw [rd_whole S1024x1 hz2, rd_whole S1024x1024 hz2, rc_whole S64x1024 hz2]
  isplitl [S1]
  · iexists _; isplitr; swap; iexact S1; ipureintro
    refine (wr_whole S64x1024 hz2 _ _ _ _ _).trans ?_
    sl_unfold_run_names
    rw [rd_whole S1024x1 hz2, rd_whole S1024x1024 hz2, rc_whole S64x1024 hz2]
  isplitl [S2]
  · iexists _; isplitr; swap; iexact S2; ipureintro
    refine (wr_whole S1x64 hz2 _ _ _ _ _).trans ?_
    dsimp only
    sl_unfold_run_names
    rw [rd_whole S1024x1 hz2, rc_whole S1x64 hz2]
  · iexists _; isplitr; swap; iexact S3; ipureintro
    refine (wr_whole S1x64 hz2 _ _ _ _ _).trans ?_
    dsimp only
    sl_unfold_run_names
    rw [rd_whole S1024x1 hz2, rc_whole S1x64 hz2]

theorem sound_C (hc0 : ¬cond0 i) (hc1 : cond1 i)
    (x0 x1 : Vec F S1024x1024 .f32) (x2 x3 : Vec F S1024x1 .i32)
    (s0 s1 : Vec F S64x1024 .f32) (s2 s3 : Vec F S1x64 .f32) (K : PUnit → sProp 𝕄) :
    iprop(owns c arg2 fullShare x0
        ∗ owns c arg3 fullShare x1
        ∗ owns c arg4 fullShare x2
        ∗ owns c arg5 fullShare x3
        ∗ (∃ d, owns c arg6 fullShare d)
        ∗ (∃ d, owns c arg7 fullShare d)
        ∗ (∃ d, owns c arg8 fullShare d)
        ∗ (∃ d, owns c arg9 fullShare d)
        ∗ owns c arg10 fullShare s0
        ∗ owns c arg11 fullShare s1
        ∗ owns c arg12 fullShare s2
        ∗ owns c arg13 fullShare s3
        ∗ (iprop(owns c arg2 fullShare x0
            ∗ owns c arg3 fullShare x1
            ∗ owns c arg4 fullShare x2
            ∗ owns c arg5 fullShare x3
            ∗ owns c arg6 fullShare (k0_pay3 (k0_pay13 x2 x0 s0))
            ∗ owns c arg7 fullShare (k0_pay4 (k0_pay14 x3 x1 s1))
            ∗ owns c arg8 fullShare (k0_pay5 (k0_pay1 s2 (k0_pay15 x2)))
            ∗ owns c arg9 fullShare (k0_pay6 (k0_pay2 (k0_pay12 x3) s3))
            ∗ owns c arg10 fullShare (k0_pay13 x2 x0 s0)
            ∗ owns c arg11 fullShare (k0_pay14 x3 x1 s1)
            ∗ owns c arg12 fullShare (k0_pay1 s2 (k0_pay15 x2))
            ∗ owns c arg13 fullShare (k0_pay2 (k0_pay12 x3) s3)) -∗ K ⟨⟩))
      ⊢ wp frame (wpE (defs₀ (F := F)) Variants.none c none) E (cc0__segstat_kernel i arg2 harg2 arg3 harg3 arg4 harg4 arg5 harg5 arg6 harg6 arg7 harg7 arg8 harg8 arg9 harg9 arg10 harg10 arg11 harg11 arg12 harg12 arg13 harg13) K := by
  simp only [cc0__segstat_kernel_eq_skeleton]; unfold cc0__segstat_kernel_skel
  simp only [k0_part1_eq_skeleton]; unfold k0_part1_skel
  rw [owns_unread c harg2, owns_unread c harg3, owns_unread c harg4, owns_unread c harg5,
    owns_unread c harg10 s0, owns_unread c harg11 s1, owns_unread c harg12 s2, owns_unread c harg13 s3]
  unfold owns
  iintro ⟨H0, H1, H2, H3, ⟨%e0, %o0, -, O0⟩, ⟨%e1, %o1, -, O1⟩, ⟨%e2, %o2, -, O2⟩, ⟨%e3, %o3, -, O3⟩, S0, S1, S2, S3, Hk⟩
  sl_exec (disch := first | exact hc0 | exact hc1)
  sl_step
  iapply Hk
  iframe H0 H1 H2 H3
  isplitl [O0]
  · iexists _; isplitr; swap; iexact O0; ipureintro
    refine (wr_whole S1x64x1024 hz3 _ _ _ _ _).trans ?_
    sl_unfold_run_names
    rw [rc_whole S64x1024 hz2, rd_whole S1024x1 hz2, rd_whole S1024x1024 hz2, rd_whole S64x1024 hz2]
  isplitl [O1]
  · iexists _; isplitr; swap; iexact O1; ipureintro
    refine (wr_whole S1x64x1024 hz3 _ _ _ _ _).trans ?_
    sl_unfold_run_names
    rw [rc_whole S64x1024 hz2, rd_whole S1024x1 hz2, rd_whole S1024x1024 hz2, rd_whole S64x1024 hz2]
  isplitl [O2]
  · iexists _; isplitr; swap; iexact O2; ipureintro
    refine (wr_whole S1x1x64 hz3 _ _ _ _ _).trans ?_
    sl_unfold_run_names
    rw [rc_whole S1x64 hz2]
    dsimp only
    rw [rd_whole S1024x1 hz2, rd_whole S1x64 hz2]
  isplitl [O3]
  · iexists _; isplitr; swap; iexact O3; ipureintro
    refine (wr_whole S1x1x64 hz3 _ _ _ _ _).trans ?_
    sl_unfold_run_names
    rw [rc_whole S1x64 hz2]
    dsimp only
    rw [rd_whole S1024x1 hz2, rd_whole S1x64 hz2]
  isplitl [S0]
  · iexists _; isplitr; swap; iexact S0; ipureintro
    sl_unfold_run_names
    refine (wr_whole S64x1024 hz2 _ _ _ _ _).trans ?_
    rw [rd_whole S1024x1 hz2, rd_whole S1024x1024 hz2, rd_whole S64x1024 hz2]
  isplitl [S1]
  · iexists _; isplitr; swap; iexact S1; ipureintro
    sl_unfold_run_names
    refine (wr_whole S64x1024 hz2 _ _ _ _ _).trans ?_
    rw [rd_whole S1024x1 hz2, rd_whole S1024x1024 hz2, rd_whole S64x1024 hz2]
  isplitl [S2]
  · iexists _; isplitr; swap; iexact S2; ipureintro
    sl_unfold_run_names
    refine (wr_whole S1x64 hz2 _ _ _ _ _).trans ?_
    dsimp only
    rw [rd_whole S1024x1 hz2, rd_whole S1x64 hz2]
  · iexists _; isplitr; swap; iexact S3; ipureintro
    sl_unfold_run_names
    refine (wr_whole S1x64 hz2 _ _ _ _ _).trans ?_
    dsimp only
    rw [rd_whole S1024x1 hz2, rd_whole S1x64 hz2]

end Cert.Kernel.Reg0

end
-- ==== Proof.K.Reg0.lean ====
import proofs.«422586_j33337536151702_2_alg».proof.Proof.Gen.Kernel.Launch
import proofs.«422586_j33337536151702_2_alg».proof.Proof.Gen.Kernel.Skeleton
import proofs.«422586_j33337536151702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import proofs.«422586_j33337536151702_2_alg».proof.Proof.K.Reg0Body

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featS (c : Dev nD) (t : Fin cfg0.N) : Vec F S1024x1024 .f32 := iblk V c 0 t

abbrev featT (c : Dev nD) (t : Fin cfg0.N) : Vec F S1024x1024 .f32 := iblk V c 1 t

abbrev lblS (c : Dev nD) (t : Fin cfg0.N) : Vec F S1024x1 .i32 := iblk V c 2 t

abbrev lblT (c : Dev nD) (t : Fin cfg0.N) : Vec F S1024x1 .i32 := iblk V c 3 t

def accum {α : Type} (z : α) (g : Fin cfg0.N → α → α) : (n : ℕ) → n < cfg0.N → α
  | 0, h => g ⟨0, h⟩ z
  | n + 1, h => g ⟨n + 1, h⟩ (if (n + 1) % 4 = 0 then z else accum z g n (Nat.lt_of_succ_lt h))

theorem accum_first {α : Type} (z : α) (g : Fin cfg0.N → α → α) (t : Fin cfg0.N) (h : t.val % 4 = 0) :
    accum z g t.val t.isLt = g t z := by
  obtain ⟨n, hn⟩ := t
  cases n with
  | zero => rfl
  | succ n => show g _ (if (n + 1) % 4 = 0 then z else _) = _; rw [if_pos h]

theorem accum_next {α : Type} (z : α) (g : Fin cfg0.N → α → α) (t : Fin cfg0.N) (h : ¬t.val % 4 = 0) :
    accum z g t.val t.isLt = g t (accum z g (t.val - 1) (Nat.lt_of_le_of_lt (Nat.sub_le _ _) t.isLt)) := by
  obtain ⟨n, hn⟩ := t
  cases n with
  | zero => exact absurd (Nat.zero_mod _) h
  | succ n => show g _ (if (n + 1) % 4 = 0 then z else _) = _; rw [if_neg h]; rfl

abbrev prev (t : Fin cfg0.N) : Fin cfg0.N := ⟨t.val - 1, Nat.lt_of_le_of_lt (Nat.sub_le _ _) t.isLt⟩

def sumS (c : Dev nD) (t : Fin cfg0.N) : Vec F S64x1024 .f32 :=
  accum (k0_pay7 (F := F)) (fun t s => k0_pay13 (lblS V c t) (featS V c t) s) t.val t.isLt

def sumT (c : Dev nD) (t : Fin cfg0.N) : Vec F S64x1024 .f32 :=
  accum (k0_pay8 (F := F)) (fun t s => k0_pay14 (lblT V c t) (featT V c t) s) t.val t.isLt

def cntS (c : Dev nD) (t : Fin cfg0.N) : Vec F S1x64 .f32 :=
  accum (k0_pay9 (F := F)) (fun t s => k0_pay1 s (k0_pay15 (lblS V c t))) t.val t.isLt

def cntT (c : Dev nD) (t : Fin cfg0.N) : Vec F S1x64 .f32 :=
  accum (k0_pay10 (F := F)) (fun t s => k0_pay2 (k0_pay12 (lblT V c t)) s) t.val t.isLt

theorem sumS_first (c : Dev nD) (t : Fin cfg0.N) (h : t.val % 4 = 0) :
    sumS V c t = k0_pay13 (lblS V c t) (featS V c t) k0_pay7 := accum_first _ _ t h
theorem sumS_next (c : Dev nD) (t : Fin cfg0.N) (h : ¬t.val % 4 = 0) :
    sumS V c t = k0_pay13 (lblS V c t) (featS V c t) (sumS V c (prev t)) := accum_next _ _ t h
theorem sumT_first (c : Dev nD) (t : Fin cfg0.N) (h : t.val % 4 = 0) :
    sumT V c t = k0_pay14 (lblT V c t) (featT V c t) k0_pay8 := accum_first _ _ t h
theorem sumT_next (c : Dev nD) (t : Fin cfg0.N) (h : ¬t.val % 4 = 0) :
    sumT V c t = k0_pay14 (lblT V c t) (featT V c t) (sumT V c (prev t)) := accum_next _ _ t h
theorem cntS_first (c : Dev nD) (t : Fin cfg0.N) (h : t.val % 4 = 0) :
    cntS V c t = k0_pay1 k0_pay9 (k0_pay15 (lblS V c t)) := accum_first _ _ t h
theorem cntS_next (c : Dev nD) (t : Fin cfg0.N) (h : ¬t.val % 4 = 0) :
    cntS V c t = k0_pay1 (cntS V c (prev t)) (k0_pay15 (lblS V c t)) := accum_next _ _ t h
theorem cntT_first (c : Dev nD) (t : Fin cfg0.N) (h : t.val % 4 = 0) :
    cntT V c t = k0_pay2 (k0_pay12 (lblT V c t)) k0_pay10 := accum_first _ _ t h
theorem cntT_next (c : Dev nD) (t : Fin cfg0.N) (h : ¬t.val % 4 = 0) :
    cntT V c t = k0_pay2 (k0_pay12 (lblT V c t)) (cntT V c (prev t)) := accum_next _ _ t h

abbrev scM0 : Memref sig .tc .vmem S64x1024 .f32 := Memref.whole cc0_scratch0
abbrev scM1 : Memref sig .tc .vmem S64x1024 .f32 := Memref.whole cc0_scratch1
abbrev scM2 : Memref sig .tc .vmem S1x64 .f32 := Memref.whole cc0_scratch2
abbrev scM3 : Memref sig .tc .vmem S1x64 .f32 := Memref.whole cc0_scratch3

abbrev restBut (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

theorem PhiA0_eq (c : Dev nD) :
    (Pipeline.ΦA spec0 c : sProp 𝕄)
      = iprop((((∃ d, owns c scM0 fullShare d) ∗ (∃ d, owns c scM1 fullShare d)
            ∗ (∃ d, owns c scM2 fullShare d) ∗ (∃ d, owns c scM3 fullShare d))
          ∗ restBut (F := F) c) ∗ (∃ r, prngReg c r)) := by
  unfold Pipeline.ΦA; rw [scopedRest0_split]; simp only [scM0, scM1, scM2, scM3, owns_whole]; try rfl

def accOwned (c : Dev nD) (t : Fin cfg0.N) : sProp 𝕄 :=
  iprop(((owns c scM0 fullShare (sumS V c t) ∗ owns c scM1 fullShare (sumT V c t)
        ∗ owns c scM2 fullShare (cntS V c t) ∗ owns c scM3 fullShare (cntT V c t))
      ∗ restBut (F := F) c) ∗ (∃ r, prngReg c r))

def PhiS (c : Dev nD) : (n : ℕ) → n ≤ cfg0.N → sProp 𝕄
  | 0, _ => Pipeline.ΦA spec0 c
  | n + 1, hn => accOwned V c ⟨n, hn⟩

theorem PhiS_pos (c : Dev nD) (t : Fin cfg0.N) (hz : t.val ≠ 0) :
    PhiS V c t.val (Nat.le_of_lt t.isLt) = accOwned V c (prev t) := by
  obtain ⟨n, hn⟩ := t
  cases n with
  | zero => exact absurd rfl hz
  | succ n => rfl

theorem PhiS_forget (c : Dev nD) : ∀ (n : ℕ) (h : n ≤ cfg0.N), PhiS V c n h ⊢ (Pipeline.ΦA spec0 c : sProp 𝕄)
  | 0, _ => Idealize.SL.BI.Entails.refl _
  | n + 1, hn => by
    rw [PhiA0_eq]; show accOwned V c ⟨n, hn⟩ ⊢ _; unfold accOwned
    iintro ⟨⟨⟨S0, S1, S2, S3⟩, HR⟩, Hg⟩
    iframe HR Hg
    isplitl [S0]; · iexists _; iexact S0
    isplitl [S1]; · iexists _; iexact S1
    isplitl [S2]; · iexists _; iexact S2
    iexists _; iexact S3

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (sumS V c t)
    | ⟨5, _⟩ => k0_pay4 (sumT V c t)
    | ⟨6, _⟩ => k0_pay5 (cntS V c t)
    | ⟨7, _⟩ => k0_pay6 (cntT V c t)
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = k0_pay3 (sumS V c t) := by dsimp only [dat]
theorem after_5 (c : Dev nD) (t : Fin cfg0.N) : (dat V c).after 5 t = k0_pay4 (sumT V c t) := by dsimp only [dat]
theorem after_6 (c : Dev nD) (t : Fin cfg0.N) : (dat V c).after 6 t = k0_pay5 (cntS V c t) := by dsimp only [dat]
theorem after_7 (c : Dev nD) (t : Fin cfg0.N) : (dat V c).after 7 t = k0_pay6 (cntT V c t) := by dsimp only [dat]

theorem Phi_castSucc (c : Dev nD) (t : Fin cfg0.N) :
    (dat V c).Φ t.castSucc = PhiS V c t.val (Nat.le_of_lt t.isLt) := by
  dsimp only [dat]; simp only [Fin.coe_castSucc]

theorem Phi_succ (c : Dev nD) (t : Fin cfg0.N) : (dat V c).Φ t.succ = accOwned V c t := rfl

theorem out_idle : ∀ w : Fin cfg0.W, 4 ≤ w.val → ∀ t : Fin cfg0.N, ¬t.val % 4 = 3 →
    cfg0.idle w (grid0.coords t) = true ∧ (cfg0.win w).flush t = false := by decide +kernel

theorem out_live : ∀ w : Fin cfg0.W, 4 ≤ w.val → ∀ t : Fin cfg0.N, t.val % 4 = 3 →
    cfg0.idle w (grid0.coords t) = false := by decide +kernel

theorem before_0 (c : Dev nD) (t : Fin cfg0.N) (d) : (dat V c).before 0 t d = iblk V c 0 t :=
  (Dat.before_fetched _ 0 t (fetch0_0 t) d).trans rfl
theorem before_1 (c : Dev nD) (t : Fin cfg0.N) (d) : (dat V c).before 1 t d = iblk V c 1 t :=
  (Dat.before_fetched _ 1 t (fetch0_1 t) d).trans rfl
theorem before_2 (c : Dev nD) (t : Fin cfg0.N) (d) : (dat V c).before 2 t d = iblk V c 2 t :=
  (Dat.before_fetched _ 2 t (fetch0_2 t) d).trans rfl
theorem before_3 (c : Dev nD) (t : Fin cfg0.N) (d) : (dat V c).before 3 t d = iblk V c 3 t :=
  (Dat.before_fetched _ 3 t (fetch0_3 t) d).trans rfl

theorem leaves_live (c : Dev nD) (w : Fin cfg0.W) (t : Fin cfg0.N) (h : cfg0.idle w (grid0.coords t) = false) :
    (dat V c).leavesExact w t = owns c ((cfg0.win w).stage (cfg0.slots t w)) fullShare ((dat V c).after w t) := by
  unfold Dat.leavesExact; rw [h]

theorem leaves_idle (c : Dev nD) (w : Fin cfg0.W) (hw : 4 ≤ w.val) (t : Fin cfg0.N) (h : ¬t.val % 4 = 3) :
    (dat V c).leavesExact w t
      = iprop(∃ d, owns c ((cfg0.win w).stage (cfg0.slots t w)) fullShare ((dat V c).before w t d)) :=
  Dat.leavesExact_idle _ w t (out_idle w hw t h).1 (out_idle w hw t h).2

def bodyPre (c : Dev nD) (t : Fin cfg0.N) : sProp 𝕄 :=
  iprop((dat V c).Φ t.castSucc ∗ (dat V c).owesAt () t.castSucc
    ∗ (∃ d, owns c (st0_0 t) fullShare ((dat V c).before 0 t d))
    ∗ (∃ d, owns c (st0_1 t) fullShare ((dat V c).before 1 t d))
    ∗ (∃ d, owns c (st0_2 t) fullShare ((dat V c).before 2 t d))
    ∗ (∃ d, owns c (st0_3 t) fullShare ((dat V c).before 3 t d))
    ∗ (∃ d, owns c (st0_4 t) fullShare ((dat V c).before 4 t d))
    ∗ (∃ d, owns c (st0_5 t) fullShare ((dat V c).before 5 t d))
    ∗ (∃ d, owns c (st0_6 t) fullShare ((dat V c).before 6 t d))
    ∗ (∃ d, owns c (st0_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl, Phi_succ, Phi_castSucc,
    leaves_live V c 0 t rfl, after_0, leaves_live V c 1 t rfl, after_1, leaves_live V c 2 t rfl, after_2, leaves_live V c 3 t rfl, after_3]
  unfold accOwned
  by_cases h1 : t.val % 4 = 3
  · have h0 : ¬t.val % 4 = 0 := by omega
    rw [PhiS_pos V c t fun e => h0 (by rw [e]), leaves_live V c 4 t (out_live 4 (by decide) t h1), after_4,
      leaves_live V c 5 t (out_live 5 (by decide) t h1), after_5, leaves_live V c 6 t (out_live 6 (by decide) t h1), after_6,
      leaves_live V c 7 t (out_live 7 (by decide) t h1), after_7,
      sumS_next V c t h0, sumT_next V c t h0, cntS_next V c t h0, cntT_next V c t h0]
    unfold accOwned
    iintro ⟨⟨⟨⟨S0, S1, S2, S3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_C c Set.univ (grid0.coords t) _ _ _ _ _ _ _ _ _ _ _ _ _ _ _ _ _ _ _ _ _ _ _ _ (fun h => h0 ((hcond0 t).mp h)) ((hcond1 t).mpr h1)
      (featS V c t) (featT V c t) (lblS V c t) (lblT V c t)
      (sumS V c (prev t)) (sumT V c (prev t)) (cntS V c (prev t)) (cntT V c (prev t)) _)
    iframe H0 H1 H2 H3 S0 S1 S2 S3
    isplitl [H4]; · iexists _; iexact H4
    isplitl [H5]; · iexists _; iexact H5
    isplitl [H6]; · iexists _; iexact H6
    isplitl [H7]; · iexists _; iexact H7
    iintro ⟨H0, H1, H2, H3, H4, H5, H6, H7, S0, S1, S2, S3⟩
    iframe
  · rw [leaves_idle V c 4 (by decide) t h1, leaves_idle V c 5 (by decide) t h1, leaves_idle V c 6 (by decide) t h1,
      leaves_idle V c 7 (by decide) t h1]
    by_cases h0 : t.val % 4 = 0
    · refine (sep_mono_left (PhiS_forget V c _ _)).trans ?_
      rw [PhiA0_eq, sumS_first V c t h0, sumT_first V c t h0, cntS_first V c t h0, cntT_first V c t h0]
      iintro ⟨⟨⟨⟨S0, S1, S2, S3⟩, HR⟩, Hg⟩, Ho, ⟨%d0, H0⟩, ⟨%d1, H1⟩, ⟨%d2, H2⟩, ⟨%d3, H3⟩, H4, H5, H6, H7⟩
      iapply (sound_A c Set.univ (grid0.coords t) _ _ _ _ _ _ _ _ _ _ _ _ _ _ _ _ _ _ _ _ _ _ _ _ ((hcond0 t).mpr h0) (fun h => h1 ((hcond1 t).mp h))
        (featS V c t) (featT V c t) (lblS V c t) (lblT V c t) _)
      iframe H0 H1 H2 H3 S0 S1 S2 S3
      iintro ⟨H0, H1, H2, H3, S0, S1, S2, S3⟩
      iframe
    · rw [PhiS_pos V c t fun e => h0 (by rw [e])]
      unfold accOwned
      rw [sumS_next V c t h0, sumT_next V c t h0, cntS_next V c t h0, cntT_next V c t h0]
      iintro ⟨⟨⟨⟨S0, S1, S2, S3⟩, HR⟩, Hg⟩, Ho, ⟨%d0, H0⟩, ⟨%d1, H1⟩, ⟨%d2, H2⟩, ⟨%d3, H3⟩, H4, H5, H6, H7⟩
      iapply (sound_B c Set.univ (grid0.coords t) _ _ _ _ _ _ _ _ _ _ _ _ _ _ _ _ _ _ _ _ _ _ _ _ (fun h => h0 ((hcond0 t).mp h)) (fun h => h1 ((hcond1 t).mp h))
        (featS V c t) (featT V c t) (lblS V c t) (lblT V c t)
        (sumS V c (prev t)) (sumT V c (prev t)) (cntS V c (prev t)) (cntT V c (prev t)) _)
      iframe H0 H1 H2 H3 S0 S1 S2 S3
      iintro ⟨H0, H1, H2, H3, S0, S1, S2, S3⟩
      iframe

theorem body_obligation (c : Dev nD) : BodyObligation (dat (F := F) V c) (defs₀ (F := F)) Variants.none () Set.univ := fun t => by
  rw [bigSep_W0, bigSep_W0]
  exact sound_body V c t

theorem hin (c : Dev nD) : (Pipeline.ΦA spec0 c : sProp 𝕄) ⊢ (dat V c).Φ 0 :=
  Idealize.SL.BI.Entails.refl _

theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl]
  exact PhiS_forget V c _ _

end Cert.Kernel.Reg0

end
-- ==== Proof.LibRegion.lean ====
import Idealize.ShloMosaic.Lib.Pipeline.Value

noncomputable section

namespace Cert.LibRegion

open Idealize.ShloMosaic Idealize.SL Idealize.SL.RA Idealize.SL.BI
open scoped Idealize.SL.BI
open Idealize.SL.BI.BIBase Idealize.SL.BI.Laws Idealize.SL.ProofMode

-- A buffer whose newest write covers its whole shape reads back that write's payload.
theorem read_writes_whole_last {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

theorem hz2 : (![0, 0] : Fin 2 → Nat) = fun _ => 0 := funext fun a => by fin_cases a <;> rfl
theorem hz3 : (![0, 0, 0] : Fin 3 → Nat) = fun _ => 0 := funext fun a => by fin_cases a <;> rfl

theorem owns_unread {nD : Nat} {τ : Topo} {sig : RefSig} {Val : EltTy → Type} {Ix : Type} [DecidableEq Ix] {Name : Type} [DecidableEq Name]
    {U : Type} [URA U] {Lvl : Type} (c : Thread nD τ) {sp : Space} {sh : Shape} {e : EltTy} {m : Memref sig c.2.kind sp sh e}
    (h : m.IsWhole) (q : PosShare TreeShare) (X : sh.Idx → Val e) :
    (owns c m q X : sProp (MT nD τ sig Ix Val Name U Lvl)) = (m.view.loc c ↦[m.view.set]{q} h.unread X) := by
  have h₁ : (owns c m q X : sProp (MT nD τ sig Ix Val Name U Lvl)) ⊢ (m.view.loc c ↦[m.view.set]{q} h.unread X) := by
    unfold owns; iintro ⟨%g, %hg, H⟩; obtain rfl := h.eq_unread hg; iexact H
  exact BI.equiv_iff.mp ⟨h₁, (owns_intro c m q (h.unread X)).trans (Entails.of_eq (by rw [h.read_unread]))⟩

end Cert.LibRegion

end
-- ==== Proof.K.Reg1.lean ====
import proofs.«422586_j33337536151702_2_alg».proof.Proof.Gen.Kernel.Launch
import proofs.«422586_j33337536151702_2_alg».proof.Proof.Gen.Kernel.Skeleton
import proofs.«422586_j33337536151702_2_alg».proof.Proof.Gen.Kernel.Points
import proofs.«422586_j33337536151702_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.LibRegion
open Idealize.ShloMosaic.Pipeline (Dat Cfg Window BodyObligation cellOf)

variable {F : FTy → Type} [FloatOps F]

local notation "𝕄" => MT nD τ sig Unit (Elt F) ℕ (UR sig nD τ) ℕ

abbrev isFirst (i : grid1.Coords) : Prop := (Scalar.cmpi .ne (Scalar.extui (Scalar.cmpi .eq (BitVec.ofNat 32 (i 1).val) 0#32)) 0#32) = 1#1

abbrev isLast (i : grid1.Coords) : Prop := k1_cond2 i = 1#1

theorem hfirst : ∀ t : Fin cfg1.N, isFirst (grid1.coords t) ↔ t.val % 2 = 0 :=
  (by decide +kernel : ∀ t : Fin grid1.N, _)

theorem hlast : ∀ t : Fin cfg1.N, isLast (grid1.coords t) ↔ t.val % 2 = 1 :=
  (by decide +kernel : ∀ t : Fin grid1.N, _)

def acc0 : Vec F S1x128 .f32 := k1_pay3 (F := F)

def step (x : Vec F S2048x1024 .f32) (l : Vec F S2048x1 .i32) (m : Vec F S1024x192 .f32) (acc : Vec F S1x128 .f32) : Vec F S1x128 .f32 :=
  k1_pay1 (k1_pay9 (k1_pay5 x m) (k1_pay6 x m)) (k1_pay10 (k1_pay5 x m) (k1_pay7 x m)) (k1_pay11 (k1_pay6 x m) (k1_pay7 x m))
    (k1_pay12 (k1_pay5 x m) l) (Scalar.ofBits .f32 0x00000000#32) acc

def outOf (acc : Vec F S1x128 .f32) : Vec F S1x1x128 .f32 := k1_pay2 acc

section Run

variable (c : Dev nD) (i : grid1.Coords)
    (arg2 : Memref sig .tc .vmem S2048x1024 .f32) (harg2 : arg2.IsWhole) (arg3 : Memref sig .tc .vmem S2048x1 .i32) (harg3 : arg3.IsWhole)
    (arg4 : Memref sig .tc .vmem S1024x192 .f32) (harg4 : arg4.IsWhole) (arg5 : Memref sig .tc .vmem S1x1x128 .f32) (harg5 : arg5.IsWhole)
    (arg6 : Memref sig .tc .vmem S1x128 .f32) (harg6 : arg6.IsWhole)
    (x : Vec F S2048x1024 .f32) (l : Vec F S2048x1 .i32) (m : Vec F S1024x192 .f32)

set_option maxHeartbeats 1600000 in

-- a first point of a pair restarts the accumulator and leaves the output block alone
theorem run_first (hc0 : isFirst i) (hc1 : ¬isLast i) (o : Vec F S1x1x128 .f32) (E : Set ℕ) (K : PUnit → sProp 𝕄) :
    (iprop(owns (c : Thread nD τ) arg2 fullShare x ∗ owns (c : Thread nD τ) arg3 fullShare l ∗ owns (c : Thread nD τ) arg4 fullShare m
        ∗ owns (c : Thread nD τ) arg5 fullShare o ∗ (∃ a, owns (c : Thread nD τ) arg6 fullShare a)
        ∗ (iprop(owns (c : Thread nD τ) arg2 fullShare x ∗ owns (c : Thread nD τ) arg3 fullShare l ∗ owns (c : Thread nD τ) arg4 fullShare m
            ∗ owns (c : Thread nD τ) arg5 fullShare o ∗ owns (c : Thread nD τ) arg6 fullShare (step x l m acc0)) -∗ K ⟨⟩)) : sProp 𝕄)
      ⊢ wp frame (wpE (defs₀ (F := F)) Variants.none c none) E (cc1__tpn_labeled_kernel i arg2 harg2 arg3 harg3 arg4 harg4 arg5 harg5 arg6 harg6) K := by
  simp only [cc1__tpn_labeled_kernel_eq_skeleton]; unfold cc1__tpn_labeled_kernel_skel
  rw [owns_unread _ harg2, owns_unread _ harg3, owns_unread _ harg4, owns_unread _ harg5]
  unfold owns
  iintro ⟨H2, H3, H4, H5, ⟨%a, %f6, -, H6⟩, Hk⟩
  sl_exec (disch := first | exact hc0 | exact hc1)
  sl_step
  iapply Hk
  iframe H2 H3 H4 H5
  iexists _; isplitr
  swap; · iexact H6
  ipureintro
  refine (read_writes_whole_last (S := S1x128) _ _ hz2 _ _ _).trans ?_
  sl_unfold_words
  unfold step acc0
  simp only [View.readAt_eq_ld, harg2.read_unread, harg3.read_unread, harg4.read_unread, View.ld_unit_zero (S := S2048x1024) hz2,
    View.ld_unit_zero (S := S2048x1) hz2, View.ld_unit_zero (S := S1024x192) hz2, View.readCov_unit_zero (S := S1x128) _ hz2]
  try rfl

set_option maxHeartbeats 1600000 in

-- a last point of a pair adds its tile to the accumulator and writes the output block from it
theorem run_last (hc0 : ¬isFirst i) (hc1 : isLast i) (acc : Vec F S1x128 .f32) (E : Set ℕ) (K : PUnit → sProp 𝕄) :
    (iprop(owns (c : Thread nD τ) arg2 fullShare x ∗ owns (c : Thread nD τ) arg3 fullShare l ∗ owns (c : Thread nD τ) arg4 fullShare m
        ∗ (∃ o, owns (c : Thread nD τ) arg5 fullShare o) ∗ owns (c : Thread nD τ) arg6 fullShare acc
        ∗ (iprop(owns (c : Thread nD τ) arg2 fullShare x ∗ owns (c : Thread nD τ) arg3 fullShare l ∗ owns (c : Thread nD τ) arg4 fullShare m
            ∗ owns (c : Thread nD τ) arg5 fullShare (outOf (step x l m acc)) ∗ owns (c : Thread nD τ) arg6 fullShare (step x l m acc)) -∗ K ⟨⟩)) : sProp 𝕄)
      ⊢ wp frame (wpE (defs₀ (F := F)) Variants.none c none) E (cc1__tpn_labeled_kernel i arg2 harg2 arg3 harg3 arg4 harg4 arg5 harg5 arg6 harg6) K := by
  simp only [cc1__tpn_labeled_kernel_eq_skeleton]; unfold cc1__tpn_labeled_kernel_skel
  rw [owns_unread _ harg2, owns_unread _ harg3, owns_unread _ harg4, owns_unread _ harg6 _ acc]
  unfold owns
  iintro ⟨H2, H3, H4, ⟨%o, %f5, -, H5⟩, H6, Hk⟩
  sl_exec (disch := first | exact hc0 | exact hc1)
  sl_step
  iapply Hk
  iframe H2 H3 H4
  isplitl [H5] <;> (iexists _; isplitr; swap)
  · iexact H5
  · ipureintro
    refine (read_writes_whole_last (S := S1x1x128) _ _ hz3 _ _ _).trans ?_
    sl_unfold_words
    unfold outOf step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2, View.readCov_unit_zero (S := S1x128) _ hz2]
    try rfl
  · iexact H6
  · ipureintro
    refine (read_writes_whole_last (S := S1x128) _ _ hz2 _ _ _).trans ?_
    sl_unfold_words
    unfold step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2]
    try rfl

end Run

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk (c : Dev nD) (t : Fin cfg1.N) : Vec F S2048x1024 .f32 := iblk V c 0 t
abbrev lblk (c : Dev nD) (t : Fin cfg1.N) : Vec F S2048x1 .i32 := iblk V c 1 t
abbrev mblk (c : Dev nD) (t : Fin cfg1.N) : Vec F S1024x192 .f32 := iblk V c 2 t

-- the accumulator after point n: one step from acc0 at the first point of a pair, two at its last
def accAt (c : Dev nD) (n : ℕ) (h : n < cfg1.N) : Vec F S1x128 .f32 :=
  step (xblk V c ⟨n, h⟩) (lblk V c ⟨n, h⟩) (mblk V c ⟨n, h⟩) (if n % 2 = 0 then acc0 else
    step (xblk V c ⟨n - 1, by omega⟩) (lblk V c ⟨n - 1, by omega⟩) (mblk V c ⟨n - 1, by omega⟩) acc0)

theorem accAt_first (c : Dev nD) (t : Fin cfg1.N) (h0 : t.val % 2 = 0) :
    accAt V c t.val t.isLt = step (xblk V c t) (lblk V c t) (mblk V c t) acc0 := by
  unfold accAt; rw [if_pos h0]

theorem accAt_later (c : Dev nD) (t : Fin cfg1.N) (h0 : ¬t.val % 2 = 0) :
    accAt V c t.val t.isLt = step (xblk V c t) (lblk V c t) (mblk V c t)
      (accAt V c (t.val - 1) (Nat.lt_of_le_of_lt (Nat.sub_le _ _) t.isLt)) := by
  unfold accAt; rw [if_neg h0, if_pos (by omega)]

abbrev scM : Memref sig .tc .vmem S1x128 .f32 := Memref.whole cc1_scratch0

abbrev restOf (c : Dev nD) : sProp 𝕄 :=
  iprop(Pipeline.scopedRestBut (Ix := Unit) (Name := ℕ) (U := UR sig nD τ) (Lvl := ℕ) (Val := Elt F) spec1 c [cc1_scratch0] ∗ (∃ r, prngReg c r))

def PhiS (c : Dev nD) : (n : ℕ) → n ≤ cfg1.N → sProp 𝕄
  | 0, _ => Pipeline.ΦA spec1 c
  | n + 1, hn => iprop(owns (c : Thread nD τ) scM fullShare (accAt V c n hn) ∗ restOf c)

theorem PhiS_pos (c : Dev nD) (n : ℕ) (h : n ≤ cfg1.N) (hz : n ≠ 0) :
    PhiS V c n h = iprop(owns (c : Thread nD τ) scM fullShare (accAt V c (n - 1) (by omega)) ∗ restOf c) := by
  cases n with
  | zero => exact absurd rfl hz
  | succ n => rfl

theorem PhiA_eq (c : Dev nD) :
    (Pipeline.ΦA spec1 c : sProp 𝕄) = iprop((∃ a, owns (c : Thread nD τ) scM fullShare a) ∗ restOf c) := by
  unfold Pipeline.ΦA; rw [scopedRest1_split]; simp only [scM, owns_whole]
  exact Idealize.SL.BI.sep_assoc.antisymm Idealize.SL.BI.sep_assoc'

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outOf (accAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]

theorem Phi_castSucc (c : Dev nD) (t : Fin cfg1.N) : (dat V c).Φ t.castSucc = PhiS V c t.val (Nat.le_of_lt t.isLt) := by
  dsimp only [dat]; simp only [Fin.coe_castSucc]

theorem Phi_some (c : Dev nD) (t : Fin cfg1.N) :
    (dat V c).Φ t.castSucc ⊢ iprop((∃ a, owns (c : Thread nD τ) scM fullShare a) ∗ restOf c) := by
  rw [Phi_castSucc]
  by_cases hz : t.val = 0
  · rw [show PhiS V c t.val (Nat.le_of_lt t.isLt) = Pipeline.ΦA spec1 c by obtain ⟨n, hn⟩ := t; subst hz; rfl, PhiA_eq]
  · rw [PhiS_pos V c _ _ hz]
    iintro ⟨HS, HR⟩; iframe HR; iexists _; iexact HS

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl

theorem idle3_first : ∀ t : Fin cfg1.N, t.val % 2 = 0 → cfg1.idle 3 (grid1.coords t) = true :=
  (by decide +kernel : ∀ t : Fin grid1.N, _)
theorem live3_last : ∀ t : Fin cfg1.N, ¬t.val % 2 = 0 → cfg1.idle 3 (grid1.coords t) = false :=
  (by decide +kernel : ∀ t : Fin grid1.N, _)
theorem noflush3_first (t : Fin cfg1.N) (h0 : t.val % 2 = 0) : (cfg1.win 3).flush t = false := by
  cases hf : (cfg1.win 3).flush t
  · rfl
  · have := (flush1_3 t).mp hf; omega

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((owns (c : Thread nD τ) scM fullShare (accAt V c t.val t.isLt) ∗ restOf c) ∗ (dat V c).owesAt () t.castSucc
    ∗ owns (c : Thread nD τ) (st1_0 t) fullShare (iblk V c 0 t) ∗ owns (c : Thread nD τ) (st1_1 t) fullShare (iblk V c 1 t)
    ∗ owns (c : Thread nD τ) (st1_2 t) fullShare (iblk V c 2 t) ∗ (dat V c).leavesExact 3 t)

set_option maxHeartbeats 1600000 in

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  by_cases h0 : t.val % 2 = 0
  · rw [Dat.leavesExact_idle (dat V c) 3 t (idle3_first t h0) (noflush3_first t h0), accAt_first V c t h0]
    iintro ⟨HΦ, Ho, ⟨%d0, H0⟩, ⟨%d1, H1⟩, ⟨%d2, H2⟩, ⟨%d3, H3⟩⟩
    icases (Phi_some V c t) $$ HΦ with ⟨HS, HR⟩
    iapply (run_first c (grid1.coords t) _ _ _ _ _ _ _ _ scM (Memref.isWhole_whole _) (xblk V c t) (lblk V c t) (mblk V c t)
        ((hfirst t).mpr h0) (fun h => by have := (hlast t).mp h; omega) ((dat V c).before 3 t d3) Set.univ _)
    iframe H0 H1 H2 H3 HS
    iintro ⟨H0, H1, H2, H3, HS⟩
    iframe HS HR Ho H0 H1 H2
    iexists _; iexact H3
  · have hz : t.val ≠ 0 := fun e => h0 (by rw [e])
    rw [show (dat V c).leavesExact 3 t = owns (c : Thread nD τ) (st1_3 t) fullShare (outOf (accAt V c t.val t.isLt)) from by
      unfold Dat.leavesExact; rw [live3_last t h0]; rfl, accAt_later V c t h0, Phi_castSucc, PhiS_pos V c _ _ hz]
    iintro ⟨⟨HS, HR⟩, Ho, ⟨%d0, H0⟩, ⟨%d1, H1⟩, ⟨%d2, H2⟩, ⟨%d3, H3⟩⟩
    iapply (run_last c (grid1.coords t) _ _ _ _ _ _ _ _ scM (Memref.isWhole_whole _) (xblk V c t) (lblk V c t) (mblk V c t)
        (fun h => h0 ((hfirst t).mp h)) ((hlast t).mpr (by omega)) (accAt V c (t.val - 1) (Nat.lt_of_le_of_lt (Nat.sub_le _ _) t.isLt)) Set.univ _)
    iframe H0 H1 H2 HS
    isplitl [H3]; · iexists _; iexact H3
    iintro ⟨H0, H1, H2, H3, HS⟩
    iframe HS HR Ho H0 H1 H2
    iexact H3

theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 :=
  Entails.of_eq (show Pipeline.ΦA spec1 c = PhiS V c 0 (Nat.zero_le _) from rfl)

theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 4 := N_1; omega), PhiA_eq]
  iintro ⟨HS, HR⟩; iframe HR; iexists _; iexact HS

end Cert.Kernel.Reg1

end
-- ==== Proof.K.Reg2.lean ====
import proofs.«422586_j33337536151702_2_alg».proof.Proof.Gen.Kernel.Launch
import proofs.«422586_j33337536151702_2_alg».proof.Proof.Gen.Kernel.Skeleton
import proofs.«422586_j33337536151702_2_alg».proof.Proof.Gen.Kernel.Points
import proofs.«422586_j33337536151702_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.LibRegion
open Idealize.ShloMosaic.Pipeline (Dat Cfg Window BodyObligation cellOf)

variable {F : FTy → Type} [FloatOps F]

local notation "𝕄" => MT nD τ sig Unit (Elt F) ℕ (UR sig nD τ) ℕ

abbrev isFirst (i : grid2.Coords) : Prop := (Scalar.cmpi .ne (Scalar.extui (Scalar.cmpi .eq (BitVec.ofNat 32 (i 1).val) 0#32)) 0#32) = 1#1

abbrev isLast (i : grid2.Coords) : Prop := k2_cond2 i = 1#1

theorem hfirst : ∀ t : Fin cfg2.N, isFirst (grid2.coords t) ↔ t.val % 2 = 0 :=
  (by decide +kernel : ∀ t : Fin grid2.N, _)

theorem hlast : ∀ t : Fin cfg2.N, isLast (grid2.coords t) ↔ t.val % 2 = 1 :=
  (by decide +kernel : ∀ t : Fin grid2.N, _)

def acc0 : Vec F S1x128 .f32 := k2_pay3 (F := F)

def step (x : Vec F S2048x1024 .f32) (l : Vec F S2048x1 .i32) (m : Vec F S1024x192 .f32) (acc : Vec F S1x128 .f32) : Vec F S1x128 .f32 :=
  k2_pay1 (k2_pay9 (k2_pay5 x m) (k2_pay6 x m)) (k2_pay10 (k2_pay5 x m) (k2_pay7 x m)) (k2_pay11 (k2_pay6 x m) (k2_pay7 x m))
    (k2_pay12 (k2_pay6 x m) l) (Scalar.ofBits .f32 0x00000000#32) acc

def outOf (acc : Vec F S1x128 .f32) : Vec F S1x1x128 .f32 := k2_pay2 acc

section Run

variable (c : Dev nD) (i : grid2.Coords)
    (arg2 : Memref sig .tc .vmem S2048x1024 .f32) (harg2 : arg2.IsWhole) (arg3 : Memref sig .tc .vmem S2048x1 .i32) (harg3 : arg3.IsWhole)
    (arg4 : Memref sig .tc .vmem S1024x192 .f32) (harg4 : arg4.IsWhole) (arg5 : Memref sig .tc .vmem S1x1x128 .f32) (harg5 : arg5.IsWhole)
    (arg6 : Memref sig .tc .vmem S1x128 .f32) (harg6 : arg6.IsWhole)
    (x : Vec F S2048x1024 .f32) (l : Vec F S2048x1 .i32) (m : Vec F S1024x192 .f32)

set_option maxHeartbeats 1600000 in

-- a first point of a pair restarts the accumulator and leaves the output block alone
theorem run_first (hc0 : isFirst i) (hc1 : ¬isLast i) (o : Vec F S1x1x128 .f32) (E : Set ℕ) (K : PUnit → sProp 𝕄) :
    (iprop(owns (c : Thread nD τ) arg2 fullShare x ∗ owns (c : Thread nD τ) arg3 fullShare l ∗ owns (c : Thread nD τ) arg4 fullShare m
        ∗ owns (c : Thread nD τ) arg5 fullShare o ∗ (∃ a, owns (c : Thread nD τ) arg6 fullShare a)
        ∗ (iprop(owns (c : Thread nD τ) arg2 fullShare x ∗ owns (c : Thread nD τ) arg3 fullShare l ∗ owns (c : Thread nD τ) arg4 fullShare m
            ∗ owns (c : Thread nD τ) arg5 fullShare o ∗ owns (c : Thread nD τ) arg6 fullShare (step x l m acc0)) -∗ K ⟨⟩)) : sProp 𝕄)
      ⊢ wp frame (wpE (defs₀ (F := F)) Variants.none c none) E (cc2__tpn_labeled_kernel i arg2 harg2 arg3 harg3 arg4 harg4 arg5 harg5 arg6 harg6) K := by
  simp only [cc2__tpn_labeled_kernel_eq_skeleton]; unfold cc2__tpn_labeled_kernel_skel
  rw [owns_unread _ harg2, owns_unread _ harg3, owns_unread _ harg4, owns_unread _ harg5]
  unfold owns
  iintro ⟨H2, H3, H4, H5, ⟨%a, %f6, -, H6⟩, Hk⟩
  sl_exec (disch := first | exact hc0 | exact hc1)
  sl_step
  iapply Hk
  iframe H2 H3 H4 H5
  iexists _; isplitr
  swap; · iexact H6
  ipureintro
  refine (read_writes_whole_last (S := S1x128) _ _ hz2 _ _ _).trans ?_
  sl_unfold_words
  unfold step acc0
  simp only [View.readAt_eq_ld, harg2.read_unread, harg3.read_unread, harg4.read_unread, View.ld_unit_zero (S := S2048x1024) hz2,
    View.ld_unit_zero (S := S2048x1) hz2, View.ld_unit_zero (S := S1024x192) hz2, View.readCov_unit_zero (S := S1x128) _ hz2]
  try rfl

set_option maxHeartbeats 1600000 in

-- a last point of a pair adds its tile to the accumulator and writes the output block from it
theorem run_last (hc0 : ¬isFirst i) (hc1 : isLast i) (acc : Vec F S1x128 .f32) (E : Set ℕ) (K : PUnit → sProp 𝕄) :
    (iprop(owns (c : Thread nD τ) arg2 fullShare x ∗ owns (c : Thread nD τ) arg3 fullShare l ∗ owns (c : Thread nD τ) arg4 fullShare m
        ∗ (∃ o, owns (c : Thread nD τ) arg5 fullShare o) ∗ owns (c : Thread nD τ) arg6 fullShare acc
        ∗ (iprop(owns (c : Thread nD τ) arg2 fullShare x ∗ owns (c : Thread nD τ) arg3 fullShare l ∗ owns (c : Thread nD τ) arg4 fullShare m
            ∗ owns (c : Thread nD τ) arg5 fullShare (outOf (step x l m acc)) ∗ owns (c : Thread nD τ) arg6 fullShare (step x l m acc)) -∗ K ⟨⟩)) : sProp 𝕄)
      ⊢ wp frame (wpE (defs₀ (F := F)) Variants.none c none) E (cc2__tpn_labeled_kernel i arg2 harg2 arg3 harg3 arg4 harg4 arg5 harg5 arg6 harg6) K := by
  simp only [cc2__tpn_labeled_kernel_eq_skeleton]; unfold cc2__tpn_labeled_kernel_skel
  rw [owns_unread _ harg2, owns_unread _ harg3, owns_unread _ harg4, owns_unread _ harg6 _ acc]
  unfold owns
  iintro ⟨H2, H3, H4, ⟨%o, %f5, -, H5⟩, H6, Hk⟩
  sl_exec (disch := first | exact hc0 | exact hc1)
  sl_step
  iapply Hk
  iframe H2 H3 H4
  isplitl [H5] <;> (iexists _; isplitr; swap)
  · iexact H5
  · ipureintro
    refine (read_writes_whole_last (S := S1x1x128) _ _ hz3 _ _ _).trans ?_
    sl_unfold_words
    unfold outOf step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2, View.readCov_unit_zero (S := S1x128) _ hz2]
    try rfl
  · iexact H6
  · ipureintro
    refine (read_writes_whole_last (S := S1x128) _ _ hz2 _ _ _).trans ?_
    sl_unfold_words
    unfold step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2]
    try rfl

end Run

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk (c : Dev nD) (t : Fin cfg2.N) : Vec F S2048x1024 .f32 := iblk V c 0 t
abbrev lblk (c : Dev nD) (t : Fin cfg2.N) : Vec F S2048x1 .i32 := iblk V c 1 t
abbrev mblk (c : Dev nD) (t : Fin cfg2.N) : Vec F S1024x192 .f32 := iblk V c 2 t

-- the accumulator after point n: one step from acc0 at the first point of a pair, two at its last
def accAt (c : Dev nD) (n : ℕ) (h : n < cfg2.N) : Vec F S1x128 .f32 :=
  step (xblk V c ⟨n, h⟩) (lblk V c ⟨n, h⟩) (mblk V c ⟨n, h⟩) (if n % 2 = 0 then acc0 else
    step (xblk V c ⟨n - 1, by omega⟩) (lblk V c ⟨n - 1, by omega⟩) (mblk V c ⟨n - 1, by omega⟩) acc0)

theorem accAt_first (c : Dev nD) (t : Fin cfg2.N) (h0 : t.val % 2 = 0) :
    accAt V c t.val t.isLt = step (xblk V c t) (lblk V c t) (mblk V c t) acc0 := by
  unfold accAt; rw [if_pos h0]

theorem accAt_later (c : Dev nD) (t : Fin cfg2.N) (h0 : ¬t.val % 2 = 0) :
    accAt V c t.val t.isLt = step (xblk V c t) (lblk V c t) (mblk V c t)
      (accAt V c (t.val - 1) (Nat.lt_of_le_of_lt (Nat.sub_le _ _) t.isLt)) := by
  unfold accAt; rw [if_neg h0, if_pos (by omega)]

abbrev scM : Memref sig .tc .vmem S1x128 .f32 := Memref.whole cc2_scratch0

abbrev restOf (c : Dev nD) : sProp 𝕄 :=
  iprop(Pipeline.scopedRestBut (Ix := Unit) (Name := ℕ) (U := UR sig nD τ) (Lvl := ℕ) (Val := Elt F) spec2 c [cc2_scratch0] ∗ (∃ r, prngReg c r))

def PhiS (c : Dev nD) : (n : ℕ) → n ≤ cfg2.N → sProp 𝕄
  | 0, _ => Pipeline.ΦA spec2 c
  | n + 1, hn => iprop(owns (c : Thread nD τ) scM fullShare (accAt V c n hn) ∗ restOf c)

theorem PhiS_pos (c : Dev nD) (n : ℕ) (h : n ≤ cfg2.N) (hz : n ≠ 0) :
    PhiS V c n h = iprop(owns (c : Thread nD τ) scM fullShare (accAt V c (n - 1) (by omega)) ∗ restOf c) := by
  cases n with
  | zero => exact absurd rfl hz
  | succ n => rfl

theorem PhiA_eq (c : Dev nD) :
    (Pipeline.ΦA spec2 c : sProp 𝕄) = iprop((∃ a, owns (c : Thread nD τ) scM fullShare a) ∗ restOf c) := by
  unfold Pipeline.ΦA; rw [scopedRest2_split]; simp only [scM, owns_whole]
  exact Idealize.SL.BI.sep_assoc.antisymm Idealize.SL.BI.sep_assoc'

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outOf (accAt V c t.val t.isLt)
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]

theorem Phi_castSucc (c : Dev nD) (t : Fin cfg2.N) : (dat V c).Φ t.castSucc = PhiS V c t.val (Nat.le_of_lt t.isLt) := by
  dsimp only [dat]; simp only [Fin.coe_castSucc]

theorem Phi_some (c : Dev nD) (t : Fin cfg2.N) :
    (dat V c).Φ t.castSucc ⊢ iprop((∃ a, owns (c : Thread nD τ) scM fullShare a) ∗ restOf c) := by
  rw [Phi_castSucc]
  by_cases hz : t.val = 0
  · rw [show PhiS V c t.val (Nat.le_of_lt t.isLt) = Pipeline.ΦA spec2 c by obtain ⟨n, hn⟩ := t; subst hz; rfl, PhiA_eq]
  · rw [PhiS_pos V c _ _ hz]
    iintro ⟨HS, HR⟩; iframe HR; iexists _; iexact HS

theorem before_0 (c : Dev nD) (t : Fin cfg2.N) (d) : (dat V c).before 0 t d = iblk V c 0 t :=
  ((dat V c).before_in_eq_fetched 0 rfl (fun _ => rfl) (fun _ _ _ => rfl) (fun _ => rfl) t d).trans rfl
theorem before_1 (c : Dev nD) (t : Fin cfg2.N) (d) : (dat V c).before 1 t d = iblk V c 1 t :=
  ((dat V c).before_in_eq_fetched 1 rfl (fun _ => rfl) (fun _ _ _ => rfl) (fun _ => rfl) t d).trans rfl
theorem before_2 (c : Dev nD) (t : Fin cfg2.N) (d) : (dat V c).before 2 t d = iblk V c 2 t :=
  ((dat V c).before_in_eq_fetched 2 rfl (fun _ => rfl) (fun _ _ _ => rfl) (fun _ => rfl) t d).trans rfl

theorem idle3_first : ∀ t : Fin cfg2.N, t.val % 2 = 0 → cfg2.idle 3 (grid2.coords t) = true :=
  (by decide +kernel : ∀ t : Fin grid2.N, _)
theorem live3_last : ∀ t : Fin cfg2.N, ¬t.val % 2 = 0 → cfg2.idle 3 (grid2.coords t) = false :=
  (by decide +kernel : ∀ t : Fin grid2.N, _)
theorem noflush3_first (t : Fin cfg2.N) (h0 : t.val % 2 = 0) : (cfg2.win 3).flush t = false := by
  cases hf : (cfg2.win 3).flush t
  · rfl
  · have := (flush2_3 t).mp hf; omega

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((owns (c : Thread nD τ) scM fullShare (accAt V c t.val t.isLt) ∗ restOf c) ∗ (dat V c).owesAt () t.castSucc
    ∗ owns (c : Thread nD τ) (st2_0 t) fullShare (iblk V c 0 t) ∗ owns (c : Thread nD τ) (st2_1 t) fullShare (iblk V c 1 t)
    ∗ owns (c : Thread nD τ) (st2_2 t) fullShare (iblk V c 2 t) ∗ (dat V c).leavesExact 3 t)

set_option maxHeartbeats 1600000 in

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  by_cases h0 : t.val % 2 = 0
  · rw [Dat.leavesExact_idle (dat V c) 3 t (idle3_first t h0) (noflush3_first t h0), accAt_first V c t h0]
    iintro ⟨HΦ, Ho, ⟨%d0, H0⟩, ⟨%d1, H1⟩, ⟨%d2, H2⟩, ⟨%d3, H3⟩⟩
    icases (Phi_some V c t) $$ HΦ with ⟨HS, HR⟩
    iapply (run_first c (grid2.coords t) _ _ _ _ _ _ _ _ scM (Memref.isWhole_whole _) (xblk V c t) (lblk V c t) (mblk V c t)
        ((hfirst t).mpr h0) (fun h => by have := (hlast t).mp h; omega) ((dat V c).before 3 t d3) Set.univ _)
    iframe H0 H1 H2 H3 HS
    iintro ⟨H0, H1, H2, H3, HS⟩
    iframe HS HR Ho H0 H1 H2
    iexists _; iexact H3
  · have hz : t.val ≠ 0 := fun e => h0 (by rw [e])
    rw [show (dat V c).leavesExact 3 t = owns (c : Thread nD τ) (st2_3 t) fullShare (outOf (accAt V c t.val t.isLt)) from by
      unfold Dat.leavesExact; rw [live3_last t h0]; rfl, accAt_later V c t h0, Phi_castSucc, PhiS_pos V c _ _ hz]
    iintro ⟨⟨HS, HR⟩, Ho, ⟨%d0, H0⟩, ⟨%d1, H1⟩, ⟨%d2, H2⟩, ⟨%d3, H3⟩⟩
    iapply (run_last c (grid2.coords t) _ _ _ _ _ _ _ _ scM (Memref.isWhole_whole _) (xblk V c t) (lblk V c t) (mblk V c t)
        (fun h => h0 ((hfirst t).mp h)) ((hlast t).mpr (by omega)) (accAt V c (t.val - 1) (Nat.lt_of_le_of_lt (Nat.sub_le _ _) t.isLt)) Set.univ _)
    iframe H0 H1 H2 HS
    isplitl [H3]; · iexists _; iexact H3
    iintro ⟨H0, H1, H2, H3, HS⟩
    iframe HS HR Ho H0 H1 H2
    iexact H3

theorem body_obligation (c : Dev nD) : BodyObligation (dat (F := F) V c) (defs₀ (F := F)) Variants.none () Set.univ := fun t => by
  rw [bigSep_W2, bigSep_W2]
  exact sound_body V c t

theorem hin (c : Dev nD) : (Pipeline.ΦA spec2 c : sProp 𝕄) ⊢ (dat V c).Φ 0 :=
  Entails.of_eq (show Pipeline.ΦA spec2 c = PhiS V c 0 (Nat.zero_le _) from rfl)

theorem hout (c : Dev nD) : (dat V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 4 := N_2; omega), PhiA_eq]
  iintro ⟨HS, HR⟩; iframe HR; iexists _; iexact HS

end Cert.Kernel.Reg2

end
-- ==== Proof.K.Reg3.lean ====
import proofs.«422586_j33337536151702_2_alg».proof.Proof.Gen.Kernel.Launch
import proofs.«422586_j33337536151702_2_alg».proof.Proof.Gen.Kernel.Skeleton
import proofs.«422586_j33337536151702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid3.Coords) : Prop :=
  (Scalar.cmpi .ne (Scalar.extui (Scalar.cmpi .eq (BitVec.ofNat 32 (i 1).val) 0#32)) 0#32) = 1#1
theorem hcondFirst : ∀ t : Fin cfg3.N, condFirst (grid3.coords t) ↔ t.val % 4 = 0 :=
  (by decide +kernel : ∀ t : Fin grid3.N, condFirst (grid3.coords t) ↔ t.val % 4 = 0)

abbrev condLast (i : grid3.Coords) : Prop := k3_cond2 i = 1#1
theorem hcondLast : ∀ t : Fin cfg3.N, condLast (grid3.coords t) ↔ t.val % 4 = 3 :=
  (by decide +kernel : ∀ t : Fin grid3.N, condLast (grid3.coords t) ↔ t.val % 4 = 3)

theorem out_idle : ∀ t : Fin cfg3.N, ¬t.val % 4 = 3 → cfg3.idle 2 (grid3.coords t) = true ∧ (cfg3.win 2).flush t = false := by
  decide +kernel
theorem out_live : ∀ t : Fin cfg3.N, t.val % 4 = 3 → cfg3.idle 2 (grid3.coords t) = false := by decide +kernel

abbrev ms0 (t : Fin cfg3.N) : Memref sig .tc .vmem S2048x1024 .f32 := win3_0.stage (cfg3.slots t 0)
abbrev ms1 (t : Fin cfg3.N) : Memref sig .tc .vmem S1024x192 .f32 := win3_1.stage (cfg3.slots t 1)
abbrev ms2 (t : Fin cfg3.N) : Memref sig .tc .vmem S1x1x128 .f32 := win3_2.stage (cfg3.slots t 2)

abbrev scM : Memref sig .tc .vmem S1x128 .f32 := Memref.whole cc3_scratch0

def acc0 : Vec F S1x128 .f32 := k3_pay3 (F := F)

def step (x : Vec F S2048x1024 .f32) (mu : Vec F S1024x192 .f32) (a : Vec F S1x128 .f32) : Vec F S1x128 .f32 :=
  k3_pay1 (k3_pay9 (k3_pay5 x mu) (k3_pay7 x mu)) (k3_pay10 (k3_pay6 x mu) (k3_pay7 x mu))
    (k3_pay11 (k3_pay5 x mu) (k3_pay6 x mu)) (k3_pay12 (F := F)) a

def outOf (a : Vec F S1x128 .f32) : Vec F S1x1x128 .f32 := k3_pay2 a

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

theorem owns_unread {sp : Space} {S : Shape} {e : EltTy} (c : Dev nD) {M : Memref sig .tc sp S e} (hM : M.IsWhole) (x : S.Idx → Elt F e) :
    (owns (c : Thread nD τ) M fullShare x : sProp 𝕄) = pointsTo (M.view.loc (c : Thread nD τ)) M.view.set fullShare (hM.unread x) := by
  have h₁ : (owns (c : Thread nD τ) M fullShare x : sProp 𝕄)
      ⊢ (pointsTo (M.view.loc (c : Thread nD τ)) M.view.set fullShare (hM.unread x) : sProp 𝕄) := by
    unfold owns; iintro ⟨%f, %hf, H⟩; obtain rfl := hM.eq_unread hf; iexact H
  have h₂ := owns_intro (Ix := Unit) (Name := ℕ) (U := UR sig nD τ) (Lvl := ℕ) (c : Thread nD τ) M fullShare (hM.unread x)
  rw [hM.read_unread] at h₂
  exact BI.equiv_iff.mp ⟨h₁, h₂⟩

variable (c : Dev nD) (i : grid3.Coords) (arg2 : Memref sig .tc .vmem S2048x1024 .f32) (harg2 : arg2.IsWhole) (arg3 : Memref sig .tc .vmem S1024x192 .f32) (harg3 : arg3.IsWhole) (arg4 : Memref sig .tc .vmem S1x1x128 .f32) (harg4 : arg4.IsWhole) (arg5 : Memref sig .tc .vmem S1x128 .f32) (harg5 : arg5.IsWhole)

theorem runMid (hc0 : ¬condFirst i) (hc1 : ¬condLast i) (x : Vec F S2048x1024 .f32) (mu : Vec F S1024x192 .f32) (a : Vec F S1x128 .f32)
    (E : Set ℕ) (K : PUnit → sProp 𝕄) :
    iprop(owns c arg2 fullShare x ∗ owns c arg3 fullShare mu ∗ owns c arg5 fullShare a
        ∗ (iprop(owns c arg2 fullShare x ∗ owns c arg3 fullShare mu ∗ owns c arg5 fullShare (step x mu a)) -∗ K ⟨⟩))
      ⊢ wp frame (wpE (defs₀ (F := F)) Variants.none c none) E (cc3__tpn_unlabeled_kernel i arg2 harg2 arg3 harg3 arg4 harg4 arg5 harg5) K := by
  simp only [cc3__tpn_unlabeled_kernel_eq_skeleton]; unfold cc3__tpn_unlabeled_kernel_skel
  rw [owns_unread c harg2, owns_unread c harg3, owns_unread c harg5 a]
  unfold owns
  iintro ⟨H0, H1, HS, Hk⟩
  sl_exec (disch := first | exact hc0 | exact hc1)
  sl_step
  iapply Hk
  iframe H0 H1
  iexists _; isplitr; swap; iexact HS; ipureintro
  rw [read_writes_whole _ _ hz2]
  sl_unfold_words
  unfold step
  simp only [View.readAt_eq_ld, harg2.read_unread, harg3.read_unread, harg5.read_unread, View.ld_unit_zero (S := S2048x1024) hz2,
    View.ld_unit_zero (S := S1024x192) hz2, View.ld_unit_zero (S := S1x128) hz2]

theorem runFirst (hc0 : condFirst i) (hc1 : ¬condLast i) (x : Vec F S2048x1024 .f32) (mu : Vec F S1024x192 .f32)
    (E : Set ℕ) (K : PUnit → sProp 𝕄) :
    iprop(owns c arg2 fullShare x ∗ owns c arg3 fullShare mu ∗ (∃ d, owns c arg5 fullShare d)
        ∗ (iprop(owns c arg2 fullShare x ∗ owns c arg3 fullShare mu ∗ owns c arg5 fullShare (step x mu (acc0 (F := F)))) -∗ K ⟨⟩))
      ⊢ wp frame (wpE (defs₀ (F := F)) Variants.none c none) E (cc3__tpn_unlabeled_kernel i arg2 harg2 arg3 harg3 arg4 harg4 arg5 harg5) K := by
  simp only [cc3__tpn_unlabeled_kernel_eq_skeleton]; unfold cc3__tpn_unlabeled_kernel_skel
  rw [owns_unread c harg2, owns_unread c harg3]
  unfold owns
  iintro ⟨H0, H1, ⟨%ds, %fs, -, HS⟩, Hk⟩
  sl_exec (disch := first | exact hc0 | exact hc1)
  sl_step
  iapply Hk
  iframe H0 H1
  iexists _; isplitr; swap; iexact HS; ipureintro
  rw [read_writes_whole _ _ hz2]
  sl_unfold_words
  unfold step acc0
  simp only [View.readAt_eq_ld, harg2.read_unread, harg3.read_unread, View.ld_unit_zero (S := S2048x1024) hz2,
    View.ld_unit_zero (S := S1024x192) hz2, View.readCov_unit_zero (S := S1x128) _ hz2]

theorem runLast (hc0 : ¬condFirst i) (hc1 : condLast i) (x : Vec F S2048x1024 .f32) (mu : Vec F S1024x192 .f32) (a : Vec F S1x128 .f32)
    (E : Set ℕ) (K : PUnit → sProp 𝕄) :
    iprop(owns c arg2 fullShare x ∗ owns c arg3 fullShare mu ∗ (∃ d, owns c arg4 fullShare d) ∗ owns c arg5 fullShare a
        ∗ (iprop(owns c arg2 fullShare x ∗ owns c arg3 fullShare mu ∗ owns c arg4 fullShare (outOf (step x mu a))
            ∗ owns c arg5 fullShare (step x mu a)) -∗ K ⟨⟩))
      ⊢ wp frame (wpE (defs₀ (F := F)) Variants.none c none) E (cc3__tpn_unlabeled_kernel i arg2 harg2 arg3 harg3 arg4 harg4 arg5 harg5) K := by
  simp only [cc3__tpn_unlabeled_kernel_eq_skeleton]; unfold cc3__tpn_unlabeled_kernel_skel
  rw [owns_unread c harg2, owns_unread c harg3, owns_unread c harg5 a]
  unfold owns
  iintro ⟨H0, H1, ⟨%d2, %f2, -, H2⟩, HS, Hk⟩
  sl_exec (disch := first | exact hc0 | exact hc1)
  sl_step
  iapply Hk
  iframe H0 H1
  isplitl [H2]
  · iexists _; isplitr; swap; iexact H2; ipureintro
    rw [read_writes_whole _ _ hz3]
    sl_unfold_words
    unfold outOf step
    simp only [View.readAt_eq_ld, harg2.read_unread, harg3.read_unread, harg5.read_unread, View.ld_unit_zero (S := S2048x1024) hz2,
    View.ld_unit_zero (S := S1024x192) hz2, View.ld_unit_zero (S := S1x128) hz2,
      View.readCov_unit_zero (S := S1x128) _ hz2]
  iexists _; isplitr; swap; iexact HS; ipureintro
  sl_unfold_words
  rw [read_writes_whole _ _ hz2]
  unfold step
  simp only [View.readAt_eq_ld, harg2.read_unread, harg3.read_unread, harg5.read_unread, View.ld_unit_zero (S := S2048x1024) hz2,
    View.ld_unit_zero (S := S1024x192) hz2, View.ld_unit_zero (S := S1x128) hz2]

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk (c : Dev nD) (t : Fin cfg3.N) : Vec F S2048x1024 .f32 := iblk V c 0 t
abbrev mublk (c : Dev nD) (t : Fin cfg3.N) : Vec F S1024x192 .f32 := iblk V c 1 t

def accAt (c : Dev nD) : (n : ℕ) → n < cfg3.N → Vec F S1x128 .f32
  | 0, h => step (xblk V c ⟨0, h⟩) (mublk V c ⟨0, h⟩) (acc0 (F := F))
  | n + 1, h => step (xblk V c ⟨n + 1, h⟩) (mublk V c ⟨n + 1, h⟩)
      (if (n + 1) % 4 = 0 then acc0 (F := F) else accAt c n (Nat.lt_of_succ_lt h))

theorem accAt_first (c : Dev nD) (t : Fin cfg3.N) (h0 : t.val % 4 = 0) :
    accAt V c t.val t.isLt = step (xblk V c t) (mublk V c t) (acc0 (F := F)) := by
  obtain ⟨n, hn⟩ := t
  cases n with
  | zero => rfl
  | succ n =>
    show step _ _ (if (n + 1) % 4 = 0 then _ else _) = _
    rw [if_pos h0]

theorem accAt_next (c : Dev nD) (t : Fin cfg3.N) (h0 : ¬t.val % 4 = 0) :
    accAt V c t.val t.isLt
      = step (xblk V c t) (mublk V c t) (accAt V c (t.val - 1) (Nat.lt_of_le_of_lt (Nat.sub_le _ _) t.isLt)) := by
  obtain ⟨n, hn⟩ := t
  cases n with
  | zero => exact absurd (Nat.zero_mod _) h0
  | succ n =>
    show step _ _ (if (n + 1) % 4 = 0 then _ else _) = _
    rw [if_neg h0]; rfl

abbrev restBut (c : Dev nD) : sProp 𝕄 :=
  Pipeline.scopedRestBut (Ix := Unit) (Name := ℕ) (U := UR sig nD τ) (Lvl := ℕ) (Val := Elt F) spec3 c [cc3_scratch0]

theorem PhiA_eq (c : Dev nD) :
    (Pipeline.ΦA spec3 c : sProp 𝕄)
      = iprop(iprop((∃ d, owns c scM fullShare d) ∗ restBut (F := F) c) ∗ (∃ r, prngReg c r)) := by
  unfold Pipeline.ΦA; rw [scopedRest3_split]; simp only [scM, owns_whole]; try rfl

def PhiS (c : Dev nD) : (n : ℕ) → n ≤ cfg3.N → sProp 𝕄
  | 0, _ => Pipeline.ΦA spec3 c
  | n + 1, hn => iprop(iprop(owns c scM fullShare (accAt V c n hn) ∗ restBut (F := F) c) ∗ (∃ r, prngReg c r))

theorem PhiS_succ (c : Dev nD) (n : ℕ) (hn : n < cfg3.N) :
    PhiS V c (n + 1) hn = iprop(iprop(owns c scM fullShare (accAt V c n hn) ∗ restBut (F := F) c) ∗ (∃ r, prngReg c r)) := rfl

theorem PhiS_pos (c : Dev nD) (n : ℕ) (h : n ≤ cfg3.N) (hz : n ≠ 0) :
    PhiS V c n h = iprop(iprop(owns c scM fullShare (accAt V c (n - 1) (by omega)) ∗ restBut (F := F) c) ∗ (∃ r, prngReg c r)) := by
  cases n with
  | zero => exact absurd rfl hz
  | succ n => rfl

theorem PhiS_forget (c : Dev nD) : ∀ (n : ℕ) (h : n ≤ cfg3.N), PhiS V c n h ⊢ (Pipeline.ΦA spec3 c : sProp 𝕄)
  | 0, _ => Idealize.SL.BI.Entails.refl _
  | n + 1, hn => by
    rw [PhiA_eq, PhiS_succ]
    iintro ⟨⟨HS, Hr⟩, Hg⟩
    iframe Hr Hg
    iexists _; iexact HS

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outOf (accAt V c t.val t.isLt)
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = outOf (accAt V c t.val t.isLt) := by dsimp only [dat]

theorem before_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before_1 (c : Dev nD) (t : Fin cfg3.N) (d) : (dat V c).before 1 t d = iblk V c 1 t :=
  ((dat V c).before_in_eq_fetched 1 rfl (fun _ => rfl) (fun _ _ _ => rfl) (fun _ => rfl) t d).trans rfl

theorem leaves_live (c : Dev nD) (w : Fin cfg3.W) (t : Fin cfg3.N) (h : cfg3.idle w (grid3.coords t) = false) :
    (dat V c).leavesExact w t = owns c ((cfg3.win w).stage (cfg3.slots t w)) fullShare ((dat V c).after w t) := by
  unfold Dat.leavesExact; rw [h]

def bodyPre (c : Dev nD) (t : Fin cfg3.N) : sProp 𝕄 :=
  iprop((dat V c).Φ t.castSucc ∗ (dat V c).owesAt () t.castSucc
    ∗ (∃ d, owns c (ms0 t) fullShare ((dat V c).before 0 t d))
    ∗ (∃ d, owns c (ms1 t) fullShare ((dat V c).before 1 t d))
    ∗ (∃ d, owns c (ms2 t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl,
    show (dat V c).Φ t.succ = PhiS V c (t.val + 1) t.isLt from rfl, PhiS_succ, PhiS_castSucc,
    leaves_live V c 0 t rfl, after_0, leaves_live V c 1 t rfl, after_1]
  by_cases h1 : t.val % 4 = 3
  · have h0 : ¬t.val % 4 = 0 := by omega
    rw [PhiS_pos V c _ _ fun e => h0 (by rw [e]), leaves_live V c 2 t (out_live t h1), after_2, accAt_next V c t h0]
    iintro ⟨⟨⟨HS, Hr⟩, Hg⟩, Ho, ⟨%d0, H0⟩, ⟨%d1, H1⟩, ⟨%d2, H2⟩⟩
    iapply (runLast c (grid3.coords t) _ _ _ _ _ _ _ _ (fun h => h0 ((hcondFirst t).mp h)) ((hcondLast t).mpr h1)
      (xblk V c t) (mublk V c t) _ Set.univ _)
    iframe H0 H1
    isplitl [H2]; · iexists _; iexact H2
    isplitl [HS]; · iexact HS
    iintro ⟨H0, H1, H2, HS⟩
    iframe
  · rw [Dat.leavesExact_idle (dat V c) 2 t (out_idle t h1).1 (out_idle t h1).2]
    by_cases h0 : t.val % 4 = 0
    · refine (sep_mono_left (PhiS_forget V c _ _)).trans ?_
      rw [PhiA_eq, accAt_first V c t h0]
      iintro ⟨⟨⟨HS, Hr⟩, Hg⟩, Ho, ⟨%d0, H0⟩, ⟨%d1, H1⟩, H2⟩
      iapply (runFirst c (grid3.coords t) _ _ _ _ _ _ _ _ ((hcondFirst t).mpr h0) (fun h => h1 ((hcondLast t).mp h))
        (xblk V c t) (mublk V c t) Set.univ _)
      iframe H0 H1 HS
      iintro ⟨H0, H1, HS⟩
      iframe
    · rw [PhiS_pos V c _ _ fun e => h0 (by rw [e]), accAt_next V c t h0]
      iintro ⟨⟨⟨HS, Hr⟩, Hg⟩, Ho, ⟨%d0, H0⟩, ⟨%d1, H1⟩, H2⟩
      iapply (runMid c (grid3.coords t) _ _ _ _ _ _ _ _ (fun h => h0 ((hcondFirst t).mp h)) (fun h => h1 ((hcondLast t).mp h))
        (xblk V c t) (mublk V c t) _ Set.univ _)
      iframe H0 H1
      isplitl [HS]; · iexact HS
      iintro ⟨H0, H1, HS⟩
      iframe

theorem body_obligation (c : Dev nD) : BodyObligation (dat (F := F) V c) (defs₀ (F := F)) Variants.none () Set.univ := fun t => by
  rw [bigSep_W3, bigSep_W3]
  exact sound_body V c t

theorem hin (c : Dev nD) : (Pipeline.ΦA spec3 c : sProp 𝕄) ⊢ (dat V c).Φ 0 :=
  Idealize.SL.BI.Entails.refl _

theorem hout (c : Dev nD) : (dat V c).Φ (Fin.last cfg3.N) ⊢ (Pipeline.ΦA spec3 c : sProp 𝕄) := by
  rw [show (dat V c).Φ (Fin.last cfg3.N) = PhiS V c (Fin.last cfg3.N).val (Nat.le_of_lt_succ (Fin.last cfg3.N).isLt) from rfl]
  exact PhiS_forget V c _ _

end Cert.Kernel.Reg3

end
-- ==== Proof.K.Vals.lean ====
import proofs.«422586_j33337536151702_2_alg».proof.Proof.K.Reg0
import proofs.«422586_j33337536151702_2_alg».proof.Proof.K.Reg1
import proofs.«422586_j33337536151702_2_alg».proof.Proof.K.Reg2
import proofs.«422586_j33337536151702_2_alg».proof.Proof.K.Reg3
import proofs.«422586_j33337536151702_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev E1 : (c : Dev nD) → (b : Ref sig .tc) → Buf (Elt F) ((c : Thread nD τ).loc b) := fun c b => W1 m c b

def W2 (c : Dev nD) : Valuation τ sig (Elt F) :=
  Pipeline.withArrays spec0 c (W1 m c) fun w => (Reg0.dat (E1 m) c).arrAt w cfg0.N

abbrev W3 : Dev nD → Valuation τ sig (Elt F) := fun c => StableHlo.after hostOps1 (W2 m c)
abbrev E3 : (c : Dev nD) → (b : Ref sig .tc) → Buf (Elt F) ((c : Thread nD τ).loc b) := fun c b => W3 m c b

def W4 (c : Dev nD) : Valuation τ sig (Elt F) :=
  Pipeline.withArrays spec1 c (W3 m c) fun w => (Reg1.dat (E3 m) c).arrAt w cfg1.N
abbrev E4 : (c : Dev nD) → (b : Ref sig .tc) → Buf (Elt F) ((c : Thread nD τ).loc b) := fun c b => W4 m c b

def W5 (c : Dev nD) : Valuation τ sig (Elt F) :=
  Pipeline.withArrays spec2 c (W4 m c) fun w => (Reg2.dat (E4 m) c).arrAt w cfg2.N
abbrev E5 : (c : Dev nD) → (b : Ref sig .tc) → Buf (Elt F) ((c : Thread nD τ).loc b) := fun c b => W5 m c b

def W6 (c : Dev nD) : Valuation τ sig (Elt F) :=
  Pipeline.withArrays spec3 c (W5 m c) fun w => (Reg3.dat (E5 m) c).arrAt w cfg3.N

abbrev W7 : Dev nD → Valuation τ sig (Elt F) := fun c => StableHlo.after hostOps4 (W6 m c)

abbrev In0 : Dev nD → Valuation τ sig (Elt F) := W1 m
abbrev In1 : Dev nD → Valuation τ sig (Elt F) := W3 m
abbrev In2 : Dev nD → Valuation τ sig (Elt F) := W4 m
abbrev In3 : Dev nD → Valuation τ sig (Elt F) := W5 m

abbrev EIn0 : (c : Dev nD) → (b : Ref sig .tc) → Buf (Elt F) ((c : Thread nD τ).loc b) := fun c b => In0 m c b
abbrev EIn1 : (c : Dev nD) → (b : Ref sig .tc) → Buf (Elt F) ((c : Thread nD τ).loc b) := fun c b => In1 m c b
abbrev EIn2 : (c : Dev nD) → (b : Ref sig .tc) → Buf (Elt F) ((c : Thread nD τ).loc b) := fun c b => In2 m c b
abbrev EIn3 : (c : Dev nD) → (b : Ref sig .tc) → Buf (Elt F) ((c : Thread nD τ).loc b) := fun c b => In3 m c b

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => Reg0.dat (E1 m) c
  | ⟨1, _⟩ => fun c => Reg1.dat (E3 m) c
  | ⟨2, _⟩ => fun c => Reg2.dat (E4 m) c
  | ⟨3, _⟩ => fun c => Reg3.dat (E5 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Whole

end
-- ==== Proof.LibSeg.lean ====
import Idealize.ShloMosaic.Lib.Pipeline.RegionsLoop
import Idealize.ShloMosaic.Lib.Pipeline.FrameSuffix

noncomputable section

namespace Cert.Seg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

section Point

variable {cfg : Cfg sig Λ₀} {c : Dev nD} (dat : Dat τ Val Unit ℕ U ℕ cfg c) (t : Fin (cfg.N + 1))

theorem owesAt_intro (h0 : dat.owed t = 0) (hr : dat.recorded t = Set.univ) :
    iprop(∃ W, owes (c : Thread nD τ) (0 : CellTallies nD τ sig Unit) W) ⊢ (dat.owesAt () t : sProp 𝕄) := by
  unfold Dat.owesAt owesWithin Dat.bound; rw [h0, hr]
  iintro ⟨%W, HO⟩; iexists W; isplitr; · ipureintro; exact fun _ _ => Or.inl trivial
  iexact HO

theorem owesAt_elim (h0 : dat.owed t = 0) :
    (dat.owesAt () t : sProp 𝕄) ⊢ iprop(∃ W, owes (c : Thread nD τ) (0 : CellTallies nD τ sig Unit) W) := by
  unfold Dat.owesAt owesWithin; rw [h0]
  iintro ⟨%W, -, HO⟩; iexists W; iexact HO

theorem withArrays_keep (hinj : Function.Injective (arrRef cfg.spec)) (V : Valuation τ sig Val)
    (hA : ∀ w, dat.A w = V (Proc.devRef .tc (arrRef cfg.spec w))) (b : Ref sig .tc)
    (h : ∀ w, arrRef cfg.spec w = b → (cfg.win w).isOut = false) (n : ℕ) :
    withArrays cfg.spec c V (fun w => dat.arrAt w n) (Proc.devRef .tc b) = V (Proc.devRef .tc b) := by
  by_cases hb : ∃ w, arrRef cfg.spec w = b
  · obtain ⟨w, rfl⟩ := hb
    rw [withArrays_arr cfg.spec hinj, dat.arrAt_in w (h w rfl), hA]
  · exact withArrays_of_ne cfg.spec c V _ b fun w e => hb ⟨w, e⟩

end Point

abbrev carried (c : Dev nD) : sProp 𝕄 :=
  iprop((∃ r, prngReg c r) ∗ ∃ W, owes (c : Thread nD τ) (0 : CellTallies nD τ sig Unit) W)

variable (cfgs : P → Cfg sig Λ₀)

abbrev pcsOf : P → PCfg sig Λ₀ Val := fun q => (cfgs q).toPCfg
abbrev admOf : (q : P) → (pcsOf (Val := Val) cfgs q).Adm := fun q => (cfgs q).toPCfg_adm

-- Every region of a program is this record at its own index: only the body's facts differ.
def region {p : P} (kit : LaunchFacts (nD := nD) (τ := τ) cfgs p)
    (pdats : (p : P) → (c : Dev nD) → Dat τ Val Unit ℕ U ℕ (pin (pcsOf cfgs) (admOf cfgs) p) c)
    (defs₀ : Defs nD τ sig Val Λ₀) (𝒱₀ : Variants) (L : GSem nD τ sig → Finset Unit) (lv : GSem nD τ sig → Unit → ℕ)
    (hb : ∀ c, BodyObligation (pdats p c) defs₀ 𝒱₀ () Set.univ)
    (howed : ∀ c t, (pdats p c).owed t = 0) (hrec : ∀ c, (pdats p c).recorded 0 = Set.univ)
    (hq : ∀ c w, (pdats p c).q w = fullShare)
    (hfirst : ∀ c, (ΦA (cfgs p).spec c : sProp 𝕄) ⊢ (pdats p c).Φ 0)
    (hlast : ∀ c, (pdats p c).Φ (Fin.last (cfgs p).N) ⊢ (ΦA (cfgs p).spec c : sProp 𝕄))
    (Vin : Dev nD → Valuation τ sig Val)
    (hA : ∀ c w, (pdats p c).A w = Vin c (Proc.devRef .tc (arrRef (cfgs p).spec w))) :
    RegionSeg (pcsOf cfgs) (admOf cfgs) pdats () defs₀ 𝒱₀ L lv p where
  win := kit.win.to₀
  block_pos := kit.block_pos
  stage_whole := kit.stage_whole
  K := PEmpty
  osem k := k.elim
  ho := OwnSemFacts.none _
  hbody c := (hb c).loose
  hwaits := hwaits_of_owed_zero _ _ _ _ L lv p howed
  pre c := iprop(StableHlo.held (c : Thread nD τ) (ucRefs τ sig) (Vin c) ∗ carried c)
  post c := iprop(StableHlo.held (c : Thread nD τ) (ucRefs τ sig) (withArrays (cfgs p).spec c (Vin c) fun w => (pdats p c).arrAt w (cfgs p).N) ∗ carried c)
  X c := iprop(∃ r, prngReg c r)
  Y c := iprop(∃ r, prngReg c r)
  Z c := unscopedRest (cfgs p).spec c fun b => Vin c b
  hentry c := by
    rw [ownSems0_none]
    have hsplit := arrays_of_unscopedBufs (p := p) (pcsOf cfgs) (admOf cfgs) pdats kit.win kit.arr_whole c
      ((pdats p c).share_full (hq c)) (fun b => Vin c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]; · iapply (owesAt_intro (pdats p c) 0 (howed c 0) (hrec c)); iexact HO
    isplitl [Hp]; · iexact Hp
    iexact Hrest
  hin c := by
    refine .trans ?_ (hfirst c)
    unfold ΦA
    iintro ⟨Hp, -, Hr⟩
    isplitl [Hr]; · iexact Hr
    iexact Hp
  hout c := by
    refine (hlast c).trans ?_
    rw [ownSems0_none]; unfold ΦA
    iintro ⟨Hr, Hp⟩
    isplitl [Hp]; · iexact Hp
    isplitr; · iempintro
    iexact Hr
  hexit c := by
    have hjoin := unscopedBufs_of_arrays (p := p) (pcsOf cfgs) (admOf cfgs) kit.win kit.arr_whole c pdats ((pdats p c).share_full (hq c))
      (fun b => Vin c b) (fun b => withArrays (cfgs p).spec c (Vin c) (fun w => (pdats p c).arrAt w (cfgs p).N) b) ((pdats p c).arrAt · (cfgs p).N)
      (fun w => (withArrays_arr (cfgs p).spec kit.win.arr_inj c (Vin c) (fun w => (pdats p c).arrAt w (cfgs p).N) w).symm)
      (fun b hb => withArrays_of_ne (cfgs p).spec c _ _ b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    iapply (owesAt_elim (pdats p c) _ (howed c _)); iexact HO

section Run

variable [DecidableEq P] [∀ e, Nonempty (Val e)]

-- The program's run, from the chain of its items' thread states alone.
theorem run_held (cfgs : P → Cfg sig Λ₀) (phinj : Function.Injective (cellOf (nD := nD) (τ := τ) (pin (pcsOf (Val := Val) cfgs) (admOf cfgs))))
    (pdats : (p : P) → (c : Dev nD) → Dat τ Val Unit ℕ (UR sig nD τ) ℕ (pin (pcsOf cfgs) (admOf cfgs) p) c)
    (defs₀ : Defs nD τ sig Val Λ₀) (𝒱₀ : Variants) (L : GSem nD τ sig → Finset Unit) (lv : GSem nD τ sig → Unit → ℕ)
    (hL : ∀ g : GSem nD τ sig, g.1.2 ≠ .tc → L g = ∅)
    (m : (ℓ : Loc nD τ sig) → Buf Val ℓ) (g : Dev nD → PrngReg)
    (main : Dev nD → Prog (TpuEff nD τ sig Val (Sig Λ₀ P fun p => (pcsOf (Val := Val) cfgs p).Adm) .tc) PUnit)
    (segs : List (Seg (pcsOf cfgs) (admOf cfgs) pdats () defs₀ 𝒱₀ L lv)) (hmain : ∀ c, main c = Seg.run segs)
    (hnd : (Seg.pipes segs).Nodup) (Wn : Dev nD → Valuation τ sig Val)
    (hch : Seg.Chains (fun c => iprop(StableHlo.held (c : Thread nD τ) (ucRefs τ sig) (fun b => m (c, b)) ∗ carried c)) segs
      fun c => iprop((StableHlo.held (c : Thread nD τ) (ucRefs τ sig) (Wn c) ∗ ∃ r, prngReg c r)
        ∗ ∃ W, owes (c : Thread nD τ) (0 : CellTallies nD τ sig Unit) W)) :
    θ_run (Pipeline.defs (pcsOf cfgs) defs₀) (onTc (τ := τ) main) ⟨m, fun _ => 0, g⟩
      (fun r => ∀ c : Dev nD, ∀ b ∈ ucRefs τ sig, r.2.mem ((c : Thread nD τ).1, b) = Wn c b) :=
  θ_run_regions_kit (pcsOf cfgs) (admOf cfgs) pdats () phinj emb₁ defs₀ 𝒱₀ L lv m g main segs
    (fun c Q => by rw [hmain c]) hnd (O₀ := 0) (hL := hL) (G := fun _ => iprop(emp))
    (u₀ := initOf (cells (pin (pcsOf cfgs) (admOf cfgs)) phinj) (launchToks (pin (pcsOf cfgs) (admOf cfgs)) phinj))
    (hu₀ := by
      iintro Hu; imodintro
      isplitl [Hu]
      · iapply (Entails.of_eq (ownU_emb₁ _)); iexact Hu
      iapply (show (BI.emp : sProp (MT nD τ sig Unit Val ℕ (UR sig nD τ) ℕ)) ⊢ bigSep Finset.univ (fun _ : Dev nD => BI.emp) from by rw [BI.bigSep_emp_const])
      iempintro)
    (T₀ := fun c => iprop(StableHlo.held (c : Thread nD τ) (ucRefs τ sig) (fun b => m (c, b)) ∗ carried c))
    (Tₙ := fun c => iprop(StableHlo.held (c : Thread nD τ) (ucRefs τ sig) (Wn c) ∗ ∃ r, prngReg c r))
    (hch := hch)
    (hinit := by
      refine initEach L lv fun c => ?_
      rw [show unscopedBufs c (fun b => m ((c : Thread nD τ).loc b)) = StableHlo.held (c : Thread nD τ) (ucRefs τ sig) (fun b => m (c, b))
        from unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem ((c : Thread nD τ).1, b) = Wn c b)
    (hfin := fun c s' => by
      iintro ⟨⟨Hh, -⟩, HSI⟩
      unfold StableHlo.held
      imodintro
      iapply (pointsTo_read_all (ucRefs τ sig) (fun b => ((c : Thread nD τ).1, b)) (Wn c) s')
      isplitl [Hh] <;> iassumption)
    (hQ := fun s h c => h c)

end Run

end Cert.Seg

end
-- ==== Proof.K.Seg.lean ====
import proofs.«422586_j33337536151702_2_alg».proof.Proof.K.Vals
import proofs.«422586_j33337536151702_2_alg».proof.Proof.LibSeg

noncomputable section

namespace Cert.Kernel.Whole

open Cert.Kernel Cert.Kernel.Gen
open Idealize.ShloMosaic

variable {F : FTy → Type} [FloatOps F]

variable (m : (ℓ : Loc nD τ sig) → Buf (Elt F) ℓ)

def reg0 : Pipeline.RegionSeg (pcfgs (F := F)) adm (pdats m) () defs₀ 𝒱₀ L lv 0 :=
  Cert.Seg.region cfgs launch0 (pdats m) defs₀ 𝒱₀ L lv (Reg0.body_obligation (EIn0 m)) (fun _ _ => rfl) (fun _ => rfl) (fun _ _ => rfl)
    (Reg0.hin (EIn0 m)) (Reg0.hout (EIn0 m)) (In0 m) fun _ _ => rfl

def reg1 : Pipeline.RegionSeg (pcfgs (F := F)) adm (pdats m) () defs₀ 𝒱₀ L lv 1 :=
  Cert.Seg.region cfgs launch1 (pdats m) defs₀ 𝒱₀ L lv (Reg1.body_obligation (EIn1 m)) (fun _ _ => rfl) (fun _ => rfl) (fun _ _ => rfl)
    (Reg1.hin (EIn1 m)) (Reg1.hout (EIn1 m)) (In1 m) fun _ _ => rfl

def reg2 : Pipeline.RegionSeg (pcfgs (F := F)) adm (pdats m) () defs₀ 𝒱₀ L lv 2 :=
  Cert.Seg.region cfgs launch2 (pdats m) defs₀ 𝒱₀ L lv (Reg2.body_obligation (EIn2 m)) (fun _ _ => rfl) (fun _ => rfl) (fun _ _ => rfl)
    (Reg2.hin (EIn2 m)) (Reg2.hout (EIn2 m)) (In2 m) fun _ _ => rfl

def reg3 : Pipeline.RegionSeg (pcfgs (F := F)) adm (pdats m) () defs₀ 𝒱₀ L lv 3 :=
  Cert.Seg.region cfgs launch3 (pdats m) defs₀ 𝒱₀ L lv (Reg3.body_obligation (EIn3 m)) (fun _ _ => rfl) (fun _ => rfl) (fun _ _ => rfl)
    (Reg3.hin (EIn3 m)) (Reg3.hout (EIn3 m)) (In3 m) fun _ _ => rfl

end Cert.Kernel.Whole

end
-- ==== Proof.K.Whole.lean ====
import proofs.«422586_j33337536151702_2_alg».proof.Proof.K.Seg

noncomputable section

namespace Cert.Kernel.Whole

open Cert.Kernel Cert.Kernel.Gen
open Idealize.ShloMosaic Idealize.ShloMosaic.TcCoe Idealize.ShloMosaic.Tactic
open Idealize.SL Idealize.SL.BI

variable {F : FTy → Type} [FloatOps F]

variable (m : (ℓ : Loc nD τ sig) → Buf (Elt F) ℓ) (ρ : Dev nD → PrngReg)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev items : List (Pipeline.Seg (pcfgs (F := F)) adm (pdats m) () defs₀ 𝒱₀ L lv) :=
  [ .host (hostItem hostOps0 hostOps0_sub hostOps0_fresh (W0 m)),
    .region (reg0 m),
    .host (hostItem hostOps1 hostOps1_sub hostOps1_fresh (W2 m)),
    .region (reg1 m),
    .region (reg2 m),
    .region (reg3 m),
    .host (hostItem hostOps4 hostOps4_sub hostOps4_fresh (W6 m)) ]

theorem main_items (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Cert.Seg.run_held cfgs cellOf_inj (pdats m) defs₀ 𝒱₀ L lv (fun _ _ => rfl) m ρ main (items m) (main_items m)
    (by simp only [items, Pipeline.Seg.pipes_host, Pipeline.Seg.pipes_region, Pipeline.Seg.pipes_nil]; decide) (W7 m)
    ⟨fun _ => .rfl, fun _ => .rfl, fun _ => .rfl, fun _ => .rfl, fun _ => .rfl, fun _ => .rfl, fun _ => .rfl, fun _ => sep_assoc'⟩

end Cert.Kernel.Whole

end
-- ==== Proof.K.Args.lean ====
import proofs.«422586_j33337536151702_2_alg».proof.Proof.K.Vals
import proofs.«422586_j33337536151702_2_alg».proof.Proof.LibSeg

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

theorem W1_of (c : Dev nD) (r : Ref sig .tc) (h : r ∉ hostOps0_W) :
    W1 m c (Proc.devRef .tc r) = W0 m c (Proc.devRef .tc r) :=
  StableHlo.after_of_writes_sub hostOps0 _ hostOps0_writes h

theorem W3_of (c : Dev nD) (r : Ref sig .tc) (h : r ∉ hostOps1_W) :
    W3 m c (Proc.devRef .tc r) = W2 m c (Proc.devRef .tc r) :=
  StableHlo.after_of_writes_sub hostOps1 _ hostOps1_writes h

theorem W7_of (c : Dev nD) (r : Ref sig .tc) (h : r ∉ hostOps4_W) :
    W7 m c (Proc.devRef .tc r) = W6 m c (Proc.devRef .tc r) :=
  StableHlo.after_of_writes_sub hostOps4 _ hostOps4_writes h

theorem W2_keep (c : Dev nD) (b : Ref sig .tc) (h : ∀ w, Pipeline.arrRef spec0 w = b → (cfg0.win w).isOut = false) :
    W2 m c (Proc.devRef .tc b) = W1 m c (Proc.devRef .tc b) :=
  Cert.Seg.withArrays_keep (Reg0.dat (E1 m) c) launch0.win.arr_inj _ (Reg0.A_eq (E1 m) c) b h _

theorem W4_keep (c : Dev nD) (b : Ref sig .tc) (h : ∀ w, Pipeline.arrRef spec1 w = b → (cfg1.win w).isOut = false) :
    W4 m c (Proc.devRef .tc b) = W3 m c (Proc.devRef .tc b) :=
  Cert.Seg.withArrays_keep (Reg1.dat (E3 m) c) launch1.win.arr_inj _ (Reg1.A_eq (E3 m) c) b h _

theorem W5_keep (c : Dev nD) (b : Ref sig .tc) (h : ∀ w, Pipeline.arrRef spec2 w = b → (cfg2.win w).isOut = false) :
    W5 m c (Proc.devRef .tc b) = W4 m c (Proc.devRef .tc b) :=
  Cert.Seg.withArrays_keep (Reg2.dat (E4 m) c) launch2.win.arr_inj _ (Reg2.A_eq (E4 m) c) b h _

theorem W6_keep (c : Dev nD) (b : Ref sig .tc) (h : ∀ w, Pipeline.arrRef spec3 w = b → (cfg3.win w).isOut = false) :
    W6 m c (Proc.devRef .tc b) = W5 m c (Proc.devRef .tc b) :=
  Cert.Seg.withArrays_keep (Reg3.dat (E5 m) c) launch3.win.arr_inj _ (Reg3.A_eq (E5 m) c) b h _

abbrev Kept (b : Ref sig .tc) : Prop :=
  b ∉ hostOps0_W ∧ b ∉ hostOps1_W ∧ b ∉ hostOps4_W
    ∧ (∀ w, Pipeline.arrRef spec0 w = b → (cfg0.win w).isOut = false) ∧ (∀ w, Pipeline.arrRef spec1 w = b → (cfg1.win w).isOut = false)
    ∧ (∀ w, Pipeline.arrRef spec2 w = b → (cfg2.win w).isOut = false) ∧ (∀ w, Pipeline.arrRef spec3 w = b → (cfg3.win w).isOut = false)

theorem kept (c : Dev nD) (b : Ref sig .tc) (h : Kept b) :
    W1 m c (Proc.devRef .tc b) = m ((c : Thread nD τ).loc b) ∧ W3 m c (Proc.devRef .tc b) = m ((c : Thread nD τ).loc b)
      ∧ W4 m c (Proc.devRef .tc b) = m ((c : Thread nD τ).loc b) ∧ W5 m c (Proc.devRef .tc b) = m ((c : Thread nD τ).loc b)
      ∧ W7 m c (Proc.devRef .tc b) = m ((c : Thread nD τ).loc b) := by
  obtain ⟨h0, h1, h4, r0, r1, r2, r3⟩ := h
  have e1 : W1 m c (Proc.devRef .tc b) = m ((c : Thread nD τ).loc b) := W1_of m c b h0
  have e3 := (W3_of m c b h1).trans ((W2_keep m c b r0).trans e1)
  have e4 := (W4_keep m c b r1).trans e3
  have e5 := (W5_keep m c b r2).trans e4
  exact ⟨e1, e3, e4, e5, (W7_of m c b h4).trans ((W6_keep m c b r3).trans e5)⟩

theorem W7_main_arg0 (c : Dev nD) : W7 m c (Proc.devRef .tc main_arg0) = m ((c : Thread nD τ).loc main_arg0) :=
  (kept m c main_arg0 (by decide)).2.2.2.2
theorem W7_main_arg1 (c : Dev nD) : W7 m c (Proc.devRef .tc main_arg1) = m ((c : Thread nD τ).loc main_arg1) :=
  (kept m c main_arg1 (by decide)).2.2.2.2
theorem W7_main_arg2 (c : Dev nD) : W7 m c (Proc.devRef .tc main_arg2) = m ((c : Thread nD τ).loc main_arg2) :=
  (kept m c main_arg2 (by decide)).2.2.2.2
theorem W7_main_arg3 (c : Dev nD) : W7 m c (Proc.devRef .tc main_arg3) = m ((c : Thread nD τ).loc main_arg3) :=
  (kept m c main_arg3 (by decide)).2.2.2.2
theorem W7_main_arg4 (c : Dev nD) : W7 m c (Proc.devRef .tc main_arg4) = m ((c : Thread nD τ).loc main_arg4) :=
  (kept m c main_arg4 (by decide)).2.2.2.2

end Cert.Kernel.Whole

end
-- ==== Proof.KI.Reg0Body.lean ====
import proofs.«422586_j33337536151702_2_alg».proof.Proof.Gen.KernelIdeal.Launch
import proofs.«422586_j33337536151702_2_alg».proof.Proof.Gen.KernelIdeal.Skeleton
import proofs.«422586_j33337536151702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

theorem hz2 : (![0, 0] : Fin 2 → ℕ) = fun _ => 0 := by funext a; fin_cases a <;> rfl
theorem hz3 : (![0, 0, 0] : Fin 3 → ℕ) = fun _ => 0 := by funext a; fin_cases a <;> rfl

theorem rd_whole (S : Shape) {e : EltTy} {off : Fin S.rank → ℕ} (hz : off = fun _ => 0) (inb : ∀ a, off a + S.size a ≤ S.size a)
    (M : Memref sig .tc .vmem S e) (hM : M.IsWhole) (x : S.Idx → Elt F e) :
    View.readAt (Elt F) M.view (Rect.unit off S.size inb).toLoadRect (hM.unread x) = x := by
  rw [View.readAt_eq_ld, hM.read_unread, View.ld_unit_zero hz]

theorem wr_whole (S : Shape) {e : EltTy} {off : Fin S.rank → ℕ} (hz : off = fun _ => 0) (inb : ∀ a, off a + S.size a ≤ S.size a)
    (v : View sig .tc .vmem S e) (f : v.ty.Contents (Elt F)) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

theorem rc_whole (S : Shape) {e : EltTy} {off : Fin S.rank → ℕ} (hz : off = fun _ => 0) (inb : ∀ a, off a + S.size a ≤ S.size a)
    (v : View sig .tc .vmem S e) (w : S.Idx → Elt F e) :
    v.readCov [(⟨Rect.unit off S.size inb, w⟩ : View.Piece (Elt F) S e)] (Rect.unit off S.size inb).toLoadRect = w :=
  View.readCov_unit_zero v hz inb w

theorem owns_unread {sp : Space} {S : Shape} {e : EltTy} (c : Dev nD) {M : Memref sig .tc sp S e} (hM : M.IsWhole) (x : S.Idx → Elt F e) :
    (owns (c : Thread nD τ) M fullShare x : sProp 𝕄) = pointsTo (M.view.loc (c : Thread nD τ)) M.view.set fullShare (hM.unread x) := by
  have h₁ : (owns (c : Thread nD τ) M fullShare x : sProp 𝕄)
      ⊢ (pointsTo (M.view.loc (c : Thread nD τ)) M.view.set fullShare (hM.unread x) : sProp 𝕄) := by
    unfold owns; iintro ⟨%f, %hf, H⟩; obtain rfl := hM.eq_unread hf; iexact H
  have h₂ := owns_intro (Ix := Unit) (Name := ℕ) (U := UR sig nD τ) (Lvl := ℕ) (c : Thread nD τ) M fullShare (hM.unread x)
  rw [hM.read_unread] at h₂
  exact BI.equiv_iff.mp ⟨h₁, h₂⟩

variable (c : Dev nD) (E : Set ℕ) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S1x64 .f32) (harg12 : arg12.IsWhole) (arg13 : Memref sig .tc .vmem S1x64 .f32) (harg13 : arg13.IsWhole)

theorem sound_B (hc0 : ¬cond0 i) (hc1 : ¬cond1 i)
    (x0 x1 : Vec F S1024x1024 .f32) (x2 x3 : Vec F S1024x1 .i32)
    (s0 s1 : Vec F S64x1024 .f32) (s2 s3 : Vec F S1x64 .f32) (K : PUnit → sProp 𝕄) :
    iprop(owns c arg2 fullShare x0
        ∗ owns c arg3 fullShare x1
        ∗ owns c arg4 fullShare x2
        ∗ owns c arg5 fullShare x3
        ∗ owns c arg10 fullShare s0
        ∗ owns c arg11 fullShare s1
        ∗ owns c arg12 fullShare s2
        ∗ owns c arg13 fullShare s3
        ∗ (iprop(owns c arg2 fullShare x0
            ∗ owns c arg3 fullShare x1
            ∗ owns c arg4 fullShare x2
            ∗ owns c arg5 fullShare x3
            ∗ owns c arg10 fullShare (k0_pay13 x2 x0 s0)
            ∗ owns c arg11 fullShare (k0_pay14 x3 x1 s1)
            ∗ owns c arg12 fullShare (k0_pay1 s2 (k0_pay15 x2))
            ∗ owns c arg13 fullShare (k0_pay2 (k0_pay12 x3) s3)) -∗ K ⟨⟩))
      ⊢ wp frame (wpE (defs₀ (F := F)) Variants.none c none) E (cc0__segstat_kernel i arg2 harg2 arg3 harg3 arg4 harg4 arg5 harg5 arg6 harg6 arg7 harg7 arg8 harg8 arg9 harg9 arg10 harg10 arg11 harg11 arg12 harg12 arg13 harg13) K := by
  simp only [cc0__segstat_kernel_eq_skeleton]; unfold cc0__segstat_kernel_skel
  simp only [k0_part1_eq_skeleton]; unfold k0_part1_skel
  rw [owns_unread c harg2, owns_unread c harg3, owns_unread c harg4, owns_unread c harg5,
    owns_unread c harg10 s0, owns_unread c harg11 s1, owns_unread c harg12 s2, owns_unread c harg13 s3]
  unfold owns
  iintro ⟨H0, H1, H2, H3, S0, S1, S2, S3, Hk⟩
  sl_exec (disch := first | exact hc0 | exact hc1)
  sl_step
  iapply Hk
  iframe H0 H1 H2 H3
  isplitl [S0]
  · iexists _; isplitr; swap; iexact S0; ipureintro
    refine (wr_whole S64x1024 hz2 _ _ _ _ _).trans ?_
    rw [rd_whole S1024x1 hz2, rd_whole S1024x1024 hz2, rd_whole S64x1024 hz2]
  isplitl [S1]
  · iexists _; isplitr; swap; iexact S1; ipureintro
    refine (wr_whole S64x1024 hz2 _ _ _ _ _).trans ?_
    rw [rd_whole S1024x1 hz2, rd_whole S1024x1024 hz2, rd_whole S64x1024 hz2]
  isplitl [S2]
  · iexists _; isplitr; swap; iexact S2; ipureintro
    refine (wr_whole S1x64 hz2 _ _ _ _ _).trans ?_
    dsimp only
    rw [rd_whole S1024x1 hz2, rd_whole S1x64 hz2]
  · iexists _; isplitr; swap; iexact S3; ipureintro
    refine (wr_whole S1x64 hz2 _ _ _ _ _).trans ?_
    dsimp only
    rw [rd_whole S1024x1 hz2, rd_whole S1x64 hz2]

theorem sound_A (hc0 : cond0 i) (hc1 : ¬cond1 i)
    (x0 x1 : Vec F S1024x1024 .f32) (x2 x3 : Vec F S1024x1 .i32) (K : PUnit → sProp 𝕄) :
    iprop(owns c arg2 fullShare x0
        ∗ owns c arg3 fullShare x1
        ∗ owns c arg4 fullShare x2
        ∗ owns c arg5 fullShare x3
        ∗ (∃ d, owns c arg10 fullShare d)
        ∗ (∃ d, owns c arg11 fullShare d)
        ∗ (∃ d, owns c arg12 fullShare d)
        ∗ (∃ d, owns c arg13 fullShare d)
        ∗ (iprop(owns c arg2 fullShare x0
            ∗ owns c arg3 fullShare x1
            ∗ owns c arg4 fullShare x2
            ∗ owns c arg5 fullShare x3
            ∗ owns c arg10 fullShare (k0_pay13 x2 x0 k0_pay7)
            ∗ owns c arg11 fullShare (k0_pay14 x3 x1 k0_pay8)
            ∗ owns c arg12 fullShare (k0_pay1 k0_pay9 (k0_pay15 x2))
            ∗ owns c arg13 fullShare (k0_pay2 (k0_pay12 x3) k0_pay10)) -∗ K ⟨⟩))
      ⊢ wp frame (wpE (defs₀ (F := F)) Variants.none c none) E (cc0__segstat_kernel i arg2 harg2 arg3 harg3 arg4 harg4 arg5 harg5 arg6 harg6 arg7 harg7 arg8 harg8 arg9 harg9 arg10 harg10 arg11 harg11 arg12 harg12 arg13 harg13) K := by
  simp only [cc0__segstat_kernel_eq_skeleton]; unfold cc0__segstat_kernel_skel
  simp only [k0_part1_eq_skeleton]; unfold k0_part1_skel
  rw [owns_unread c harg2, owns_unread c harg3, owns_unread c harg4, owns_unread c harg5]
  unfold owns
  iintro ⟨H0, H1, H2, H3, ⟨%d0, %g0, -, S0⟩, ⟨%d1, %g1, -, S1⟩, ⟨%d2, %g2, -, S2⟩, ⟨%d3, %g3, -, S3⟩, Hk⟩
  sl_exec (disch := first | exact hc0 | exact hc1)
  sl_step
  iapply Hk
  iframe H0 H1 H2 H3
  isplitl [S0]
  · iexists _; isplitr; swap; iexact S0; ipureintro
    refine (wr_whole S64x1024 hz2 _ _ _ _ _).trans ?_
    sl_unfold_run_names
    rw [rd_whole S1024x1 hz2, rd_whole S1024x1024 hz2, rc_whole S64x1024 hz2]
  isplitl [S1]
  · iexists _; isplitr; swap; iexact S1; ipureintro
    refine (wr_whole S64x1024 hz2 _ _ _ _ _).trans ?_
    sl_unfold_run_names
    rw [rd_whole S1024x1 hz2, rd_whole S1024x1024 hz2, rc_whole S64x1024 hz2]
  isplitl [S2]
  · iexists _; isplitr; swap; iexact S2; ipureintro
    refine (wr_whole S1x64 hz2 _ _ _ _ _).trans ?_
    dsimp only
    sl_unfold_run_names
    rw [rd_whole S1024x1 hz2, rc_whole S1x64 hz2]
  · iexists _; isplitr; swap; iexact S3; ipureintro
    refine (wr_whole S1x64 hz2 _ _ _ _ _).trans ?_
    dsimp only
    sl_unfold_run_names
    rw [rd_whole S1024x1 hz2, rc_whole S1x64 hz2]

theorem sound_C (hc0 : ¬cond0 i) (hc1 : cond1 i)
    (x0 x1 : Vec F S1024x1024 .f32) (x2 x3 : Vec F S1024x1 .i32)
    (s0 s1 : Vec F S64x1024 .f32) (s2 s3 : Vec F S1x64 .f32) (K : PUnit → sProp 𝕄) :
    iprop(owns c arg2 fullShare x0
        ∗ owns c arg3 fullShare x1
        ∗ owns c arg4 fullShare x2
        ∗ owns c arg5 fullShare x3
        ∗ (∃ d, owns c arg6 fullShare d)
        ∗ (∃ d, owns c arg7 fullShare d)
        ∗ (∃ d, owns c arg8 fullShare d)
        ∗ (∃ d, owns c arg9 fullShare d)
        ∗ owns c arg10 fullShare s0
        ∗ owns c arg11 fullShare s1
        ∗ owns c arg12 fullShare s2
        ∗ owns c arg13 fullShare s3
        ∗ (iprop(owns c arg2 fullShare x0
            ∗ owns c arg3 fullShare x1
            ∗ owns c arg4 fullShare x2
            ∗ owns c arg5 fullShare x3
            ∗ owns c arg6 fullShare (k0_pay3 (k0_pay13 x2 x0 s0))
            ∗ owns c arg7 fullShare (k0_pay4 (k0_pay14 x3 x1 s1))
            ∗ owns c arg8 fullShare (k0_pay5 (k0_pay1 s2 (k0_pay15 x2)))
            ∗ owns c arg9 fullShare (k0_pay6 (k0_pay2 (k0_pay12 x3) s3))
            ∗ owns c arg10 fullShare (k0_pay13 x2 x0 s0)
            ∗ owns c arg11 fullShare (k0_pay14 x3 x1 s1)
            ∗ owns c arg12 fullShare (k0_pay1 s2 (k0_pay15 x2))
            ∗ owns c arg13 fullShare (k0_pay2 (k0_pay12 x3) s3)) -∗ K ⟨⟩))
      ⊢ wp frame (wpE (defs₀ (F := F)) Variants.none c none) E (cc0__segstat_kernel i arg2 harg2 arg3 harg3 arg4 harg4 arg5 harg5 arg6 harg6 arg7 harg7 arg8 harg8 arg9 harg9 arg10 harg10 arg11 harg11 arg12 harg12 arg13 harg13) K := by
  simp only [cc0__segstat_kernel_eq_skeleton]; unfold cc0__segstat_kernel_skel
  simp only [k0_part1_eq_skeleton]; unfold k0_part1_skel
  rw [owns_unread c harg2, owns_unread c harg3, owns_unread c harg4, owns_unread c harg5,
    owns_unread c harg10 s0, owns_unread c harg11 s1, owns_unread c harg12 s2, owns_unread c harg13 s3]
  unfold owns
  iintro ⟨H0, H1, H2, H3, ⟨%e0, %o0, -, O0⟩, ⟨%e1, %o1, -, O1⟩, ⟨%e2, %o2, -, O2⟩, ⟨%e3, %o3, -, O3⟩, S0, S1, S2, S3, Hk⟩
  sl_exec (disch := first | exact hc0 | exact hc1)
  sl_step
  iapply Hk
  iframe H0 H1 H2 H3
  isplitl [O0]
  · iexists _; isplitr; swap; iexact O0; ipureintro
    refine (wr_whole S1x64x1024 hz3 _ _ _ _ _).trans ?_
    sl_unfold_run_names
    rw [rc_whole S64x1024 hz2, rd_whole S1024x1 hz2, rd_whole S1024x1024 hz2, rd_whole S64x1024 hz2]
  isplitl [O1]
  · iexists _; isplitr; swap; iexact O1; ipureintro
    refine (wr_whole S1x64x1024 hz3 _ _ _ _ _).trans ?_
    sl_unfold_run_names
    rw [rc_whole S64x1024 hz2, rd_whole S1024x1 hz2, rd_whole S1024x1024 hz2, rd_whole S64x1024 hz2]
  isplitl [O2]
  · iexists _; isplitr; swap; iexact O2; ipureintro
    refine (wr_whole S1x1x64 hz3 _ _ _ _ _).trans ?_
    sl_unfold_run_names
    rw [rc_whole S1x64 hz2]
    dsimp only
    rw [rd_whole S1024x1 hz2, rd_whole S1x64 hz2]
  isplitl [O3]
  · iexists _; isplitr; swap; iexact O3; ipureintro
    refine (wr_whole S1x1x64 hz3 _ _ _ _ _).trans ?_
    sl_unfold_run_names
    rw [rc_whole S1x64 hz2]
    dsimp only
    rw [rd_whole S1024x1 hz2, rd_whole S1x64 hz2]
  isplitl [S0]
  · iexists _; isplitr; swap; iexact S0; ipureintro
    sl_unfold_run_names
    refine (wr_whole S64x1024 hz2 _ _ _ _ _).trans ?_
    rw [rd_whole S1024x1 hz2, rd_whole S1024x1024 hz2, rd_whole S64x1024 hz2]
  isplitl [S1]
  · iexists _; isplitr; swap; iexact S1; ipureintro
    sl_unfold_run_names
    refine (wr_whole S64x1024 hz2 _ _ _ _ _).trans ?_
    rw [rd_whole S1024x1 hz2, rd_whole S1024x1024 hz2, rd_whole S64x1024 hz2]
  isplitl [S2]
  · iexists _; isplitr; swap; iexact S2; ipureintro
    sl_unfold_run_names
    refine (wr_whole S1x64 hz2 _ _ _ _ _).trans ?_
    dsimp only
    rw [rd_whole S1024x1 hz2, rd_whole S1x64 hz2]
  · iexists _; isplitr; swap; iexact S3; ipureintro
    sl_unfold_run_names
    refine (wr_whole S1x64 hz2 _ _ _ _ _).trans ?_
    dsimp only
    rw [rd_whole S1024x1 hz2, rd_whole S1x64 hz2]

end Cert.KernelIdeal.Reg0

end
-- ==== Proof.KI.Reg0.lean ====
import proofs.«422586_j33337536151702_2_alg».proof.Proof.Gen.KernelIdeal.Launch
import proofs.«422586_j33337536151702_2_alg».proof.Proof.Gen.KernelIdeal.Skeleton
import proofs.«422586_j33337536151702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import proofs.«422586_j33337536151702_2_alg».proof.Proof.KI.Reg0Body

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featS (c : Dev nD) (t : Fin cfg0.N) : Vec F S1024x1024 .f32 := iblk V c 0 t

abbrev featT (c : Dev nD) (t : Fin cfg0.N) : Vec F S1024x1024 .f32 := iblk V c 1 t

abbrev lblS (c : Dev nD) (t : Fin cfg0.N) : Vec F S1024x1 .i32 := iblk V c 2 t

abbrev lblT (c : Dev nD) (t : Fin cfg0.N) : Vec F S1024x1 .i32 := iblk V c 3 t

def accum {α : Type} (z : α) (g : Fin cfg0.N → α → α) : (n : ℕ) → n < cfg0.N → α
  | 0, h => g ⟨0, h⟩ z
  | n + 1, h => g ⟨n + 1, h⟩ (if (n + 1) % 4 = 0 then z else accum z g n (Nat.lt_of_succ_lt h))

theorem accum_first {α : Type} (z : α) (g : Fin cfg0.N → α → α) (t : Fin cfg0.N) (h : t.val % 4 = 0) :
    accum z g t.val t.isLt = g t z := by
  obtain ⟨n, hn⟩ := t
  cases n with
  | zero => rfl
  | succ n => show g _ (if (n + 1) % 4 = 0 then z else _) = _; rw [if_pos h]

theorem accum_next {α : Type} (z : α) (g : Fin cfg0.N → α → α) (t : Fin cfg0.N) (h : ¬t.val % 4 = 0) :
    accum z g t.val t.isLt = g t (accum z g (t.val - 1) (Nat.lt_of_le_of_lt (Nat.sub_le _ _) t.isLt)) := by
  obtain ⟨n, hn⟩ := t
  cases n with
  | zero => exact absurd (Nat.zero_mod _) h
  | succ n => show g _ (if (n + 1) % 4 = 0 then z else _) = _; rw [if_neg h]; rfl

abbrev prev (t : Fin cfg0.N) : Fin cfg0.N := ⟨t.val - 1, Nat.lt_of_le_of_lt (Nat.sub_le _ _) t.isLt⟩

def sumS (c : Dev nD) (t : Fin cfg0.N) : Vec F S64x1024 .f32 :=
  accum (k0_pay7 (F := F)) (fun t s => k0_pay13 (lblS V c t) (featS V c t) s) t.val t.isLt

def sumT (c : Dev nD) (t : Fin cfg0.N) : Vec F S64x1024 .f32 :=
  accum (k0_pay8 (F := F)) (fun t s => k0_pay14 (lblT V c t) (featT V c t) s) t.val t.isLt

def cntS (c : Dev nD) (t : Fin cfg0.N) : Vec F S1x64 .f32 :=
  accum (k0_pay9 (F := F)) (fun t s => k0_pay1 s (k0_pay15 (lblS V c t))) t.val t.isLt

def cntT (c : Dev nD) (t : Fin cfg0.N) : Vec F S1x64 .f32 :=
  accum (k0_pay10 (F := F)) (fun t s => k0_pay2 (k0_pay12 (lblT V c t)) s) t.val t.isLt

theorem sumS_first (c : Dev nD) (t : Fin cfg0.N) (h : t.val % 4 = 0) :
    sumS V c t = k0_pay13 (lblS V c t) (featS V c t) k0_pay7 := accum_first _ _ t h
theorem sumS_next (c : Dev nD) (t : Fin cfg0.N) (h : ¬t.val % 4 = 0) :
    sumS V c t = k0_pay13 (lblS V c t) (featS V c t) (sumS V c (prev t)) := accum_next _ _ t h
theorem sumT_first (c : Dev nD) (t : Fin cfg0.N) (h : t.val % 4 = 0) :
    sumT V c t = k0_pay14 (lblT V c t) (featT V c t) k0_pay8 := accum_first _ _ t h
theorem sumT_next (c : Dev nD) (t : Fin cfg0.N) (h : ¬t.val % 4 = 0) :
    sumT V c t = k0_pay14 (lblT V c t) (featT V c t) (sumT V c (prev t)) := accum_next _ _ t h
theorem cntS_first (c : Dev nD) (t : Fin cfg0.N) (h : t.val % 4 = 0) :
    cntS V c t = k0_pay1 k0_pay9 (k0_pay15 (lblS V c t)) := accum_first _ _ t h
theorem cntS_next (c : Dev nD) (t : Fin cfg0.N) (h : ¬t.val % 4 = 0) :
    cntS V c t = k0_pay1 (cntS V c (prev t)) (k0_pay15 (lblS V c t)) := accum_next _ _ t h
theorem cntT_first (c : Dev nD) (t : Fin cfg0.N) (h : t.val % 4 = 0) :
    cntT V c t = k0_pay2 (k0_pay12 (lblT V c t)) k0_pay10 := accum_first _ _ t h
theorem cntT_next (c : Dev nD) (t : Fin cfg0.N) (h : ¬t.val % 4 = 0) :
    cntT V c t = k0_pay2 (k0_pay12 (lblT V c t)) (cntT V c (prev t)) := accum_next _ _ t h

abbrev scM0 : Memref sig .tc .vmem S64x1024 .f32 := Memref.whole cc0_scratch0
abbrev scM1 : Memref sig .tc .vmem S64x1024 .f32 := Memref.whole cc0_scratch1
abbrev scM2 : Memref sig .tc .vmem S1x64 .f32 := Memref.whole cc0_scratch2
abbrev scM3 : Memref sig .tc .vmem S1x64 .f32 := Memref.whole cc0_scratch3

abbrev restBut (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

theorem PhiA0_eq (c : Dev nD) :
    (Pipeline.ΦA spec0 c : sProp 𝕄)
      = iprop((((∃ d, owns c scM0 fullShare d) ∗ (∃ d, owns c scM1 fullShare d)
            ∗ (∃ d, owns c scM2 fullShare d) ∗ (∃ d, owns c scM3 fullShare d))
          ∗ restBut (F := F) c) ∗ (∃ r, prngReg c r)) := by
  unfold Pipeline.ΦA; rw [scopedRest0_split]; simp only [scM0, scM1, scM2, scM3, owns_whole]; try rfl

def accOwned (c : Dev nD) (t : Fin cfg0.N) : sProp 𝕄 :=
  iprop(((owns c scM0 fullShare (sumS V c t) ∗ owns c scM1 fullShare (sumT V c t)
        ∗ owns c scM2 fullShare (cntS V c t) ∗ owns c scM3 fullShare (cntT V c t))
      ∗ restBut (F := F) c) ∗ (∃ r, prngReg c r))

def PhiS (c : Dev nD) : (n : ℕ) → n ≤ cfg0.N → sProp 𝕄
  | 0, _ => Pipeline.ΦA spec0 c
  | n + 1, hn => accOwned V c ⟨n, hn⟩

theorem PhiS_pos (c : Dev nD) (t : Fin cfg0.N) (hz : t.val ≠ 0) :
    PhiS V c t.val (Nat.le_of_lt t.isLt) = accOwned V c (prev t) := by
  obtain ⟨n, hn⟩ := t
  cases n with
  | zero => exact absurd rfl hz
  | succ n => rfl

theorem PhiS_forget (c : Dev nD) : ∀ (n : ℕ) (h : n ≤ cfg0.N), PhiS V c n h ⊢ (Pipeline.ΦA spec0 c : sProp 𝕄)
  | 0, _ => Idealize.SL.BI.Entails.refl _
  | n + 1, hn => by
    rw [PhiA0_eq]; show accOwned V c ⟨n, hn⟩ ⊢ _; unfold accOwned
    iintro ⟨⟨⟨S0, S1, S2, S3⟩, HR⟩, Hg⟩
    iframe HR Hg
    isplitl [S0]; · iexists _; iexact S0
    isplitl [S1]; · iexists _; iexact S1
    isplitl [S2]; · iexists _; iexact S2
    iexists _; iexact S3

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (sumS V c t)
    | ⟨5, _⟩ => k0_pay4 (sumT V c t)
    | ⟨6, _⟩ => k0_pay5 (cntS V c t)
    | ⟨7, _⟩ => k0_pay6 (cntT V c t)
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = k0_pay3 (sumS V c t) := by dsimp only [dat]
theorem after_5 (c : Dev nD) (t : Fin cfg0.N) : (dat V c).after 5 t = k0_pay4 (sumT V c t) := by dsimp only [dat]
theorem after_6 (c : Dev nD) (t : Fin cfg0.N) : (dat V c).after 6 t = k0_pay5 (cntS V c t) := by dsimp only [dat]
theorem after_7 (c : Dev nD) (t : Fin cfg0.N) : (dat V c).after 7 t = k0_pay6 (cntT V c t) := by dsimp only [dat]

theorem Phi_castSucc (c : Dev nD) (t : Fin cfg0.N) :
    (dat V c).Φ t.castSucc = PhiS V c t.val (Nat.le_of_lt t.isLt) := by
  dsimp only [dat]; simp only [Fin.coe_castSucc]

theorem Phi_succ (c : Dev nD) (t : Fin cfg0.N) : (dat V c).Φ t.succ = accOwned V c t := rfl

theorem out_idle : ∀ w : Fin cfg0.W, 4 ≤ w.val → ∀ t : Fin cfg0.N, ¬t.val % 4 = 3 →
    cfg0.idle w (grid0.coords t) = true ∧ (cfg0.win w).flush t = false := by decide +kernel

theorem out_live : ∀ w : Fin cfg0.W, 4 ≤ w.val → ∀ t : Fin cfg0.N, t.val % 4 = 3 →
    cfg0.idle w (grid0.coords t) = false := by decide +kernel

theorem before_0 (c : Dev nD) (t : Fin cfg0.N) (d) : (dat V c).before 0 t d = iblk V c 0 t :=
  (Dat.before_fetched _ 0 t (fetch0_0 t) d).trans rfl
theorem before_1 (c : Dev nD) (t : Fin cfg0.N) (d) : (dat V c).before 1 t d = iblk V c 1 t :=
  (Dat.before_fetched _ 1 t (fetch0_1 t) d).trans rfl
theorem before_2 (c : Dev nD) (t : Fin cfg0.N) (d) : (dat V c).before 2 t d = iblk V c 2 t :=
  (Dat.before_fetched _ 2 t (fetch0_2 t) d).trans rfl
theorem before_3 (c : Dev nD) (t : Fin cfg0.N) (d) : (dat V c).before 3 t d = iblk V c 3 t :=
  (Dat.before_fetched _ 3 t (fetch0_3 t) d).trans rfl

theorem leaves_live (c : Dev nD) (w : Fin cfg0.W) (t : Fin cfg0.N) (h : cfg0.idle w (grid0.coords t) = false) :
    (dat V c).leavesExact w t = owns c ((cfg0.win w).stage (cfg0.slots t w)) fullShare ((dat V c).after w t) := by
  unfold Dat.leavesExact; rw [h]

theorem leaves_idle (c : Dev nD) (w : Fin cfg0.W) (hw : 4 ≤ w.val) (t : Fin cfg0.N) (h : ¬t.val % 4 = 3) :
    (dat V c).leavesExact w t
      = iprop(∃ d, owns c ((cfg0.win w).stage (cfg0.slots t w)) fullShare ((dat V c).before w t d)) :=
  Dat.leavesExact_idle _ w t (out_idle w hw t h).1 (out_idle w hw t h).2

def bodyPre (c : Dev nD) (t : Fin cfg0.N) : sProp 𝕄 :=
  iprop((dat V c).Φ t.castSucc ∗ (dat V c).owesAt () t.castSucc
    ∗ (∃ d, owns c (st0_0 t) fullShare ((dat V c).before 0 t d))
    ∗ (∃ d, owns c (st0_1 t) fullShare ((dat V c).before 1 t d))
    ∗ (∃ d, owns c (st0_2 t) fullShare ((dat V c).before 2 t d))
    ∗ (∃ d, owns c (st0_3 t) fullShare ((dat V c).before 3 t d))
    ∗ (∃ d, owns c (st0_4 t) fullShare ((dat V c).before 4 t d))
    ∗ (∃ d, owns c (st0_5 t) fullShare ((dat V c).before 5 t d))
    ∗ (∃ d, owns c (st0_6 t) fullShare ((dat V c).before 6 t d))
    ∗ (∃ d, owns c (st0_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl, Phi_succ, Phi_castSucc,
    leaves_live V c 0 t rfl, after_0, leaves_live V c 1 t rfl, after_1, leaves_live V c 2 t rfl, after_2, leaves_live V c 3 t rfl, after_3]
  unfold accOwned
  by_cases h1 : t.val % 4 = 3
  · have h0 : ¬t.val % 4 = 0 := by omega
    rw [PhiS_pos V c t fun e => h0 (by rw [e]), leaves_live V c 4 t (out_live 4 (by decide) t h1), after_4,
      leaves_live V c 5 t (out_live 5 (by decide) t h1), after_5, leaves_live V c 6 t (out_live 6 (by decide) t h1), after_6,
      leaves_live V c 7 t (out_live 7 (by decide) t h1), after_7,
      sumS_next V c t h0, sumT_next V c t h0, cntS_next V c t h0, cntT_next V c t h0]
    unfold accOwned
    iintro ⟨⟨⟨⟨S0, S1, S2, S3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_C c Set.univ (grid0.coords t) _ _ _ _ _ _ _ _ _ _ _ _ _ _ _ _ _ _ _ _ _ _ _ _ (fun h => h0 ((hcond0 t).mp h)) ((hcond1 t).mpr h1)
      (featS V c t) (featT V c t) (lblS V c t) (lblT V c t)
      (sumS V c (prev t)) (sumT V c (prev t)) (cntS V c (prev t)) (cntT V c (prev t)) _)
    iframe H0 H1 H2 H3 S0 S1 S2 S3
    isplitl [H4]; · iexists _; iexact H4
    isplitl [H5]; · iexists _; iexact H5
    isplitl [H6]; · iexists _; iexact H6
    isplitl [H7]; · iexists _; iexact H7
    iintro ⟨H0, H1, H2, H3, H4, H5, H6, H7, S0, S1, S2, S3⟩
    iframe
  · rw [leaves_idle V c 4 (by decide) t h1, leaves_idle V c 5 (by decide) t h1, leaves_idle V c 6 (by decide) t h1,
      leaves_idle V c 7 (by decide) t h1]
    by_cases h0 : t.val % 4 = 0
    · refine (sep_mono_left (PhiS_forget V c _ _)).trans ?_
      rw [PhiA0_eq, sumS_first V c t h0, sumT_first V c t h0, cntS_first V c t h0, cntT_first V c t h0]
      iintro ⟨⟨⟨⟨S0, S1, S2, S3⟩, HR⟩, Hg⟩, Ho, ⟨%d0, H0⟩, ⟨%d1, H1⟩, ⟨%d2, H2⟩, ⟨%d3, H3⟩, H4, H5, H6, H7⟩
      iapply (sound_A c Set.univ (grid0.coords t) _ _ _ _ _ _ _ _ _ _ _ _ _ _ _ _ _ _ _ _ _ _ _ _ ((hcond0 t).mpr h0) (fun h => h1 ((hcond1 t).mp h))
        (featS V c t) (featT V c t) (lblS V c t) (lblT V c t) _)
      iframe H0 H1 H2 H3 S0 S1 S2 S3
      iintro ⟨H0, H1, H2, H3, S0, S1, S2, S3⟩
      iframe
    · rw [PhiS_pos V c t fun e => h0 (by rw [e])]
      unfold accOwned
      rw [sumS_next V c t h0, sumT_next V c t h0, cntS_next V c t h0, cntT_next V c t h0]
      iintro ⟨⟨⟨⟨S0, S1, S2, S3⟩, HR⟩, Hg⟩, Ho, ⟨%d0, H0⟩, ⟨%d1, H1⟩, ⟨%d2, H2⟩, ⟨%d3, H3⟩, H4, H5, H6, H7⟩
      iapply (sound_B c Set.univ (grid0.coords t) _ _ _ _ _ _ _ _ _ _ _ _ _ _ _ _ _ _ _ _ _ _ _ _ (fun h => h0 ((hcond0 t).mp h)) (fun h => h1 ((hcond1 t).mp h))
        (featS V c t) (featT V c t) (lblS V c t) (lblT V c t)
        (sumS V c (prev t)) (sumT V c (prev t)) (cntS V c (prev t)) (cntT V c (prev t)) _)
      iframe H0 H1 H2 H3 S0 S1 S2 S3
      iintro ⟨H0, H1, H2, H3, S0, S1, S2, S3⟩
      iframe

theorem body_obligation (c : Dev nD) : BodyObligation (dat (F := F) V c) (defs₀ (F := F)) Variants.none () Set.univ := fun t => by
  rw [bigSep_W0, bigSep_W0]
  exact sound_body V c t

theorem hin (c : Dev nD) : (Pipeline.ΦA spec0 c : sProp 𝕄) ⊢ (dat V c).Φ 0 :=
  Idealize.SL.BI.Entails.refl _

theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl]
  exact PhiS_forget V c _ _

end Cert.KernelIdeal.Reg0

end
-- ==== Proof.KI.Reg1.lean ====
import proofs.«422586_j33337536151702_2_alg».proof.Proof.Gen.KernelIdeal.Launch
import proofs.«422586_j33337536151702_2_alg».proof.Proof.Gen.KernelIdeal.Skeleton
import proofs.«422586_j33337536151702_2_alg».proof.Proof.Gen.KernelIdeal.Points
import proofs.«422586_j33337536151702_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.LibRegion
open Idealize.ShloMosaic.Pipeline (Dat Cfg Window BodyObligation cellOf)

variable {F : FTy → Type} [FloatOps F]

local notation "𝕄" => MT nD τ sig Unit (Elt F) ℕ (UR sig nD τ) ℕ

abbrev isFirst (i : grid1.Coords) : Prop := (Scalar.cmpi .ne (Scalar.extui (Scalar.cmpi .eq (BitVec.ofNat 32 (i 1).val) 0#32)) 0#32) = 1#1

abbrev isLast (i : grid1.Coords) : Prop := k1_cond2 i = 1#1

theorem hfirst : ∀ t : Fin cfg1.N, isFirst (grid1.coords t) ↔ t.val % 2 = 0 :=
  (by decide +kernel : ∀ t : Fin grid1.N, _)

theorem hlast : ∀ t : Fin cfg1.N, isLast (grid1.coords t) ↔ t.val % 2 = 1 :=
  (by decide +kernel : ∀ t : Fin grid1.N, _)

def acc0 : Vec F S1x128 .f32 := k1_pay3 (F := F)

def step (x : Vec F S2048x1024 .f32) (l : Vec F S2048x1 .i32) (m : Vec F S1024x192 .f32) (acc : Vec F S1x128 .f32) : Vec F S1x128 .f32 :=
  k1_pay1 (k1_pay9 (k1_pay5 x m) (k1_pay6 x m)) (k1_pay10 (k1_pay5 x m) (k1_pay7 x m)) (k1_pay11 (k1_pay6 x m) (k1_pay7 x m))
    (k1_pay12 (k1_pay5 x m) l) (Scalar.ofBits .f32 0x00000000#32) acc

def outOf (acc : Vec F S1x128 .f32) : Vec F S1x1x128 .f32 := k1_pay2 acc

section Run

variable (c : Dev nD) (i : grid1.Coords)
    (arg2 : Memref sig .tc .vmem S2048x1024 .f32) (harg2 : arg2.IsWhole) (arg3 : Memref sig .tc .vmem S2048x1 .i32) (harg3 : arg3.IsWhole)
    (arg4 : Memref sig .tc .vmem S1024x192 .f32) (harg4 : arg4.IsWhole) (arg5 : Memref sig .tc .vmem S1x1x128 .f32) (harg5 : arg5.IsWhole)
    (arg6 : Memref sig .tc .vmem S1x128 .f32) (harg6 : arg6.IsWhole)
    (x : Vec F S2048x1024 .f32) (l : Vec F S2048x1 .i32) (m : Vec F S1024x192 .f32)

set_option maxHeartbeats 1600000 in

-- a first point of a pair restarts the accumulator and leaves the output block alone
theorem run_first (hc0 : isFirst i) (hc1 : ¬isLast i) (o : Vec F S1x1x128 .f32) (E : Set ℕ) (K : PUnit → sProp 𝕄) :
    (iprop(owns (c : Thread nD τ) arg2 fullShare x ∗ owns (c : Thread nD τ) arg3 fullShare l ∗ owns (c : Thread nD τ) arg4 fullShare m
        ∗ owns (c : Thread nD τ) arg5 fullShare o ∗ (∃ a, owns (c : Thread nD τ) arg6 fullShare a)
        ∗ (iprop(owns (c : Thread nD τ) arg2 fullShare x ∗ owns (c : Thread nD τ) arg3 fullShare l ∗ owns (c : Thread nD τ) arg4 fullShare m
            ∗ owns (c : Thread nD τ) arg5 fullShare o ∗ owns (c : Thread nD τ) arg6 fullShare (step x l m acc0)) -∗ K ⟨⟩)) : sProp 𝕄)
      ⊢ wp frame (wpE (defs₀ (F := F)) Variants.none c none) E (cc1__tpn_labeled_kernel i arg2 harg2 arg3 harg3 arg4 harg4 arg5 harg5 arg6 harg6) K := by
  simp only [cc1__tpn_labeled_kernel_eq_skeleton]; unfold cc1__tpn_labeled_kernel_skel
  rw [owns_unread _ harg2, owns_unread _ harg3, owns_unread _ harg4, owns_unread _ harg5]
  unfold owns
  iintro ⟨H2, H3, H4, H5, ⟨%a, %f6, -, H6⟩, Hk⟩
  sl_exec (disch := first | exact hc0 | exact hc1)
  sl_step
  iapply Hk
  iframe H2 H3 H4 H5
  iexists _; isplitr
  swap; · iexact H6
  ipureintro
  refine (read_writes_whole_last (S := S1x128) _ _ hz2 _ _ _).trans ?_
  sl_unfold_words
  unfold step acc0
  simp only [View.readAt_eq_ld, harg2.read_unread, harg3.read_unread, harg4.read_unread, View.ld_unit_zero (S := S2048x1024) hz2,
    View.ld_unit_zero (S := S2048x1) hz2, View.ld_unit_zero (S := S1024x192) hz2, View.readCov_unit_zero (S := S1x128) _ hz2]
  try rfl

set_option maxHeartbeats 1600000 in

-- a last point of a pair adds its tile to the accumulator and writes the output block from it
theorem run_last (hc0 : ¬isFirst i) (hc1 : isLast i) (acc : Vec F S1x128 .f32) (E : Set ℕ) (K : PUnit → sProp 𝕄) :
    (iprop(owns (c : Thread nD τ) arg2 fullShare x ∗ owns (c : Thread nD τ) arg3 fullShare l ∗ owns (c : Thread nD τ) arg4 fullShare m
        ∗ (∃ o, owns (c : Thread nD τ) arg5 fullShare o) ∗ owns (c : Thread nD τ) arg6 fullShare acc
        ∗ (iprop(owns (c : Thread nD τ) arg2 fullShare x ∗ owns (c : Thread nD τ) arg3 fullShare l ∗ owns (c : Thread nD τ) arg4 fullShare m
            ∗ owns (c : Thread nD τ) arg5 fullShare (outOf (step x l m acc)) ∗ owns (c : Thread nD τ) arg6 fullShare (step x l m acc)) -∗ K ⟨⟩)) : sProp 𝕄)
      ⊢ wp frame (wpE (defs₀ (F := F)) Variants.none c none) E (cc1__tpn_labeled_kernel i arg2 harg2 arg3 harg3 arg4 harg4 arg5 harg5 arg6 harg6) K := by
  simp only [cc1__tpn_labeled_kernel_eq_skeleton]; unfold cc1__tpn_labeled_kernel_skel
  rw [owns_unread _ harg2, owns_unread _ harg3, owns_unread _ harg4, owns_unread _ harg6 _ acc]
  unfold owns
  iintro ⟨H2, H3, H4, ⟨%o, %f5, -, H5⟩, H6, Hk⟩
  sl_exec (disch := first | exact hc0 | exact hc1)
  sl_step
  iapply Hk
  iframe H2 H3 H4
  isplitl [H5] <;> (iexists _; isplitr; swap)
  · iexact H5
  · ipureintro
    refine (read_writes_whole_last (S := S1x1x128) _ _ hz3 _ _ _).trans ?_
    sl_unfold_words
    unfold outOf step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2, View.readCov_unit_zero (S := S1x128) _ hz2]
    try rfl
  · iexact H6
  · ipureintro
    refine (read_writes_whole_last (S := S1x128) _ _ hz2 _ _ _).trans ?_
    sl_unfold_words
    unfold step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2]
    try rfl

end Run

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk (c : Dev nD) (t : Fin cfg1.N) : Vec F S2048x1024 .f32 := iblk V c 0 t
abbrev lblk (c : Dev nD) (t : Fin cfg1.N) : Vec F S2048x1 .i32 := iblk V c 1 t
abbrev mblk (c : Dev nD) (t : Fin cfg1.N) : Vec F S1024x192 .f32 := iblk V c 2 t

-- the accumulator after point n: one step from acc0 at the first point of a pair, two at its last
def accAt (c : Dev nD) (n : ℕ) (h : n < cfg1.N) : Vec F S1x128 .f32 :=
  step (xblk V c ⟨n, h⟩) (lblk V c ⟨n, h⟩) (mblk V c ⟨n, h⟩) (if n % 2 = 0 then acc0 else
    step (xblk V c ⟨n - 1, by omega⟩) (lblk V c ⟨n - 1, by omega⟩) (mblk V c ⟨n - 1, by omega⟩) acc0)

theorem accAt_first (c : Dev nD) (t : Fin cfg1.N) (h0 : t.val % 2 = 0) :
    accAt V c t.val t.isLt = step (xblk V c t) (lblk V c t) (mblk V c t) acc0 := by
  unfold accAt; rw [if_pos h0]

theorem accAt_later (c : Dev nD) (t : Fin cfg1.N) (h0 : ¬t.val % 2 = 0) :
    accAt V c t.val t.isLt = step (xblk V c t) (lblk V c t) (mblk V c t)
      (accAt V c (t.val - 1) (Nat.lt_of_le_of_lt (Nat.sub_le _ _) t.isLt)) := by
  unfold accAt; rw [if_neg h0, if_pos (by omega)]

abbrev scM : Memref sig .tc .vmem S1x128 .f32 := Memref.whole cc1_scratch0

abbrev restOf (c : Dev nD) : sProp 𝕄 :=
  iprop(Pipeline.scopedRestBut (Ix := Unit) (Name := ℕ) (U := UR sig nD τ) (Lvl := ℕ) (Val := Elt F) spec1 c [cc1_scratch0] ∗ (∃ r, prngReg c r))

def PhiS (c : Dev nD) : (n : ℕ) → n ≤ cfg1.N → sProp 𝕄
  | 0, _ => Pipeline.ΦA spec1 c
  | n + 1, hn => iprop(owns (c : Thread nD τ) scM fullShare (accAt V c n hn) ∗ restOf c)

theorem PhiS_pos (c : Dev nD) (n : ℕ) (h : n ≤ cfg1.N) (hz : n ≠ 0) :
    PhiS V c n h = iprop(owns (c : Thread nD τ) scM fullShare (accAt V c (n - 1) (by omega)) ∗ restOf c) := by
  cases n with
  | zero => exact absurd rfl hz
  | succ n => rfl

theorem PhiA_eq (c : Dev nD) :
    (Pipeline.ΦA spec1 c : sProp 𝕄) = iprop((∃ a, owns (c : Thread nD τ) scM fullShare a) ∗ restOf c) := by
  unfold Pipeline.ΦA; rw [scopedRest1_split]; simp only [scM, owns_whole]
  exact Idealize.SL.BI.sep_assoc.antisymm Idealize.SL.BI.sep_assoc'

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outOf (accAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]

theorem Phi_castSucc (c : Dev nD) (t : Fin cfg1.N) : (dat V c).Φ t.castSucc = PhiS V c t.val (Nat.le_of_lt t.isLt) := by
  dsimp only [dat]; simp only [Fin.coe_castSucc]

theorem Phi_some (c : Dev nD) (t : Fin cfg1.N) :
    (dat V c).Φ t.castSucc ⊢ iprop((∃ a, owns (c : Thread nD τ) scM fullShare a) ∗ restOf c) := by
  rw [Phi_castSucc]
  by_cases hz : t.val = 0
  · rw [show PhiS V c t.val (Nat.le_of_lt t.isLt) = Pipeline.ΦA spec1 c by obtain ⟨n, hn⟩ := t; subst hz; rfl, PhiA_eq]
  · rw [PhiS_pos V c _ _ hz]
    iintro ⟨HS, HR⟩; iframe HR; iexists _; iexact HS

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl

theorem idle3_first : ∀ t : Fin cfg1.N, t.val % 2 = 0 → cfg1.idle 3 (grid1.coords t) = true :=
  (by decide +kernel : ∀ t : Fin grid1.N, _)
theorem live3_last : ∀ t : Fin cfg1.N, ¬t.val % 2 = 0 → cfg1.idle 3 (grid1.coords t) = false :=
  (by decide +kernel : ∀ t : Fin grid1.N, _)
theorem noflush3_first (t : Fin cfg1.N) (h0 : t.val % 2 = 0) : (cfg1.win 3).flush t = false := by
  cases hf : (cfg1.win 3).flush t
  · rfl
  · have := (flush1_3 t).mp hf; omega

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((owns (c : Thread nD τ) scM fullShare (accAt V c t.val t.isLt) ∗ restOf c) ∗ (dat V c).owesAt () t.castSucc
    ∗ owns (c : Thread nD τ) (st1_0 t) fullShare (iblk V c 0 t) ∗ owns (c : Thread nD τ) (st1_1 t) fullShare (iblk V c 1 t)
    ∗ owns (c : Thread nD τ) (st1_2 t) fullShare (iblk V c 2 t) ∗ (dat V c).leavesExact 3 t)

set_option maxHeartbeats 1600000 in

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  by_cases h0 : t.val % 2 = 0
  · rw [Dat.leavesExact_idle (dat V c) 3 t (idle3_first t h0) (noflush3_first t h0), accAt_first V c t h0]
    iintro ⟨HΦ, Ho, ⟨%d0, H0⟩, ⟨%d1, H1⟩, ⟨%d2, H2⟩, ⟨%d3, H3⟩⟩
    icases (Phi_some V c t) $$ HΦ with ⟨HS, HR⟩
    iapply (run_first c (grid1.coords t) _ _ _ _ _ _ _ _ scM (Memref.isWhole_whole _) (xblk V c t) (lblk V c t) (mblk V c t)
        ((hfirst t).mpr h0) (fun h => by have := (hlast t).mp h; omega) ((dat V c).before 3 t d3) Set.univ _)
    iframe H0 H1 H2 H3 HS
    iintro ⟨H0, H1, H2, H3, HS⟩
    iframe HS HR Ho H0 H1 H2
    iexists _; iexact H3
  · have hz : t.val ≠ 0 := fun e => h0 (by rw [e])
    rw [show (dat V c).leavesExact 3 t = owns (c : Thread nD τ) (st1_3 t) fullShare (outOf (accAt V c t.val t.isLt)) from by
      unfold Dat.leavesExact; rw [live3_last t h0]; rfl, accAt_later V c t h0, Phi_castSucc, PhiS_pos V c _ _ hz]
    iintro ⟨⟨HS, HR⟩, Ho, ⟨%d0, H0⟩, ⟨%d1, H1⟩, ⟨%d2, H2⟩, ⟨%d3, H3⟩⟩
    iapply (run_last c (grid1.coords t) _ _ _ _ _ _ _ _ scM (Memref.isWhole_whole _) (xblk V c t) (lblk V c t) (mblk V c t)
        (fun h => h0 ((hfirst t).mp h)) ((hlast t).mpr (by omega)) (accAt V c (t.val - 1) (Nat.lt_of_le_of_lt (Nat.sub_le _ _) t.isLt)) Set.univ _)
    iframe H0 H1 H2 HS
    isplitl [H3]; · iexists _; iexact H3
    iintro ⟨H0, H1, H2, H3, HS⟩
    iframe HS HR Ho H0 H1 H2
    iexact H3

theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 :=
  Entails.of_eq (show Pipeline.ΦA spec1 c = PhiS V c 0 (Nat.zero_le _) from rfl)

theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 4 := N_1; omega), PhiA_eq]
  iintro ⟨HS, HR⟩; iframe HR; iexists _; iexact HS

end Cert.KernelIdeal.Reg1

end
-- ==== Proof.KI.Reg2.lean ====
import proofs.«422586_j33337536151702_2_alg».proof.Proof.Gen.KernelIdeal.Launch
import proofs.«422586_j33337536151702_2_alg».proof.Proof.Gen.KernelIdeal.Skeleton
import proofs.«422586_j33337536151702_2_alg».proof.Proof.Gen.KernelIdeal.Points
import proofs.«422586_j33337536151702_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.LibRegion
open Idealize.ShloMosaic.Pipeline (Dat Cfg Window BodyObligation cellOf)

variable {F : FTy → Type} [FloatOps F]

local notation "𝕄" => MT nD τ sig Unit (Elt F) ℕ (UR sig nD τ) ℕ

abbrev isFirst (i : grid2.Coords) : Prop := (Scalar.cmpi .ne (Scalar.extui (Scalar.cmpi .eq (BitVec.ofNat 32 (i 1).val) 0#32)) 0#32) = 1#1

abbrev isLast (i : grid2.Coords) : Prop := k2_cond2 i = 1#1

theorem hfirst : ∀ t : Fin cfg2.N, isFirst (grid2.coords t) ↔ t.val % 2 = 0 :=
  (by decide +kernel : ∀ t : Fin grid2.N, _)

theorem hlast : ∀ t : Fin cfg2.N, isLast (grid2.coords t) ↔ t.val % 2 = 1 :=
  (by decide +kernel : ∀ t : Fin grid2.N, _)

def acc0 : Vec F S1x128 .f32 := k2_pay3 (F := F)

def step (x : Vec F S2048x1024 .f32) (l : Vec F S2048x1 .i32) (m : Vec F S1024x192 .f32) (acc : Vec F S1x128 .f32) : Vec F S1x128 .f32 :=
  k2_pay1 (k2_pay9 (k2_pay5 x m) (k2_pay6 x m)) (k2_pay10 (k2_pay5 x m) (k2_pay7 x m)) (k2_pay11 (k2_pay6 x m) (k2_pay7 x m))
    (k2_pay12 (k2_pay6 x m) l) (Scalar.ofBits .f32 0x00000000#32) acc

def outOf (acc : Vec F S1x128 .f32) : Vec F S1x1x128 .f32 := k2_pay2 acc

section Run

variable (c : Dev nD) (i : grid2.Coords)
    (arg2 : Memref sig .tc .vmem S2048x1024 .f32) (harg2 : arg2.IsWhole) (arg3 : Memref sig .tc .vmem S2048x1 .i32) (harg3 : arg3.IsWhole)
    (arg4 : Memref sig .tc .vmem S1024x192 .f32) (harg4 : arg4.IsWhole) (arg5 : Memref sig .tc .vmem S1x1x128 .f32) (harg5 : arg5.IsWhole)
    (arg6 : Memref sig .tc .vmem S1x128 .f32) (harg6 : arg6.IsWhole)
    (x : Vec F S2048x1024 .f32) (l : Vec F S2048x1 .i32) (m : Vec F S1024x192 .f32)

set_option maxHeartbeats 1600000 in

-- a first point of a pair restarts the accumulator and leaves the output block alone
theorem run_first (hc0 : isFirst i) (hc1 : ¬isLast i) (o : Vec F S1x1x128 .f32) (E : Set ℕ) (K : PUnit → sProp 𝕄) :
    (iprop(owns (c : Thread nD τ) arg2 fullShare x ∗ owns (c : Thread nD τ) arg3 fullShare l ∗ owns (c : Thread nD τ) arg4 fullShare m
        ∗ owns (c : Thread nD τ) arg5 fullShare o ∗ (∃ a, owns (c : Thread nD τ) arg6 fullShare a)
        ∗ (iprop(owns (c : Thread nD τ) arg2 fullShare x ∗ owns (c : Thread nD τ) arg3 fullShare l ∗ owns (c : Thread nD τ) arg4 fullShare m
            ∗ owns (c : Thread nD τ) arg5 fullShare o ∗ owns (c : Thread nD τ) arg6 fullShare (step x l m acc0)) -∗ K ⟨⟩)) : sProp 𝕄)
      ⊢ wp frame (wpE (defs₀ (F := F)) Variants.none c none) E (cc2__tpn_labeled_kernel i arg2 harg2 arg3 harg3 arg4 harg4 arg5 harg5 arg6 harg6) K := by
  simp only [cc2__tpn_labeled_kernel_eq_skeleton]; unfold cc2__tpn_labeled_kernel_skel
  rw [owns_unread _ harg2, owns_unread _ harg3, owns_unread _ harg4, owns_unread _ harg5]
  unfold owns
  iintro ⟨H2, H3, H4, H5, ⟨%a, %f6, -, H6⟩, Hk⟩
  sl_exec (disch := first | exact hc0 | exact hc1)
  sl_step
  iapply Hk
  iframe H2 H3 H4 H5
  iexists _; isplitr
  swap; · iexact H6
  ipureintro
  refine (read_writes_whole_last (S := S1x128) _ _ hz2 _ _ _).trans ?_
  sl_unfold_words
  unfold step acc0
  simp only [View.readAt_eq_ld, harg2.read_unread, harg3.read_unread, harg4.read_unread, View.ld_unit_zero (S := S2048x1024) hz2,
    View.ld_unit_zero (S := S2048x1) hz2, View.ld_unit_zero (S := S1024x192) hz2, View.readCov_unit_zero (S := S1x128) _ hz2]
  try rfl

set_option maxHeartbeats 1600000 in

-- a last point of a pair adds its tile to the accumulator and writes the output block from it
theorem run_last (hc0 : ¬isFirst i) (hc1 : isLast i) (acc : Vec F S1x128 .f32) (E : Set ℕ) (K : PUnit → sProp 𝕄) :
    (iprop(owns (c : Thread nD τ) arg2 fullShare x ∗ owns (c : Thread nD τ) arg3 fullShare l ∗ owns (c : Thread nD τ) arg4 fullShare m
        ∗ (∃ o, owns (c : Thread nD τ) arg5 fullShare o) ∗ owns (c : Thread nD τ) arg6 fullShare acc
        ∗ (iprop(owns (c : Thread nD τ) arg2 fullShare x ∗ owns (c : Thread nD τ) arg3 fullShare l ∗ owns (c : Thread nD τ) arg4 fullShare m
            ∗ owns (c : Thread nD τ) arg5 fullShare (outOf (step x l m acc)) ∗ owns (c : Thread nD τ) arg6 fullShare (step x l m acc)) -∗ K ⟨⟩)) : sProp 𝕄)
      ⊢ wp frame (wpE (defs₀ (F := F)) Variants.none c none) E (cc2__tpn_labeled_kernel i arg2 harg2 arg3 harg3 arg4 harg4 arg5 harg5 arg6 harg6) K := by
  simp only [cc2__tpn_labeled_kernel_eq_skeleton]; unfold cc2__tpn_labeled_kernel_skel
  rw [owns_unread _ harg2, owns_unread _ harg3, owns_unread _ harg4, owns_unread _ harg6 _ acc]
  unfold owns
  iintro ⟨H2, H3, H4, ⟨%o, %f5, -, H5⟩, H6, Hk⟩
  sl_exec (disch := first | exact hc0 | exact hc1)
  sl_step
  iapply Hk
  iframe H2 H3 H4
  isplitl [H5] <;> (iexists _; isplitr; swap)
  · iexact H5
  · ipureintro
    refine (read_writes_whole_last (S := S1x1x128) _ _ hz3 _ _ _).trans ?_
    sl_unfold_words
    unfold outOf step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2, View.readCov_unit_zero (S := S1x128) _ hz2]
    try rfl
  · iexact H6
  · ipureintro
    refine (read_writes_whole_last (S := S1x128) _ _ hz2 _ _ _).trans ?_
    sl_unfold_words
    unfold step
    simp only [View.readAt_eq_ld, harg2.read_unread, harg3.read_unread, harg4.read_unread, harg6.read_unread, View.ld_unit_zero (S := S2048x1024) hz2,
      View.ld_unit_zero (S := S2048x1) hz2, View.ld_unit_zero (S := S1024x192) hz2, View.ld_unit_zero (S := S1x128) hz2]
    try rfl

end Run

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk (c : Dev nD) (t : Fin cfg2.N) : Vec F S2048x1024 .f32 := iblk V c 0 t
abbrev lblk (c : Dev nD) (t : Fin cfg2.N) : Vec F S2048x1 .i32 := iblk V c 1 t
abbrev mblk (c : Dev nD) (t : Fin cfg2.N) : Vec F S1024x192 .f32 := iblk V c 2 t

-- the accumulator after point n: one step from acc0 at the first point of a pair, two at its last
def accAt (c : Dev nD) (n : ℕ) (h : n < cfg2.N) : Vec F S1x128 .f32 :=
  step (xblk V c ⟨n, h⟩) (lblk V c ⟨n, h⟩) (mblk V c ⟨n, h⟩) (if n % 2 = 0 then acc0 else
    step (xblk V c ⟨n - 1, by omega⟩) (lblk V c ⟨n - 1, by omega⟩) (mblk V c ⟨n - 1, by omega⟩) acc0)

theorem accAt_first (c : Dev nD) (t : Fin cfg2.N) (h0 : t.val % 2 = 0) :
    accAt V c t.val t.isLt = step (xblk V c t) (lblk V c t) (mblk V c t) acc0 := by
  unfold accAt; rw [if_pos h0]

theorem accAt_later (c : Dev nD) (t : Fin cfg2.N) (h0 : ¬t.val % 2 = 0) :
    accAt V c t.val t.isLt = step (xblk V c t) (lblk V c t) (mblk V c t)
      (accAt V c (t.val - 1) (Nat.lt_of_le_of_lt (Nat.sub_le _ _) t.isLt)) := by
  unfold accAt; rw [if_neg h0, if_pos (by omega)]

abbrev scM : Memref sig .tc .vmem S1x128 .f32 := Memref.whole cc2_scratch0

abbrev restOf (c : Dev nD) : sProp 𝕄 :=
  iprop(Pipeline.scopedRestBut (Ix := Unit) (Name := ℕ) (U := UR sig nD τ) (Lvl := ℕ) (Val := Elt F) spec2 c [cc2_scratch0] ∗ (∃ r, prngReg c r))

def PhiS (c : Dev nD) : (n : ℕ) → n ≤ cfg2.N → sProp 𝕄
  | 0, _ => Pipeline.ΦA spec2 c
  | n + 1, hn => iprop(owns (c : Thread nD τ) scM fullShare (accAt V c n hn) ∗ restOf c)

theorem PhiS_pos (c : Dev nD) (n : ℕ) (h : n ≤ cfg2.N) (hz : n ≠ 0) :
    PhiS V c n h = iprop(owns (c : Thread nD τ) scM fullShare (accAt V c (n - 1) (by omega)) ∗ restOf c) := by
  cases n with
  | zero => exact absurd rfl hz
  | succ n => rfl

theorem PhiA_eq (c : Dev nD) :
    (Pipeline.ΦA spec2 c : sProp 𝕄) = iprop((∃ a, owns (c : Thread nD τ) scM fullShare a) ∗ restOf c) := by
  unfold Pipeline.ΦA; rw [scopedRest2_split]; simp only [scM, owns_whole]
  exact Idealize.SL.BI.sep_assoc.antisymm Idealize.SL.BI.sep_assoc'

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outOf (accAt V c t.val t.isLt)
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]

theorem Phi_castSucc (c : Dev nD) (t : Fin cfg2.N) : (dat V c).Φ t.castSucc = PhiS V c t.val (Nat.le_of_lt t.isLt) := by
  dsimp only [dat]; simp only [Fin.coe_castSucc]

theorem Phi_some (c : Dev nD) (t : Fin cfg2.N) :
    (dat V c).Φ t.castSucc ⊢ iprop((∃ a, owns (c : Thread nD τ) scM fullShare a) ∗ restOf c) := by
  rw [Phi_castSucc]
  by_cases hz : t.val = 0
  · rw [show PhiS V c t.val (Nat.le_of_lt t.isLt) = Pipeline.ΦA spec2 c by obtain ⟨n, hn⟩ := t; subst hz; rfl, PhiA_eq]
  · rw [PhiS_pos V c _ _ hz]
    iintro ⟨HS, HR⟩; iframe HR; iexists _; iexact HS

theorem before_0 (c : Dev nD) (t : Fin cfg2.N) (d) : (dat V c).before 0 t d = iblk V c 0 t :=
  ((dat V c).before_in_eq_fetched 0 rfl (fun _ => rfl) (fun _ _ _ => rfl) (fun _ => rfl) t d).trans rfl
theorem before_1 (c : Dev nD) (t : Fin cfg2.N) (d) : (dat V c).before 1 t d = iblk V c 1 t :=
  ((dat V c).before_in_eq_fetched 1 rfl (fun _ => rfl) (fun _ _ _ => rfl) (fun _ => rfl) t d).trans rfl
theorem before_2 (c : Dev nD) (t : Fin cfg2.N) (d) : (dat V c).before 2 t d = iblk V c 2 t :=
  ((dat V c).before_in_eq_fetched 2 rfl (fun _ => rfl) (fun _ _ _ => rfl) (fun _ => rfl) t d).trans rfl

theorem idle3_first : ∀ t : Fin cfg2.N, t.val % 2 = 0 → cfg2.idle 3 (grid2.coords t) = true :=
  (by decide +kernel : ∀ t : Fin grid2.N, _)
theorem live3_last : ∀ t : Fin cfg2.N, ¬t.val % 2 = 0 → cfg2.idle 3 (grid2.coords t) = false :=
  (by decide +kernel : ∀ t : Fin grid2.N, _)
theorem noflush3_first (t : Fin cfg2.N) (h0 : t.val % 2 = 0) : (cfg2.win 3).flush t = false := by
  cases hf : (cfg2.win 3).flush t
  · rfl
  · have := (flush2_3 t).mp hf; omega

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((owns (c : Thread nD τ) scM fullShare (accAt V c t.val t.isLt) ∗ restOf c) ∗ (dat V c).owesAt () t.castSucc
    ∗ owns (c : Thread nD τ) (st2_0 t) fullShare (iblk V c 0 t) ∗ owns (c : Thread nD τ) (st2_1 t) fullShare (iblk V c 1 t)
    ∗ owns (c : Thread nD τ) (st2_2 t) fullShare (iblk V c 2 t) ∗ (dat V c).leavesExact 3 t)

set_option maxHeartbeats 1600000 in

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  by_cases h0 : t.val % 2 = 0
  · rw [Dat.leavesExact_idle (dat V c) 3 t (idle3_first t h0) (noflush3_first t h0), accAt_first V c t h0]
    iintro ⟨HΦ, Ho, ⟨%d0, H0⟩, ⟨%d1, H1⟩, ⟨%d2, H2⟩, ⟨%d3, H3⟩⟩
    icases (Phi_some V c t) $$ HΦ with ⟨HS, HR⟩
    iapply (run_first c (grid2.coords t) _ _ _ _ _ _ _ _ scM (Memref.isWhole_whole _) (xblk V c t) (lblk V c t) (mblk V c t)
        ((hfirst t).mpr h0) (fun h => by have := (hlast t).mp h; omega) ((dat V c).before 3 t d3) Set.univ _)
    iframe H0 H1 H2 H3 HS
    iintro ⟨H0, H1, H2, H3, HS⟩
    iframe HS HR Ho H0 H1 H2
    iexists _; iexact H3
  · have hz : t.val ≠ 0 := fun e => h0 (by rw [e])
    rw [show (dat V c).leavesExact 3 t = owns (c : Thread nD τ) (st2_3 t) fullShare (outOf (accAt V c t.val t.isLt)) from by
      unfold Dat.leavesExact; rw [live3_last t h0]; rfl, accAt_later V c t h0, Phi_castSucc, PhiS_pos V c _ _ hz]
    iintro ⟨⟨HS, HR⟩, Ho, ⟨%d0, H0⟩, ⟨%d1, H1⟩, ⟨%d2, H2⟩, ⟨%d3, H3⟩⟩
    iapply (run_last c (grid2.coords t) _ _ _ _ _ _ _ _ scM (Memref.isWhole_whole _) (xblk V c t) (lblk V c t) (mblk V c t)
        (fun h => h0 ((hfirst t).mp h)) ((hlast t).mpr (by omega)) (accAt V c (t.val - 1) (Nat.lt_of_le_of_lt (Nat.sub_le _ _) t.isLt)) Set.univ _)
    iframe H0 H1 H2 HS
    isplitl [H3]; · iexists _; iexact H3
    iintro ⟨H0, H1, H2, H3, HS⟩
    iframe HS HR Ho H0 H1 H2
    iexact H3

theorem body_obligation (c : Dev nD) : BodyObligation (dat (F := F) V c) (defs₀ (F := F)) Variants.none () Set.univ := fun t => by
  rw [bigSep_W2, bigSep_W2]
  exact sound_body V c t

theorem hin (c : Dev nD) : (Pipeline.ΦA spec2 c : sProp 𝕄) ⊢ (dat V c).Φ 0 :=
  Entails.of_eq (show Pipeline.ΦA spec2 c = PhiS V c 0 (Nat.zero_le _) from rfl)

theorem hout (c : Dev nD) : (dat V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 4 := N_2; omega), PhiA_eq]
  iintro ⟨HS, HR⟩; iframe HR; iexists _; iexact HS

end Cert.KernelIdeal.Reg2

end
-- ==== Proof.KI.Reg3.lean ====
import proofs.«422586_j33337536151702_2_alg».proof.Proof.Gen.KernelIdeal.Launch
import proofs.«422586_j33337536151702_2_alg».proof.Proof.Gen.KernelIdeal.Skeleton
import proofs.«422586_j33337536151702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid3.Coords) : Prop :=
  (Scalar.cmpi .ne (Scalar.extui (Scalar.cmpi .eq (BitVec.ofNat 32 (i 1).val) 0#32)) 0#32) = 1#1
theorem hcondFirst : ∀ t : Fin cfg3.N, condFirst (grid3.coords t) ↔ t.val % 4 = 0 :=
  (by decide +kernel : ∀ t : Fin grid3.N, condFirst (grid3.coords t) ↔ t.val % 4 = 0)

abbrev condLast (i : grid3.Coords) : Prop := k3_cond2 i = 1#1
theorem hcondLast : ∀ t : Fin cfg3.N, condLast (grid3.coords t) ↔ t.val % 4 = 3 :=
  (by decide +kernel : ∀ t : Fin grid3.N, condLast (grid3.coords t) ↔ t.val % 4 = 3)

theorem out_idle : ∀ t : Fin cfg3.N, ¬t.val % 4 = 3 → cfg3.idle 2 (grid3.coords t) = true ∧ (cfg3.win 2).flush t = false := by
  decide +kernel
theorem out_live : ∀ t : Fin cfg3.N, t.val % 4 = 3 → cfg3.idle 2 (grid3.coords t) = false := by decide +kernel

abbrev ms0 (t : Fin cfg3.N) : Memref sig .tc .vmem S2048x1024 .f32 := win3_0.stage (cfg3.slots t 0)
abbrev ms1 (t : Fin cfg3.N) : Memref sig .tc .vmem S1024x192 .f32 := win3_1.stage (cfg3.slots t 1)
abbrev ms2 (t : Fin cfg3.N) : Memref sig .tc .vmem S1x1x128 .f32 := win3_2.stage (cfg3.slots t 2)

abbrev scM : Memref sig .tc .vmem S1x128 .f32 := Memref.whole cc3_scratch0

def acc0 : Vec F S1x128 .f32 := k3_pay3 (F := F)

def step (x : Vec F S2048x1024 .f32) (mu : Vec F S1024x192 .f32) (a : Vec F S1x128 .f32) : Vec F S1x128 .f32 :=
  k3_pay1 (k3_pay9 (k3_pay5 x mu) (k3_pay7 x mu)) (k3_pay10 (k3_pay6 x mu) (k3_pay7 x mu))
    (k3_pay11 (k3_pay5 x mu) (k3_pay6 x mu)) (k3_pay12 (F := F)) a

def outOf (a : Vec F S1x128 .f32) : Vec F S1x1x128 .f32 := k3_pay2 a

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

theorem owns_unread {sp : Space} {S : Shape} {e : EltTy} (c : Dev nD) {M : Memref sig .tc sp S e} (hM : M.IsWhole) (x : S.Idx → Elt F e) :
    (owns (c : Thread nD τ) M fullShare x : sProp 𝕄) = pointsTo (M.view.loc (c : Thread nD τ)) M.view.set fullShare (hM.unread x) := by
  have h₁ : (owns (c : Thread nD τ) M fullShare x : sProp 𝕄)
      ⊢ (pointsTo (M.view.loc (c : Thread nD τ)) M.view.set fullShare (hM.unread x) : sProp 𝕄) := by
    unfold owns; iintro ⟨%f, %hf, H⟩; obtain rfl := hM.eq_unread hf; iexact H
  have h₂ := owns_intro (Ix := Unit) (Name := ℕ) (U := UR sig nD τ) (Lvl := ℕ) (c : Thread nD τ) M fullShare (hM.unread x)
  rw [hM.read_unread] at h₂
  exact BI.equiv_iff.mp ⟨h₁, h₂⟩

variable (c : Dev nD) (i : grid3.Coords) (arg2 : Memref sig .tc .vmem S2048x1024 .f32) (harg2 : arg2.IsWhole) (arg3 : Memref sig .tc .vmem S1024x192 .f32) (harg3 : arg3.IsWhole) (arg4 : Memref sig .tc .vmem S1x1x128 .f32) (harg4 : arg4.IsWhole) (arg5 : Memref sig .tc .vmem S1x128 .f32) (harg5 : arg5.IsWhole)

theorem runMid (hc0 : ¬condFirst i) (hc1 : ¬condLast i) (x : Vec F S2048x1024 .f32) (mu : Vec F S1024x192 .f32) (a : Vec F S1x128 .f32)
    (E : Set ℕ) (K : PUnit → sProp 𝕄) :
    iprop(owns c arg2 fullShare x ∗ owns c arg3 fullShare mu ∗ owns c arg5 fullShare a
        ∗ (iprop(owns c arg2 fullShare x ∗ owns c arg3 fullShare mu ∗ owns c arg5 fullShare (step x mu a)) -∗ K ⟨⟩))
      ⊢ wp frame (wpE (defs₀ (F := F)) Variants.none c none) E (cc3__tpn_unlabeled_kernel i arg2 harg2 arg3 harg3 arg4 harg4 arg5 harg5) K := by
  simp only [cc3__tpn_unlabeled_kernel_eq_skeleton]; unfold cc3__tpn_unlabeled_kernel_skel
  rw [owns_unread c harg2, owns_unread c harg3, owns_unread c harg5 a]
  unfold owns
  iintro ⟨H0, H1, HS, Hk⟩
  sl_exec (disch := first | exact hc0 | exact hc1)
  sl_step
  iapply Hk
  iframe H0 H1
  iexists _; isplitr; swap; iexact HS; ipureintro
  rw [read_writes_whole _ _ hz2]
  sl_unfold_words
  unfold step
  simp only [View.readAt_eq_ld, harg2.read_unread, harg3.read_unread, harg5.read_unread, View.ld_unit_zero (S := S2048x1024) hz2,
    View.ld_unit_zero (S := S1024x192) hz2, View.ld_unit_zero (S := S1x128) hz2]

theorem runFirst (hc0 : condFirst i) (hc1 : ¬condLast i) (x : Vec F S2048x1024 .f32) (mu : Vec F S1024x192 .f32)
    (E : Set ℕ) (K : PUnit → sProp 𝕄) :
    iprop(owns c arg2 fullShare x ∗ owns c arg3 fullShare mu ∗ (∃ d, owns c arg5 fullShare d)
        ∗ (iprop(owns c arg2 fullShare x ∗ owns c arg3 fullShare mu ∗ owns c arg5 fullShare (step x mu (acc0 (F := F)))) -∗ K ⟨⟩))
      ⊢ wp frame (wpE (defs₀ (F := F)) Variants.none c none) E (cc3__tpn_unlabeled_kernel i arg2 harg2 arg3 harg3 arg4 harg4 arg5 harg5) K := by
  simp only [cc3__tpn_unlabeled_kernel_eq_skeleton]; unfold cc3__tpn_unlabeled_kernel_skel
  rw [owns_unread c harg2, owns_unread c harg3]
  unfold owns
  iintro ⟨H0, H1, ⟨%ds, %fs, -, HS⟩, Hk⟩
  sl_exec (disch := first | exact hc0 | exact hc1)
  sl_step
  iapply Hk
  iframe H0 H1
  iexists _; isplitr; swap; iexact HS; ipureintro
  rw [read_writes_whole _ _ hz2]
  sl_unfold_words
  unfold step acc0
  simp only [View.readAt_eq_ld, harg2.read_unread, harg3.read_unread, View.ld_unit_zero (S := S2048x1024) hz2,
    View.ld_unit_zero (S := S1024x192) hz2, View.readCov_unit_zero (S := S1x128) _ hz2]

theorem runLast (hc0 : ¬condFirst i) (hc1 : condLast i) (x : Vec F S2048x1024 .f32) (mu : Vec F S1024x192 .f32) (a : Vec F S1x128 .f32)
    (E : Set ℕ) (K : PUnit → sProp 𝕄) :
    iprop(owns c arg2 fullShare x ∗ owns c arg3 fullShare mu ∗ (∃ d, owns c arg4 fullShare d) ∗ owns c arg5 fullShare a
        ∗ (iprop(owns c arg2 fullShare x ∗ owns c arg3 fullShare mu ∗ owns c arg4 fullShare (outOf (step x mu a))
            ∗ owns c arg5 fullShare (step x mu a)) -∗ K ⟨⟩))
      ⊢ wp frame (wpE (defs₀ (F := F)) Variants.none c none) E (cc3__tpn_unlabeled_kernel i arg2 harg2 arg3 harg3 arg4 harg4 arg5 harg5) K := by
  simp only [cc3__tpn_unlabeled_kernel_eq_skeleton]; unfold cc3__tpn_unlabeled_kernel_skel
  rw [owns_unread c harg2, owns_unread c harg3, owns_unread c harg5 a]
  unfold owns
  iintro ⟨H0, H1, ⟨%d2, %f2, -, H2⟩, HS, Hk⟩
  sl_exec (disch := first | exact hc0 | exact hc1)
  sl_step
  iapply Hk
  iframe H0 H1
  isplitl [H2]
  · iexists _; isplitr; swap; iexact H2; ipureintro
    rw [read_writes_whole _ _ hz3]
    sl_unfold_words
    unfold outOf step
    simp only [View.readAt_eq_ld, harg2.read_unread, harg3.read_unread, harg5.read_unread, View.ld_unit_zero (S := S2048x1024) hz2,
    View.ld_unit_zero (S := S1024x192) hz2, View.ld_unit_zero (S := S1x128) hz2,
      View.readCov_unit_zero (S := S1x128) _ hz2]
  iexists _; isplitr; swap; iexact HS; ipureintro
  sl_unfold_words
  rw [read_writes_whole _ _ hz2]
  unfold step
  simp only [View.readAt_eq_ld, harg2.read_unread, harg3.read_unread, harg5.read_unread, View.ld_unit_zero (S := S2048x1024) hz2,
    View.ld_unit_zero (S := S1024x192) hz2, View.ld_unit_zero (S := S1x128) hz2]

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk (c : Dev nD) (t : Fin cfg3.N) : Vec F S2048x1024 .f32 := iblk V c 0 t
abbrev mublk (c : Dev nD) (t : Fin cfg3.N) : Vec F S1024x192 .f32 := iblk V c 1 t

def accAt (c : Dev nD) : (n : ℕ) → n < cfg3.N → Vec F S1x128 .f32
  | 0, h => step (xblk V c ⟨0, h⟩) (mublk V c ⟨0, h⟩) (acc0 (F := F))
  | n + 1, h => step (xblk V c ⟨n + 1, h⟩) (mublk V c ⟨n + 1, h⟩)
      (if (n + 1) % 4 = 0 then acc0 (F := F) else accAt c n (Nat.lt_of_succ_lt h))

theorem accAt_first (c : Dev nD) (t : Fin cfg3.N) (h0 : t.val % 4 = 0) :
    accAt V c t.val t.isLt = step (xblk V c t) (mublk V c t) (acc0 (F := F)) := by
  obtain ⟨n, hn⟩ := t
  cases n with
  | zero => rfl
  | succ n =>
    show step _ _ (if (n + 1) % 4 = 0 then _ else _) = _
    rw [if_pos h0]

theorem accAt_next (c : Dev nD) (t : Fin cfg3.N) (h0 : ¬t.val % 4 = 0) :
    accAt V c t.val t.isLt
      = step (xblk V c t) (mublk V c t) (accAt V c (t.val - 1) (Nat.lt_of_le_of_lt (Nat.sub_le _ _) t.isLt)) := by
  obtain ⟨n, hn⟩ := t
  cases n with
  | zero => exact absurd (Nat.zero_mod _) h0
  | succ n =>
    show step _ _ (if (n + 1) % 4 = 0 then _ else _) = _
    rw [if_neg h0]; rfl

abbrev restBut (c : Dev nD) : sProp 𝕄 :=
  Pipeline.scopedRestBut (Ix := Unit) (Name := ℕ) (U := UR sig nD τ) (Lvl := ℕ) (Val := Elt F) spec3 c [cc3_scratch0]

theorem PhiA_eq (c : Dev nD) :
    (Pipeline.ΦA spec3 c : sProp 𝕄)
      = iprop(iprop((∃ d, owns c scM fullShare d) ∗ restBut (F := F) c) ∗ (∃ r, prngReg c r)) := by
  unfold Pipeline.ΦA; rw [scopedRest3_split]; simp only [scM, owns_whole]; try rfl

def PhiS (c : Dev nD) : (n : ℕ) → n ≤ cfg3.N → sProp 𝕄
  | 0, _ => Pipeline.ΦA spec3 c
  | n + 1, hn => iprop(iprop(owns c scM fullShare (accAt V c n hn) ∗ restBut (F := F) c) ∗ (∃ r, prngReg c r))

theorem PhiS_succ (c : Dev nD) (n : ℕ) (hn : n < cfg3.N) :
    PhiS V c (n + 1) hn = iprop(iprop(owns c scM fullShare (accAt V c n hn) ∗ restBut (F := F) c) ∗ (∃ r, prngReg c r)) := rfl

theorem PhiS_pos (c : Dev nD) (n : ℕ) (h : n ≤ cfg3.N) (hz : n ≠ 0) :
    PhiS V c n h = iprop(iprop(owns c scM fullShare (accAt V c (n - 1) (by omega)) ∗ restBut (F := F) c) ∗ (∃ r, prngReg c r)) := by
  cases n with
  | zero => exact absurd rfl hz
  | succ n => rfl

theorem PhiS_forget (c : Dev nD) : ∀ (n : ℕ) (h : n ≤ cfg3.N), PhiS V c n h ⊢ (Pipeline.ΦA spec3 c : sProp 𝕄)
  | 0, _ => Idealize.SL.BI.Entails.refl _
  | n + 1, hn => by
    rw [PhiA_eq, PhiS_succ]
    iintro ⟨⟨HS, Hr⟩, Hg⟩
    iframe Hr Hg
    iexists _; iexact HS

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outOf (accAt V c t.val t.isLt)
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = outOf (accAt V c t.val t.isLt) := by dsimp only [dat]

theorem before_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before_1 (c : Dev nD) (t : Fin cfg3.N) (d) : (dat V c).before 1 t d = iblk V c 1 t :=
  ((dat V c).before_in_eq_fetched 1 rfl (fun _ => rfl) (fun _ _ _ => rfl) (fun _ => rfl) t d).trans rfl

theorem leaves_live (c : Dev nD) (w : Fin cfg3.W) (t : Fin cfg3.N) (h : cfg3.idle w (grid3.coords t) = false) :
    (dat V c).leavesExact w t = owns c ((cfg3.win w).stage (cfg3.slots t w)) fullShare ((dat V c).after w t) := by
  unfold Dat.leavesExact; rw [h]

def bodyPre (c : Dev nD) (t : Fin cfg3.N) : sProp 𝕄 :=
  iprop((dat V c).Φ t.castSucc ∗ (dat V c).owesAt () t.castSucc
    ∗ (∃ d, owns c (ms0 t) fullShare ((dat V c).before 0 t d))
    ∗ (∃ d, owns c (ms1 t) fullShare ((dat V c).before 1 t d))
    ∗ (∃ d, owns c (ms2 t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl,
    show (dat V c).Φ t.succ = PhiS V c (t.val + 1) t.isLt from rfl, PhiS_succ, PhiS_castSucc,
    leaves_live V c 0 t rfl, after_0, leaves_live V c 1 t rfl, after_1]
  by_cases h1 : t.val % 4 = 3
  · have h0 : ¬t.val % 4 = 0 := by omega
    rw [PhiS_pos V c _ _ fun e => h0 (by rw [e]), leaves_live V c 2 t (out_live t h1), after_2, accAt_next V c t h0]
    iintro ⟨⟨⟨HS, Hr⟩, Hg⟩, Ho, ⟨%d0, H0⟩, ⟨%d1, H1⟩, ⟨%d2, H2⟩⟩
    iapply (runLast c (grid3.coords t) _ _ _ _ _ _ _ _ (fun h => h0 ((hcondFirst t).mp h)) ((hcondLast t).mpr h1)
      (xblk V c t) (mublk V c t) _ Set.univ _)
    iframe H0 H1
    isplitl [H2]; · iexists _; iexact H2
    isplitl [HS]; · iexact HS
    iintro ⟨H0, H1, H2, HS⟩
    iframe
  · rw [Dat.leavesExact_idle (dat V c) 2 t (out_idle t h1).1 (out_idle t h1).2]
    by_cases h0 : t.val % 4 = 0
    · refine (sep_mono_left (PhiS_forget V c _ _)).trans ?_
      rw [PhiA_eq, accAt_first V c t h0]
      iintro ⟨⟨⟨HS, Hr⟩, Hg⟩, Ho, ⟨%d0, H0⟩, ⟨%d1, H1⟩, H2⟩
      iapply (runFirst c (grid3.coords t) _ _ _ _ _ _ _ _ ((hcondFirst t).mpr h0) (fun h => h1 ((hcondLast t).mp h))
        (xblk V c t) (mublk V c t) Set.univ _)
      iframe H0 H1 HS
      iintro ⟨H0, H1, HS⟩
      iframe
    · rw [PhiS_pos V c _ _ fun e => h0 (by rw [e]), accAt_next V c t h0]
      iintro ⟨⟨⟨HS, Hr⟩, Hg⟩, Ho, ⟨%d0, H0⟩, ⟨%d1, H1⟩, H2⟩
      iapply (runMid c (grid3.coords t) _ _ _ _ _ _ _ _ (fun h => h0 ((hcondFirst t).mp h)) (fun h => h1 ((hcondLast t).mp h))
        (xblk V c t) (mublk V c t) _ Set.univ _)
      iframe H0 H1
      isplitl [HS]; · iexact HS
      iintro ⟨H0, H1, HS⟩
      iframe

theorem body_obligation (c : Dev nD) : BodyObligation (dat (F := F) V c) (defs₀ (F := F)) Variants.none () Set.univ := fun t => by
  rw [bigSep_W3, bigSep_W3]
  exact sound_body V c t

theorem hin (c : Dev nD) : (Pipeline.ΦA spec3 c : sProp 𝕄) ⊢ (dat V c).Φ 0 :=
  Idealize.SL.BI.Entails.refl _

theorem hout (c : Dev nD) : (dat V c).Φ (Fin.last cfg3.N) ⊢ (Pipeline.ΦA spec3 c : sProp 𝕄) := by
  rw [show (dat V c).Φ (Fin.last cfg3.N) = PhiS V c (Fin.last cfg3.N).val (Nat.le_of_lt_succ (Fin.last cfg3.N).isLt) from rfl]
  exact PhiS_forget V c _ _

end Cert.KernelIdeal.Reg3

end
-- ==== Proof.KI.Vals.lean ====
import proofs.«422586_j33337536151702_2_alg».proof.Proof.KI.Reg0
import proofs.«422586_j33337536151702_2_alg».proof.Proof.KI.Reg1
import proofs.«422586_j33337536151702_2_alg».proof.Proof.KI.Reg2
import proofs.«422586_j33337536151702_2_alg».proof.Proof.KI.Reg3
import proofs.«422586_j33337536151702_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev E1 : (c : Dev nD) → (b : Ref sig .tc) → Buf (Elt F) ((c : Thread nD τ).loc b) := fun c b => W1 m c b

def W2 (c : Dev nD) : Valuation τ sig (Elt F) :=
  Pipeline.withArrays spec0 c (W1 m c) fun w => (Reg0.dat (E1 m) c).arrAt w cfg0.N

abbrev W3 : Dev nD → Valuation τ sig (Elt F) := fun c => StableHlo.after hostOps1 (W2 m c)
abbrev E3 : (c : Dev nD) → (b : Ref sig .tc) → Buf (Elt F) ((c : Thread nD τ).loc b) := fun c b => W3 m c b

def W4 (c : Dev nD) : Valuation τ sig (Elt F) :=
  Pipeline.withArrays spec1 c (W3 m c) fun w => (Reg1.dat (E3 m) c).arrAt w cfg1.N
abbrev E4 : (c : Dev nD) → (b : Ref sig .tc) → Buf (Elt F) ((c : Thread nD τ).loc b) := fun c b => W4 m c b

def W5 (c : Dev nD) : Valuation τ sig (Elt F) :=
  Pipeline.withArrays spec2 c (W4 m c) fun w => (Reg2.dat (E4 m) c).arrAt w cfg2.N
abbrev E5 : (c : Dev nD) → (b : Ref sig .tc) → Buf (Elt F) ((c : Thread nD τ).loc b) := fun c b => W5 m c b

def W6 (c : Dev nD) : Valuation τ sig (Elt F) :=
  Pipeline.withArrays spec3 c (W5 m c) fun w => (Reg3.dat (E5 m) c).arrAt w cfg3.N

abbrev W7 : Dev nD → Valuation τ sig (Elt F) := fun c => StableHlo.after hostOps4 (W6 m c)

abbrev In0 : Dev nD → Valuation τ sig (Elt F) := W1 m
abbrev In1 : Dev nD → Valuation τ sig (Elt F) := W3 m
abbrev In2 : Dev nD → Valuation τ sig (Elt F) := W4 m
abbrev In3 : Dev nD → Valuation τ sig (Elt F) := W5 m

abbrev EIn0 : (c : Dev nD) → (b : Ref sig .tc) → Buf (Elt F) ((c : Thread nD τ).loc b) := fun c b => In0 m c b
abbrev EIn1 : (c : Dev nD) → (b : Ref sig .tc) → Buf (Elt F) ((c : Thread nD τ).loc b) := fun c b => In1 m c b
abbrev EIn2 : (c : Dev nD) → (b : Ref sig .tc) → Buf (Elt F) ((c : Thread nD τ).loc b) := fun c b => In2 m c b
abbrev EIn3 : (c : Dev nD) → (b : Ref sig .tc) → Buf (Elt F) ((c : Thread nD τ).loc b) := fun c b => In3 m c b

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => Reg0.dat (E1 m) c
  | ⟨1, _⟩ => fun c => Reg1.dat (E3 m) c
  | ⟨2, _⟩ => fun c => Reg2.dat (E4 m) c
  | ⟨3, _⟩ => fun c => Reg3.dat (E5 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Whole

end
-- ==== Proof.KI.Seg.lean ====
import proofs.«422586_j33337536151702_2_alg».proof.Proof.KI.Vals
import proofs.«422586_j33337536151702_2_alg».proof.Proof.LibSeg

noncomputable section

namespace Cert.KernelIdeal.Whole

open Cert.KernelIdeal Cert.KernelIdeal.Gen
open Idealize.ShloMosaic

variable {F : FTy → Type} [FloatOps F]

variable (m : (ℓ : Loc nD τ sig) → Buf (Elt F) ℓ)

def reg0 : Pipeline.RegionSeg (pcfgs (F := F)) adm (pdats m) () defs₀ 𝒱₀ L lv 0 :=
  Cert.Seg.region cfgs launch0 (pdats m) defs₀ 𝒱₀ L lv (Reg0.body_obligation (EIn0 m)) (fun _ _ => rfl) (fun _ => rfl) (fun _ _ => rfl)
    (Reg0.hin (EIn0 m)) (Reg0.hout (EIn0 m)) (In0 m) fun _ _ => rfl

def reg1 : Pipeline.RegionSeg (pcfgs (F := F)) adm (pdats m) () defs₀ 𝒱₀ L lv 1 :=
  Cert.Seg.region cfgs launch1 (pdats m) defs₀ 𝒱₀ L lv (Reg1.body_obligation (EIn1 m)) (fun _ _ => rfl) (fun _ => rfl) (fun _ _ => rfl)
    (Reg1.hin (EIn1 m)) (Reg1.hout (EIn1 m)) (In1 m) fun _ _ => rfl

def reg2 : Pipeline.RegionSeg (pcfgs (F := F)) adm (pdats m) () defs₀ 𝒱₀ L lv 2 :=
  Cert.Seg.region cfgs launch2 (pdats m) defs₀ 𝒱₀ L lv (Reg2.body_obligation (EIn2 m)) (fun _ _ => rfl) (fun _ => rfl) (fun _ _ => rfl)
    (Reg2.hin (EIn2 m)) (Reg2.hout (EIn2 m)) (In2 m) fun _ _ => rfl

def reg3 : Pipeline.RegionSeg (pcfgs (F := F)) adm (pdats m) () defs₀ 𝒱₀ L lv 3 :=
  Cert.Seg.region cfgs launch3 (pdats m) defs₀ 𝒱₀ L lv (Reg3.body_obligation (EIn3 m)) (fun _ _ => rfl) (fun _ => rfl) (fun _ _ => rfl)
    (Reg3.hin (EIn3 m)) (Reg3.hout (EIn3 m)) (In3 m) fun _ _ => rfl

end Cert.KernelIdeal.Whole

end
-- ==== Proof.KI.Whole.lean ====
import proofs.«422586_j33337536151702_2_alg».proof.Proof.KI.Seg

noncomputable section

namespace Cert.KernelIdeal.Whole

open Cert.KernelIdeal Cert.KernelIdeal.Gen
open Idealize.ShloMosaic Idealize.ShloMosaic.TcCoe Idealize.ShloMosaic.Tactic
open Idealize.SL Idealize.SL.BI

variable {F : FTy → Type} [FloatOps F]

variable (m : (ℓ : Loc nD τ sig) → Buf (Elt F) ℓ) (ρ : Dev nD → PrngReg)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev items : List (Pipeline.Seg (pcfgs (F := F)) adm (pdats m) () defs₀ 𝒱₀ L lv) :=
  [ .host (hostItem hostOps0 hostOps0_sub hostOps0_fresh (W0 m)),
    .region (reg0 m),
    .host (hostItem hostOps1 hostOps1_sub hostOps1_fresh (W2 m)),
    .region (reg1 m),
    .region (reg2 m),
    .region (reg3 m),
    .host (hostItem hostOps4 hostOps4_sub hostOps4_fresh (W6 m)) ]

theorem main_items (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Cert.Seg.run_held cfgs cellOf_inj (pdats m) defs₀ 𝒱₀ L lv (fun _ _ => rfl) m ρ main (items m) (main_items m)
    (by simp only [items, Pipeline.Seg.pipes_host, Pipeline.Seg.pipes_region, Pipeline.Seg.pipes_nil]; decide) (W7 m)
    ⟨fun _ => .rfl, fun _ => .rfl, fun _ => .rfl, fun _ => .rfl, fun _ => .rfl, fun _ => .rfl, fun _ => .rfl, fun _ => sep_assoc'⟩

end Cert.KernelIdeal.Whole

end
-- ==== Proof.KI.Args.lean ====
import proofs.«422586_j33337536151702_2_alg».proof.Proof.KI.Vals
import proofs.«422586_j33337536151702_2_alg».proof.Proof.LibSeg

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

theorem W1_of (c : Dev nD) (r : Ref sig .tc) (h : r ∉ hostOps0_W) :
    W1 m c (Proc.devRef .tc r) = W0 m c (Proc.devRef .tc r) :=
  StableHlo.after_of_writes_sub hostOps0 _ hostOps0_writes h

theorem W3_of (c : Dev nD) (r : Ref sig .tc) (h : r ∉ hostOps1_W) :
    W3 m c (Proc.devRef .tc r) = W2 m c (Proc.devRef .tc r) :=
  StableHlo.after_of_writes_sub hostOps1 _ hostOps1_writes h

theorem W7_of (c : Dev nD) (r : Ref sig .tc) (h : r ∉ hostOps4_W) :
    W7 m c (Proc.devRef .tc r) = W6 m c (Proc.devRef .tc r) :=
  StableHlo.after_of_writes_sub hostOps4 _ hostOps4_writes h

theorem W2_keep (c : Dev nD) (b : Ref sig .tc) (h : ∀ w, Pipeline.arrRef spec0 w = b → (cfg0.win w).isOut = false) :
    W2 m c (Proc.devRef .tc b) = W1 m c (Proc.devRef .tc b) :=
  Cert.Seg.withArrays_keep (Reg0.dat (E1 m) c) launch0.win.arr_inj _ (Reg0.A_eq (E1 m) c) b h _

theorem W4_keep (c : Dev nD) (b : Ref sig .tc) (h : ∀ w, Pipeline.arrRef spec1 w = b → (cfg1.win w).isOut = false) :
    W4 m c (Proc.devRef .tc b) = W3 m c (Proc.devRef .tc b) :=
  Cert.Seg.withArrays_keep (Reg1.dat (E3 m) c) launch1.win.arr_inj _ (Reg1.A_eq (E3 m) c) b h _

theorem W5_keep (c : Dev nD) (b : Ref sig .tc) (h : ∀ w, Pipeline.arrRef spec2 w = b → (cfg2.win w).isOut = false) :
    W5 m c (Proc.devRef .tc b) = W4 m c (Proc.devRef .tc b) :=
  Cert.Seg.withArrays_keep (Reg2.dat (E4 m) c) launch2.win.arr_inj _ (Reg2.A_eq (E4 m) c) b h _

theorem W6_keep (c : Dev nD) (b : Ref sig .tc) (h : ∀ w, Pipeline.arrRef spec3 w = b → (cfg3.win w).isOut = false) :
    W6 m c (Proc.devRef .tc b) = W5 m c (Proc.devRef .tc b) :=
  Cert.Seg.withArrays_keep (Reg3.dat (E5 m) c) launch3.win.arr_inj _ (Reg3.A_eq (E5 m) c) b h _

abbrev Kept (b : Ref sig .tc) : Prop :=
  b ∉ hostOps0_W ∧ b ∉ hostOps1_W ∧ b ∉ hostOps4_W
    ∧ (∀ w, Pipeline.arrRef spec0 w = b → (cfg0.win w).isOut = false) ∧ (∀ w, Pipeline.arrRef spec1 w = b → (cfg1.win w).isOut = false)
    ∧ (∀ w, Pipeline.arrRef spec2 w = b → (cfg2.win w).isOut = false) ∧ (∀ w, Pipeline.arrRef spec3 w = b → (cfg3.win w).isOut = false)

theorem kept (c : Dev nD) (b : Ref sig .tc) (h : Kept b) :
    W1 m c (Proc.devRef .tc b) = m ((c : Thread nD τ).loc b) ∧ W3 m c (Proc.devRef .tc b) = m ((c : Thread nD τ).loc b)
      ∧ W4 m c (Proc.devRef .tc b) = m ((c : Thread nD τ).loc b) ∧ W5 m c (Proc.devRef .tc b) = m ((c : Thread nD τ).loc b)
      ∧ W7 m c (Proc.devRef .tc b) = m ((c : Thread nD τ).loc b) := by
  obtain ⟨h0, h1, h4, r0, r1, r2, r3⟩ := h
  have e1 : W1 m c (Proc.devRef .tc b) = m ((c : Thread nD τ).loc b) := W1_of m c b h0
  have e3 := (W3_of m c b h1).trans ((W2_keep m c b r0).trans e1)
  have e4 := (W4_keep m c b r1).trans e3
  have e5 := (W5_keep m c b r2).trans e4
  exact ⟨e1, e3, e4, e5, (W7_of m c b h4).trans ((W6_keep m c b r3).trans e5)⟩

theorem W7_main_arg0 (c : Dev nD) : W7 m c (Proc.devRef .tc main_arg0) = m ((c : Thread nD τ).loc main_arg0) :=
  (kept m c main_arg0 (by decide)).2.2.2.2
theorem W7_main_arg1 (c : Dev nD) : W7 m c (Proc.devRef .tc main_arg1) = m ((c : Thread nD τ).loc main_arg1) :=
  (kept m c main_arg1 (by decide)).2.2.2.2
theorem W7_main_arg2 (c : Dev nD) : W7 m c (Proc.devRef .tc main_arg2) = m ((c : Thread nD τ).loc main_arg2) :=
  (kept m c main_arg2 (by decide)).2.2.2.2
theorem W7_main_arg3 (c : Dev nD) : W7 m c (Proc.devRef .tc main_arg3) = m ((c : Thread nD τ).loc main_arg3) :=
  (kept m c main_arg3 (by decide)).2.2.2.2
theorem W7_main_arg4 (c : Dev nD) : W7 m c (Proc.devRef .tc main_arg4) = m ((c : Thread nD τ).loc main_arg4) :=
  (kept m c main_arg4 (by decide)).2.2.2.2

end Cert.KernelIdeal.Whole

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

-- Putting `k` back on the reduced axis names the entry by its two coordinates.
theorem lift_rows {a b : ℕ} (h : (⟨2, ![a, b]⟩ : Shape).Reduces [1] ⟨1, ![a]⟩) (i : Fin a) (k : Fin b) :
    h.lift (ix1 i) k = ix2 i k :=
  funext fun ax => Fin.ext (match ax with
    | ⟨0, _⟩ => rfl
    | ⟨1, _⟩ => rfl)

theorem lift_cols {a b : ℕ} (h : (⟨2, ![a, b]⟩ : Shape).Reduces [0] ⟨1, ![b]⟩) (j : Fin b) (k : Fin a) :
    h.lift (ix1 j) k = ix2 k j :=
  funext fun ax => Fin.ext (match ax with
    | ⟨0, _⟩ => rfl
    | ⟨1, _⟩ => rfl)

theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) :=
  (Host.reduce_eq_fold_single (FloatOps.maximumf (F := Ideal) (φ := φ)) x init h' h hu (ix1 i)).trans
    (congrArg (fun f => (Finset.univ : Finset (Fin b)).fold max (init (Shape.Idx.first hu)) f)
      (funext fun k => congrArg x (lift_rows h i k)))

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  (Ideal.multiReduction_add_single src _ h hφ hacc (ix1 i)).trans
    (Finset.sum_congr rfl fun k _ => congrArg src (lift_rows h i k))

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  (Ideal.multiReduction_add_single src _ h hφ hacc (ix1 j)).trans
    (Finset.sum_congr rfl fun k _ => congrArg src (lift_cols h j k))

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  (Ideal.multiReduction_maximumf_single src _ h hφ hacc (ix1 i)).trans
    (congrArg (fun f => (Finset.univ : Finset (Fin b)).fold max (Ideal.ofBits .f32 0xFF800000#32) f)
      (funext fun k => congrArg src (lift_rows h i k)))

end Cert.Keepdims

end
-- ==== Proof.KI.Carry.lean ====
import proofs.«422586_j33337536151702_2_alg».proof.Proof.KI.Args
import proofs.«422586_j33337536151702_2_alg».proof.Proof.LibKeepdims

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

theorem W2_arr (c : Dev nD) (w : Fin cfg0.W) :
    W2 m c (Proc.devRef .tc (Pipeline.arrRef spec0 w)) = (Reg0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Reg1.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_arr (c : Dev nD) (w : Fin cfg2.W) :
    W5 m c (Proc.devRef .tc (Pipeline.arrRef spec2 w)) = (Reg2.dat (E4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W6_arr (c : Dev nD) (w : Fin cfg3.W) :
    W6 m c (Proc.devRef .tc (Pipeline.arrRef spec3 w)) = (Reg3.dat (E5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb

theorem W1_main_arg0 (c : Dev nD) : W1 m c (Proc.devRef .tc main_arg0) = m ((c : Thread nD τ).loc main_arg0) :=
  (kept m c main_arg0 (by decide)).1
theorem W1_main_arg1 (c : Dev nD) : W1 m c (Proc.devRef .tc main_arg1) = m ((c : Thread nD τ).loc main_arg1) :=
  (kept m c main_arg1 (by decide)).1
theorem In1_main_arg0 (c : Dev nD) : In1 m c (Proc.devRef .tc main_arg0) = m ((c : Thread nD τ).loc main_arg0) :=
  (kept m c main_arg0 (by decide)).2.1
theorem In2_main_arg1 (c : Dev nD) : In2 m c (Proc.devRef .tc main_arg1) = m ((c : Thread nD τ).loc main_arg1) :=
  (kept m c main_arg1 (by decide)).2.2.1
theorem In3_main_arg2 (c : Dev nD) : In3 m c (Proc.devRef .tc main_arg2) = m ((c : Thread nD τ).loc main_arg2) :=
  (kept m c main_arg2 (by decide)).2.2.2.1

theorem W1_main_v0_apply (c : Dev nD) (r : Fin 8192) :
    (W1 m c (Proc.devRef .tc main_v0) : S8192x1.Idx → BitVec 32) (ix2 r 0)
      = (m ((c : Thread nD τ).loc main_arg3) : S8192.Idx → BitVec 32) (ix1 r) := by
  refine (congrFun ?_ _).trans (Cert.Keepdims.shapeCast_a_a1_apply _ shapeCasts_S8192_S8192x1 r 0)
  show StableHlo.after hostOps0 (fun b => m (c, b)) (Proc.devRef .tc main_v0) = _
  after_results
  rfl

theorem W1_main_v1_apply (c : Dev nD) (r : Fin 8192) :
    (W1 m c (Proc.devRef .tc main_v1) : S8192x1.Idx → BitVec 32) (ix2 r 0)
      = (m ((c : Thread nD τ).loc main_arg4) : S8192.Idx → BitVec 32) (ix1 r) := by
  refine (congrFun ?_ _).trans (Cert.Keepdims.shapeCast_a_a1_apply _ shapeCasts_S8192_S8192x1 r 0)
  show StableHlo.after hostOps0 (fun b => m (c, b)) (Proc.devRef .tc main_v1) = _
  after_results
  rfl

theorem In1_main_v0 (c : Dev nD) : In1 m c (Proc.devRef .tc main_v0) = W1 m c (Proc.devRef .tc main_v0) :=
  (W3_of m c main_v0 (by decide)).trans (W2_keep m c main_v0 (by decide))

theorem In2_main_v1 (c : Dev nD) : In2 m c (Proc.devRef .tc main_v1) = W1 m c (Proc.devRef .tc main_v1) :=
  (W4_keep m c main_v1 (by decide)).trans ((W3_of m c main_v1 (by decide)).trans (W2_keep m c main_v1 (by decide)))

theorem In2_main_v44 (c : Dev nD) : In2 m c (Proc.devRef .tc main_v44) = In1 m c (Proc.devRef .tc main_v44) := W4_keep m c main_v44 (by decide)
theorem In3_main_v44 (c : Dev nD) : In3 m c (Proc.devRef .tc main_v44) = In1 m c (Proc.devRef .tc main_v44) :=
  (W5_keep m c main_v44 (by decide)).trans (In2_main_v44 m c)

theorem W2_main_v2_0 (c : Dev nD) : W2 m c (Proc.devRef .tc main_v2_0) = (Reg0.dat (E1 m) c).arrAt 4 cfg0.N := W2_arr m c 4
theorem W2_main_v2_1 (c : Dev nD) : W2 m c (Proc.devRef .tc main_v2_1) = (Reg0.dat (E1 m) c).arrAt 5 cfg0.N := W2_arr m c 5
theorem W2_main_v2_2 (c : Dev nD) : W2 m c (Proc.devRef .tc main_v2_2) = (Reg0.dat (E1 m) c).arrAt 6 cfg0.N := W2_arr m c 6
theorem W2_main_v2_3 (c : Dev nD) : W2 m c (Proc.devRef .tc main_v2_3) = (Reg0.dat (E1 m) c).arrAt 7 cfg0.N := W2_arr m c 7

theorem W4_main_v45 (c : Dev nD) : W4 m c (Proc.devRef .tc main_v45) = (Reg1.dat (E3 m) c).arrAt 3 cfg1.N := W4_arr m c 3
theorem W5_main_v46 (c : Dev nD) : W5 m c (Proc.devRef .tc main_v46) = (Reg2.dat (E4 m) c).arrAt 3 cfg2.N := W5_arr m c 3
theorem W6_main_v47 (c : Dev nD) : W6 m c (Proc.devRef .tc main_v47) = (Reg3.dat (E5 m) c).arrAt 2 cfg3.N := W6_arr m c 2

theorem W6_main_v45 (c : Dev nD) : W6 m c (Proc.devRef .tc main_v45) = W4 m c (Proc.devRef .tc main_v45) :=
  (W6_of_ne m c main_v45 (by decide)).trans (W5_of_ne m c main_v45 (by decide))

theorem W6_main_v46 (c : Dev nD) : W6 m c (Proc.devRef .tc main_v46) = W5 m c (Proc.devRef .tc main_v46) :=
  W6_of_ne m c main_v46 (by decide)

theorem W7_main_v40 (c : Dev nD) : W7 m c (Proc.devRef .tc main_v40) = W3 m c (Proc.devRef .tc main_v40) :=
  (W7_of m c main_v40 (by decide)).trans <| (W6_of_ne m c main_v40 (by decide)).trans <|
    (W5_of_ne m c main_v40 (by decide)).trans (W4_of_ne m c main_v40 (by decide))

end Cert.KernelIdeal.Whole

end
-- ==== Proof.LibNary3.lean ====
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

-- A function of a three-member family, applied to the members one by one.
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result']; congr 1; funext k; fin_cases k <;> rfl

end Cert.Lib

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev S8192x1024 : Shape := ⟨2, ![8192, 1024]⟩
abbrev S16384x1024 : Shape := ⟨2, ![16384, 1024]⟩
abbrev S8192 : Shape := ⟨1, ![8192]⟩

abbrev Feat : Type := FVec Ideal S8192x1024 .f32

abbrev FeatUn : Type := FVec Ideal S16384x1024 .f32

abbrev Lab : Type := IVec S8192 32

abbrev Means : Type := Fin 64 → Fin 1024 → EReal

abbrev Logits : Type := Fin 32768 → Fin 64 → EReal

def segCnt (l : Lab) (c : Fin 64) : EReal :=
  ∑ r : Fin 8192, if l (ix1 r) = BitVec.ofNat 32 c.val then Ideal.ofBits .f32 0x3F800000#32 else 0

def segSum (x : Feat) (l : Lab) (c : Fin 64) (j : Fin 1024) : EReal :=
  ∑ r : Fin 8192, if l (ix1 r) = BitVec.ofNat 32 c.val then x (ix2 r j) else 0

def classMean (sum : Means) (cnt : Fin 64 → EReal) : Means :=
  fun c j => Ideal.div (sum c j) (max (cnt c) (Ideal.ofBits .f32 0x3F800000#32))

def uS (src : Feat) (ls : Lab) : Means := classMean (segSum src ls) (segCnt ls)

def uT (trg : Feat) (lt : Lab) : Means := classMean (segSum trg lt) (segCnt lt)

def uST (src trg : Feat) (ls lt : Lab) : Means :=
  classMean (fun c j => segSum src ls c j + segSum trg lt c j) (fun c => segCnt ls c + segCnt lt c)

def mse (a b : Means) : EReal :=
  Ideal.div (∑ c : Fin 64, ∑ j : Fin 1024, (a c j - b c j) * (a c j - b c j)) (Ideal.ofBits .f32 0x47800000#32)

def specMmd (src trg : Feat) (_un : FeatUn) (ls lt : Lab) : EReal :=
  Ideal.div (mse (uS src ls) (uT trg lt) + mse (uS src ls) (uST src trg ls lt) + mse (uT trg lt) (uST src trg ls lt))
    (Ideal.ofBits .f32 0x40400000#32)

def feats (src trg : Feat) (un : FeatUn) (r : Fin 32768) (q : Fin 1024) : EReal :=
  if h₁ : r.val < 8192 then src (ix2 (⟨r.val, h₁⟩ : Fin 8192) q)
  else if h₂ : r.val < 16384 then trg (ix2 (⟨r.val - 8192, by omega⟩ : Fin 8192) q)
  else un (ix2 (⟨r.val - 16384, by omega⟩ : Fin 16384) q)

def proj (f : Fin 32768 → Fin 1024 → EReal) (u : Means) : Logits :=
  fun r c => ∑ q : Fin 1024, f r q * u c q

def pS (src trg : Feat) (un : FeatUn) (ls : Lab) : Logits := proj (feats src trg un) (uS src ls)

def pT (src trg : Feat) (un : FeatUn) (lt : Lab) : Logits := proj (feats src trg un) (uT trg lt)

def pST (src trg : Feat) (un : FeatUn) (ls lt : Lab) : Logits := proj (feats src trg un) (uST src trg ls lt)

def rowMax (x : Fin 64 → EReal) : EReal :=
  (Finset.univ : Finset (Fin 64)).fold max (Ideal.ofBits .f32 0xFF800000#32) x

def rowShift (x : Fin 64 → EReal) : EReal := max (Ideal.ofBits .f32 0xFF800000#32) (rowMax x)

def logSoftmax (x : Fin 64 → EReal) (c : Fin 64) : EReal :=
  (x c - rowShift x) - Ideal.log (∑ k : Fin 64, Ideal.exp (x k - rowShift x))

def labIdx (w : BitVec 32) : Fin 64 := ⟨w.toNat % 64, Nat.mod_lt _ (by decide)⟩

def crossEntropy (logits : Fin 8192 → Fin 64 → EReal) (l : Lab) : EReal :=
  -(Ideal.div (∑ r : Fin 8192, logSoftmax (logits r) (labIdx (l (ix1 r)))) (Ideal.ofBits .f32 0x46000000#32))

def specCeS (src trg : Feat) (un : FeatUn) (ls _lt : Lab) : EReal :=
  crossEntropy (fun r => pS src trg un ls (⟨r.val, by omega⟩ : Fin 32768)) ls

def specCeT (src trg : Feat) (un : FeatUn) (_ls lt : Lab) : EReal :=
  crossEntropy (fun r => pT src trg un lt (⟨8192 + r.val, by omega⟩ : Fin 32768)) lt

def klHalf (a b : Logits) : EReal :=
  Ideal.div
    (∑ r : Fin 32768, ∑ c : Fin 64,
      Ideal.exp (logSoftmax (b r) c) * (logSoftmax (b r) c - logSoftmax (a r) c))
    (Ideal.ofBits .f32 0x4A000000#32)

def symKl (a b : Logits) : EReal := Ideal.div (klHalf a b + klHalf b a) (Ideal.ofBits .f32 0x40000000#32)

def specTpn (src trg : Feat) (un : FeatUn) (ls lt : Lab) : EReal :=
  Ideal.div
    (symKl (pS src trg un ls) (pT src trg un lt) + symKl (pS src trg un ls) (pST src trg un ls lt)
      + symKl (pT src trg un lt) (pST src trg un ls lt))
    (Ideal.ofBits .f32 0x40400000#32)

end Cert.Spec

end
-- ==== Proof.KI.HostStretches.lean ====
import proofs.«422586_j33337536151702_2_alg».proof.Proof.Gen.KernelIdeal.Launch
import proofs.«422586_j33337536151702_2_alg».proof.Proof.LibNary3
import proofs.«422586_j33337536151702_2_alg».proof.Proof.Spec
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember
import Idealize.ShloMosaic.Lib.StableHlo.Predicate

noncomputable section

open scoped BigOperators

namespace Cert.KernelIdeal.HostStretches

open Idealize.ShloMosaic Idealize.ShloMosaic.TcCoe Idealize.ShloMosaic.ValueIdx
open Idealize.SL.Sem

theorem hostSum_lead3 {n a b : ℕ} (x : (⟨3, ![n, a, b]⟩ : Shape).Idx → EReal) (init : EReal)
    (h' : (⟨3, ![n, a, b]⟩ : Shape).ReducesTo [0] ⟨2, ![a, b]⟩) (h : (⟨3, ![n, a, b]⟩ : Shape).Reduces [0] ⟨2, ![a, b]⟩)
    (i : Fin a) (j : Fin b) :
    Ideal.hostReduceAdd h' x init (ix2 i j) = init + ∑ k : Fin n, x (ix3 k i j) := by
  refine (Ideal.hostReduceAdd_single h' h x init (ix2 i j)).trans ?_
  show init + ∑ k : Fin n, x (h.lift (ix2 i j) k) = _
  refine congrArg (init + ·) (Finset.sum_congr rfl fun k _ => congrArg x (funext fun ax => Fin.ext ?_))
  match ax with
  | ⟨0, _⟩ => rfl
  | ⟨1, _⟩ => rfl
  | ⟨2, _⟩ => rfl

theorem hostSum_pair {a b : ℕ} (x : FVec Ideal ⟨3, ![2, a, b]⟩ .f32)
    (h' : (⟨3, ![2, a, b]⟩ : Shape).ReducesTo [0] ⟨2, ![a, b]⟩) (h : (⟨3, ![2, a, b]⟩ : Shape).Reduces [0] ⟨2, ![a, b]⟩)
    (hu : 0 < (⟨0, ![]⟩ : Shape).numel) (i : Fin a) (j : Fin b) :
    Host.reduceAdd (F := Ideal) x (constant (F := Ideal) ⟨0, ![]⟩ .f32 0x00000000#32) h' hu (ix2 i j)
      = x (ix3 (0 : Fin 2) i j) + x (ix3 (1 : Fin 2) i j) := by
  refine (hostReduceAdd_apply x _ h' hu (ix2 i j)).trans ?_
  refine (hostSum_lead3 x _ h' h i j).trans ?_
  rw [constant_apply, Ideal.ofBits_zero_f32, zero_add, Fin.sum_univ_two]

def sum3 (x : FVec Ideal S2x64x1024 .f32) : FVec Ideal S64x1024 .f32 :=
  Host.reduceAdd (F := Ideal) x (constant (F := Ideal) S_ .f32 0x00000000#32) Gen.reducesTo_S2x64x1024_S64x1024_d0 Gen.h_S_

def cnt1 (x : FVec Ideal S2x1x64 .f32) : FVec Ideal S64 .f32 :=
  shapeCast S64 (Host.reduceAdd (F := Ideal) x (constant (F := Ideal) S_ .f32 0x00000000#32) Gen.reducesTo_S2x1x64_S1x64_d0 Gen.h_S_)
    Gen.shapeCasts_S1x64_S64

def meanOf (s : FVec Ideal S64x1024 .f32) (n : FVec Ideal S64 .f32) : FVec Ideal S64x1024 .f32 :=
  Host.divf (F := Ideal) s
    (broadcastInDim S64x1024 ![0, 1] Gen.bcast_S64x1_S64x1024_0_1
      (broadcastInDim S64x1 ![0] Gen.bcast_S64_S64x1_0
        (maximumf n (broadcastInDim S64 ![] Gen.bcast_S_S64 (constant (F := Ideal) S_ .f32 0x3F800000#32)))))

def mseOf (a b : FVec Ideal S64x1024 .f32) : FVec Ideal S_ .f32 :=
  Host.divf (F := Ideal)
    (Host.reduceAdd (F := Ideal) (mulf (subf a b) (subf a b)) (constant (F := Ideal) S_ .f32 0x00000000#32)
      Gen.reducesTo_S64x1024_S_d0_1 Gen.h_S_)
    (constant (F := Ideal) S_ .f32 0x47800000#32)

def mmdOf (us ut ust : FVec Ideal S64x1024 .f32) : FVec Ideal S_ .f32 :=
  Host.divf (F := Ideal) (addf (addf (mseOf us ut) (mseOf us ust)) (mseOf ut ust)) (constant (F := Ideal) S_ .f32 0x40400000#32)

def catT (us ut ust : FVec Ideal S64x1024 .f32) : FVec Ideal S1024x192 .f32 :=
  concatenate S1024x192 1
    [⟨S1024x64, transpose S1024x64 [1, 0] us Gen.transposes_S64x1024_S1024x64_1_0⟩,
     ⟨S1024x64, transpose S1024x64 [1, 0] ut Gen.transposes_S64x1024_S1024x64_1_0⟩,
     ⟨S1024x64, transpose S1024x64 [1, 0] ust Gen.transposes_S64x1024_S1024x64_1_0⟩]
    Gen.concatenates_S1024x64_S1024x64_S1024x64_S1024x192_d1

theorem sum3_apply (x : FVec Ideal S2x64x1024 .f32) (c : Fin 64) (d : Fin 1024) :
    sum3 x (ix2 c d) = x (ix3 (0 : Fin 2) c d) + x (ix3 (1 : Fin 2) c d) := by
  have hR : S2x64x1024.Reduces [0] S64x1024 := by decide
  unfold sum3
  exact hostSum_pair x _ hR _ c d

theorem cnt1_apply (x : FVec Ideal S2x1x64 .f32) (c : Fin 64) :
    cnt1 x (ix1 c) = x (ix3 (0 : Fin 2) (0 : Fin 1) c) + x (ix3 (1 : Fin 2) (0 : Fin 1) c) := by
  have hR : S2x1x64.Reduces [0] S1x64 := by decide
  unfold cnt1
  refine (shapeCast_1a_a_apply _ Gen.shapeCasts_S1x64_S64 c).trans ?_
  exact hostSum_pair x _ hR _ (0 : Fin 1) c

theorem meanOf_apply (s : FVec Ideal S64x1024 .f32) (n : FVec Ideal S64 .f32) (c : Fin 64) (d : Fin 1024) :
    meanOf s n (ix2 c d) = Ideal.div (s (ix2 c d)) (max (n (ix1 c)) (Ideal.ofBits .f32 0x3F800000#32)) := by
  unfold meanOf
  rw [hostDivf_apply]
  refine congrArg (Ideal.div (s (ix2 c d))) ?_
  refine (StableHlo.Predicate.bcast_rows Gen.bcast_S64_S64x1_0 Gen.bcast_S64x1_S64x1024_0_1 _ c d).trans ?_
  rw [maximumf_apply, broadcastInDim_scalar_apply, constant_apply]
  exact congrArg (fun i => max (n i) _) (eq_ix1 _)

theorem mmdOf_apply (us ut ust : FVec Ideal S64x1024 .f32) :
    mmdOf us ut ust ix0
      = Ideal.div (mseOf us ut ix0 + mseOf us ust ix0 + mseOf ut ust ix0) (Ideal.ofBits .f32 0x40400000#32) := rfl

-- Column 64 p + c of the three transposes laid side by side is row c of the p-th array.
theorem catT_piece (us ut ust : FVec Ideal S64x1024 .f32) (p : Fin 3) (c : Fin 64) (d : Fin 1024) (k : Fin 192)
    (hk : k.val = 64 * p.val + c.val) :
    catT us ut ust (ix2 d k) = ![us, ut, ust] p (ix2 c d) := by
  have := p.isLt
  have := c.isLt
  refine (concatenate_ofFn_apply (t := S1024x192) (s₁ := S1024x64) 1
    (fun n : Fin 3 => transpose S1024x64 [1, 0] (![us, ut, ust] n) Gen.transposes_S64x1024_S1024x64_1_0)
    Gen.concatenates_S1024x64_S1024x64_S1024x64_S1024x192_d1 rfl 64 rfl (ix2 d k) p ?_ (ix2 d c) ?_ fun b hb => ?_).trans
    (transpose_ix2_apply (![us, ut, ust] p) Gen.transposes_S64x1024_S1024x64_1_0 d c)
  · show k.val / 64 = p.val
    omega
  · show c.val = k.val % 64
    omega
  · match b with
    | ⟨0, _⟩ => rfl
    | ⟨1, _⟩ => exact absurd rfl hb

section Terms
variable (W : Valuation τ sig (Elt Ideal))

def usOf : FVec Ideal S64x1024 .f32 :=
  meanOf (sum3 (W (Proc.devRef .tc main_v2_0))) (cnt1 (W (Proc.devRef .tc main_v2_2)))

def utOf : FVec Ideal S64x1024 .f32 :=
  meanOf (sum3 (W (Proc.devRef .tc main_v2_1))) (cnt1 (W (Proc.devRef .tc main_v2_3)))

def ustOf : FVec Ideal S64x1024 .f32 :=
  meanOf (addf (sum3 (W (Proc.devRef .tc main_v2_0))) (sum3 (W (Proc.devRef .tc main_v2_1))))
    (addf (cnt1 (W (Proc.devRef .tc main_v2_2))) (cnt1 (W (Proc.devRef .tc main_v2_3))))

local macro "results3" : tactic =>
  `(tactic| (simp (disch := decide) only [StableHlo.after_cons, StableHlo.after_nil,
      StableHlo.nullary_result', StableHlo.unary_result', StableHlo.binary_result', StableHlo.reshape_result',
      Cert.Lib.nary3_result',
      StableHlo.nullary_result_ne', StableHlo.unary_result_ne', StableHlo.binary_result_ne', StableHlo.reshape_result_ne',
      StableHlo.nary_result_ne']))

theorem v40_term : StableHlo.after (Gen.hostOps1 (F := Ideal)) W (Proc.devRef .tc main_v40)
    = mmdOf (usOf W) (utOf W) (ustOf W) := by
  results3; rfl

theorem v44_term : StableHlo.after (Gen.hostOps1 (F := Ideal)) W (Proc.devRef .tc main_v44)
    = catT (usOf W) (utOf W) (ustOf W) := by
  results3; rfl

end Terms

section Means
variable (W : Valuation τ sig (Elt Ideal))

abbrev outSumS : FVec Ideal S2x64x1024 .f32 := W (Proc.devRef .tc main_v2_0)
abbrev outSumT : FVec Ideal S2x64x1024 .f32 := W (Proc.devRef .tc main_v2_1)
abbrev outCntS : FVec Ideal S2x1x64 .f32 := W (Proc.devRef .tc main_v2_2)
abbrev outCntT : FVec Ideal S2x1x64 .f32 := W (Proc.devRef .tc main_v2_3)

def sumS : Cert.Spec.Means := fun c d => outSumS W (ix3 (0 : Fin 2) c d) + outSumS W (ix3 (1 : Fin 2) c d)

def sumT : Cert.Spec.Means := fun c d => outSumT W (ix3 (0 : Fin 2) c d) + outSumT W (ix3 (1 : Fin 2) c d)

def cntS : Fin 64 → EReal := fun c =>
  outCntS W (ix3 (0 : Fin 2) (0 : Fin 1) c) + outCntS W (ix3 (1 : Fin 2) (0 : Fin 1) c)

def cntT : Fin 64 → EReal := fun c =>
  outCntT W (ix3 (0 : Fin 2) (0 : Fin 1) c) + outCntT W (ix3 (1 : Fin 2) (0 : Fin 1) c)

def uS' : Cert.Spec.Means := Cert.Spec.classMean (sumS W) (cntS W)
def uT' : Cert.Spec.Means := Cert.Spec.classMean (sumT W) (cntT W)
def uST' : Cert.Spec.Means :=
  Cert.Spec.classMean (fun c j => sumS W c j + sumT W c j) (fun c => cntS W c + cntT W c)

theorem usOf_apply (c : Fin 64) (d : Fin 1024) : usOf W (ix2 c d) = uS' W c d := by
  unfold usOf
  rw [meanOf_apply, sum3_apply, cnt1_apply]
  rfl

theorem utOf_apply (c : Fin 64) (d : Fin 1024) : utOf W (ix2 c d) = uT' W c d := by
  unfold utOf
  rw [meanOf_apply, sum3_apply, cnt1_apply]
  rfl

theorem ustOf_apply (c : Fin 64) (d : Fin 1024) : ustOf W (ix2 c d) = uST' W c d := by
  unfold ustOf
  rw [meanOf_apply, addf_apply, addf_apply, sum3_apply, sum3_apply, cnt1_apply, cnt1_apply]
  rfl

-- The mean of squared differences over all 64 × 1024 entries, read entry by entry.
theorem mseOf_eq (a b : FVec Ideal S64x1024 .f32) (a' b' : Cert.Spec.Means)
    (ha : ∀ c d, a (ix2 c d) = a' c d) (hb : ∀ c d, b (ix2 c d) = b' c d) :
    mseOf a b ix0 = Cert.Spec.mse a' b' := by
  unfold mseOf Cert.Spec.mse
  rw [hostDivf_apply, constant_apply, hostReduceAdd_apply,
    Ideal.hostReduceAdd_total Gen.reducesTo_S64x1024_S_d0_1 (fun b => b.elim0), constant_apply, Ideal.ofBits_zero_f32, zero_add,
    sum_idx2]
  refine congrArg (fun s => Ideal.div s (Ideal.ofBits .f32 0x47800000#32))
    (Finset.sum_congr rfl fun c _ => Finset.sum_congr rfl fun d _ => ?_)
  rw [← ha, ← hb]
  rfl

theorem mmd_eq :
    StableHlo.after (Gen.hostOps1 (F := Ideal)) W (Proc.devRef .tc main_v40) ix0
      = Ideal.div (Cert.Spec.mse (uS' W) (uT' W) + Cert.Spec.mse (uS' W) (uST' W) + Cert.Spec.mse (uT' W) (uST' W))
          (Ideal.ofBits .f32 0x40400000#32) := by
  refine (congrFun (v40_term W) ix0).trans ?_
  rw [mmdOf_apply, mseOf_eq _ _ _ _ (usOf_apply W) (utOf_apply W), mseOf_eq _ _ _ _ (usOf_apply W) (ustOf_apply W),
    mseOf_eq _ _ _ _ (utOf_apply W) (ustOf_apply W)]

theorem uallT_S (d : Fin 1024) (c : Fin 64) :
    StableHlo.after (Gen.hostOps1 (F := Ideal)) W (Proc.devRef .tc main_v44) (ix2 d (⟨c.val, by omega⟩ : Fin 192)) = uS' W c d :=
  ((congrFun (v44_term W) _).trans (catT_piece _ _ _ 0 c d _ (by show c.val = 64 * 0 + c.val; omega))).trans
    (usOf_apply W c d)

theorem uallT_T (d : Fin 1024) (c : Fin 64) :
    StableHlo.after (Gen.hostOps1 (F := Ideal)) W (Proc.devRef .tc main_v44) (ix2 d (⟨64 + c.val, by omega⟩ : Fin 192)) = uT' W c d :=
  ((congrFun (v44_term W) _).trans (catT_piece _ _ _ 1 c d _ (by show 64 + c.val = 64 * 1 + c.val; omega))).trans
    (utOf_apply W c d)

theorem uallT_ST (d : Fin 1024) (c : Fin 64) :
    StableHlo.after (Gen.hostOps1 (F := Ideal)) W (Proc.devRef .tc main_v44) (ix2 d (⟨128 + c.val, by omega⟩ : Fin 192)) = uST' W c d :=
  ((congrFun (v44_term W) _).trans (catT_piece _ _ _ 2 c d _ (by show 128 + c.val = 64 * 2 + c.val; omega))).trans
    (ustOf_apply W c d)

end Means

def total (a b c : FVec Ideal S2x1x128 .f32) : FVec Ideal S1x128 .f32 :=
  addf (addf (Host.reduceAdd (F := Ideal) a (constant (F := Ideal) S_ .f32 0x00000000#32) Gen.reducesTo_S2x1x128_S1x128_d0 Gen.h_S_)
      (Host.reduceAdd (F := Ideal) b (constant (F := Ideal) S_ .f32 0x00000000#32) Gen.reducesTo_S2x1x128_S1x128_d0 Gen.h_S_))
    (Host.reduceAdd (F := Ideal) c (constant (F := Ideal) S_ .f32 0x00000000#32) Gen.reducesTo_S2x1x128_S1x128_d0 Gen.h_S_)

def laneOf (t : FVec Ideal S1x128 .f32) (off : Fin 2 → Nat) (h : S1x128.Slices off S1x1) : FVec Ideal S_ .f32 :=
  shapeCast S_ (extractStridedSlice S1x1 off t h) Gen.shapeCasts_S1x1_S_

theorem laneOf_apply (t : FVec Ideal S1x128 .f32) (off : Fin 2 → Nat) (h : S1x128.Slices off S1x1) (l : Fin 128)
    (h0 : off 0 = 0) (h1 : off 1 = l.val) : laneOf t off h ix0 = t (ix2 (0 : Fin 1) l) := by
  unfold laneOf
  refine (shapeCast_apply _ Gen.shapeCasts_S1x1_S_ ix0 (ix2 (0 : Fin 1) (0 : Fin 1)) ?_).trans ?_
  · have e1 : S1x1.numel = 1 := by decide
    have e0 : S_.numel = 1 := by decide
    have := (S1x1.rowMajor (ix2 (0 : Fin 1) (0 : Fin 1))).isLt
    have := (S_.rowMajor ix0).isLt
    omega
  · refine extractStridedSlice_apply off t h _ (ix2 (0 : Fin 1) l) fun a => ?_
    match a with
    | ⟨0, _⟩ => show 0 = off 0 + 0; omega
    | ⟨1, _⟩ => show l.val = off 1 + 0; omega

section Terms4
variable (W : Valuation τ sig (Elt Ideal))

abbrev tot : FVec Ideal S1x128 .f32 :=
  total (W (Proc.devRef .tc main_v45)) (W (Proc.devRef .tc main_v46)) (W (Proc.devRef .tc main_v47))

theorem v63_term : StableHlo.after (Gen.hostOps4 (F := Ideal)) W (Proc.devRef .tc main_v63)
    = Host.divf (F := Ideal) (laneOf (tot W) ![0, 0] Gen.slices_S1x128_S1x1_0_0)
        (constant (F := Ideal) S_ .f32 0x46000000#32) := by
  after_results; rfl

theorem v64_term : StableHlo.after (Gen.hostOps4 (F := Ideal)) W (Proc.devRef .tc main_v64)
    = Host.divf (F := Ideal) (laneOf (tot W) ![0, 1] Gen.slices_S1x128_S1x1_0_1)
        (constant (F := Ideal) S_ .f32 0x46000000#32) := by
  after_results; rfl

theorem v70_term : StableHlo.after (Gen.hostOps4 (F := Ideal)) W (Proc.devRef .tc main_v70)
    = Host.divf (F := Ideal)
        (addf (addf
          (Host.divf (F := Ideal) (laneOf (tot W) ![0, 2] Gen.slices_S1x128_S1x1_0_2)
            (constant (F := Ideal) S_ .f32 0x4A800000#32))
          (Host.divf (F := Ideal) (laneOf (tot W) ![0, 3] Gen.slices_S1x128_S1x1_0_3)
            (constant (F := Ideal) S_ .f32 0x4A800000#32)))
          (Host.divf (F := Ideal) (laneOf (tot W) ![0, 4] Gen.slices_S1x128_S1x1_0_4)
            (constant (F := Ideal) S_ .f32 0x4A800000#32)))
        (constant (F := Ideal) S_ .f32 0x40400000#32) := by
  after_results_simp; rfl

end Terms4

section Scalars
variable (W : Valuation τ sig (Elt Ideal))

abbrev outP1 : FVec Ideal S2x1x128 .f32 := W (Proc.devRef .tc main_v45)
abbrev outP2 : FVec Ideal S2x1x128 .f32 := W (Proc.devRef .tc main_v46)
abbrev outP3 : FVec Ideal S2x1x128 .f32 := W (Proc.devRef .tc main_v47)

def lane (l : Fin 128) : EReal :=
  ((outP1 W (ix3 (0 : Fin 2) (0 : Fin 1) l) + outP1 W (ix3 (1 : Fin 2) (0 : Fin 1) l))
      + (outP2 W (ix3 (0 : Fin 2) (0 : Fin 1) l) + outP2 W (ix3 (1 : Fin 2) (0 : Fin 1) l)))
    + (outP3 W (ix3 (0 : Fin 2) (0 : Fin 1) l) + outP3 W (ix3 (1 : Fin 2) (0 : Fin 1) l))

theorem laneOf_total (off : Fin 2 → Nat) (h : S1x128.Slices off S1x1) (l : Fin 128) (h0 : off 0 = 0) (h1 : off 1 = l.val) :
    laneOf (tot W) off h ix0
      = lane W l := by
  have hR : S2x1x128.Reduces [0] S1x128 := by decide
  rw [laneOf_apply _ off h l h0 h1, tot, total, addf_apply, addf_apply, hostSum_pair _ _ hR, hostSum_pair _ _ hR,
    hostSum_pair _ _ hR]
  rfl

theorem supvS_eq :
    StableHlo.after (Gen.hostOps4 (F := Ideal)) W (Proc.devRef .tc main_v63) ix0
      = Ideal.div (lane W (0 : Fin 128)) (Ideal.ofBits .f32 0x46000000#32) := by
  refine (congrFun (v63_term W) ix0).trans ?_
  rw [hostDivf_apply, constant_apply, laneOf_total W _ _ (0 : Fin 128) rfl rfl]

theorem supvT_eq :
    StableHlo.after (Gen.hostOps4 (F := Ideal)) W (Proc.devRef .tc main_v64) ix0
      = Ideal.div (lane W (1 : Fin 128)) (Ideal.ofBits .f32 0x46000000#32) := by
  refine (congrFun (v64_term W) ix0).trans ?_
  rw [hostDivf_apply, constant_apply, laneOf_total W _ _ (1 : Fin 128) rfl rfl]

theorem tpn_eq :
    StableHlo.after (Gen.hostOps4 (F := Ideal)) W (Proc.devRef .tc main_v70) ix0
      = Ideal.div
          ((Ideal.div (lane W (2 : Fin 128)) (Ideal.ofBits .f32 0x4A800000#32)
              + Ideal.div (lane W (3 : Fin 128)) (Ideal.ofBits .f32 0x4A800000#32))
            + Ideal.div (lane W (4 : Fin 128)) (Ideal.ofBits .f32 0x4A800000#32))
          (Ideal.ofBits .f32 0x40400000#32) := by
  refine (congrFun (v70_term W) ix0).trans ?_
  rw [hostDivf_apply, constant_apply, addf_apply, addf_apply, hostDivf_apply, hostDivf_apply, hostDivf_apply, constant_apply,
    laneOf_total W _ _ (2 : Fin 128) rfl rfl, laneOf_total W _ _ (3 : Fin 128) rfl rfl, laneOf_total W _ _ (4 : Fin 128) rfl rfl]

end Scalars

end Cert.KernelIdeal.HostStretches

end
-- ==== Proof.LibBlockSum.lean ====
import Mathlib.Logic.Equiv.Fin.Basic
import Mathlib.Data.Fintype.BigOperators
import Mathlib.Algebra.BigOperators.Group.Finset.Defs

namespace Cert.Lib

theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

end Cert.Lib
-- ==== Proof.BridgeSeg.lean ====
import proofs.«422586_j33337536151702_2_alg».proof.Proof.Spec
import proofs.«422586_j33337536151702_2_alg».proof.Proof.LibBlockSum
import Idealize.ShloMosaic.Lib.ValueIdx
import Mathlib.Algebra.BigOperators.Fin

noncomputable section

open scoped BigOperators

namespace Cert.BridgeSeg

open Idealize.ShloMosaic Idealize.ShloMosaic.ValueIdx
open Cert.Spec (Feat Lab segSum segCnt)

theorem row_lt (t : Fin 8) (r : Fin 1024) : 1024 * t.val + r.val < 8192 := by
  have := t.isLt; have := r.isLt; omega

theorem tile_lt (p : Fin 2) (k : Fin 4) : 4 * p.val + k.val < 8 := by
  have := p.isLt; have := k.isLt; omega

abbrev tileOf (p : Fin 2) (k : Fin 4) : Fin 8 := ⟨4 * p.val + k.val, tile_lt p k⟩

def tileSum (x : Feat) (lab : Lab) (t : Fin 8) (c : Fin 64) (j : Fin 1024) : EReal :=
  ∑ r : Fin 1024,
    if lab (ix1 (⟨1024 * t.val + r.val, row_lt t r⟩ : Fin 8192)) = BitVec.ofNat 32 c.val
    then x (ix2 (⟨1024 * t.val + r.val, row_lt t r⟩ : Fin 8192) j) else 0

def tileCnt (lab : Lab) (t : Fin 8) (c : Fin 64) : EReal :=
  ∑ r : Fin 1024,
    if lab (ix1 (⟨1024 * t.val + r.val, row_lt t r⟩ : Fin 8192)) = BitVec.ofNat 32 c.val
    then Ideal.ofBits .f32 0x3F800000#32 else 0

def coreSum (x : Feat) (lab : Lab) (p : Fin 2) (c : Fin 64) (j : Fin 1024) : EReal :=
  (((0 + tileSum x lab (tileOf p 0) c j) + tileSum x lab (tileOf p 1) c j) + tileSum x lab (tileOf p 2) c j)
    + tileSum x lab (tileOf p 3) c j

def coreCnt (lab : Lab) (p : Fin 2) (c : Fin 64) : EReal :=
  (((0 + tileCnt lab (tileOf p 0) c) + tileCnt lab (tileOf p 1) c) + tileCnt lab (tileOf p 2) c)
    + tileCnt lab (tileOf p 3) c

-- Two running sums of four tiles each, started at zero, add up to the sum over all eight tiles.
theorem two_cores_total {M : Type*} [AddCommMonoid M] (a : Fin 8 → M) :
    ((((0 + a 0) + a 1) + a 2) + a 3) + ((((0 + a 4) + a 5) + a 6) + a 7) = ∑ t : Fin 8, a t := by
  rw [Fin.sum_univ_eight]
  simp only [zero_add, add_assoc]

-- Eight tiles of 1024 rows cover the 8192 rows.
theorem tiles_total {M : Type*} [AddCommMonoid M] (f : Fin 8192 → M) :
    ∑ t : Fin 8, ∑ r : Fin 1024, f ⟨1024 * t.val + r.val, row_lt t r⟩ = ∑ n : Fin 8192, f n := by
  rw [← Cert.Lib.sum_blocks (T := 8) (L := 1024) (N := 8192) rfl f
    (fun t l => by have := t.isLt; have := l.isLt; omega)]
  refine Finset.sum_congr rfl fun t _ => Finset.sum_congr rfl fun r _ => congrArg f (Fin.ext ?_)
  show 1024 * t.val + r.val = t.val * 1024 + r.val
  rw [Nat.mul_comm]

theorem segSum_eq (x : Feat) (lab : Lab) (c : Fin 64) (j : Fin 1024) :
    coreSum x lab 0 c j + coreSum x lab 1 c j = segSum x lab c j :=
  (two_cores_total fun t => tileSum x lab t c j).trans
    (tiles_total fun n : Fin 8192 => if lab (ix1 n) = BitVec.ofNat 32 c.val then x (ix2 n j) else 0)

theorem segCnt_eq (lab : Lab) (c : Fin 64) :
    coreCnt lab 0 c + coreCnt lab 1 c = segCnt lab c :=
  (two_cores_total fun t => tileCnt lab t c).trans
    (tiles_total fun n : Fin 8192 => if lab (ix1 n) = BitVec.ofNat 32 c.val then Ideal.ofBits .f32 0x3F800000#32 else 0)

end Cert.BridgeSeg

end
-- ==== Proof.KI.MeansGlue.lean ====
import proofs.«422586_j33337536151702_2_alg».proof.Proof.KI.HostStretches
import proofs.«422586_j33337536151702_2_alg».proof.Proof.BridgeSeg

noncomputable section

namespace Cert.KernelIdeal.MeansGlue

open Idealize.ShloMosaic Idealize.ShloMosaic.TcCoe Idealize.ShloMosaic.ValueIdx
open Idealize.SL.Sem
open Cert.KernelIdeal.HostStretches

section Glue
variable (W : Valuation τ sig (Elt Ideal)) (src trg : Cert.Spec.Feat) (un : Cert.Spec.FeatUn) (ls lt : Cert.Spec.Lab)

theorem sumS_of (h0 : ∀ (p : Fin 2) (k : Fin 64) (j : Fin 1024), outSumS W (ix3 p k j) = Cert.BridgeSeg.coreSum src ls p k j) :
    sumS W = Cert.Spec.segSum src ls := by
  funext c d
  unfold sumS
  rw [h0, h0]
  exact Cert.BridgeSeg.segSum_eq src ls c d

theorem sumT_of (h1 : ∀ (p : Fin 2) (k : Fin 64) (j : Fin 1024), outSumT W (ix3 p k j) = Cert.BridgeSeg.coreSum trg lt p k j) :
    sumT W = Cert.Spec.segSum trg lt := by
  funext c d
  unfold sumT
  rw [h1, h1]
  exact Cert.BridgeSeg.segSum_eq trg lt c d

theorem cntS_of (h2 : ∀ (p : Fin 2) (k : Fin 64), outCntS W (ix3 p (0 : Fin 1) k) = Cert.BridgeSeg.coreCnt ls p k) :
    cntS W = Cert.Spec.segCnt ls := by
  funext c
  unfold cntS
  rw [h2, h2]
  exact Cert.BridgeSeg.segCnt_eq ls c

theorem cntT_of (h3 : ∀ (p : Fin 2) (k : Fin 64), outCntT W (ix3 p (0 : Fin 1) k) = Cert.BridgeSeg.coreCnt lt p k) :
    cntT W = Cert.Spec.segCnt lt := by
  funext c
  unfold cntT
  rw [h3, h3]
  exact Cert.BridgeSeg.segCnt_eq lt c

-- Region 0's four outputs hold each core's partial sums and counts.
def CoreParts : Prop :=
  (∀ (p : Fin 2) (k : Fin 64) (j : Fin 1024), outSumS W (ix3 p k j) = Cert.BridgeSeg.coreSum src ls p k j)
  ∧ (∀ (p : Fin 2) (k : Fin 64) (j : Fin 1024), outSumT W (ix3 p k j) = Cert.BridgeSeg.coreSum trg lt p k j)
  ∧ (∀ (p : Fin 2) (k : Fin 64), outCntS W (ix3 p (0 : Fin 1) k) = Cert.BridgeSeg.coreCnt ls p k)
  ∧ ∀ (p : Fin 2) (k : Fin 64), outCntT W (ix3 p (0 : Fin 1) k) = Cert.BridgeSeg.coreCnt lt p k

theorem means_of (h : CoreParts W src trg ls lt) :
    uS' W = Cert.Spec.uS src ls ∧ uT' W = Cert.Spec.uT trg lt ∧ uST' W = Cert.Spec.uST src trg ls lt := by
  obtain ⟨h0, h1, h2, h3⟩ := h
  refine ⟨?_, ?_, ?_⟩
  · unfold uS' Cert.Spec.uS
    rw [sumS_of W src ls h0, cntS_of W ls h2]
  · unfold uT' Cert.Spec.uT
    rw [sumT_of W trg lt h1, cntT_of W lt h3]
  · unfold uST' Cert.Spec.uST
    rw [sumS_of W src ls h0, sumT_of W trg lt h1, cntS_of W ls h2, cntT_of W lt h3]

theorem mmd_of (h : CoreParts W src trg ls lt) :
    StableHlo.after (Gen.hostOps1 (F := Ideal)) W (Proc.devRef .tc main_v40) ix0 = Cert.Spec.specMmd src trg un ls lt := by
  obtain ⟨eS, eT, eST⟩ := means_of W src trg ls lt h
  rw [mmd_eq, eS, eT, eST]
  rfl

theorem uallT_of (h : CoreParts W src trg ls lt) (q : Fin 1024) (c : Fin 64) :
    StableHlo.after (Gen.hostOps1 (F := Ideal)) W (Proc.devRef .tc main_v44) (ix2 q (⟨c.val, by omega⟩ : Fin 192))
        = Cert.Spec.uS src ls c q
      ∧ StableHlo.after (Gen.hostOps1 (F := Ideal)) W (Proc.devRef .tc main_v44) (ix2 q (⟨64 + c.val, by omega⟩ : Fin 192))
        = Cert.Spec.uT trg lt c q
      ∧ StableHlo.after (Gen.hostOps1 (F := Ideal)) W (Proc.devRef .tc main_v44) (ix2 q (⟨128 + c.val, by omega⟩ : Fin 192))
        = Cert.Spec.uST src trg ls lt c q := by
  obtain ⟨eS, eT, eST⟩ := means_of W src trg ls lt h
  exact ⟨(uallT_S W q c).trans (by rw [eS]), (uallT_T W q c).trans (by rw [eT]), (uallT_ST W q c).trans (by rw [eST])⟩

end Glue

end Cert.KernelIdeal.MeansGlue

end
-- ==== Proof.KI.TileMath.lean ====
import proofs.«422586_j33337536151702_2_alg».proof.Proof.Gen.KernelIdeal
import proofs.«422586_j33337536151702_2_alg».proof.Proof.Spec
import proofs.«422586_j33337536151702_2_alg».proof.Proof.LibKeepdims
import Idealize.ShloMosaic.Lib.KernelVsHost
import Idealize.ShloMosaic.Lib.StackMember

noncomputable section

open scoped BigOperators

namespace Cert.KernelIdeal.TileMath

open Cert.KernelIdeal Cert.KernelIdeal.Gen
open Idealize.ShloMosaic Idealize.ShloMosaic.ValueIdx
open Cert.Keepdims

theorem dot_eq_plain : dot_S2048x1024_S1024x192_S2048x192_1_0_0_1_n_n = DotDims.plain 2048 1024 192 := rfl

def projBlock (x : FVec Ideal S2048x1024 .f32) (u : FVec Ideal S1024x192 .f32) : FVec Ideal S2048x192 .f32 :=
  matmul dot_S2048x1024_S1024x192_S2048x192_1_0_0_1_n_n none
    (truncf .bf16 x bitsLt_bf16_f32)
    (truncf .bf16 (shapeCast S1024x192 u shapeCasts_S1024x192_S1024x192) bitsLt_bf16_f32)
    (constant (F := Ideal) S2048x192 .f32 0x00000000#32)

theorem projBlock_apply (x : FVec Ideal S2048x1024 .f32) (u : FVec Ideal S1024x192 .f32) (ρ : Fin 2048) (k : Fin 192) :
    projBlock x u (ix2 ρ k) = ∑ q : Fin 1024, x (ix2 ρ q) * u (ix2 q k) := by
  unfold projBlock
  rw [shapeCast_self]
  rw [dot_eq_plain, matmul_zero_eq_dotGeneral]; exact StackMember.dotGeneral_plain_apply none _ _ ρ k

def lsmShift (z : FVec Ideal S2048x64 .f32) : FVec Ideal S2048x64 .f32 :=
  subf z (broadcastTo S2048x64
    (shapeCast S2048x1
      (maximumf (broadcast S2048 (Scalar.ofBits (F := Ideal) .f32 0xFF800000#32))
        (multiReduction (F := Ideal) .maximumf [1] S2048 z 0xFF800000#32 reduces_S2048x64_S2048 (.inl rfl) rfl))
      shapeCasts_S2048_S2048x1) broadcasts_S2048x1_S2048x64)

def lsmFinish (w : FVec Ideal S2048x64 .f32) : FVec Ideal S2048x64 .f32 :=
  subf w (broadcastTo S2048x64
    (log (shapeCast S2048x1
      (multiReduction (F := Ideal) .add [1] S2048 (exp w) 0x00000000#32 reduces_S2048x64_S2048 (.inl rfl) rfl)
      shapeCasts_S2048_S2048x1))
    broadcasts_S2048x1_S2048x64)

def lsmBlock (z : FVec Ideal S2048x64 .f32) : FVec Ideal S2048x64 .f32 := lsmFinish (lsmShift z)

theorem lsmShift_apply (z : FVec Ideal S2048x64 .f32) (ρ : Fin 2048) (c : Fin 64) :
    lsmShift z (ix2 ρ c) = z (ix2 ρ c) - Cert.Spec.rowShift (fun c' => z (ix2 ρ c')) := by
  unfold lsmShift
  rw [subf_apply, broadcastTo_a1_ab_apply, shapeCast_a_a1_apply, maximumf_apply, broadcast_apply, max_rows_f32]
  rfl

theorem lsmFinish_apply (w : FVec Ideal S2048x64 .f32) (ρ : Fin 2048) (c : Fin 64) :
    lsmFinish w (ix2 ρ c) = w (ix2 ρ c) - Ideal.log (∑ k : Fin 64, Ideal.exp (w (ix2 ρ k))) := by
  unfold lsmFinish
  rw [subf_apply, broadcastTo_a1_ab_apply]
  show _ - Ideal.log (shapeCast S2048x1 _ _ (ix2 ρ (0 : Fin 1))) = _
  rw [shapeCast_a_a1_apply, add_rows_f32]
  rfl

theorem lsmBlock_apply (z : FVec Ideal S2048x64 .f32) (ρ : Fin 2048) (c : Fin 64) :
    lsmBlock z (ix2 ρ c) = Cert.Spec.logSoftmax (fun c' => z (ix2 ρ c')) c := by
  unfold lsmBlock Cert.Spec.logSoftmax
  rw [lsmFinish_apply, lsmShift_apply]
  simp only [lsmShift_apply]

theorem slice0_apply (y : FVec Ideal S2048x192 .f32) (ρ : Fin 2048) (c : Fin 64) :
    extractStridedSlice S2048x64 ![0, 0] y slices_S2048x192_o0_0_S2048x64 (ix2 ρ c)
      = y (ix2 ρ (⟨c.val, by omega⟩ : Fin 192)) :=
  slice2_axis1_apply 0 y _ ρ c _ (by simp)

theorem slice64_apply (y : FVec Ideal S2048x192 .f32) (ρ : Fin 2048) (c : Fin 64) :
    extractStridedSlice S2048x64 ![0, 64] y slices_S2048x192_o0_64_S2048x64 (ix2 ρ c)
      = y (ix2 ρ (⟨64 + c.val, by omega⟩ : Fin 192)) :=
  slice2_axis1_apply 64 y _ ρ c _ rfl

theorem slice128_apply (y : FVec Ideal S2048x192 .f32) (ρ : Fin 2048) (c : Fin 64) :
    extractStridedSlice S2048x64 ![0, 128] y slices_S2048x192_o0_128_S2048x64 (ix2 ρ c)
      = y (ix2 ρ (⟨128 + c.val, by omega⟩ : Fin 192)) :=
  slice2_axis1_apply 128 y _ ρ c _ rfl

def pairSum (a b : FVec Ideal S2048x64 .f32) : FVec Ideal S1x1 .f32 :=
  shapeCast S1x1
    (multiReduction (F := Ideal) .add [0] S1
      (shapeCast S2048x1
        (multiReduction (F := Ideal) .add [1] S2048
          (addf (mulf (exp b) (subf b a)) (mulf (exp a) (subf a b)))
          0x00000000#32 reduces_S2048x64_S2048 (.inl rfl) rfl)
        shapeCasts_S2048_S2048x1)
      0x00000000#32 reduces_S2048x1_S1 (.inl rfl) rfl)
    shapeCasts_S1_S1x1

theorem pairSum_apply (a b : FVec Ideal S2048x64 .f32) :
    pairSum a b (ix2 (0 : Fin 1) (0 : Fin 1))
      = ∑ ρ : Fin 2048, ∑ c : Fin 64,
          (Ideal.exp (b (ix2 ρ c)) * (b (ix2 ρ c) - a (ix2 ρ c)) + Ideal.exp (a (ix2 ρ c)) * (a (ix2 ρ c) - b (ix2 ρ c))) := by
  unfold pairSum
  rw [shapeCast_a_a1_apply, add_cols_f32]
  refine Finset.sum_congr rfl fun ρ _ => ?_
  rw [shapeCast_a_a1_apply, add_rows_f32]
  rfl

theorem maskVal (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · have hb : (x == y) = true := by simpa using h
    rw [hb, if_pos h]
    have : ((BitVec.ofBool true).setWidth 32).toInt = 1 := by decide
    rw [this]; norm_num
  · have hb : (x == y) = false := by simpa using h
    rw [hb, if_neg h]
    have : ((BitVec.ofBool false).setWidth 32).toInt = 0 := by decide
    rw [this]; norm_num

def onehot (lab : IVec S2048x1 32) : FVec Ideal S2048x64 .f32 :=
  sitofp .f32
    (extui 32
      (cmpi .eq (iota .tc S2048x64 32 [1] iota_S2048x64_d1_w32)
        (broadcastTo S2048x64 (shapeCast S2048x1 lab shapeCasts_S2048x1_S2048x1) broadcasts_S2048x1_S2048x64))
      natLt_1_32)

theorem onehot_apply (lab : IVec S2048x1 32) (ρ : Fin 2048) (c : Fin 64) :
    onehot lab (ix2 ρ c) = if lab (ix2 ρ (0 : Fin 1)) = BitVec.ofNat 32 c.val then 1 else 0 := by
  unfold onehot
  rw [sitofp_apply, extui_apply]
  show FloatOps.sitofp (F := Ideal) .f32 ((IntOp.cmpi .eq (iota .tc S2048x64 32 [1] iota_S2048x64_d1_w32 (ix2 ρ c))
    (broadcastTo S2048x64 (shapeCast S2048x1 lab shapeCasts_S2048x1_S2048x1) broadcasts_S2048x1_S2048x64 (ix2 ρ c))).setWidth 32) = _
  rw [maskVal, iota_single_apply, broadcastTo_a1_ab_apply, shapeCast_self]
  show (if BitVec.ofNat 32 c.val = lab (ix2 ρ (0 : Fin 1)) then (1 : EReal) else 0) = _
  simp only [eq_comm]

def ceRow (logp : FVec Ideal S2048x64 .f32) (lab : IVec S2048x1 32) : FVec Ideal S2048x1 .f32 :=
  shapeCast S2048x1
    (multiReduction (F := Ideal) .add [1] S2048 (mulf (onehot lab) logp) 0x00000000#32 reduces_S2048x64_S2048 (.inl rfl) rfl)
    shapeCasts_S2048_S2048x1

theorem ceRow_apply (logp : FVec Ideal S2048x64 .f32) (lab : IVec S2048x1 32) (ρ : Fin 2048) :
    ceRow logp lab (ix2 ρ (0 : Fin 1))
      = ∑ c : Fin 64, (if lab (ix2 ρ (0 : Fin 1)) = BitVec.ofNat 32 c.val then (1 : EReal) else 0) * logp (ix2 ρ c) := by
  unfold ceRow
  rw [shapeCast_a_a1_apply, add_rows_f32]
  refine Finset.sum_congr rfl fun c _ => ?_
  rw [mulf_apply, onehot_apply]

theorem ceRow_apply_of_lt (logp : FVec Ideal S2048x64 .f32) (lab : IVec S2048x1 32) (ρ : Fin 2048)
    (h : (lab (ix2 ρ (0 : Fin 1))).toNat < 64) :
    ceRow logp lab (ix2 ρ (0 : Fin 1)) = logp (ix2 ρ (Cert.Spec.labIdx (lab (ix2 ρ (0 : Fin 1))))) := by
  rw [ceRow_apply]
  have key : ∀ c : Fin 64, (lab (ix2 ρ (0 : Fin 1)) = BitVec.ofNat 32 c.val) ↔ (Cert.Spec.labIdx (lab (ix2 ρ (0 : Fin 1))) = c) := by
    intro c
    unfold Cert.Spec.labIdx
    constructor
    · intro e
      apply Fin.ext
      show (lab (ix2 ρ (0 : Fin 1))).toNat % 64 = c.val
      rw [e, BitVec.toNat_ofNat]
      have := c.isLt
      omega
    · intro e
      apply BitVec.eq_of_toNat_eq
      rw [BitVec.toNat_ofNat, ← e]
      show _ = ((lab (ix2 ρ (0 : Fin 1))).toNat % 64) % 2 ^ 32
      omega
  simp only [key, ite_mul, one_mul, zero_mul]
  rw [Finset.sum_ite_eq Finset.univ (Cert.Spec.labIdx (lab (ix2 ρ (0 : Fin 1)))) (fun c => logp (ix2 ρ c))]
  simp

def laneMask (n : BitVec 32) : FVec Ideal S1x128 .f32 :=
  sitofp .f32 (extui 32 (cmpi .eq (iota .tc S1x128 32 [1] iota_S1x128_d1_w32) (broadcast S1x128 n)) natLt_1_32)

theorem laneMask_apply (n : Nat) (hn : n < 128) (l : Fin 128) :
    laneMask (BitVec.ofNat 32 n) (ix2 (0 : Fin 1) l) = if l.val = n then 1 else 0 := by
  unfold laneMask
  rw [sitofp_apply, extui_apply]
  show FloatOps.sitofp (F := Ideal) .f32 ((IntOp.cmpi .eq (iota .tc S1x128 32 [1] iota_S1x128_d1_w32 (ix2 (0 : Fin 1) l))
    (broadcast S1x128 (BitVec.ofNat 32 n) (ix2 (0 : Fin 1) l))).setWidth 32) = _
  rw [maskVal, iota_single_apply, broadcast_apply]
  show (if BitVec.ofNat 32 l.val = BitVec.ofNat 32 n then (1 : EReal) else 0) = _
  have key : (BitVec.ofNat 32 l.val = BitVec.ofNat 32 n) ↔ l.val = n := by
    constructor
    · intro e
      have e' := congrArg BitVec.toNat e
      rw [BitVec.toNat_ofNat, BitVec.toNat_ofNat] at e'
      have := l.isLt
      omega
    · intro e; rw [e]
  simp only [key]

def laneTerm (v : FVec Ideal S1x1 .f32) (n : BitVec 32) : FVec Ideal S1x128 .f32 :=
  mulf (broadcastTo S1x128 v broadcasts_S1x1_S1x128) (laneMask n)

theorem laneTerm_apply (v : FVec Ideal S1x1 .f32) (n : Nat) (hn : n < 128) (l : Fin 128) :
    laneTerm v (BitVec.ofNat 32 n) (ix2 (0 : Fin 1) l)
      = v (ix2 (0 : Fin 1) (0 : Fin 1)) * (if l.val = n then 1 else 0) := by
  unfold laneTerm
  rw [mulf_apply, broadcastTo_a1_ab_apply, laneMask_apply n hn]

def ceTotal (cst : Ideal .f32) (rows : FVec Ideal S2048x1 .f32) : FVec Ideal S1x1 .f32 :=
  shapeCast S1x1
    (multiReduction (F := Ideal) .add [0] S1 (subf (broadcast S2048x1 cst) rows) 0x00000000#32 reduces_S2048x1_S1 (.inl rfl) rfl)
    shapeCasts_S1_S1x1

theorem ceTotal_apply (cst : Ideal .f32) (rows : FVec Ideal S2048x1 .f32) :
    ceTotal cst rows (ix2 (0 : Fin 1) (0 : Fin 1)) = ∑ ρ : Fin 2048, (cst - rows (ix2 ρ (0 : Fin 1))) := by
  unfold ceTotal
  rw [shapeCast_a_a1_apply, add_cols_f32]
  rfl

def laneRowCe (n : BitVec 32) (kab kac kbc : FVec Ideal S1x1 .f32) (rows : FVec Ideal S2048x1 .f32) (cst : Ideal .f32)
    (acc : FVec Ideal S1x128 .f32) : FVec Ideal S1x128 .f32 :=
  shapeCast S1x128
    (addf acc
      (addf (addf (addf (laneTerm (ceTotal cst rows) n) (laneTerm kab 2#32)) (laneTerm kac 3#32)) (laneTerm kbc 4#32)))
    shapeCasts_S1x128_S1x128

theorem laneRowCe_apply (n : Nat) (hn : n < 128) (kab kac kbc : FVec Ideal S1x1 .f32) (rows : FVec Ideal S2048x1 .f32)
    (cst : Ideal .f32) (acc : FVec Ideal S1x128 .f32) (l : Fin 128) :
    laneRowCe (BitVec.ofNat 32 n) kab kac kbc rows cst acc (ix2 (0 : Fin 1) l)
      = acc (ix2 (0 : Fin 1) l)
        + ((((∑ ρ : Fin 2048, (cst - rows (ix2 ρ (0 : Fin 1)))) * (if l.val = n then 1 else 0)
              + kab (ix2 (0 : Fin 1) (0 : Fin 1)) * (if l.val = 2 then 1 else 0))
            + kac (ix2 (0 : Fin 1) (0 : Fin 1)) * (if l.val = 3 then 1 else 0))
          + kbc (ix2 (0 : Fin 1) (0 : Fin 1)) * (if l.val = 4 then 1 else 0)) := by
  unfold laneRowCe
  rw [shapeCast_self, addf_apply, addf_apply, addf_apply, addf_apply, laneTerm_apply _ n hn,
    laneTerm_apply _ 2 (by omega), laneTerm_apply _ 3 (by omega), laneTerm_apply _ 4 (by omega), ceTotal_apply]

def laneRow3 (kab kac kbc : FVec Ideal S1x1 .f32) (acc : FVec Ideal S1x128 .f32) : FVec Ideal S1x128 .f32 :=
  shapeCast S1x128
    (addf acc (addf (addf (laneTerm kab 2#32) (laneTerm kac 3#32)) (laneTerm kbc 4#32)))
    shapeCasts_S1x128_S1x128

theorem laneRow3_apply (kab kac kbc : FVec Ideal S1x1 .f32) (acc : FVec Ideal S1x128 .f32) (l : Fin 128) :
    laneRow3 kab kac kbc acc (ix2 (0 : Fin 1) l)
      = acc (ix2 (0 : Fin 1) l)
        + ((kab (ix2 (0 : Fin 1) (0 : Fin 1)) * (if l.val = 2 then 1 else 0)
            + kac (ix2 (0 : Fin 1) (0 : Fin 1)) * (if l.val = 3 then 1 else 0))
          + kbc (ix2 (0 : Fin 1) (0 : Fin 1)) * (if l.val = 4 then 1 else 0)) := by
  unfold laneRow3
  rw [shapeCast_self, addf_apply, addf_apply, addf_apply,
    laneTerm_apply _ 2 (by omega), laneTerm_apply _ 3 (by omega), laneTerm_apply _ 4 (by omega)]

def zeroRow : FVec Ideal S1x128 .f32 :=
  shapeCast S1x128 (broadcast S1x128 (Scalar.ofBits (F := Ideal) .f32 0x00000000#32)) shapeCasts_S1x128_S1x128

theorem zeroRow_apply (i : S1x128.Idx) : zeroRow i = 0 := by
  unfold zeroRow
  rw [shapeCast_self, broadcast_apply]
  exact Ideal.ofBits_zero_f32

def outCast (v : FVec Ideal S1x128 .f32) : FVec Ideal S1x1x128 .f32 :=
  shapeCast S1x1x128 v shapeCasts_S1x128_S1x1x128

theorem outCast_apply (v : FVec Ideal S1x128 .f32) (l : Fin 128) :
    outCast v (ix3 (0 : Fin 1) (0 : Fin 1) l) = v (ix2 (0 : Fin 1) l) :=
  shapeCast_ab_1ab_apply v _ 0 0 l

section Lanes
variable (s : EReal) (f : Fin 3 → EReal) (n : Nat)

def laneVal (l : Nat) : EReal :=
  ((s * (if l = n then 1 else 0) + f 0 * (if l = 2 then 1 else 0)) + f 1 * (if l = 3 then 1 else 0))
    + f 2 * (if l = 4 then 1 else 0)

theorem laneVal_ce (hn : n < 2) (l : Nat) (hl : l = n) : laneVal s f n l = s := by
  subst hl
  unfold laneVal
  rw [if_pos (rfl : l = l), if_neg (by omega : ¬ l = 2), if_neg (by omega : ¬ l = 3), if_neg (by omega : ¬ l = 4)]
  simp only [mul_one, mul_zero, add_zero]

theorem laneVal_low (l : Nat) (hl : l < 2) (h0 : l = n → s = 0) : laneVal s f n l = 0 := by
  unfold laneVal
  rw [if_neg (by omega : ¬ l = 2), if_neg (by omega : ¬ l = 3), if_neg (by omega : ¬ l = 4)]
  by_cases h : l = n
  · rw [h0 h]; simp only [zero_mul, mul_zero, add_zero]
  · rw [if_neg h]; simp only [mul_zero, add_zero]

theorem laneVal_kl (hn : n < 2) (k : Fin 3) : laneVal s f n (2 + k.val) = f k := by
  unfold laneVal
  match k with
  | ⟨0, _⟩ => simp [show ¬ 2 = n by omega] <;> rfl
  | ⟨1, _⟩ => simp [show ¬ 3 = n by omega] <;> rfl
  | ⟨2, _⟩ => simp [show ¬ 4 = n by omega] <;> rfl

end Lanes

section Tile
variable (x : FVec Ideal S2048x1024 .f32) (u : FVec Ideal S1024x192 .f32)

def col : Fin 3 → Fin 64 → Fin 192
  | ⟨0, _⟩, c => ⟨c.val, by omega⟩
  | ⟨1, _⟩, c => ⟨64 + c.val, by omega⟩
  | ⟨2, _⟩, c => ⟨128 + c.val, by omega⟩

def row (j : Fin 3) (ρ : Fin 2048) : Fin 64 → EReal :=
  fun c' => ∑ q : Fin 1024, x (ix2 ρ q) * u (ix2 q (col j c'))

def lsr (j : Fin 3) (ρ : Fin 2048) (c : Fin 64) : EReal := Cert.Spec.logSoftmax (row x u j ρ) c

def lsm : Fin 3 → FVec Ideal S2048x64 .f32
  | ⟨0, _⟩ => lsmBlock (extractStridedSlice S2048x64 ![0, 0] (projBlock x u) slices_S2048x192_o0_0_S2048x64)
  | ⟨1, _⟩ => lsmBlock (extractStridedSlice S2048x64 ![0, 64] (projBlock x u) slices_S2048x192_o0_64_S2048x64)
  | ⟨2, _⟩ => lsmBlock (extractStridedSlice S2048x64 ![0, 128] (projBlock x u) slices_S2048x192_o0_128_S2048x64)

-- each head is the log-softmax of its 64 columns of the tile's product with the means
theorem lsm_apply (j : Fin 3) (ρ : Fin 2048) (c : Fin 64) : lsm x u j (ix2 ρ c) = lsr x u j ρ c := by
  match j with
  | ⟨0, _⟩ => exact (lsmBlock_apply _ ρ c).trans (by simp only [slice0_apply, projBlock_apply]; rfl)
  | ⟨1, _⟩ => exact (lsmBlock_apply _ ρ c).trans (by simp only [slice64_apply, projBlock_apply]; rfl)
  | ⟨2, _⟩ => exact (lsmBlock_apply _ ρ c).trans (by simp only [slice128_apply, projBlock_apply]; rfl)

def klPair (la lb : Fin 2048 → Fin 64 → EReal) : EReal :=
  ∑ ρ : Fin 2048, ∑ c : Fin 64,
    (Ideal.exp (lb ρ c) * (lb ρ c - la ρ c) + Ideal.exp (la ρ c) * (la ρ c - lb ρ c))

def pl : Fin 3 → Fin 3
  | ⟨0, _⟩ => 0
  | ⟨1, _⟩ => 0
  | ⟨2, _⟩ => 1

def pr : Fin 3 → Fin 3
  | ⟨0, _⟩ => 1
  | ⟨1, _⟩ => 2
  | ⟨2, _⟩ => 2

end Tile

section Spec
open Cert.Spec
variable (src trg : Feat) (un : FeatUn) (ls lt : Lab)

def heads : Fin 3 → Logits
  | ⟨0, _⟩ => pS src trg un ls
  | ⟨1, _⟩ => pT src trg un lt
  | ⟨2, _⟩ => pST src trg un ls lt

def pairA (k : Fin 3) : Logits := heads src trg un ls lt (pl k)

def pairB (k : Fin 3) : Logits := heads src trg un ls lt (pr k)

end Spec

section Tile
variable (x : FVec Ideal S2048x1024 .f32) (u : FVec Ideal S1024x192 .f32)

def klTile (k : Fin 3) : EReal := klPair (lsr x u (pl k)) (lsr x u (pr k))

def kl3 (k : Fin 3) : FVec Ideal S1x1 .f32 := pairSum (lsm x u (pl k)) (lsm x u (pr k))

theorem kl3_apply (k : Fin 3) : kl3 x u k (ix2 (0 : Fin 1) (0 : Fin 1)) = klTile x u k := by
  unfold kl3 klTile klPair
  rw [pairSum_apply]
  simp only [lsm_apply]

def ceK (j : Fin 3) (lab : IVec S2048x1 32) : EReal :=
  ∑ ρ : Fin 2048, (Scalar.ofBits (F := Ideal) .f32 0x00000000#32 - ceRow (lsm x u j) lab (ix2 ρ (0 : Fin 1)))

def step12 (n : BitVec 32) (j : Fin 3) (lab : IVec S2048x1 32) (acc : FVec Ideal S1x128 .f32) : FVec Ideal S1x128 .f32 :=
  laneRowCe n (kl3 x u 0) (kl3 x u 1) (kl3 x u 2) (ceRow (lsm x u j) lab) (Scalar.ofBits (F := Ideal) .f32 0x00000000#32) acc

def step3 (acc : FVec Ideal S1x128 .f32) : FVec Ideal S1x128 .f32 :=
  laneRow3 (kl3 x u 0) (kl3 x u 1) (kl3 x u 2) acc

variable (lab : IVec S2048x1 32) (acc : FVec Ideal S1x128 .f32) (l : Fin 128)

-- with labels in range the masked row sum picks the label's log-probability
theorem ceK_eq (j : Fin 3) (hlab : ∀ ρ : Fin 2048, (lab (ix2 ρ (0 : Fin 1))).toNat < 64) :
    ceK x u j lab = ∑ ρ : Fin 2048, (0 - lsr x u j ρ (Cert.Spec.labIdx (lab (ix2 ρ (0 : Fin 1))))) := by
  unfold ceK
  refine Finset.sum_congr rfl fun ρ _ => ?_
  rw [ceRow_apply_of_lt _ _ ρ (hlab ρ), lsm_apply]
  exact congrArg (· - _) Ideal.ofBits_zero_f32

theorem step12_apply (n : Nat) (hn : n < 128) (j : Fin 3) :
    step12 x u (BitVec.ofNat 32 n) j lab acc (ix2 (0 : Fin 1) l)
      = acc (ix2 (0 : Fin 1) l) + laneVal (ceK x u j lab) (klTile x u) n l.val := by
  unfold step12 laneVal ceK
  rw [laneRowCe_apply n hn, kl3_apply, kl3_apply, kl3_apply]

theorem step3_apply :
    step3 x u acc (ix2 (0 : Fin 1) l) = acc (ix2 (0 : Fin 1) l) + laneVal 0 (klTile x u) 0 l.val := by
  unfold step3 laneVal
  rw [laneRow3_apply, kl3_apply, kl3_apply, kl3_apply, zero_mul, zero_add]

end Tile

section Fold
variable (u : FVec Ideal S1024x192 .f32) (l : Fin 128)

def fold2 (n : BitVec 32) (j : Fin 3) (x₀ x₁ : FVec Ideal S2048x1024 .f32) (l₀ l₁ : IVec S2048x1 32) : FVec Ideal S1x1x128 .f32 :=
  outCast (step12 x₁ u n j l₁ (step12 x₀ u n j l₀ zeroRow))

def fold4 (x₀ x₁ x₂ x₃ : FVec Ideal S2048x1024 .f32) : FVec Ideal S1x1x128 .f32 :=
  outCast (step3 x₃ u (step3 x₂ u (step3 x₁ u (step3 x₀ u zeroRow))))

-- each lane of a fold is the sum over its tiles of that lane's term
theorem fold2_apply (n : Nat) (hn : n < 128) (j : Fin 3) (x₀ x₁ : FVec Ideal S2048x1024 .f32) (l₀ l₁ : IVec S2048x1 32) :
    fold2 u (BitVec.ofNat 32 n) j x₀ x₁ l₀ l₁ (ix3 (0 : Fin 1) (0 : Fin 1) l)
      = (0 + laneVal (ceK x₀ u j l₀) (klTile x₀ u) n l.val) + laneVal (ceK x₁ u j l₁) (klTile x₁ u) n l.val := by
  unfold fold2
  rw [outCast_apply, step12_apply _ _ _ _ _ n hn, step12_apply _ _ _ _ _ n hn, zeroRow_apply]

theorem fold4_apply (x₀ x₁ x₂ x₃ : FVec Ideal S2048x1024 .f32) :
    fold4 u x₀ x₁ x₂ x₃ (ix3 (0 : Fin 1) (0 : Fin 1) l)
      = (((0 + laneVal 0 (klTile x₀ u) 0 l.val) + laneVal 0 (klTile x₁ u) 0 l.val) + laneVal 0 (klTile x₂ u) 0 l.val)
        + laneVal 0 (klTile x₃ u) 0 l.val := by
  unfold fold4
  rw [outCast_apply, step3_apply, step3_apply, step3_apply, step3_apply, zeroRow_apply]

end Fold

end Cert.KernelIdeal.TileMath

end
-- ==== Proof.KI.Reg1Arr.lean ====
import proofs.«422586_j33337536151702_2_alg».proof.Proof.KI.Reg1

noncomputable section

namespace Cert.KernelIdeal.Reg1

open Cert.KernelIdeal Cert.KernelIdeal.Gen Idealize.ShloMosaic Idealize.ShloMosaic.TcCoe Idealize.ShloMosaic.ValueIdx

variable {F : FTy → Type} [FloatOps F]

variable (V : (c : Dev nD) → (b : Ref sig .tc) → Buf (Elt F) ((c : Thread nD τ).loc b))

def xtile (X : Vec F S8192x1024 .f32) (k : ℕ) (hk : k < 4) : Vec F S2048x1024 .f32 :=
  fun j => X (ix2 ⟨2048 * k + (j 0).val, by have := idx2_lt0 j; omega⟩ (j 1))

def ltile (L : Vec F S8192x1 .i32) (k : ℕ) (hk : k < 4) : Vec F S2048x1 .i32 :=
  fun j => L (ix2 ⟨2048 * k + (j 0).val, by have := idx2_lt0 j; omega⟩ (j 1))

def coreAcc (X : Vec F S8192x1024 .f32) (L : Vec F S8192x1 .i32) (M : Vec F S1024x192 .f32) (p : Fin 2) : Vec F S1x128 .f32 :=
  step (xtile X (2 * p.val + 1) (by have := p.isLt; omega)) (ltile L (2 * p.val + 1) (by have := p.isLt; omega)) M
    (step (xtile X (2 * p.val) (by have := p.isLt; omega)) (ltile L (2 * p.val) (by have := p.isLt; omega)) M acc0)

def result (X : Vec F S8192x1024 .f32) (L : Vec F S8192x1 .i32) (M : Vec F S1024x192 .f32) : Vec F S2x1x128 .f32 :=
  fun i => outOf (coreAcc X L M (i 0)) (ix3 0 0 (i 2))

abbrev xarr (c : Dev nD) : Vec F S8192x1024 .f32 := V c (Pipeline.arrRef spec1 0)
abbrev larr (c : Dev nD) : Vec F S8192x1 .i32 := V c (Pipeline.arrRef spec1 1)
abbrev marr (c : Dev nD) : Vec F S1024x192 .f32 := V c (Pipeline.arrRef spec1 2)

theorem index_all : ∀ t : Fin cfg1.N, (win1_0.index t 0 = t.val ∧ win1_0.index t 1 = 0) ∧ (win1_1.index t 0 = t.val ∧ win1_1.index t 1 = 0)
    ∧ (win1_2.index t 0 = 0 ∧ win1_2.index t 1 = 0) ∧ win1_3.index t 0 = t.val / 2 ∧ win1_3.index t 1 = 0 ∧ win1_3.index t 2 = 0 :=
  (by decide +kernel : ∀ t : Fin grid1.N, _)

theorem xblk_eq (c : Dev nD) (t : Fin cfg1.N) : xblk V c t = xtile (xarr V c) t.val (lt_of_lt_of_eq t.isLt N_1) := by
  obtain ⟨⟨h0, h1⟩, -⟩ := index_all t
  funext j
  refine (View.read_apply ..).trans (congrArg (V c (Pipeline.arrRef spec1 0)) (funext fun a => Fin.ext ?_))
  match a with
  | ⟨0, _⟩ => show win1_0.index t 0 * 2048 + 1 * (j 0).val = 2048 * t.val + (j 0).val; omega
  | ⟨1, _⟩ => show win1_0.index t 1 * 1024 + 1 * (j 1).val = (j 1).val; omega

theorem lblk_eq (c : Dev nD) (t : Fin cfg1.N) : lblk V c t = ltile (larr V c) t.val (lt_of_lt_of_eq t.isLt N_1) := by
  obtain ⟨-, ⟨h0, h1⟩, -⟩ := index_all t
  funext j
  refine (View.read_apply ..).trans (congrArg (V c (Pipeline.arrRef spec1 1)) (funext fun a => Fin.ext ?_))
  match a with
  | ⟨0, _⟩ => show win1_1.index t 0 * 2048 + 1 * (j 0).val = 2048 * t.val + (j 0).val; omega
  | ⟨1, _⟩ => show win1_1.index t 1 * 1 + 1 * (j 1).val = (j 1).val; omega

theorem mblk_eq (c : Dev nD) (t : Fin cfg1.N) : mblk V c t = marr V c := by
  obtain ⟨-, -, ⟨h0, h1⟩, -⟩ := index_all t
  funext j
  refine (View.read_apply ..).trans (congrArg (V c (Pipeline.arrRef spec1 2)) (funext fun a => Fin.ext ?_))
  match a with
  | ⟨0, _⟩ => show win1_2.index t 0 * 1024 + 1 * (j 0).val = (j 0).val; omega
  | ⟨1, _⟩ => show win1_2.index t 1 * 192 + 1 * (j 1).val = (j 1).val; omega

-- an odd point closes a pair: its accumulator is the two-tile value of the pair
theorem accAt_last (c : Dev nD) (t : Fin cfg1.N) (h1 : t.val % 2 = 1) :
    accAt V c t.val t.isLt = coreAcc (xarr V c) (larr V c) (marr V c) ⟨t.val / 2, by have := lt_of_lt_of_eq t.isLt N_1; omega⟩ := by
  have hN : t.val < 4 := lt_of_lt_of_eq t.isLt N_1
  rw [accAt_later V c t (by omega), accAt_first V c ⟨t.val - 1, Nat.lt_of_le_of_lt (Nat.sub_le _ _) t.isLt⟩ (show (t.val - 1) % 2 = 0 by omega),
    xblk_eq, lblk_eq, mblk_eq, xblk_eq, lblk_eq, mblk_eq]
  unfold coreAcc
  congr <;> (dsimp only; omega)

theorem flushed_eq (c : Dev nD) (t : Fin cfg1.N) (hf : (cfg1.win 3).flush t = true) :
    (dat V c).flushed 3 t = ((cfg1.win 3).blk t).view.read (Elt F) (result (xarr V c) (larr V c) (marr V c)) := by
  have h1 : t.val % 2 = 1 := (flush1_3 t).mp hf
  obtain ⟨-, -, -, i0, -, i2⟩ := index_all t
  show (cfg1.win 3).cut (grid1.coords t) (outOf (accAt V c t.val t.isLt)) = _
  rw [accAt_last V c t h1]
  funext j
  have j0 : (j 0).val < 1 := (j 0).isLt
  have j1 : (j 1).val < 1 := (j 1).isLt
  have e0 : (((cfg1.win 3).blk t).view.emb j) 0 = (⟨t.val / 2, by have := lt_of_lt_of_eq t.isLt N_1; omega⟩ : Fin 2) :=
    Fin.ext (show win1_3.index t 0 * 1 + 1 * (j 0).val = t.val / 2 by omega)
  have e2 : ((((cfg1.win 3).blk t).view.emb j) 2 : Fin 128) = j 2 :=
    Fin.ext (show win1_3.index t 2 * 128 + 1 * (j 2).val = (j 2).val by omega)
  rw [View.read_apply]
  show outOf _ _ = result (xarr V c) (larr V c) (marr V c) _
  unfold result
  rw [e0, e2]
  congr 1
  funext a
  apply Fin.ext
  match a with
  | ⟨0, _⟩ => show (j 0).val = 0; omega
  | ⟨1, _⟩ => show (j 1).val = 0; omega
  | ⟨2, _⟩ => rfl

theorem cover3 (i : S2x1x128.Idx) : ∃ t : Fin cfg1.N, (cfg1.win 3).flush t = true ∧ i ∈ ((cfg1.win 3).blk t).view.set := by
  have h0 : (i 0 : Nat) < 2 := (i 0).isLt
  have h1 : (i 1 : Nat) < 1 := (i 1).isLt
  have h2 : (i 2 : Nat) < 128 := (i 2).isLt
  have hN : cfg1.N = 4 := N_1
  obtain ⟨t, ht⟩ : ∃ t : Fin cfg1.N, t.val = 2 * (i 0).val + 1 := ⟨⟨2 * (i 0).val + 1, by omega⟩, rfl⟩
  obtain ⟨-, -, -, i0, i1, i2⟩ := index_all t
  refine ⟨t, (flush1_3 t).mpr (by omega), ?_⟩
  show i ∈ ((View.whole main_v45).slice (win1_3.rect t)).set
  rw [View.set_slice_whole, Rect.mem_set_unit]
  intro a
  match a with
  | ⟨0, _⟩ => show win1_3.index t 0 * 1 ≤ (i 0 : Nat) ∧ (i 0 : Nat) < win1_3.index t 0 * 1 + 1; omega
  | ⟨1, _⟩ => show win1_3.index t 1 * 1 ≤ (i 1 : Nat) ∧ (i 1 : Nat) < win1_3.index t 1 * 1 + 1; omega
  | ⟨2, _⟩ => show win1_3.index t 2 * 128 ≤ (i 2 : Nat) ∧ (i 2 : Nat) < win1_3.index t 2 * 128 + 128; omega

theorem v45_eq (c : Dev nD) :
    (dat V c).arrAt 3 cfg1.N = result (V c (Pipeline.arrRef spec1 0)) (V c (Pipeline.arrRef spec1 1)) (V c (Pipeline.arrRef spec1 2)) :=
  (dat V c).arrAt_eq_of_cover 3 (result (xarr V c) (larr V c) (marr V c)) (flushed_eq V c) cover3

end Cert.KernelIdeal.Reg1

end
-- ==== Proof.KI.Reg2Arr.lean ====
import proofs.«422586_j33337536151702_2_alg».proof.Proof.KI.Reg2

noncomputable section

namespace Cert.KernelIdeal.Reg2

open Cert.KernelIdeal Cert.KernelIdeal.Gen Idealize.ShloMosaic Idealize.ShloMosaic.TcCoe Idealize.ShloMosaic.ValueIdx

variable {F : FTy → Type} [FloatOps F]

variable (V : (c : Dev nD) → (b : Ref sig .tc) → Buf (Elt F) ((c : Thread nD τ).loc b))

def xtile (X : Vec F S8192x1024 .f32) (k : ℕ) (hk : k < 4) : Vec F S2048x1024 .f32 :=
  fun j => X (ix2 ⟨2048 * k + (j 0).val, by have := idx2_lt0 j; omega⟩ (j 1))

def ltile (L : Vec F S8192x1 .i32) (k : ℕ) (hk : k < 4) : Vec F S2048x1 .i32 :=
  fun j => L (ix2 ⟨2048 * k + (j 0).val, by have := idx2_lt0 j; omega⟩ (j 1))

def coreAcc (X : Vec F S8192x1024 .f32) (L : Vec F S8192x1 .i32) (M : Vec F S1024x192 .f32) (p : Fin 2) : Vec F S1x128 .f32 :=
  step (xtile X (2 * p.val + 1) (by have := p.isLt; omega)) (ltile L (2 * p.val + 1) (by have := p.isLt; omega)) M
    (step (xtile X (2 * p.val) (by have := p.isLt; omega)) (ltile L (2 * p.val) (by have := p.isLt; omega)) M acc0)

def result (X : Vec F S8192x1024 .f32) (L : Vec F S8192x1 .i32) (M : Vec F S1024x192 .f32) : Vec F S2x1x128 .f32 :=
  fun i => outOf (coreAcc X L M (i 0)) (ix3 0 0 (i 2))

abbrev xarr (c : Dev nD) : Vec F S8192x1024 .f32 := V c (Pipeline.arrRef spec2 0)
abbrev larr (c : Dev nD) : Vec F S8192x1 .i32 := V c (Pipeline.arrRef spec2 1)
abbrev marr (c : Dev nD) : Vec F S1024x192 .f32 := V c (Pipeline.arrRef spec2 2)

theorem index_all : ∀ t : Fin cfg2.N, (win2_0.index t 0 = t.val ∧ win2_0.index t 1 = 0) ∧ (win2_1.index t 0 = t.val ∧ win2_1.index t 1 = 0)
    ∧ (win2_2.index t 0 = 0 ∧ win2_2.index t 1 = 0) ∧ win2_3.index t 0 = t.val / 2 ∧ win2_3.index t 1 = 0 ∧ win2_3.index t 2 = 0 :=
  (by decide +kernel : ∀ t : Fin grid2.N, _)

theorem xblk_eq (c : Dev nD) (t : Fin cfg2.N) : xblk V c t = xtile (xarr V c) t.val (lt_of_lt_of_eq t.isLt N_2) := by
  obtain ⟨⟨h0, h1⟩, -⟩ := index_all t
  funext j
  refine (View.read_apply ..).trans (congrArg (V c (Pipeline.arrRef spec2 0)) (funext fun a => Fin.ext ?_))
  match a with
  | ⟨0, _⟩ => show win2_0.index t 0 * 2048 + 1 * (j 0).val = 2048 * t.val + (j 0).val; omega
  | ⟨1, _⟩ => show win2_0.index t 1 * 1024 + 1 * (j 1).val = (j 1).val; omega

theorem lblk_eq (c : Dev nD) (t : Fin cfg2.N) : lblk V c t = ltile (larr V c) t.val (lt_of_lt_of_eq t.isLt N_2) := by
  obtain ⟨-, ⟨h0, h1⟩, -⟩ := index_all t
  funext j
  refine (View.read_apply ..).trans (congrArg (V c (Pipeline.arrRef spec2 1)) (funext fun a => Fin.ext ?_))
  match a with
  | ⟨0, _⟩ => show win2_1.index t 0 * 2048 + 1 * (j 0).val = 2048 * t.val + (j 0).val; omega
  | ⟨1, _⟩ => show win2_1.index t 1 * 1 + 1 * (j 1).val = (j 1).val; omega

theorem mblk_eq (c : Dev nD) (t : Fin cfg2.N) : mblk V c t = marr V c := by
  obtain ⟨-, -, ⟨h0, h1⟩, -⟩ := index_all t
  funext j
  refine (View.read_apply ..).trans (congrArg (V c (Pipeline.arrRef spec2 2)) (funext fun a => Fin.ext ?_))
  match a with
  | ⟨0, _⟩ => show win2_2.index t 0 * 1024 + 1 * (j 0).val = (j 0).val; omega
  | ⟨1, _⟩ => show win2_2.index t 1 * 192 + 1 * (j 1).val = (j 1).val; omega

-- an odd point closes a pair: its accumulator is the two-tile value of the pair
theorem accAt_last (c : Dev nD) (t : Fin cfg2.N) (h1 : t.val % 2 = 1) :
    accAt V c t.val t.isLt = coreAcc (xarr V c) (larr V c) (marr V c) ⟨t.val / 2, by have := lt_of_lt_of_eq t.isLt N_2; omega⟩ := by
  have hN : t.val < 4 := lt_of_lt_of_eq t.isLt N_2
  rw [accAt_later V c t (by omega), accAt_first V c ⟨t.val - 1, Nat.lt_of_le_of_lt (Nat.sub_le _ _) t.isLt⟩ (show (t.val - 1) % 2 = 0 by omega),
    xblk_eq, lblk_eq, mblk_eq, xblk_eq, lblk_eq, mblk_eq]
  unfold coreAcc
  congr <;> (dsimp only; omega)

theorem flushed_eq (c : Dev nD) (t : Fin cfg2.N) (hf : (cfg2.win 3).flush t = true) :
    (dat V c).flushed 3 t = ((cfg2.win 3).blk t).view.read (Elt F) (result (xarr V c) (larr V c) (marr V c)) := by
  have h1 : t.val % 2 = 1 := (flush2_3 t).mp hf
  obtain ⟨-, -, -, i0, -, i2⟩ := index_all t
  show (cfg2.win 3).cut (grid2.coords t) (outOf (accAt V c t.val t.isLt)) = _
  rw [accAt_last V c t h1]
  funext j
  have j0 : (j 0).val < 1 := (j 0).isLt
  have j1 : (j 1).val < 1 := (j 1).isLt
  have e0 : (((cfg2.win 3).blk t).view.emb j) 0 = (⟨t.val / 2, by have := lt_of_lt_of_eq t.isLt N_2; omega⟩ : Fin 2) :=
    Fin.ext (show win2_3.index t 0 * 1 + 1 * (j 0).val = t.val / 2 by omega)
  have e2 : ((((cfg2.win 3).blk t).view.emb j) 2 : Fin 128) = j 2 :=
    Fin.ext (show win2_3.index t 2 * 128 + 1 * (j 2).val = (j 2).val by omega)
  rw [View.read_apply]
  show outOf _ _ = result (xarr V c) (larr V c) (marr V c) _
  unfold result
  rw [e0, e2]
  congr 1
  funext a
  apply Fin.ext
  match a with
  | ⟨0, _⟩ => show (j 0).val = 0; omega
  | ⟨1, _⟩ => show (j 1).val = 0; omega
  | ⟨2, _⟩ => rfl

theorem cover3 (i : S2x1x128.Idx) : ∃ t : Fin cfg2.N, (cfg2.win 3).flush t = true ∧ i ∈ ((cfg2.win 3).blk t).view.set := by
  have h0 : (i 0 : Nat) < 2 := (i 0).isLt
  have h1 : (i 1 : Nat) < 1 := (i 1).isLt
  have h2 : (i 2 : Nat) < 128 := (i 2).isLt
  have hN : cfg2.N = 4 := N_2
  obtain ⟨t, ht⟩ : ∃ t : Fin cfg2.N, t.val = 2 * (i 0).val + 1 := ⟨⟨2 * (i 0).val + 1, by omega⟩, rfl⟩
  obtain ⟨-, -, -, i0, i1, i2⟩ := index_all t
  refine ⟨t, (flush2_3 t).mpr (by omega), ?_⟩
  show i ∈ ((View.whole main_v46).slice (win2_3.rect t)).set
  rw [View.set_slice_whole, Rect.mem_set_unit]
  intro a
  match a with
  | ⟨0, _⟩ => show win2_3.index t 0 * 1 ≤ (i 0 : Nat) ∧ (i 0 : Nat) < win2_3.index t 0 * 1 + 1; omega
  | ⟨1, _⟩ => show win2_3.index t 1 * 1 ≤ (i 1 : Nat) ∧ (i 1 : Nat) < win2_3.index t 1 * 1 + 1; omega
  | ⟨2, _⟩ => show win2_3.index t 2 * 128 ≤ (i 2 : Nat) ∧ (i 2 : Nat) < win2_3.index t 2 * 128 + 128; omega

theorem v46_eq (c : Dev nD) :
    (dat V c).arrAt 3 cfg2.N = result (V c (Pipeline.arrRef spec2 0)) (V c (Pipeline.arrRef spec2 1)) (V c (Pipeline.arrRef spec2 2)) :=
  (dat V c).arrAt_eq_of_cover 3 (result (xarr V c) (larr V c) (marr V c)) (flushed_eq V c) cover3

end Cert.KernelIdeal.Reg2

end
-- ==== Proof.BridgeLoss.lean ====
import proofs.«422586_j33337536151702_2_alg».proof.Proof.Spec
import proofs.«422586_j33337536151702_2_alg».proof.Proof.LibBlockSum
import Idealize.ShloMosaic.PureOps.Ideal
import Idealize.ShloMosaic.Lib.ValueIdx
import Mathlib.Algebra.BigOperators.Fin
import Mathlib.Data.EReal.Operations
import Mathlib.Data.EReal.Inv

noncomputable section

open scoped BigOperators

namespace Cert.BridgeLoss

open Idealize.ShloMosaic Idealize.ShloMosaic.ValueIdx
open Cert.Spec

theorem word_negInf : Ideal.ofBits .f32 0xFF800000#32 = (⊥ : EReal) := by
  simp [Ideal.ofBits, Ideal.ieee]

theorem word_two : Ideal.ofBits .f32 0x40000000#32 = ((2 : ℝ) : EReal) := by
  simp [Ideal.ofBits, Ideal.ieee, -EReal.coe_mul]; norm_num

theorem word_8192 : Ideal.ofBits .f32 0x46000000#32 = ((8192 : ℝ) : EReal) := by
  simp [Ideal.ofBits, Ideal.ieee, -EReal.coe_mul]; norm_num

theorem word_2097152 : Ideal.ofBits .f32 0x4A000000#32 = ((2097152 : ℝ) : EReal) := by
  simp [Ideal.ofBits, Ideal.ieee, -EReal.coe_mul]; norm_num

theorem word_4194304 : Ideal.ofBits .f32 0x4A800000#32 = ((4194304 : ℝ) : EReal) := by
  simp [Ideal.ofBits, Ideal.ieee, -EReal.coe_mul]; norm_num

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem add_mul_real {c : ℝ} (hc : 0 ≤ c) (x y : EReal) : (x + y) * (c : EReal) = x * (c : EReal) + y * (c : EReal) :=
  EReal.right_distrib_of_nonneg_of_ne_top (by exact_mod_cast hc) (EReal.coe_ne_top c) x y

theorem sum_split {M : Type*} [AddCommMonoid M] {m n N : ℕ} (h : m + n = N) (g : Fin N → M) :
    ∑ r : Fin N, g r
      = ∑ i : Fin m, g ⟨i.val, by have := i.isLt; omega⟩ + ∑ j : Fin n, g ⟨m + j.val, by have := j.isLt; omega⟩ := by
  subst h
  rw [Fin.sum_univ_add]
  rfl

def tileSum (g : Fin 32768 → EReal) (T : Fin 16) : EReal :=
  ∑ ρ : Fin 2048, g ⟨T.val * 2048 + ρ.val, by have := T.isLt; have := ρ.isLt; omega⟩

def core2 (f : Fin 4 → EReal) (p : Fin 2) : EReal :=
  (0 + f ⟨2 * p.val, by have := p.isLt; omega⟩) + f ⟨2 * p.val + 1, by have := p.isLt; omega⟩

def core4 (f : Fin 8 → EReal) (p : Fin 2) : EReal :=
  (((0 + f ⟨4 * p.val, by have := p.isLt; omega⟩) + f ⟨4 * p.val + 1, by have := p.isLt; omega⟩)
    + f ⟨4 * p.val + 2, by have := p.isLt; omega⟩) + f ⟨4 * p.val + 3, by have := p.isLt; omega⟩

def kern2 (f : Fin 4 → EReal) : EReal := core2 f 0 + core2 f 1

def kern4 (f : Fin 8 → EReal) : EReal := core4 f 0 + core4 f 1

theorem kern2_eq_sum (f : Fin 4 → EReal) : kern2 f = ∑ t : Fin 4, f t := by
  rw [Fin.sum_univ_four]
  show ((0 + f 0) + f 1) + ((0 + f 2) + f 3) = f 0 + f 1 + f 2 + f 3
  simp only [zero_add, add_assoc]

theorem kern4_eq_sum (f : Fin 8 → EReal) : kern4 f = ∑ t : Fin 8, f t := by
  rw [Fin.sum_univ_eight]
  show ((((0 + f 0) + f 1) + f 2) + f 3) + ((((0 + f 4) + f 5) + f 6) + f 7)
    = f 0 + f 1 + f 2 + f 3 + f 4 + f 5 + f 6 + f 7
  simp only [zero_add, add_assoc]

def srcTiles (g : Fin 32768 → EReal) : Fin 4 → EReal :=
  fun t => tileSum g ⟨t.val, by have := t.isLt; omega⟩

def trgTiles (g : Fin 32768 → EReal) : Fin 4 → EReal :=
  fun t => tileSum g ⟨4 + t.val, by have := t.isLt; omega⟩

def unTiles (g : Fin 32768 → EReal) : Fin 8 → EReal :=
  fun t => tileSum g ⟨8 + t.val, by have := t.isLt; omega⟩

def laneSum (g : Fin 32768 → EReal) : EReal := (kern2 (srcTiles g) + kern2 (trgTiles g)) + kern4 (unTiles g)

theorem sum_tileSum (g : Fin 32768 → EReal) : ∑ T : Fin 16, tileSum g T = ∑ r : Fin 32768, g r :=
  Cert.Lib.sum_blocks (T := 16) (L := 2048) (N := 32768) rfl g
    (fun t l => by have := t.isLt; have := l.isLt; omega)

-- Four, four and eight tile sums, added in two halves from zero, make up the sum over all sixteen tiles.
theorem laneSum_eq (g : Fin 32768 → EReal) : laneSum g = ∑ r : Fin 32768, g r := by
  have h8 : ∑ i : Fin 8, tileSum g ⟨i.val, by have := i.isLt; omega⟩
      = ∑ t : Fin 4, srcTiles g t + ∑ t : Fin 4, trgTiles g t :=
    sum_split (m := 4) (n := 4) rfl (fun i : Fin 8 => tileSum g ⟨i.val, by have := i.isLt; omega⟩)
  rw [← sum_tileSum, laneSum, kern2_eq_sum, kern2_eq_sum, kern4_eq_sum,
    sum_split (m := 8) (n := 8) rfl (tileSum g), h8]
  rfl

def klRow (a b : Logits) (r : Fin 32768) : EReal :=
  ∑ col : Fin 64,
    (Ideal.exp (logSoftmax (b r) col) * (logSoftmax (b r) col - logSoftmax (a r) col)
      + Ideal.exp (logSoftmax (a r) col) * (logSoftmax (a r) col - logSoftmax (b r) col))

def laneKl (a b : Logits) : EReal := laneSum (klRow a b)

-- The two directed sums share their row sum, and the two halvings are one division by the doubled count.
theorem symKl_eq (a b : Logits) :
    Ideal.div (laneKl a b) (Ideal.ofBits .f32 0x4A800000#32) = symKl a b := by
  have hsplit : ∑ r : Fin 32768, klRow a b r
      = (∑ r : Fin 32768, ∑ c : Fin 64,
            Ideal.exp (logSoftmax (b r) c) * (logSoftmax (b r) c - logSoftmax (a r) c))
        + (∑ r : Fin 32768, ∑ c : Fin 64,
            Ideal.exp (logSoftmax (a r) c) * (logSoftmax (a r) c - logSoftmax (b r) c)) := by
    simp only [klRow, Finset.sum_add_distrib]
  rw [laneKl, laneSum_eq, hsplit, symKl, klHalf, klHalf, word_4194304, word_2097152, word_two,
    Ideal.div_coe (by norm_num), Ideal.div_coe (by norm_num), Ideal.div_coe (by norm_num),
    Ideal.div_coe (by norm_num), ← add_mul_real (by norm_num), mul_assoc, ← EReal.coe_mul]
  norm_num

theorem tpn_eq (a b c : Logits) :
    Ideal.div
        ((Ideal.div (laneKl a b) (Ideal.ofBits .f32 0x4A800000#32)
            + Ideal.div (laneKl a c) (Ideal.ofBits .f32 0x4A800000#32))
          + Ideal.div (laneKl b c) (Ideal.ofBits .f32 0x4A800000#32))
        (Ideal.ofBits .f32 0x40400000#32)
      = Ideal.div (symKl a b + symKl a c + symKl b c) (Ideal.ofBits .f32 0x40400000#32) := by
  rw [symKl_eq, symKl_eq, symKl_eq]

-- The maximum of a nonempty finite row is one of its entries.
theorem rowShift_real (x : Fin 64 → EReal) (hx : ∀ k, ∃ v : ℝ, x k = (v : EReal)) :
    ∃ m : ℝ, rowShift x = (m : EReal) := by
  obtain ⟨i, -, hi⟩ := Finset.exists_mem_eq_sup Finset.univ Finset.univ_nonempty x
  obtain ⟨v, hv⟩ := hx i
  exact ⟨v, by rw [rowShift, rowMax, word_negInf, max_eq_right bot_le]; exact hi.trans hv⟩

-- With finite logits the shift is finite and the sum of exponentials positive, so every term is finite.
theorem logSoftmax_real (x : Fin 64 → EReal) (hx : ∀ k, ∃ v : ℝ, x k = (v : EReal)) :
    ∀ k, ∃ v : ℝ, logSoftmax x k = (v : EReal) := by
  intro k
  obtain ⟨m, hm⟩ := rowShift_real x hx
  choose xr hxr using hx
  have hexp : ∀ j, Ideal.exp (x j - rowShift x) = ((Real.exp (xr j - m) : ℝ) : EReal) := by
    intro j
    rw [hxr j, hm, ← EReal.coe_sub, Ideal.exp_coe]
  have hpos : 0 < ∑ j : Fin 64, Real.exp (xr j - m) :=
    Finset.sum_pos (fun j _ => Real.exp_pos _) Finset.univ_nonempty
  refine ⟨(xr k - m) - Real.log (∑ j : Fin 64, Real.exp (xr j - m)), ?_⟩
  rw [logSoftmax]
  simp only [hexp]
  rw [coe_sum, Ideal.log_coe, if_neg (not_le.2 hpos), hxr k, hm, ← EReal.coe_sub, ← EReal.coe_sub]

def ceTile (h : Fin 8192 → EReal) (t : Fin 4) : EReal :=
  ∑ ρ : Fin 2048, (0 - h ⟨t.val * 2048 + ρ.val, by have := t.isLt; have := ρ.isLt; omega⟩)

def ceTotal (h : Fin 8192 → EReal) : EReal := kern2 (ceTile h)

-- Negating finite row terms tile by tile negates their mean.
theorem ceTotal_div (h : Fin 8192 → EReal) (hreal : ∀ n, ∃ v : ℝ, h n = (v : EReal)) :
    Ideal.div (ceTotal h) (Ideal.ofBits .f32 0x46000000#32)
      = -(Ideal.div (∑ n : Fin 8192, h n) (Ideal.ofBits .f32 0x46000000#32)) := by
  choose v hv using hreal
  have hsum : ∑ t : Fin 4, ceTile h t = ∑ n : Fin 8192, (0 - h n) :=
    Cert.Lib.sum_blocks (T := 4) (L := 2048) (N := 8192) rfl (fun n => 0 - h n)
      (fun t l => by have := t.isLt; have := l.isLt; omega)
  have hneg : ∑ n : Fin 8192, (0 - h n) = -(∑ n : Fin 8192, h n) := by
    simp only [hv, zero_sub, ← EReal.coe_neg]
    rw [coe_sum, coe_sum, ← EReal.coe_neg, Finset.sum_neg_distrib]
  rw [ceTotal, kern2_eq_sum, hsum, hneg, word_8192, Ideal.div_coe (by norm_num), Ideal.div_coe (by norm_num),
    neg_mul]

theorem ceS_eq (a : Logits) (ls : Lab) (hreal : ∀ r k, ∃ v : ℝ, a r k = (v : EReal)) :
    Ideal.div
        (ceTotal (fun n : Fin 8192 =>
          logSoftmax (a (⟨n.val, by have := n.isLt; omega⟩ : Fin 32768)) (labIdx (ls (ix1 n)))))
        (Ideal.ofBits .f32 0x46000000#32)
      = crossEntropy (fun r => a (⟨r.val, by have := r.isLt; omega⟩ : Fin 32768)) ls := by
  rw [ceTotal_div _ (fun n => logSoftmax_real _ (hreal _) _)]
  rfl

theorem ceT_eq (b : Logits) (lt : Lab) (hreal : ∀ r k, ∃ v : ℝ, b r k = (v : EReal)) :
    Ideal.div
        (ceTotal (fun n : Fin 8192 =>
          logSoftmax (b (⟨8192 + n.val, by have := n.isLt; omega⟩ : Fin 32768)) (labIdx (lt (ix1 n)))))
        (Ideal.ofBits .f32 0x46000000#32)
      = crossEntropy (fun r => b (⟨8192 + r.val, by have := r.isLt; omega⟩ : Fin 32768)) lt := by
  rw [ceTotal_div _ (fun n => logSoftmax_real _ (hreal _) _)]
  rfl

end Cert.BridgeLoss

end
-- ==== Proof.KI.TileId12.lean ====
import proofs.«422586_j33337536151702_2_alg».proof.Proof.KI.TileMath
import proofs.«422586_j33337536151702_2_alg».proof.Proof.KI.Reg1Arr
import proofs.«422586_j33337536151702_2_alg».proof.Proof.KI.Reg2Arr
import proofs.«422586_j33337536151702_2_alg».proof.Proof.BridgeLoss

noncomputable section

open scoped BigOperators

namespace Cert.KernelIdeal.TileId

open Cert.KernelIdeal Cert.KernelIdeal.Gen Cert.KernelIdeal.TileMath
open Idealize.ShloMosaic Idealize.ShloMosaic.ValueIdx
open Cert.Spec (Feat FeatUn Lab Logits Means)

theorem feats_src (src trg : Feat) (un : FeatUn) (r : Fin 32768) (r8 : Fin 8192) (hr : r.val = r8.val) (q : Fin 1024) :
    Cert.Spec.feats src trg un r q = src (ix2 r8 q) := by
  have h₁ : r.val < 8192 := by have := r8.isLt; omega
  unfold Cert.Spec.feats
  rw [dif_pos h₁]
  exact congrArg (fun i : Fin 8192 => src (ix2 i q)) (Fin.ext hr)

theorem feats_trg (src trg : Feat) (un : FeatUn) (r : Fin 32768) (r8 : Fin 8192) (hr : r.val = 8192 + r8.val) (q : Fin 1024) :
    Cert.Spec.feats src trg un r q = trg (ix2 r8 q) := by
  have h₁ : ¬ r.val < 8192 := by omega
  have h₂ : r.val < 16384 := by have := r8.isLt; omega
  unfold Cert.Spec.feats
  rw [dif_neg h₁, dif_pos h₂]
  exact congrArg (fun i : Fin 8192 => trg (ix2 i q)) (Fin.ext (by show r.val - 8192 = r8.val; omega))

section Tiles
variable (src trg : Feat) (un : FeatUn) (ls lt : Lab) (M : Vec Ideal S1024x192 .f32)
  (hM : ∀ (q : Fin 1024) (c : Fin 64),
    M (ix2 q (⟨c.val, by omega⟩ : Fin 192)) = Cert.Spec.uS src ls c q
      ∧ M (ix2 q (⟨64 + c.val, by omega⟩ : Fin 192)) = Cert.Spec.uT trg lt c q
      ∧ M (ix2 q (⟨128 + c.val, by omega⟩ : Fin 192)) = Cert.Spec.uST src trg ls lt c q)

include hM

section Rows
variable (x : FVec Ideal S2048x1024 .f32) (g : Fin 2048 → Fin 32768)
  (hx : ∀ ρ q, x (ix2 ρ q) = Cert.Spec.feats src trg un (g ρ) q)
include hx

-- a tile whose rows are the rows g ρ of the stacked features has the specification's logits in each head
theorem row_eq (j : Fin 3) (ρ : Fin 2048) : row x M j ρ = heads src trg un ls lt j (g ρ) := by
  funext c'
  match j with
  | ⟨0, _⟩ => exact Finset.sum_congr rfl fun q _ => congrArg₂ (· * ·) (hx ρ q) (hM q c').1
  | ⟨1, _⟩ => exact Finset.sum_congr rfl fun q _ => congrArg₂ (· * ·) (hx ρ q) (hM q c').2.1
  | ⟨2, _⟩ => exact Finset.sum_congr rfl fun q _ => congrArg₂ (· * ·) (hx ρ q) (hM q c').2.2

theorem kl_eq (k : Fin 3) :
    klTile x M k = ∑ ρ : Fin 2048, Cert.BridgeLoss.klRow (pairA src trg un ls lt k) (pairB src trg un ls lt k) (g ρ) := by
  unfold klTile klPair Cert.BridgeLoss.klRow lsr pairA pairB
  simp only [row_eq src trg un ls lt M hM x g hx]

theorem ce_eq (j : Fin 3) (lab : IVec S2048x1 32) (hlab : ∀ ρ : Fin 2048, (lab (ix2 ρ (0 : Fin 1))).toNat < 64) :
    ceK x M j lab
      = ∑ ρ : Fin 2048, (0 - Cert.Spec.logSoftmax (heads src trg un ls lt j (g ρ)) (Cert.Spec.labIdx (lab (ix2 ρ (0 : Fin 1))))) := by
  rw [ceK_eq x M lab j hlab]
  unfold lsr
  simp only [row_eq src trg un ls lt M hM x g hx]

end Rows

omit hM in
theorem xsrc (t : Fin 4) (ρ : Fin 2048) (q : Fin 1024) :
    Reg1.xtile (F := Ideal) src t.val t.isLt (ix2 ρ q)
      = Cert.Spec.feats src trg un ⟨t.val * 2048 + ρ.val, by have := t.isLt; have := ρ.isLt; omega⟩ q :=
  (feats_src src trg un _ ⟨2048 * t.val + ρ.val, by have := t.isLt; have := ρ.isLt; omega⟩
    (by show t.val * 2048 + ρ.val = 2048 * t.val + ρ.val; omega) q).symm

omit hM in
theorem xtrg (t : Fin 4) (ρ : Fin 2048) (q : Fin 1024) :
    Reg2.xtile (F := Ideal) trg t.val t.isLt (ix2 ρ q)
      = Cert.Spec.feats src trg un ⟨(4 + t.val) * 2048 + ρ.val, by have := t.isLt; have := ρ.isLt; omega⟩ q :=
  (feats_trg src trg un _ ⟨2048 * t.val + ρ.val, by have := t.isLt; have := ρ.isLt; omega⟩
    (by show (4 + t.val) * 2048 + ρ.val = 8192 + (2048 * t.val + ρ.val); omega) q).symm

theorem src_kl (t : Fin 4) (which : Fin 3) :
    klTile (Reg1.xtile (F := Ideal) src t.val t.isLt) M which
      = Cert.BridgeLoss.srcTiles (Cert.BridgeLoss.klRow (pairA src trg un ls lt which) (pairB src trg un ls lt which)) t :=
  kl_eq src trg un ls lt M hM _ _ (xsrc src trg un t) which

theorem trg_kl (t : Fin 4) (which : Fin 3) :
    klTile (Reg2.xtile (F := Ideal) trg t.val t.isLt) M which
      = Cert.BridgeLoss.trgTiles (Cert.BridgeLoss.klRow (pairA src trg un ls lt which) (pairB src trg un ls lt which)) t :=
  kl_eq src trg un ls lt M hM _ _ (xtrg src trg un t) which

theorem src_ce (L : Vec Ideal S8192x1 .i32) (hL : ∀ r : Fin 8192, L (ix2 r (0 : Fin 1)) = ls (ix1 r))
    (hls : ∀ r : Fin 8192, (ls (ix1 r)).toNat < 64) (t : Fin 4) :
    ceK (Reg1.xtile (F := Ideal) src t.val t.isLt) M 0 (Reg1.ltile (F := Ideal) L t.val t.isLt)
      = Cert.BridgeLoss.ceTile
          (fun n : Fin 8192 => Cert.Spec.logSoftmax
            (Cert.Spec.pS src trg un ls (⟨n.val, by have := n.isLt; omega⟩ : Fin 32768)) (Cert.Spec.labIdx (ls (ix1 n)))) t := by
  have hlab : ∀ ρ : Fin 2048, (Reg1.ltile (F := Ideal) L t.val t.isLt) (ix2 ρ (0 : Fin 1))
      = ls (ix1 (⟨t.val * 2048 + ρ.val, by have := t.isLt; have := ρ.isLt; omega⟩ : Fin 8192)) := fun ρ =>
    (hL _).trans (congrArg (fun i : Fin 8192 => ls (ix1 i)) (Fin.ext (by show 2048 * t.val + ρ.val = t.val * 2048 + ρ.val; omega)))
  rw [ce_eq src trg un ls lt M hM _ _ (xsrc src trg un t) 0 _ (fun ρ => by rw [hlab]; exact hls _)]
  exact Finset.sum_congr rfl fun ρ _ => by rw [hlab]; rfl

theorem trg_ce (L : Vec Ideal S8192x1 .i32) (hL : ∀ r : Fin 8192, L (ix2 r (0 : Fin 1)) = lt (ix1 r))
    (hlt : ∀ r : Fin 8192, (lt (ix1 r)).toNat < 64) (t : Fin 4) :
    ceK (Reg2.xtile (F := Ideal) trg t.val t.isLt) M 1 (Reg2.ltile (F := Ideal) L t.val t.isLt)
      = Cert.BridgeLoss.ceTile
          (fun n : Fin 8192 => Cert.Spec.logSoftmax
            (Cert.Spec.pT src trg un lt (⟨8192 + n.val, by have := n.isLt; omega⟩ : Fin 32768)) (Cert.Spec.labIdx (lt (ix1 n)))) t := by
  have hlab : ∀ ρ : Fin 2048, (Reg2.ltile (F := Ideal) L t.val t.isLt) (ix2 ρ (0 : Fin 1))
      = lt (ix1 (⟨t.val * 2048 + ρ.val, by have := t.isLt; have := ρ.isLt; omega⟩ : Fin 8192)) := fun ρ =>
    (hL _).trans (congrArg (fun i : Fin 8192 => lt (ix1 i)) (Fin.ext (by show 2048 * t.val + ρ.val = t.val * 2048 + ρ.val; omega)))
  rw [ce_eq src trg un ls lt M hM _ _ (xtrg src trg un t) 1 _ (fun ρ => by rw [hlab]; exact hlt _)]
  exact Finset.sum_congr rfl fun ρ _ => by
    rw [hlab]
    exact congrArg (fun r : Fin 32768 => 0 - Cert.Spec.logSoftmax (Cert.Spec.pT src trg un lt r) _)
      (Fin.ext (by show (4 + t.val) * 2048 + ρ.val = 8192 + (t.val * 2048 + ρ.val); omega))

end Tiles

end Cert.KernelIdeal.TileId

end
-- ==== Proof.KI.Reg3Value.lean ====
import proofs.«422586_j33337536151702_2_alg».proof.Proof.KI.Reg3
import Idealize.ShloMosaic.Lib.ValueIdx

noncomputable section

namespace Cert.KernelIdeal.Reg3

open Cert.KernelIdeal Cert.KernelIdeal.Gen
open Idealize.ShloMosaic Idealize.ShloMosaic.TcCoe
open Idealize.ShloMosaic.ValueIdx

variable {F : FTy → Type} [FloatOps F]

def tileOf (X : Vec F S16384x1024 .f32) (k : Fin 8) : Vec F S2048x1024 .f32 :=
  fun j => X (ix2 (n0 := 16384) (n1 := 1024)
    ⟨2048 * k.val + (j 0).val, by have h : (j 0).val < 2048 := (j 0).isLt; have := k.isLt; omega⟩ (j 1))

def coreAcc (X : Vec F S16384x1024 .f32) (M : Vec F S1024x192 .f32) (p : Fin 2) : (j : ℕ) → j < 4 → Vec F S1x128 .f32
  | 0, _ => step (tileOf X ⟨4 * p.val, by have := p.isLt; omega⟩) M (acc0 (F := F))
  | j + 1, h => step (tileOf X ⟨4 * p.val + (j + 1), by have := p.isLt; omega⟩) M (coreAcc X M p j (Nat.lt_of_succ_lt h))

def outArr (X : Vec F S16384x1024 .f32) (M : Vec F S1024x192 .f32) : Vec F S2x1x128 .f32 :=
  fun i => outOf (coreAcc X M (i 0) 3 (by omega)) (ix3 (n0 := 1) (n1 := 1) (n2 := 128) 0 (i 1) (i 2))

variable (V : (c : Dev nD) → (b : Ref sig .tc) → Buf (Elt F) ((c : Thread nD τ).loc b))

abbrev xarr (c : Dev nD) : Vec F S16384x1024 .f32 := V c main_arg2
abbrev muarr (c : Dev nD) : Vec F S1024x192 .f32 := V c main_v44

theorem index0 : ∀ t : Fin grid3.N, win3_0.index t 0 = t.val ∧ win3_0.index t 1 = 0 := by decide +kernel
theorem index1 : ∀ t : Fin grid3.N, ∀ a, win3_1.index t a = 0 := by decide +kernel
theorem index2 : ∀ (t : Fin grid3.N) (a : Fin 3), win3_2.index t a = if a.val = 0 then t.val / 4 else 0 := by decide +kernel

theorem xblk_eq (c : Dev nD) (t : Fin cfg3.N) : xblk V c t = tileOf (xarr V c) (t.cast N_3) :=
  funext fun j => congrArg (V c main_arg2) (Shape.idx_ext₂
    ((win3_0.rect_emb_val t j 0).trans (by rw [(index0 t).1]; show t.val * 2048 + (j 0).val = 2048 * t.val + (j 0).val; omega))
    ((win3_0.rect_emb_val t j 1).trans (by rw [(index0 t).2]; show 0 * 1024 + (j 1).val = (j 1).val; omega)))

theorem mublk_eq (c : Dev nD) (t : Fin cfg3.N) : mublk V c t = muarr V c := by
  have hz' : (fun a => win3_1.index t a * main_v44.ty.shape.size a) = fun _ => 0 :=
    funext fun a => by rw [index1 t a, Nat.zero_mul]
  exact Memref.read_access_unit_zero (Elt F) main_v44 hz' (fun a => by rw [congrFun hz' a]; simp) (muarr V c)

theorem accAt_congr (c : Dev nD) {n n' : ℕ} (e : n = n') (h : n < cfg3.N) (h' : n' < cfg3.N) : accAt V c n h = accAt V c n' h' := by
  subst e; rfl

theorem accAt_eq_core (c : Dev nD) (p : Fin 2) : ∀ (j : ℕ) (hj : j < 4) (h : 4 * p.val + j < cfg3.N),
    accAt V c (4 * p.val + j) h = coreAcc (xarr V c) (muarr V c) p j hj
  | 0, hj, h => by
    rw [accAt_first V c ⟨4 * p.val + 0, h⟩ (by show (4 * p.val + 0) % 4 = 0; omega), xblk_eq, mublk_eq]
    rfl
  | j + 1, hj, h => by
    rw [accAt_next V c ⟨4 * p.val + (j + 1), h⟩ (by show ¬(4 * p.val + (j + 1)) % 4 = 0; omega), xblk_eq, mublk_eq,
      accAt_congr V c (show 4 * p.val + (j + 1) - 1 = 4 * p.val + j by omega) _ (by omega),
      accAt_eq_core c p j (Nat.lt_of_succ_lt hj)]
    rfl

theorem outArr_apply (X : Vec F S16384x1024 .f32) (M : Vec F S1024x192 .f32) (p : Fin 2) (a : Fin 1) (l : Fin 128) :
    outArr X M (ix3 p a l) = outOf (coreAcc X M p 3 (by omega)) (ix3 (n0 := 1) (n1 := 1) (n2 := 128) 0 a l) := rfl

theorem accAt_last (c : Dev nD) (t : Fin cfg3.N) (h3 : t.val % 4 = 3) (hp : t.val / 4 < 2) :
    accAt V c t.val t.isLt = coreAcc (xarr V c) (muarr V c) ⟨t.val / 4, hp⟩ 3 (by omega) :=
  (accAt_congr V c (show t.val = 4 * (t.val / 4) + 3 by omega) t.isLt (by have := t.isLt; omega)).trans
    (accAt_eq_core V c ⟨t.val / 4, hp⟩ 3 (by omega) _)

-- z 0 = p once the unit coordinate of y is 0; the other two coordinates are y's.
theorem row_block {n1 n2 : ℕ} {α : Type} (g : Fin 2 → (⟨3, ![1, n1, n2]⟩ : Shape).Idx → α) (p : Fin 2)
    (y : (⟨3, ![1, n1, n2]⟩ : Shape).Idx) (z : (⟨3, ![2, n1, n2]⟩ : Shape).Idx) (ix : Fin 3 → ℕ)
    (hz : ∀ a, (z a : ℕ) = ix a * ![1, n1, n2] a + y a) (hi : ∀ a : Fin 3, ix a = if a.val = 0 then p.val else 0) :
    g p y = g (z 0) (ix3 (0 : Fin 1) (z 1) (z 2)) := by
  have y0 : (y 0 : ℕ) = 0 := Nat.lt_one_iff.mp (y 0).isLt
  have h0 : (z 0 : ℕ) = p.val * 1 + y 0 := (hz 0).trans (by rw [hi 0]; rfl)
  have h1 : (z 1 : ℕ) = 0 * n1 + y 1 := (hz 1).trans (by rw [hi 1]; rfl)
  have h2 : (z 2 : ℕ) = 0 * n2 + y 2 := (hz 2).trans (by rw [hi 2]; rfl)
  rw [show z 0 = p from Fin.ext (by omega)]
  congr 1; funext a; apply Fin.ext
  match a with
  | ⟨0, _⟩ => exact y0
  | ⟨1, _⟩ => show (y 1 : ℕ) = (z 1 : ℕ); omega
  | ⟨2, _⟩ => show (y 2 : ℕ) = (z 2 : ℕ); omega

-- (4 * p + 3) / 4 = p, and the other two extents are the array's own.
theorem row_cover {n1 n2 : ℕ} (i : (⟨3, ![2, n1, n2]⟩ : Shape).Idx) (ix : Fin 3 → ℕ)
    (hi : ∀ a : Fin 3, ix a = if a.val = 0 then (4 * (i 0).val + 3) / 4 else 0) (a : Fin 3) :
    ix a * ![1, n1, n2] a ≤ i a ∧ (i a : ℕ) < ix a * ![1, n1, n2] a + ![1, n1, n2] a := by
  rw [hi a]
  match a with
  | ⟨0, _⟩ => show (4 * (i 0 : ℕ) + 3) / 4 * 1 ≤ (i 0 : ℕ) ∧ (i 0 : ℕ) < (4 * (i 0 : ℕ) + 3) / 4 * 1 + 1; omega
  | ⟨1, _⟩ => show 0 * n1 ≤ (i 1 : ℕ) ∧ (i 1 : ℕ) < 0 * n1 + n1; have : (i 1 : ℕ) < n1 := (i 1).isLt; omega
  | ⟨2, _⟩ => show 0 * n2 ≤ (i 2 : ℕ) ∧ (i 2 : ℕ) < 0 * n2 + n2; have : (i 2 : ℕ) < n2 := (i 2).isLt; omega

theorem flushed_eq (c : Dev nD) (t : Fin cfg3.N) (hf : (cfg3.win 2).flush t = true) :
    (dat V c).flushed 2 t = ((cfg3.win 2).blk t).view.read (Elt F) (outArr (xarr V c) (muarr V c)) := by
  have h3 : t.val % 4 = 3 := (flush3_2 t).mp hf
  have hp : t.val / 4 < 2 := by have := lt_of_lt_of_eq t.isLt N_3; omega
  show (cfg3.win 2).cut (grid3.coords t) ((dat V c).after 2 t) = _
  rw [after_2, accAt_last V c t h3 hp]
  exact funext fun j => row_block (fun p => outOf (coreAcc (xarr V c) (muarr V c) p 3 (by omega))) ⟨t.val / 4, hp⟩ j _ _
    (win3_2.rect_emb_val t j) (index2 t)

theorem unlabeledPartials (c : Dev nD) : (dat V c).arrAt 2 cfg3.N = outArr (xarr V c) (muarr V c) :=
  (dat V c).arrAt_eq_of_cover 2 (outArr (xarr V c) (muarr V c)) (flushed_eq V c) fun i =>
    have hlt : 4 * (i 0 : ℕ) + 3 < cfg3.N := by rw [show cfg3.N = 8 from N_3]; have : (i 0 : ℕ) < 2 := (i 0).isLt; omega
    ⟨⟨4 * (i 0 : ℕ) + 3, hlt⟩, (flush3_2 _).mpr (by show (4 * (i 0 : ℕ) + 3) % 4 = 3; omega), by
      rw [View.set_slice_whole, Rect.mem_set_unit]; exact row_cover i _ (index2 _)⟩

end Cert.KernelIdeal.Reg3

end
-- ==== Proof.KI.Val3.lean ====
import proofs.«422586_j33337536151702_2_alg».proof.Proof.KI.Reg3Value
import proofs.«422586_j33337536151702_2_alg».proof.Proof.KI.TileMath

noncomputable section

open scoped BigOperators

namespace Cert.KernelIdeal.Val3

open Cert.KernelIdeal Cert.KernelIdeal.Gen Cert.KernelIdeal.TileMath
open Idealize.ShloMosaic Idealize.ShloMosaic.ValueIdx

variable (X : Vec Ideal S16384x1024 .f32) (M : Vec Ideal S1024x192 .f32)

-- row p of the result folds tiles 4p to 4p + 3
theorem out_eq (p : Fin 2) (l : Fin 128) :
    Reg3.outArr X M (ix3 (n0 := 2) (n1 := 1) (n2 := 128) p 0 l)
      = fold4 M (Reg3.tileOf X ⟨4 * p.val, by have := p.isLt; omega⟩) (Reg3.tileOf X ⟨4 * p.val + 1, by have := p.isLt; omega⟩)
          (Reg3.tileOf X ⟨4 * p.val + 2, by have := p.isLt; omega⟩) (Reg3.tileOf X ⟨4 * p.val + 3, by have := p.isLt; omega⟩)
          (ix3 (0 : Fin 1) (0 : Fin 1) l) := rfl

end Cert.KernelIdeal.Val3

end
-- ==== Proof.KI.TileId3.lean ====
import proofs.«422586_j33337536151702_2_alg».proof.Proof.KI.Val3
import proofs.«422586_j33337536151702_2_alg».proof.Proof.KI.TileId12

noncomputable section

open scoped BigOperators

namespace Cert.KernelIdeal.TileId3

open Cert.KernelIdeal Cert.KernelIdeal.TileMath
open Idealize.ShloMosaic Idealize.ShloMosaic.ValueIdx
open Cert.Spec Cert.BridgeLoss

variable (src trg : Cert.Spec.Feat) (un : Cert.Spec.FeatUn) (ls lt : Cert.Spec.Lab)
variable (M : Vec Ideal S1024x192 .f32)

def grow (t : Fin 8) (ρ : Fin 2048) : Fin 32768 :=
  ⟨(8 + t.val) * 2048 + ρ.val, by have := t.isLt; have := ρ.isLt; omega⟩

theorem feats_un (t : Fin 8) (ρ : Fin 2048) (q : Fin 1024) :
    feats src trg un (grow t ρ) q
      = un (ix2 (n0 := 16384) (n1 := 1024) ⟨2048 * t.val + ρ.val, by have := t.isLt; have := ρ.isLt; omega⟩ q) := by
  have ht := t.isLt
  have hρ := ρ.isLt
  unfold Cert.Spec.feats grow
  rw [dif_neg (by show ¬((8 + t.val) * 2048 + ρ.val < 8192); omega),
    dif_neg (by show ¬((8 + t.val) * 2048 + ρ.val < 16384); omega)]
  have e : (⟨(8 + t.val) * 2048 + ρ.val - 16384, by omega⟩ : Fin 16384) = ⟨2048 * t.val + ρ.val, by omega⟩ :=
    Fin.ext (by show (8 + t.val) * 2048 + ρ.val - 16384 = 2048 * t.val + ρ.val; omega)
  rw [e]

abbrev MeansIn : Prop :=
  ∀ (q : Fin 1024) (c : Fin 64),
    M (ix2 q (⟨c.val, by have := c.isLt; omega⟩ : Fin 192)) = uS src ls c q
      ∧ M (ix2 q (⟨64 + c.val, by have := c.isLt; omega⟩ : Fin 192)) = uT trg lt c q
      ∧ M (ix2 q (⟨128 + c.val, by have := c.isLt; omega⟩ : Fin 192)) = uST src trg ls lt c q

variable {src trg un ls lt M}

theorem un_kl (hM : MeansIn src trg ls lt M) (t : Fin 8) (k : Fin 3) :
    klTile (Reg3.tileOf (F := Ideal) un t) M k = unTiles (klRow (pairA src trg un ls lt k) (pairB src trg un ls lt k)) t :=
  TileId.kl_eq src trg un ls lt M hM _ (grow t) (fun ρ q => (feats_un src trg un t ρ q).symm) k

theorem un_lanes (hM : MeansIn src trg ls lt M) (p : Fin 2) (k : Fin 3) :
    Reg3.outArr un M (ix3 (n0 := 2) (n1 := 1) (n2 := 128) p 0 ⟨2 + k.val, by have := k.isLt; omega⟩)
      = core4 (unTiles (klRow (pairA src trg un ls lt k) (pairB src trg un ls lt k))) p := by
  rw [Val3.out_eq, fold4_apply, laneVal_kl _ _ 0 (by omega), laneVal_kl _ _ 0 (by omega), laneVal_kl _ _ 0 (by omega),
    laneVal_kl _ _ 0 (by omega), un_kl hM, un_kl hM, un_kl hM, un_kl hM]
  rfl

theorem un_low (p : Fin 2) (l : Fin 128) (hl : l.val < 2) :
    Reg3.outArr un M (ix3 (n0 := 2) (n1 := 1) (n2 := 128) p 0 l) = 0 := by
  rw [Val3.out_eq, fold4_apply, laneVal_low _ _ _ _ hl fun _ => rfl, laneVal_low _ _ _ _ hl fun _ => rfl,
    laneVal_low _ _ _ _ hl fun _ => rfl, laneVal_low _ _ _ _ hl fun _ => rfl]
  simp only [add_zero]

end Cert.KernelIdeal.TileId3

end
-- ==== Proof.KI.LossGlue.lean ====
import proofs.«422586_j33337536151702_2_alg».proof.Proof.KI.HostStretches
import proofs.«422586_j33337536151702_2_alg».proof.Proof.KI.TileMath
import proofs.«422586_j33337536151702_2_alg».proof.Proof.BridgeLoss

noncomputable section

open scoped BigOperators

namespace Cert.KernelIdeal.LossGlue

open Idealize.ShloMosaic Idealize.ShloMosaic.TcCoe Idealize.ShloMosaic.ValueIdx
open Idealize.SL.Sem
open Cert.Spec
open Cert.KernelIdeal.HostStretches (outP1 outP2 outP3 lane)
open Cert.KernelIdeal.TileMath (pairA pairB)
open Cert.BridgeLoss (core2 core4 kern2 kern4 srcTiles trgTiles unTiles klRow laneSum laneKl ceTile ceTotal)

variable (W : Valuation τ sig (Elt Ideal)) (src trg : Feat) (un : FeatUn) (ls lt : Lab)

def hS : Fin 8192 → EReal :=
  fun n => logSoftmax (pS src trg un ls (⟨n.val, by have := n.isLt; omega⟩ : Fin 32768)) (labIdx (ls (ix1 n)))

def hT : Fin 8192 → EReal :=
  fun n => logSoftmax (pT src trg un lt (⟨8192 + n.val, by have := n.isLt; omega⟩ : Fin 32768)) (labIdx (lt (ix1 n)))

-- Lanes 2, 3, 4 of the three regions' outputs hold each core's partial sums of the three divergence pairs.
def KlLanes : Prop :=
  (∀ (p : Fin 2) (which : Fin 3),
      outP1 W (ix3 p (0 : Fin 1) (⟨2 + which.val, by have := which.isLt; omega⟩ : Fin 128))
        = core2 (srcTiles (klRow (pairA src trg un ls lt which) (pairB src trg un ls lt which))) p)
  ∧ (∀ (p : Fin 2) (which : Fin 3),
      outP2 W (ix3 p (0 : Fin 1) (⟨2 + which.val, by have := which.isLt; omega⟩ : Fin 128))
        = core2 (trgTiles (klRow (pairA src trg un ls lt which) (pairB src trg un ls lt which))) p)
  ∧ ∀ (p : Fin 2) (which : Fin 3),
      outP3 W (ix3 p (0 : Fin 1) (⟨2 + which.val, by have := which.isLt; omega⟩ : Fin 128))
        = core4 (unTiles (klRow (pairA src trg un ls lt which) (pairB src trg un ls lt which))) p

theorem lane_kl (which : Fin 3) (h : KlLanes W src trg un ls lt) :
    lane W (⟨2 + which.val, by have := which.isLt; omega⟩ : Fin 128)
      = laneKl (pairA src trg un ls lt which) (pairB src trg un ls lt which) := by
  rw [lane, h.1 0 which, h.1 1 which, h.2.1 0 which, h.2.1 1 which, h.2.2 0 which, h.2.2 1 which]
  rfl

theorem tpn_of (h : KlLanes W src trg un ls lt) :
    StableHlo.after (Gen.hostOps4 (F := Ideal)) W (Proc.devRef .tc main_v70) ix0 = specTpn src trg un ls lt := by
  have h2 : lane W (2 : Fin 128) = laneKl (pS src trg un ls) (pT src trg un lt) :=
    lane_kl W src trg un ls lt (0 : Fin 3) h
  have h3 : lane W (3 : Fin 128) = laneKl (pS src trg un ls) (pST src trg un ls lt) :=
    lane_kl W src trg un ls lt (1 : Fin 3) h
  have h4 : lane W (4 : Fin 128) = laneKl (pT src trg un lt) (pST src trg un ls lt) :=
    lane_kl W src trg un ls lt (2 : Fin 3) h
  rw [HostStretches.tpn_eq W, h2, h3, h4, Cert.BridgeLoss.tpn_eq]
  rfl

theorem ceS_of
    (hce1 : ∀ p : Fin 2, outP1 W (ix3 p (0 : Fin 1) (0 : Fin 128)) = core2 (ceTile (hS src trg un ls)) p)
    (hce2 : ∀ p : Fin 2, outP2 W (ix3 p (0 : Fin 1) (0 : Fin 128)) = 0)
    (hce3 : ∀ p : Fin 2, outP3 W (ix3 p (0 : Fin 1) (0 : Fin 128)) = 0)
    (hreal : ∀ r k, ∃ v : ℝ, pS src trg un ls r k = (v : EReal)) :
    StableHlo.after (Gen.hostOps4 (F := Ideal)) W (Proc.devRef .tc main_v63) ix0 = specCeS src trg un ls lt := by
  have h0 : lane W (0 : Fin 128) = ceTotal (hS src trg un ls) := by
    rw [lane, hce1 0, hce1 1, hce2 0, hce2 1, hce3 0, hce3 1, add_zero, add_zero, add_zero]
    rfl
  rw [HostStretches.supvS_eq W, h0]
  exact Cert.BridgeLoss.ceS_eq (pS src trg un ls) ls hreal

theorem ceT_of
    (hce1 : ∀ p : Fin 2, outP1 W (ix3 p (0 : Fin 1) (1 : Fin 128)) = 0)
    (hce2 : ∀ p : Fin 2, outP2 W (ix3 p (0 : Fin 1) (1 : Fin 128)) = core2 (ceTile (hT src trg un lt)) p)
    (hce3 : ∀ p : Fin 2, outP3 W (ix3 p (0 : Fin 1) (1 : Fin 128)) = 0)
    (hreal : ∀ r k, ∃ v : ℝ, pT src trg un lt r k = (v : EReal)) :
    StableHlo.after (Gen.hostOps4 (F := Ideal)) W (Proc.devRef .tc main_v64) ix0 = specCeT src trg un ls lt := by
  have h1 : lane W (1 : Fin 128) = ceTotal (hT src trg un lt) := by
    rw [lane, hce1 0, hce1 1, hce2 0, hce2 1, hce3 0, hce3 1, add_zero, zero_add, add_zero]
    rfl
  rw [HostStretches.supvT_eq W, h1]
  exact Cert.BridgeLoss.ceT_eq (pT src trg un lt) lt hreal

end Cert.KernelIdeal.LossGlue

end
-- ==== Proof.KI.Reg0Arr.lean ====
import proofs.«422586_j33337536151702_2_alg».proof.Proof.KI.Reg0

noncomputable section

namespace Cert.KernelIdeal.Reg0

open Cert.KernelIdeal Cert.KernelIdeal.Gen
open Idealize.ShloMosaic Idealize.ShloMosaic.TcCoe
open Idealize.ShloMosaic.ValueIdx

variable {F : FTy → Type} [FloatOps F]

variable (V : (c : Dev nD) → (b : Ref sig .tc) → Buf (Elt F) ((c : Thread nD τ).loc b))

def lastPt (p : Fin 2) : Fin cfg0.N := ⟨4 * p.val + 3, by rw [show cfg0.N = 8 from N_0]; omega⟩

def tilePt (p : Fin 2) (j : Fin 4) : Fin cfg0.N := ⟨4 * p.val + j.val, by rw [show cfg0.N = 8 from N_0]; omega⟩

def rowOf (t : Fin cfg0.N) (r : Fin 1024) : Fin 8192 := ⟨1024 * t.val + r.val, by
  have h8 : t.val < 8 := lt_of_lt_of_eq t.isLt (show cfg0.N = 8 from N_0)
  have := r.isLt; omega⟩

theorem last_mod (p : Fin 2) : (lastPt p).val % 4 = 3 := by show (4 * p.val + 3) % 4 = 3; omega

theorem index_eq : ∀ (w : Fin 8) (t : Fin grid0.N) (a : Fin (win0 w).shape.rank),
    (win0 w).index t a = if a.val = 0 then (if w.val < 4 then t.val else t.val / 4) else 0 := by decide +kernel

-- 4 * (t / 4) + 3 = t when t % 4 = 3, and a coordinate below 1 is 0.
theorem last_block {n1 n2 : ℕ} {α : Type} (g : Fin cfg0.N → (⟨3, ![1, n1, n2]⟩ : Shape).Idx → α) {t : Fin cfg0.N}
    (ht : t.val % 4 = 3) (y : (⟨3, ![1, n1, n2]⟩ : Shape).Idx) (z : (⟨3, ![2, n1, n2]⟩ : Shape).Idx) (ix : Fin 3 → ℕ)
    (hz : ∀ a, (z a : ℕ) = ix a * ![1, n1, n2] a + y a) (hi : ∀ a : Fin 3, ix a = if a.val = 0 then t.val / 4 else 0) :
    g t y = g (lastPt (z 0)) (ix3 (0 : Fin 1) (z 1) (z 2)) := by
  have y0 : (y 0 : ℕ) = 0 := Nat.lt_one_iff.mp (y 0).isLt
  have h0 : (z 0 : ℕ) = t.val / 4 * 1 + y 0 := (hz 0).trans (by rw [hi 0]; rfl)
  have h1 : (z 1 : ℕ) = 0 * n1 + y 1 := (hz 1).trans (by rw [hi 1]; rfl)
  have h2 : (z 2 : ℕ) = 0 * n2 + y 2 := (hz 2).trans (by rw [hi 2]; rfl)
  rw [show lastPt (z 0) = t from Fin.ext (by show 4 * (z 0 : ℕ) + 3 = t.val; omega)]
  congr 1; funext a; apply Fin.ext
  match a with
  | ⟨0, _⟩ => exact y0
  | ⟨1, _⟩ => show (y 1 : ℕ) = (z 1 : ℕ); omega
  | ⟨2, _⟩ => show (y 2 : ℕ) = (z 2 : ℕ); omega

-- (4 * p + 3) / 4 = p, and the other two extents are the array's own.
theorem last_cover {n1 n2 : ℕ} (i : (⟨3, ![2, n1, n2]⟩ : Shape).Idx) (ix : Fin 3 → ℕ)
    (hi : ∀ a : Fin 3, ix a = if a.val = 0 then (lastPt (i 0)).val / 4 else 0) (a : Fin 3) :
    ix a * ![1, n1, n2] a ≤ i a ∧ (i a : ℕ) < ix a * ![1, n1, n2] a + ![1, n1, n2] a := by
  rw [hi a]
  match a with
  | ⟨0, _⟩ => show (4 * (i 0 : ℕ) + 3) / 4 * 1 ≤ (i 0 : ℕ) ∧ (i 0 : ℕ) < (4 * (i 0 : ℕ) + 3) / 4 * 1 + 1; omega
  | ⟨1, _⟩ => show 0 * n1 ≤ (i 1 : ℕ) ∧ (i 1 : ℕ) < 0 * n1 + n1; have : (i 1 : ℕ) < n1 := (i 1).isLt; omega
  | ⟨2, _⟩ => show 0 * n2 ≤ (i 2 : ℕ) ∧ (i 2 : ℕ) < 0 * n2 + n2; have : (i 2 : ℕ) < n2 := (i 2).isLt; omega

def sumSArr (c : Dev nD) : Vec F S2x64x1024 .f32 :=
  fun y => k0_pay3 (sumS V c (lastPt (y 0))) (ix3 (0 : Fin 1) (y 1) (y 2))

theorem sumSArr_apply (c : Dev nD) (p : Fin 2) (k : Fin 64) (j : Fin 1024) :
    sumSArr V c (ix3 p k j) = k0_pay3 (sumS V c (lastPt p)) (ix3 (0 : Fin 1) k j) := rfl

theorem sumS_arr (c : Dev nD) : (dat V c).arrAt 4 cfg0.N = sumSArr V c :=
  (dat V c).arrAt_eq_of_cover 4 (sumSArr V c)
    (fun t hf => funext fun y => last_block (fun t => k0_pay3 (sumS V c t)) ((flush0_4 t).mp hf) y _ _
      (win0_4.rect_emb_val t y) (index_eq 4 t))
    fun i => ⟨lastPt (i 0), (flush0_4 _).mpr (last_mod _), by
      rw [View.set_slice_whole, Rect.mem_set_unit]; exact last_cover i _ (index_eq 4 _)⟩

def sumTArr (c : Dev nD) : Vec F S2x64x1024 .f32 :=
  fun y => k0_pay4 (sumT V c (lastPt (y 0))) (ix3 (0 : Fin 1) (y 1) (y 2))

theorem sumTArr_apply (c : Dev nD) (p : Fin 2) (k : Fin 64) (j : Fin 1024) :
    sumTArr V c (ix3 p k j) = k0_pay4 (sumT V c (lastPt p)) (ix3 (0 : Fin 1) k j) := rfl

theorem sumT_arr (c : Dev nD) : (dat V c).arrAt 5 cfg0.N = sumTArr V c :=
  (dat V c).arrAt_eq_of_cover 5 (sumTArr V c)
    (fun t hf => funext fun y => last_block (fun t => k0_pay4 (sumT V c t)) ((flush0_5 t).mp hf) y _ _
      (win0_5.rect_emb_val t y) (index_eq 5 t))
    fun i => ⟨lastPt (i 0), (flush0_5 _).mpr (last_mod _), by
      rw [View.set_slice_whole, Rect.mem_set_unit]; exact last_cover i _ (index_eq 5 _)⟩

def cntSArr (c : Dev nD) : Vec F S2x1x64 .f32 :=
  fun y => k0_pay5 (cntS V c (lastPt (y 0))) (ix3 (0 : Fin 1) (y 1) (y 2))

theorem cntSArr_apply (c : Dev nD) (p : Fin 2) (k : Fin 1) (j : Fin 64) :
    cntSArr V c (ix3 p k j) = k0_pay5 (cntS V c (lastPt p)) (ix3 (0 : Fin 1) k j) := rfl

theorem cntS_arr (c : Dev nD) : (dat V c).arrAt 6 cfg0.N = cntSArr V c :=
  (dat V c).arrAt_eq_of_cover 6 (cntSArr V c)
    (fun t hf => funext fun y => last_block (fun t => k0_pay5 (cntS V c t)) ((flush0_6 t).mp hf) y _ _
      (win0_6.rect_emb_val t y) (index_eq 6 t))
    fun i => ⟨lastPt (i 0), (flush0_6 _).mpr (last_mod _), by
      rw [View.set_slice_whole, Rect.mem_set_unit]; exact last_cover i _ (index_eq 6 _)⟩

def cntTArr (c : Dev nD) : Vec F S2x1x64 .f32 :=
  fun y => k0_pay6 (cntT V c (lastPt (y 0))) (ix3 (0 : Fin 1) (y 1) (y 2))

theorem cntTArr_apply (c : Dev nD) (p : Fin 2) (k : Fin 1) (j : Fin 64) :
    cntTArr V c (ix3 p k j) = k0_pay6 (cntT V c (lastPt p)) (ix3 (0 : Fin 1) k j) := rfl

theorem cntT_arr (c : Dev nD) : (dat V c).arrAt 7 cfg0.N = cntTArr V c :=
  (dat V c).arrAt_eq_of_cover 7 (cntTArr V c)
    (fun t hf => funext fun y => last_block (fun t => k0_pay6 (cntT V c t)) ((flush0_7 t).mp hf) y _ _
      (win0_7.rect_emb_val t y) (index_eq 7 t))
    fun i => ⟨lastPt (i 0), (flush0_7 _).mpr (last_mod _), by
      rw [View.set_slice_whole, Rect.mem_set_unit]; exact last_cover i _ (index_eq 7 _)⟩

-- 4 * p is a multiple of 4, so the recursion restarts there.
theorem accum_last {α : Type} (z : α) (g : Fin cfg0.N → α → α) : ∀ p : Fin 2,
    accum z g (lastPt p).val (lastPt p).isLt = g (tilePt p 3) (g (tilePt p 2) (g (tilePt p 1) (g (tilePt p 0) z)))
  | 0 => rfl
  | 1 => rfl

theorem sumS_last (c : Dev nD) (p : Fin 2) :
    sumS V c (lastPt p) = k0_pay13 (lblS V c (tilePt p 3)) (featS V c (tilePt p 3)) (k0_pay13 (lblS V c (tilePt p 2)) (featS V c (tilePt p 2)) (k0_pay13 (lblS V c (tilePt p 1)) (featS V c (tilePt p 1)) (k0_pay13 (lblS V c (tilePt p 0)) (featS V c (tilePt p 0)) k0_pay7))) :=
  accum_last _ _ p
theorem sumT_last (c : Dev nD) (p : Fin 2) :
    sumT V c (lastPt p) = k0_pay14 (lblT V c (tilePt p 3)) (featT V c (tilePt p 3)) (k0_pay14 (lblT V c (tilePt p 2)) (featT V c (tilePt p 2)) (k0_pay14 (lblT V c (tilePt p 1)) (featT V c (tilePt p 1)) (k0_pay14 (lblT V c (tilePt p 0)) (featT V c (tilePt p 0)) k0_pay8))) :=
  accum_last _ _ p
theorem cntS_last (c : Dev nD) (p : Fin 2) :
    cntS V c (lastPt p) = k0_pay1 (k0_pay1 (k0_pay1 (k0_pay1 k0_pay9 (k0_pay15 (lblS V c (tilePt p 0)))) (k0_pay15 (lblS V c (tilePt p 1)))) (k0_pay15 (lblS V c (tilePt p 2)))) (k0_pay15 (lblS V c (tilePt p 3))) :=
  accum_last _ _ p
theorem cntT_last (c : Dev nD) (p : Fin 2) :
    cntT V c (lastPt p) = k0_pay2 (k0_pay12 (lblT V c (tilePt p 3))) (k0_pay2 (k0_pay12 (lblT V c (tilePt p 2))) (k0_pay2 (k0_pay12 (lblT V c (tilePt p 1))) (k0_pay2 (k0_pay12 (lblT V c (tilePt p 0))) k0_pay10))) :=
  accum_last _ _ p

theorem row_emb {n1 : ℕ} (t : Fin cfg0.N) (r : Fin 1024) (k : Fin n1) (z : (⟨2, ![8192, n1]⟩ : Shape).Idx) (ix : Fin 2 → ℕ)
    (hz : ∀ a, (z a : ℕ) = ix a * ![1024, n1] a + ix2 r k a) (hi : ∀ a : Fin 2, ix a = if a.val = 0 then t.val else 0) :
    z = ix2 (rowOf t r) k :=
  Shape.idx_ext₂ ((hz 0).trans (by rw [hi 0]; show t.val * 1024 + r.val = 1024 * t.val + r.val; omega))
    ((hz 1).trans (by rw [hi 1]; show 0 * n1 + k.val = k.val; omega))

theorem featS_apply (c : Dev nD) (t : Fin cfg0.N) (r : Fin 1024) (k : Fin 1024) :
    featS V c t (ix2 r k) = (V c main_arg0 : Vec F S8192x1024 .f32) (ix2 (rowOf t r) k) :=
  congrArg (V c main_arg0) (row_emb t r k _ _ (win0_0.rect_emb_val t _) (index_eq 0 t))
theorem featT_apply (c : Dev nD) (t : Fin cfg0.N) (r : Fin 1024) (k : Fin 1024) :
    featT V c t (ix2 r k) = (V c main_arg1 : Vec F S8192x1024 .f32) (ix2 (rowOf t r) k) :=
  congrArg (V c main_arg1) (row_emb t r k _ _ (win0_1.rect_emb_val t _) (index_eq 1 t))
theorem lblS_apply (c : Dev nD) (t : Fin cfg0.N) (r : Fin 1024) (k : Fin 1) :
    lblS V c t (ix2 r k) = (V c main_v0 : Vec F S8192x1 .i32) (ix2 (rowOf t r) k) :=
  congrArg (V c main_v0) (row_emb t r k _ _ (win0_2.rect_emb_val t _) (index_eq 2 t))
theorem lblT_apply (c : Dev nD) (t : Fin cfg0.N) (r : Fin 1024) (k : Fin 1) :
    lblT V c t (ix2 r k) = (V c main_v1 : Vec F S8192x1 .i32) (ix2 (rowOf t r) k) :=
  congrArg (V c main_v1) (row_emb t r k _ _ (win0_3.rect_emb_val t _) (index_eq 3 t))

end Cert.KernelIdeal.Reg0

end
-- ==== Proof.KI.Pay0.lean ====
import proofs.«422586_j33337536151702_2_alg».proof.Proof.Gen.KernelIdeal.Skeleton
import Idealize.ShloMosaic.PureOps.Ideal.Laws
import Idealize.ShloMosaic.Lib.ValueIdx
import Idealize.ShloMosaic.Lib.Affine
import Idealize.ShloMosaic.Lib.Pipeline.Value
import Idealize.ShloMosaic.Lib.ValueLayout

noncomputable section

open scoped BigOperators

namespace Cert.KernelIdeal.Pay0

open Idealize.ShloMosaic Idealize.ShloMosaic.ValueIdx
open Cert.KernelIdeal

theorem one_f32 : Ideal.ofBits .f32 0x3F800000#32 = (1 : EReal) := by
  simp [Ideal.ofBits, Ideal.ieee]
  norm_cast; norm_num

theorem onehot_apply (lab : Vec Ideal S1024x1 .i32) (r : Fin 1024) (c : Fin 64) :
    Gen.k0_pay11 (F := Ideal) lab (ix2 r c)
      = if lab (ix2 r 0) = BitVec.ofNat 32 c.val then Ideal.ofBits .f32 0x3F800000#32 else 0 := by
  unfold Gen.k0_pay11
  show (((((IntOp.cmpi .eq (iota .tc S1024x64 32 [1] Gen.iota_S1024x64_d1_w32 (ix2 r c))
      (broadcastTo S1024x64 (shapeCast S1024x1 lab Gen.shapeCasts_S1024x1_S1024x1) Gen.broadcasts_S1024x1_S1024x64 (ix2 r c))).setWidth 32).toInt : ℤ) : ℝ) : EReal) = _
  rw [iota_single_apply, shapeCast_self, broadcastTo_apply lab Gen.broadcasts_S1024x1_S1024x64 (ix2 r c) (ix2 r 0) (fun a => by
    match a with
    | ⟨0, _⟩ => rfl
    | ⟨1, _⟩ => rfl)]
  show ((((BitVec.setWidth 32 (IntOp.cmpi .eq (BitVec.ofNat 32 c.val) (lab (ix2 r 0)))).toInt : ℤ) : ℝ) : EReal) = _
  by_cases h : lab (ix2 r 0) = BitVec.ofNat 32 c.val
  · rw [if_pos h, h, one_f32]
    have e1 : IntOp.cmpi .eq (BitVec.ofNat 32 c.val) (BitVec.ofNat 32 c.val) = 1#1 := IntOp.cmpi_eq.2 rfl
    have e2 : (BitVec.setWidth 32 (1#1)).toInt = 1 := by decide
    rw [e1, e2]; simp
  · rw [if_neg h]
    have e1 : IntOp.cmpi .eq (BitVec.ofNat 32 c.val) (lab (ix2 r 0)) = 0#1 :=
      eq_zero_of_ne_one (fun e => h (IntOp.cmpi_eq.1 e).symm)
    have e2 : (BitVec.setWidth 32 (0#1)).toInt = 0 := by decide
    rw [e1, e2]; simp

theorem lhs_rows_0 (i : S64x1024.Idx) (q : dot_S1024x64_S1024x1024_S64x1024_0_0_1_1_n_n.contr.Idx) :
    (dot_S1024x64_S1024x1024_S64x1024_0_0_1_1_n_n.lhsIdx i q 0).val = (q ⟨0, by decide⟩).val :=
  dot_S1024x64_S1024x1024_S64x1024_0_0_1_1_n_n.lhsIdx_val_of_single rfl i q
theorem lhs_rows_1 (i : S64x1024.Idx) (q : dot_S1024x64_S1024x1024_S64x1024_0_0_1_1_n_n.contr.Idx) :
    (dot_S1024x64_S1024x1024_S64x1024_0_0_1_1_n_n.lhsIdx i q 1).val = (i 0).val := by
  unfold DotDims.lhsIdx
  rw [dif_neg (show ¬(1 : Fin S1024x64.rank) ∈ dot_S1024x64_S1024x1024_S64x1024_0_0_1_1_n_n.lhsBatch by decide), dif_pos (show (1 : Fin S1024x64.rank) ∈ dot_S1024x64_S1024x1024_S64x1024_0_0_1_1_n_n.lhsNonContracting by decide)]
  rfl
theorem rhs_rows_0 (i : S64x1024.Idx) (q : dot_S1024x64_S1024x1024_S64x1024_0_0_1_1_n_n.contr.Idx) :
    (dot_S1024x64_S1024x1024_S64x1024_0_0_1_1_n_n.rhsIdx i q 0).val = (q ⟨0, by decide⟩).val :=
  dot_S1024x64_S1024x1024_S64x1024_0_0_1_1_n_n.rhsIdx_val_of_single rfl i q
theorem rhs_rows_1 (i : S64x1024.Idx) (q : dot_S1024x64_S1024x1024_S64x1024_0_0_1_1_n_n.contr.Idx) :
    (dot_S1024x64_S1024x1024_S64x1024_0_0_1_1_n_n.rhsIdx i q 1).val = (i 1).val := by
  unfold DotDims.rhsIdx
  rw [dif_neg (show ¬(1 : Fin S1024x1024.rank) ∈ dot_S1024x64_S1024x1024_S64x1024_0_0_1_1_n_n.rhsBatch by decide), dif_pos (show (1 : Fin S1024x1024.rank) ∈ dot_S1024x64_S1024x1024_S64x1024_0_0_1_1_n_n.rhsNonContracting by decide)]
  rfl

theorem matmul_rows_apply (A : FVec Ideal S1024x64 .f32) (X : FVec Ideal S1024x1024 .f32) (c : Fin 64) (j : Fin 1024) :
    matmul dot_S1024x64_S1024x1024_S64x1024_0_0_1_1_n_n (some .fp32) A X (constant (F := Ideal) S64x1024 .f32 0x00000000#32) (ix2 c j)
      = ∑ r : Fin 1024, A (ix2 r c) * X (ix2 r j) := by
  simp only [matmul]
  rw [Ideal.matmul_constant_zero_apply, ← Equiv.sum_comp (contrEquiv1 dot_S1024x64_S1024x1024_S64x1024_0_0_1_1_n_n 1024 rfl rfl).symm]
  refine Finset.sum_congr rfl fun k _ => ?_
  have hk := contrEquiv1_symm_val dot_S1024x64_S1024x1024_S64x1024_0_0_1_1_n_n 1024 rfl rfl k
  have el : dot_S1024x64_S1024x1024_S64x1024_0_0_1_1_n_n.lhsIdx (ix2 c j) ((contrEquiv1 dot_S1024x64_S1024x1024_S64x1024_0_0_1_1_n_n 1024 rfl rfl).symm k) = ix2 k c := funext fun a => Fin.ext (by
    match a with
    | ⟨0, _⟩ => exact (lhs_rows_0 _ _).trans hk
    | ⟨1, _⟩ => exact lhs_rows_1 _ _)
  have er : dot_S1024x64_S1024x1024_S64x1024_0_0_1_1_n_n.rhsIdx (ix2 c j) ((contrEquiv1 dot_S1024x64_S1024x1024_S64x1024_0_0_1_1_n_n 1024 rfl rfl).symm k) = ix2 k j := funext fun a => Fin.ext (by
    match a with
    | ⟨0, _⟩ => exact (rhs_rows_0 _ _).trans hk
    | ⟨1, _⟩ => exact rhs_rows_1 _ _)
  rw [el, er]

theorem onehot_mul (p : Prop) [Decidable p] (x : EReal) :
    (if p then Ideal.ofBits .f32 0x3F800000#32 else 0) * x = if p then x else 0 := by
  split_ifs
  · rw [one_f32, one_mul]
  · rw [zero_mul]

theorem sum_step (lab : Vec Ideal S1024x1 .i32) (x : Vec Ideal S1024x1024 .f32) (acc : Vec Ideal S64x1024 .f32)
    (c : Fin 64) (j : Fin 1024) :
    Gen.k0_pay13 (F := Ideal) lab x acc (ix2 c j)
      = acc (ix2 c j) + ∑ r : Fin 1024, (if lab (ix2 r 0) = BitVec.ofNat 32 c.val then x (ix2 r j) else 0) := by
  unfold Gen.k0_pay13
  rw [shapeCast_self]
  show acc (ix2 c j) + matmul dot_S1024x64_S1024x1024_S64x1024_0_0_1_1_n_n (some .fp32) (Gen.k0_pay11 (F := Ideal) lab) x
      (constant (F := Ideal) S64x1024 .f32 0x00000000#32) (ix2 c j) = _
  rw [matmul_rows_apply]
  refine congrArg (acc (ix2 c j) + ·) (Finset.sum_congr rfl fun r _ => ?_)
  rw [onehot_apply, onehot_mul]

theorem colsum_apply (A : FVec Ideal S1024x64 .f32) (c : Fin 64) :
    multiReduction (F := Ideal) .add [0] S64 A 0x00000000#32 Gen.reduces_S1024x64_S64 (.inl rfl) rfl (ix1 c)
      = ∑ r : Fin 1024, A (ix2 r c) := by
  refine (Ideal.multiReduction_add_single A 0x00000000#32 Gen.reduces_S1024x64_S64 (.inl rfl) rfl (ix1 c)).trans ?_
  refine Finset.sum_congr rfl fun r _ => congrArg A ?_
  funext a
  match a with
  | ⟨0, _⟩ => exact Fin.ext (by rw [Shape.Reduces.lift_val]; simp [Shape.Reduces.liftVal])
  | ⟨1, _⟩ => exact Fin.ext (by rw [Shape.Reduces.lift_val]; simp [Shape.Reduces.liftVal])

theorem cnt_step (lab : Vec Ideal S1024x1 .i32) (acc : Vec Ideal S1x64 .f32) (c : Fin 64) :
    Gen.k0_pay1 (F := Ideal) acc (Gen.k0_pay15 (F := Ideal) lab) (ix2 0 c)
      = acc (ix2 0 c) + ∑ r : Fin 1024, (if lab (ix2 r 0) = BitVec.ofNat 32 c.val then Ideal.ofBits .f32 0x3F800000#32 else 0) := by
  unfold Gen.k0_pay1 Gen.k0_pay15
  rw [shapeCast_self]
  show acc (ix2 0 c) + shapeCast S1x64 (multiReduction (F := Ideal) .add [0] S64 (Gen.k0_pay11 (F := Ideal) lab) 0x00000000#32
      Gen.reduces_S1024x64_S64 (.inl rfl) rfl) Gen.shapeCasts_S64_S1x64 (ix2 0 c) = _
  rw [shapeCast_a_1a_apply, colsum_apply]
  exact congrArg (acc (ix2 0 c) + ·) (Finset.sum_congr rfl fun r _ => onehot_apply lab r c)

theorem reset_sum (i : S64x1024.Idx) : (Gen.k0_pay7 (F := Ideal)) i = 0 := by
  unfold Gen.k0_pay7
  rw [shapeCast_self]
  exact Ideal.ofBits_zero_f32

theorem reset_cnt (i : S1x64.Idx) : (Gen.k0_pay9 (F := Ideal)) i = 0 := by
  unfold Gen.k0_pay9
  rw [shapeCast_self]
  exact Ideal.ofBits_zero_f32

theorem out_sum (v : Vec Ideal S64x1024 .f32) (c : Fin 64) (j : Fin 1024) :
    Gen.k0_pay3 (F := Ideal) v (ix3 0 c j) = v (ix2 c j) := by
  unfold Gen.k0_pay3
  exact shapeCast_ab_1ab_apply v Gen.shapeCasts_S64x1024_S1x64x1024 0 c j

theorem out_cnt (v : Vec Ideal S1x64 .f32) (c : Fin 64) :
    Gen.k0_pay5 (F := Ideal) v (ix3 0 0 c) = v (ix2 0 c) := by
  unfold Gen.k0_pay5
  exact shapeCast_ab_1ab_apply v Gen.shapeCasts_S1x64_S1x1x64 0 0 c

end Cert.KernelIdeal.Pay0

end
-- ==== Proof.KI.Means0.lean ====
import proofs.«422586_j33337536151702_2_alg».proof.Proof.KI.Reg0Arr
import proofs.«422586_j33337536151702_2_alg».proof.Proof.KI.Pay0
import proofs.«422586_j33337536151702_2_alg».proof.Proof.BridgeSeg

noncomputable section

open scoped BigOperators

namespace Cert.KernelIdeal.Means0

open Cert.KernelIdeal Cert.KernelIdeal.Gen
open Idealize.ShloMosaic Idealize.ShloMosaic.TcCoe Idealize.ShloMosaic.ValueIdx
open Cert.Spec (Feat Lab)
open Cert.BridgeSeg (tileSum tileCnt tileOf coreSum coreCnt)

theorem sum_fold (X : Feat) (lab : Lab) (p : Fin 2) (lb : Fin 4 → Vec Ideal S1024x1 .i32)
    (fb : Fin 4 → Vec Ideal S1024x1024 .f32)
    (hl : ∀ i r, lb i (ix2 r 0) = lab (ix1 (Reg0.rowOf (Reg0.tilePt p i) r)))
    (hf : ∀ i r j, fb i (ix2 r j) = X (ix2 (Reg0.rowOf (Reg0.tilePt p i) r) j)) (k : Fin 64) (j : Fin 1024) :
    k0_pay3 (k0_pay13 (lb 3) (fb 3) (k0_pay13 (lb 2) (fb 2) (k0_pay13 (lb 1) (fb 1) (k0_pay13 (lb 0) (fb 0) (k0_pay7 (F := Ideal)))))) (ix3 0 k j)
      = coreSum X lab p k j := by
  rw [Pay0.out_sum, Pay0.sum_step, Pay0.sum_step, Pay0.sum_step, Pay0.sum_step, Pay0.reset_sum]
  simp only [hl, hf]
  rfl

theorem cnt_fold (lab : Lab) (p : Fin 2) (lb : Fin 4 → Vec Ideal S1024x1 .i32)
    (hl : ∀ i r, lb i (ix2 r 0) = lab (ix1 (Reg0.rowOf (Reg0.tilePt p i) r))) (k : Fin 64) :
    k0_pay5 (k0_pay1 (k0_pay1 (k0_pay1 (k0_pay1 k0_pay9 (k0_pay15 (lb 0))) (k0_pay15 (lb 1))) (k0_pay15 (lb 2))) (k0_pay15 (lb 3))) (ix3 0 0 k)
      = coreCnt lab p k := by
  rw [Pay0.out_cnt, Pay0.cnt_step, Pay0.cnt_step, Pay0.cnt_step, Pay0.cnt_step, Pay0.reset_cnt]
  simp only [hl]
  rfl

variable (V : (c : Dev nD) → (b : Ref sig .tc) → Buf (Elt Ideal) ((c : Thread nD τ).loc b))

theorem sumS_core (c : Dev nD) (X : Feat) (lab : Lab) (hX : (V c main_arg0 : Feat) = X)
    (hL : ∀ r : Fin 8192, (V c main_v0 : Vec Ideal S8192x1 .i32) (ix2 r 0) = lab (ix1 r))
    (p : Fin 2) (k : Fin 64) (j : Fin 1024) :
    Reg0.sumSArr V c (ix3 p k j) = coreSum X lab p k j := by
  rw [Reg0.sumSArr_apply, Reg0.sumS_last]
  exact sum_fold X lab p (fun i => Reg0.lblS V c (Reg0.tilePt p i)) (fun i => Reg0.featS V c (Reg0.tilePt p i))
    (fun i r => by rw [Reg0.lblS_apply, hL]) (fun i r j => by rw [Reg0.featS_apply, hX]) k j

theorem cntS_core (c : Dev nD) (lab : Lab)
    (hL : ∀ r : Fin 8192, (V c main_v0 : Vec Ideal S8192x1 .i32) (ix2 r 0) = lab (ix1 r))
    (p : Fin 2) (k : Fin 64) :
    Reg0.cntSArr V c (ix3 p 0 k) = coreCnt lab p k := by
  rw [Reg0.cntSArr_apply, Reg0.cntS_last]
  exact cnt_fold lab p (fun i => Reg0.lblS V c (Reg0.tilePt p i)) (fun i r => by rw [Reg0.lblS_apply, hL]) k

theorem sumT_core (c : Dev nD) (X : Feat) (lab : Lab) (hX : (V c main_arg1 : Feat) = X)
    (hL : ∀ r : Fin 8192, (V c main_v1 : Vec Ideal S8192x1 .i32) (ix2 r 0) = lab (ix1 r))
    (p : Fin 2) (k : Fin 64) (j : Fin 1024) :
    Reg0.sumTArr V c (ix3 p k j) = coreSum X lab p k j := by
  rw [Reg0.sumTArr_apply, Reg0.sumT_last]
  exact sum_fold X lab p (fun i => Reg0.lblT V c (Reg0.tilePt p i)) (fun i => Reg0.featT V c (Reg0.tilePt p i))
    (fun i r => by rw [Reg0.lblT_apply, hL]) (fun i r j => by rw [Reg0.featT_apply, hX]) k j

theorem cntT_core (c : Dev nD) (lab : Lab)
    (hL : ∀ r : Fin 8192, (V c main_v1 : Vec Ideal S8192x1 .i32) (ix2 r 0) = lab (ix1 r))
    (p : Fin 2) (k : Fin 64) :
    Reg0.cntTArr V c (ix3 p 0 k) = coreCnt lab p k := by
  rw [Reg0.cntTArr_apply, Reg0.cntT_last]
  exact cnt_fold lab p (fun i => Reg0.lblT V c (Reg0.tilePt p i)) (fun i r => by rw [Reg0.lblT_apply, hL]) k

end Cert.KernelIdeal.Means0

end
-- ==== Proof.KI.Val1.lean ====
import proofs.«422586_j33337536151702_2_alg».proof.Proof.KI.Reg1Arr
import proofs.«422586_j33337536151702_2_alg».proof.Proof.KI.TileMath

noncomputable section

open scoped BigOperators

namespace Cert.KernelIdeal.Val1

open Cert.KernelIdeal Cert.KernelIdeal.Gen Cert.KernelIdeal.TileMath
open Idealize.ShloMosaic Idealize.ShloMosaic.ValueIdx

variable (X : Vec Ideal S8192x1024 .f32) (L : Vec Ideal S8192x1 .i32) (M : Vec Ideal S1024x192 .f32) (p : Fin 2)

-- row p of the result folds tiles 2p and 2p + 1, the cross-entropy of head 0 going to lane 0
theorem result_eq (l : Fin 128) :
    Reg1.result X L M (ix3 p (0 : Fin 1) l)
      = fold2 M 0#32 0 (Reg1.xtile X (2 * p.val) (by have := p.isLt; omega)) (Reg1.xtile X (2 * p.val + 1) (by have := p.isLt; omega))
          (Reg1.ltile L (2 * p.val) (by have := p.isLt; omega)) (Reg1.ltile L (2 * p.val + 1) (by have := p.isLt; omega))
          (ix3 (0 : Fin 1) (0 : Fin 1) l) := rfl

end Cert.KernelIdeal.Val1

end
-- ==== Proof.KI.Out1.lean ====
import proofs.«422586_j33337536151702_2_alg».proof.Proof.KI.Carry
import proofs.«422586_j33337536151702_2_alg».proof.Proof.KI.Val1
import proofs.«422586_j33337536151702_2_alg».proof.Proof.KI.TileId3
import proofs.«422586_j33337536151702_2_alg».proof.Proof.KI.HostStretches
import proofs.«422586_j33337536151702_2_alg».proof.Proof.KI.TileId12

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

set_option quotPrecheck false

local notation "𝐬" => (m ((c : Thread nD τ).loc main_arg0) : Cert.Spec.Feat)
local notation "𝐭" => (m ((c : Thread nD τ).loc main_arg1) : Cert.Spec.Feat)
local notation "𝐮" => (m ((c : Thread nD τ).loc main_arg2) : Cert.Spec.FeatUn)
local notation "𝐥𝐬" => (m ((c : Thread nD τ).loc main_arg3) : Cert.Spec.Lab)
local notation "𝐥𝐭" => (m ((c : Thread nD τ).loc main_arg4) : Cert.Spec.Lab)
local notation "𝐌" => (W3 m c (Proc.devRef .tc main_v44) : Vec Ideal S1024x192 .f32)
local notation "𝐋1" => (W1 m c (Proc.devRef .tc main_v0) : Vec Ideal S8192x1 .i32)

theorem out1_result :
    HostStretches.outP1 (W6 m c) = Reg1.result (F := Ideal) (m ((c : Thread nD τ).loc main_arg0)) 𝐋1 𝐌 := by
  show W6 m c (Proc.devRef .tc main_v45) = _
  rw [W6_main_v45, W4_main_v45, Reg1.v45_eq (E3 m) c]
  show Reg1.result (F := Ideal) (In1 m c (Proc.devRef .tc main_arg0)) (In1 m c (Proc.devRef .tc main_v0)) (In1 m c (Proc.devRef .tc main_v44)) = _
  rw [In1_main_arg0, In1_main_v0]

theorem lab1_eq (r : Fin 8192) : 𝐋1 (ix2 r (0 : Fin 1)) = 𝐥𝐬 (ix1 r) := W1_main_v0_apply m c r

theorem out1_kl (hM : TileId3.MeansIn 𝐬 𝐭 𝐥𝐬 𝐥𝐭 𝐌) (p : Fin 2) (k : Fin 3) :
    HostStretches.outP1 (W6 m c) (ix3 p (0 : Fin 1) (⟨2 + k.val, by have := k.isLt; omega⟩ : Fin 128))
      = Cert.BridgeLoss.core2 (Cert.BridgeLoss.srcTiles (Cert.BridgeLoss.klRow (TileMath.pairA 𝐬 𝐭 𝐮 𝐥𝐬 𝐥𝐭 k) (TileMath.pairB 𝐬 𝐭 𝐮 𝐥𝐬 𝐥𝐭 k))) p := by
  rw [out1_result, Val1.result_eq, TileMath.fold2_apply _ _ 0 (by omega), TileMath.laneVal_kl _ _ 0 (by omega),
    TileMath.laneVal_kl _ _ 0 (by omega)]
  unfold Cert.BridgeLoss.core2
  rw [← TileId.src_kl 𝐬 𝐭 𝐮 𝐥𝐬 𝐥𝐭 𝐌 hM ⟨2 * p.val, by have := p.isLt; omega⟩ k,
    ← TileId.src_kl 𝐬 𝐭 𝐮 𝐥𝐬 𝐥𝐭 𝐌 hM ⟨2 * p.val + 1, by have := p.isLt; omega⟩ k]

theorem out1_ce (hM : TileId3.MeansIn 𝐬 𝐭 𝐥𝐬 𝐥𝐭 𝐌) (hls : ∀ r : Fin 8192, ((𝐥𝐬 : IVec S8192 32) (ix1 r)).toNat < 64) (p : Fin 2) :
    HostStretches.outP1 (W6 m c) (ix3 p (0 : Fin 1) (0 : Fin 128))
      = Cert.BridgeLoss.core2 (Cert.BridgeLoss.ceTile (fun n : Fin 8192 =>
          Cert.Spec.logSoftmax (Cert.Spec.pS 𝐬 𝐭 𝐮 𝐥𝐬 (⟨n.val, by have := n.isLt; omega⟩ : Fin 32768)) (Cert.Spec.labIdx (𝐥𝐬 (ix1 n))))) p := by
  rw [out1_result, Val1.result_eq, TileMath.fold2_apply _ _ 0 (by omega),
    TileMath.laneVal_ce _ _ 0 (by omega) _ (rfl : ((0 : Fin 128) : ℕ) = 0),
    TileMath.laneVal_ce _ _ 0 (by omega) _ (rfl : ((0 : Fin 128) : ℕ) = 0)]
  unfold Cert.BridgeLoss.core2
  rw [← TileId.src_ce 𝐬 𝐭 𝐮 𝐥𝐬 𝐥𝐭 𝐌 hM 𝐋1 (lab1_eq m c) hls ⟨2 * p.val, by have := p.isLt; omega⟩,
    ← TileId.src_ce 𝐬 𝐭 𝐮 𝐥𝐬 𝐥𝐭 𝐌 hM 𝐋1 (lab1_eq m c) hls ⟨2 * p.val + 1, by have := p.isLt; omega⟩]

theorem out1_lane1 (p : Fin 2) : HostStretches.outP1 (W6 m c) (ix3 p (0 : Fin 1) (1 : Fin 128)) = 0 := by
  rw [out1_result, Val1.result_eq, TileMath.fold2_apply _ _ 0 (by omega),
    TileMath.laneVal_low _ _ 0 _ (by decide) (fun h => absurd h (by decide)),
    TileMath.laneVal_low _ _ 0 _ (by decide) (fun h => absurd h (by decide))]
  simp only [add_zero]

end Cert.KernelIdeal.Whole

end
-- ==== Proof.KI.Val2.lean ====
import proofs.«422586_j33337536151702_2_alg».proof.Proof.KI.Reg2Arr
import proofs.«422586_j33337536151702_2_alg».proof.Proof.KI.TileMath

noncomputable section

open scoped BigOperators

namespace Cert.KernelIdeal.Val2

open Cert.KernelIdeal Cert.KernelIdeal.Gen Cert.KernelIdeal.TileMath
open Idealize.ShloMosaic Idealize.ShloMosaic.ValueIdx

variable (X : Vec Ideal S8192x1024 .f32) (L : Vec Ideal S8192x1 .i32) (M : Vec Ideal S1024x192 .f32) (p : Fin 2)

-- row p of the result folds tiles 2p and 2p + 1, the cross-entropy of head 1 going to lane 1
theorem result_eq (l : Fin 128) :
    Reg2.result X L M (ix3 p (0 : Fin 1) l)
      = fold2 M 1#32 1 (Reg2.xtile X (2 * p.val) (by have := p.isLt; omega)) (Reg2.xtile X (2 * p.val + 1) (by have := p.isLt; omega))
          (Reg2.ltile L (2 * p.val) (by have := p.isLt; omega)) (Reg2.ltile L (2 * p.val + 1) (by have := p.isLt; omega))
          (ix3 (0 : Fin 1) (0 : Fin 1) l) := rfl

end Cert.KernelIdeal.Val2

end
-- ==== Proof.KI.Out2.lean ====
import proofs.«422586_j33337536151702_2_alg».proof.Proof.KI.Carry
import proofs.«422586_j33337536151702_2_alg».proof.Proof.KI.Val2
import proofs.«422586_j33337536151702_2_alg».proof.Proof.KI.TileId3
import proofs.«422586_j33337536151702_2_alg».proof.Proof.KI.HostStretches
import proofs.«422586_j33337536151702_2_alg».proof.Proof.KI.TileId12

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

set_option quotPrecheck false

local notation "𝐬" => (m ((c : Thread nD τ).loc main_arg0) : Cert.Spec.Feat)
local notation "𝐭" => (m ((c : Thread nD τ).loc main_arg1) : Cert.Spec.Feat)
local notation "𝐮" => (m ((c : Thread nD τ).loc main_arg2) : Cert.Spec.FeatUn)
local notation "𝐥𝐬" => (m ((c : Thread nD τ).loc main_arg3) : Cert.Spec.Lab)
local notation "𝐥𝐭" => (m ((c : Thread nD τ).loc main_arg4) : Cert.Spec.Lab)
local notation "𝐌" => (W3 m c (Proc.devRef .tc main_v44) : Vec Ideal S1024x192 .f32)
local notation "𝐋2" => (W1 m c (Proc.devRef .tc main_v1) : Vec Ideal S8192x1 .i32)

theorem out2_result :
    HostStretches.outP2 (W6 m c) = Reg2.result (F := Ideal) (m ((c : Thread nD τ).loc main_arg1)) 𝐋2 𝐌 := by
  show W6 m c (Proc.devRef .tc main_v46) = _
  rw [W6_main_v46, W5_main_v46, Reg2.v46_eq (E4 m) c]
  show Reg2.result (F := Ideal) (In2 m c (Proc.devRef .tc main_arg1)) (In2 m c (Proc.devRef .tc main_v1)) (In2 m c (Proc.devRef .tc main_v44)) = _
  rw [In2_main_arg1, In2_main_v1, In2_main_v44]

theorem lab2_eq (r : Fin 8192) : 𝐋2 (ix2 r (0 : Fin 1)) = 𝐥𝐭 (ix1 r) := W1_main_v1_apply m c r

theorem out2_kl (hM : TileId3.MeansIn 𝐬 𝐭 𝐥𝐬 𝐥𝐭 𝐌) (p : Fin 2) (k : Fin 3) :
    HostStretches.outP2 (W6 m c) (ix3 p (0 : Fin 1) (⟨2 + k.val, by have := k.isLt; omega⟩ : Fin 128))
      = Cert.BridgeLoss.core2 (Cert.BridgeLoss.trgTiles (Cert.BridgeLoss.klRow (TileMath.pairA 𝐬 𝐭 𝐮 𝐥𝐬 𝐥𝐭 k) (TileMath.pairB 𝐬 𝐭 𝐮 𝐥𝐬 𝐥𝐭 k))) p := by
  rw [out2_result, Val2.result_eq, TileMath.fold2_apply _ _ 1 (by omega), TileMath.laneVal_kl _ _ 1 (by omega),
    TileMath.laneVal_kl _ _ 1 (by omega)]
  unfold Cert.BridgeLoss.core2
  rw [← TileId.trg_kl 𝐬 𝐭 𝐮 𝐥𝐬 𝐥𝐭 𝐌 hM ⟨2 * p.val, by have := p.isLt; omega⟩ k,
    ← TileId.trg_kl 𝐬 𝐭 𝐮 𝐥𝐬 𝐥𝐭 𝐌 hM ⟨2 * p.val + 1, by have := p.isLt; omega⟩ k]

theorem out2_ce (hM : TileId3.MeansIn 𝐬 𝐭 𝐥𝐬 𝐥𝐭 𝐌) (hlt : ∀ r : Fin 8192, ((𝐥𝐭 : IVec S8192 32) (ix1 r)).toNat < 64) (p : Fin 2) :
    HostStretches.outP2 (W6 m c) (ix3 p (0 : Fin 1) (1 : Fin 128))
      = Cert.BridgeLoss.core2 (Cert.BridgeLoss.ceTile (fun n : Fin 8192 =>
          Cert.Spec.logSoftmax (Cert.Spec.pT 𝐬 𝐭 𝐮 𝐥𝐭 (⟨8192 + n.val, by have := n.isLt; omega⟩ : Fin 32768)) (Cert.Spec.labIdx (𝐥𝐭 (ix1 n))))) p := by
  rw [out2_result, Val2.result_eq, TileMath.fold2_apply _ _ 1 (by omega),
    TileMath.laneVal_ce _ _ 1 (by omega) _ (rfl : ((1 : Fin 128) : ℕ) = 1),
    TileMath.laneVal_ce _ _ 1 (by omega) _ (rfl : ((1 : Fin 128) : ℕ) = 1)]
  unfold Cert.BridgeLoss.core2
  rw [← TileId.trg_ce 𝐬 𝐭 𝐮 𝐥𝐬 𝐥𝐭 𝐌 hM 𝐋2 (lab2_eq m c) hlt ⟨2 * p.val, by have := p.isLt; omega⟩,
    ← TileId.trg_ce 𝐬 𝐭 𝐮 𝐥𝐬 𝐥𝐭 𝐌 hM 𝐋2 (lab2_eq m c) hlt ⟨2 * p.val + 1, by have := p.isLt; omega⟩]

theorem out2_lane0 (p : Fin 2) : HostStretches.outP2 (W6 m c) (ix3 p (0 : Fin 1) (0 : Fin 128)) = 0 := by
  rw [out2_result, Val2.result_eq, TileMath.fold2_apply _ _ 1 (by omega),
    TileMath.laneVal_low _ _ 1 _ (by decide) (fun h => absurd h (by decide)),
    TileMath.laneVal_low _ _ 1 _ (by decide) (fun h => absurd h (by decide))]
  simp only [add_zero]

end Cert.KernelIdeal.Whole

end
-- ==== Proof.KI.Out3.lean ====
import proofs.«422586_j33337536151702_2_alg».proof.Proof.KI.Carry
import proofs.«422586_j33337536151702_2_alg».proof.Proof.KI.HostStretches
import proofs.«422586_j33337536151702_2_alg».proof.Proof.KI.Reg3Value
import proofs.«422586_j33337536151702_2_alg».proof.Proof.KI.TileId3

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

abbrev srcOf (c : Dev nD) : Cert.Spec.Feat := m ((c : Thread nD τ).loc main_arg0)
abbrev trgOf (c : Dev nD) : Cert.Spec.Feat := m ((c : Thread nD τ).loc main_arg1)
abbrev unOf (c : Dev nD) : Cert.Spec.FeatUn := m ((c : Thread nD τ).loc main_arg2)
abbrev lsOf (c : Dev nD) : Cert.Spec.Lab := m ((c : Thread nD τ).loc main_arg3)
abbrev ltOf (c : Dev nD) : Cert.Spec.Lab := m ((c : Thread nD τ).loc main_arg4)

abbrev meansOf (c : Dev nD) : Vec Ideal S1024x192 .f32 := W3 m c (Proc.devRef .tc main_v44)

theorem outP3_eq (c : Dev nD) :
    HostStretches.outP3 (W6 m c) = Reg3.outArr (unOf m c) (meansOf m c) := by
  have hx : Reg3.xarr (E5 m) c = unOf m c := In3_main_arg2 m c
  have hmu : Reg3.muarr (E5 m) c = meansOf m c := In3_main_v44 m c
  show W6 m c (Proc.devRef .tc main_v47) = _
  rw [W6_main_v47, Reg3.unlabeledPartials (E5 m) c, hx, hmu]

theorem out3_kl (c : Dev nD)
    (hM : TileId3.MeansIn (srcOf m c) (trgOf m c) (lsOf m c) (ltOf m c) (meansOf m c)) (p : Fin 2) (k : Fin 3) :
    HostStretches.outP3 (W6 m c) (ix3 (n0 := 2) (n1 := 1) (n2 := 128) p 0 ⟨2 + k.val, by have := k.isLt; omega⟩)
      = Cert.BridgeLoss.core4 (Cert.BridgeLoss.unTiles (Cert.BridgeLoss.klRow
          (TileMath.pairA (srcOf m c) (trgOf m c) (unOf m c) (lsOf m c) (ltOf m c) k)
          (TileMath.pairB (srcOf m c) (trgOf m c) (unOf m c) (lsOf m c) (ltOf m c) k))) p := by
  rw [outP3_eq]
  exact TileId3.un_lanes hM p k

theorem out3_low (c : Dev nD) (p : Fin 2) (l : Fin 128) (hl : l.val < 2) :
    HostStretches.outP3 (W6 m c) (ix3 (n0 := 2) (n1 := 1) (n2 := 128) p 0 l) = 0 := by
  rw [outP3_eq]
  exact TileId3.un_low p l hl

end Cert.KernelIdeal.Whole

end
-- ==== Proof.SpecReal.lean ====
import proofs.«422586_j33337536151702_2_alg».proof.Proof.Spec
import Idealize.ShloMosaic.PureOps.Ideal
import Idealize.ShloMosaic.Lib.ValueIdx
import Idealize.ShloMosaic.Lib.IdealHost

noncomputable section

open scoped BigOperators

namespace Cert.SpecReal

open Idealize.ShloMosaic Idealize.ShloMosaic.ValueIdx
open Cert.Spec

def IsReal (x : EReal) : Prop := ∃ v : ℝ, x = (v : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ i ∈ s, IsReal (f i)) : IsReal (∑ i ∈ s, f i) :=
  Finset.sum_induction f IsReal (fun _ _ => IsReal.add) ⟨0, rfl⟩ h

-- A class mean of finite entries is finite: two finite sums, the divisor raised to at least one.
theorem mean_real {x : Feat} (hx : ∀ i, IsReal (x i)) (l : Lab) (c : Fin 64) (j : Fin 1024) :
    IsReal (classMean (segSum x l) (segCnt l) c j) := by
  obtain ⟨a, ha⟩ : IsReal (segSum x l c j) := isReal_sum _ _ fun r _ => by
    split
    exacts [hx _, ⟨0, rfl⟩]
  obtain ⟨n, hn⟩ : IsReal (segCnt l c) := isReal_sum _ _ fun r _ => by
    split
    exacts [⟨1, Ideal.ofBits_one_f32⟩, ⟨0, rfl⟩]
  have hw : max n 1 ≠ 0 := (lt_of_lt_of_le one_pos (le_max_right n 1)).ne'
  refine ⟨a * (1 / max n 1), ?_⟩
  rw [classMean, ha, hn, Ideal.ofBits_one_f32, EReal.coe_mul, ← Ideal.div_coe hw]
  exact congrArg _ (EReal.coe_strictMono.monotone.map_max).symm

section Arrays
variable {src trg : Feat} {un : FeatUn}

theorem feats_real (hsrc : ∀ i, ∃ x : ℝ, src i = (x : EReal)) (htrg : ∀ i, ∃ x : ℝ, trg i = (x : EReal))
    (hun : ∀ i, ∃ x : ℝ, un i = (x : EReal)) :
    ∀ r q, ∃ v : ℝ, feats src trg un r q = (v : EReal) := fun r q => by
  unfold feats
  split
  · exact hsrc _
  · split
    · exact htrg _
    · exact hun _

theorem proj_real {f : Fin 32768 → Fin 1024 → EReal} {u : Means} (hf : ∀ r q, ∃ v : ℝ, f r q = (v : EReal))
    (hu : ∀ c q, ∃ v : ℝ, u c q = (v : EReal)) :
    ∀ r k, ∃ v : ℝ, proj f u r k = (v : EReal) := fun r k =>
  isReal_sum _ _ fun q _ => IsReal.mul (hf r q) (hu k q)

theorem pS_real (hsrc : ∀ i, ∃ x : ℝ, src i = (x : EReal)) (htrg : ∀ i, ∃ x : ℝ, trg i = (x : EReal))
    (hun : ∀ i, ∃ x : ℝ, un i = (x : EReal)) (ls : Cert.Spec.Lab) :
    ∀ r k, ∃ v : ℝ, Cert.Spec.pS src trg un ls r k = (v : EReal) :=
  proj_real (feats_real hsrc htrg hun) (mean_real hsrc ls)

theorem pT_real (hsrc : ∀ i, ∃ x : ℝ, src i = (x : EReal)) (htrg : ∀ i, ∃ x : ℝ, trg i = (x : EReal))
    (hun : ∀ i, ∃ x : ℝ, un i = (x : EReal)) (lt : Cert.Spec.Lab) :
    ∀ r k, ∃ v : ℝ, Cert.Spec.pT src trg un lt r k = (v : EReal) :=
  proj_real (feats_real hsrc htrg hun) (mean_real htrg lt)

end Arrays

end Cert.SpecReal

end
-- ==== Proof.KI.KernelValue.lean ====
import proofs.«422586_j33337536151702_2_alg».proof.Proof.KI.Carry
import proofs.«422586_j33337536151702_2_alg».proof.Proof.KI.HostStretches
import proofs.«422586_j33337536151702_2_alg».proof.Proof.KI.MeansGlue
import proofs.«422586_j33337536151702_2_alg».proof.Proof.KI.TileId12
import proofs.«422586_j33337536151702_2_alg».proof.Proof.KI.TileId3
import proofs.«422586_j33337536151702_2_alg».proof.Proof.KI.LossGlue
import proofs.«422586_j33337536151702_2_alg».proof.Proof.KI.Means0
import proofs.«422586_j33337536151702_2_alg».proof.Proof.KI.Out1
import proofs.«422586_j33337536151702_2_alg».proof.Proof.KI.Out2
import proofs.«422586_j33337536151702_2_alg».proof.Proof.KI.Out3
import proofs.«422586_j33337536151702_2_alg».proof.Proof.BridgeSeg
import proofs.«422586_j33337536151702_2_alg».proof.Proof.BridgeLoss
import proofs.«422586_j33337536151702_2_alg».proof.Proof.SpecReal

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.HostStretches (outSumS outSumT outCntS outCntT outP1 outP2 outP3)

section Results

variable (m : (ℓ : Loc nD τ sig) → Buf (Elt Ideal) ℓ) (c : Dev nD)

set_option quotPrecheck false
local notation "src" => (m ((c : Thread nD τ).loc main_arg0) : Cert.Spec.Feat)
local notation "trg" => (m ((c : Thread nD τ).loc main_arg1) : Cert.Spec.Feat)
local notation "un" => (m ((c : Thread nD τ).loc main_arg2) : Cert.Spec.FeatUn)
local notation "ls" => (m ((c : Thread nD τ).loc main_arg3) : Cert.Spec.Lab)
local notation "lt" => (m ((c : Thread nD τ).loc main_arg4) : Cert.Spec.Lab)

theorem out0_sumS_arr : W2 m c (Proc.devRef .tc main_v2_0) = Reg0.sumSArr (E1 m) c :=
  (W2_main_v2_0 m c).trans (Reg0.sumS_arr (E1 m) c)
theorem out0_sumT_arr : W2 m c (Proc.devRef .tc main_v2_1) = Reg0.sumTArr (E1 m) c :=
  (W2_main_v2_1 m c).trans (Reg0.sumT_arr (E1 m) c)
theorem out0_cntS_arr : W2 m c (Proc.devRef .tc main_v2_2) = Reg0.cntSArr (E1 m) c :=
  (W2_main_v2_2 m c).trans (Reg0.cntS_arr (E1 m) c)
theorem out0_cntT_arr : W2 m c (Proc.devRef .tc main_v2_3) = Reg0.cntTArr (E1 m) c :=
  (W2_main_v2_3 m c).trans (Reg0.cntT_arr (E1 m) c)

theorem out0_sumS (p : Fin 2) (k : Fin 64) (j : Fin 1024) :
    outSumS (W2 m c) (ix3 p k j) = Cert.BridgeSeg.coreSum src ls p k j := by
  show W2 m c (Proc.devRef .tc main_v2_0) (ix3 p k j) = _
  rw [out0_sumS_arr]
  exact Means0.sumS_core (E1 m) c src ls (W1_main_arg0 m c) (fun r => W1_main_v0_apply m c r) p k j

theorem out0_sumT (p : Fin 2) (k : Fin 64) (j : Fin 1024) :
    outSumT (W2 m c) (ix3 p k j) = Cert.BridgeSeg.coreSum trg lt p k j := by
  show W2 m c (Proc.devRef .tc main_v2_1) (ix3 p k j) = _
  rw [out0_sumT_arr]
  exact Means0.sumT_core (E1 m) c trg lt (W1_main_arg1 m c) (fun r => W1_main_v1_apply m c r) p k j

theorem out0_cntS (p : Fin 2) (k : Fin 64) :
    outCntS (W2 m c) (ix3 p (0 : Fin 1) k) = Cert.BridgeSeg.coreCnt ls p k := by
  show W2 m c (Proc.devRef .tc main_v2_2) (ix3 p (0 : Fin 1) k) = _
  rw [out0_cntS_arr]
  exact Means0.cntS_core (E1 m) c ls (fun r => W1_main_v0_apply m c r) p k

theorem out0_cntT (p : Fin 2) (k : Fin 64) :
    outCntT (W2 m c) (ix3 p (0 : Fin 1) k) = Cert.BridgeSeg.coreCnt lt p k := by
  show W2 m c (Proc.devRef .tc main_v2_3) (ix3 p (0 : Fin 1) k) = _
  rw [out0_cntT_arr]
  exact Means0.cntT_core (E1 m) c lt (fun r => W1_main_v1_apply m c r) p k

theorem core_parts : MeansGlue.CoreParts (W2 m c) src trg ls lt :=
  ⟨out0_sumS m c, out0_sumT m c, out0_cntS m c, out0_cntT m c⟩

theorem means_in : TileId3.MeansIn src trg ls lt (W3 m c (Proc.devRef .tc main_v44)) := fun q k =>
  MeansGlue.uallT_of (W2 m c) src trg ls lt (core_parts m c) q k

theorem result_mmd : W7 m c (Proc.devRef .tc main_v40) = (fun _ => Cert.Spec.specMmd src trg un ls lt) := by
  rw [W7_main_v40]
  funext i
  rw [ValueIdx.eq_ix0 i]
  exact MeansGlue.mmd_of (W2 m c) src trg un ls lt (core_parts m c)

end Results

section Final

variable (m : (ℓ : Loc nD τ sig) → Buf (Elt Ideal) ℓ) (c : Dev nD)

set_option quotPrecheck false
local notation "src" => (m ((c : Thread nD τ).loc main_arg0) : Cert.Spec.Feat)
local notation "trg" => (m ((c : Thread nD τ).loc main_arg1) : Cert.Spec.Feat)
local notation "un" => (m ((c : Thread nD τ).loc main_arg2) : Cert.Spec.FeatUn)
local notation "ls" => (m ((c : Thread nD τ).loc main_arg3) : Cert.Spec.Lab)
local notation "lt" => (m ((c : Thread nD τ).loc main_arg4) : Cert.Spec.Lab)

theorem results_eq
    (hls : ∀ r : Fin 8192, ((ls : IVec S8192 32) (ix1 r)).toNat < 64)
    (hlt : ∀ r : Fin 8192, ((lt : IVec S8192 32) (ix1 r)).toNat < 64)
    (hsrc : ∀ i, ∃ x : ℝ, src i = (x : EReal)) (htrg : ∀ i, ∃ x : ℝ, trg i = (x : EReal))
    (hun : ∀ i, ∃ x : ℝ, un i = (x : EReal)) :
    W7 m c (Proc.devRef .tc main_v70) = (fun _ => Cert.Spec.specTpn src trg un ls lt)
      ∧ W7 m c (Proc.devRef .tc main_v63) = (fun _ => Cert.Spec.specCeS src trg un ls lt)
      ∧ W7 m c (Proc.devRef .tc main_v64) = (fun _ => Cert.Spec.specCeT src trg un ls lt)
      ∧ W7 m c (Proc.devRef .tc main_v40) = (fun _ => Cert.Spec.specMmd src trg un ls lt) := by
  have hM := means_in m c
  refine ⟨?_, ?_, ?_, result_mmd m c⟩
  · funext i
    rw [ValueIdx.eq_ix0 i]
    exact LossGlue.tpn_of (W6 m c) src trg un ls lt
      ⟨out1_kl m c hM, out2_kl m c hM, out3_kl m c hM⟩
  · funext i
    rw [ValueIdx.eq_ix0 i]
    exact LossGlue.ceS_of (W6 m c) src trg un ls lt
      (fun p => out1_ce m c hM hls p) (fun p => out2_lane0 m c p) (fun p => out3_low m c p 0 (by decide))
      (Cert.SpecReal.pS_real hsrc htrg hun ls)
  · funext i
    rw [ValueIdx.eq_ix0 i]
    exact LossGlue.ceT_of (W6 m c) src trg un ls lt
      (fun p => out1_lane1 m c p) (fun p => out2_ce m c hM hlt p) (fun p => out3_low m c p 1 (by decide))
      (Cert.SpecReal.pT_real hsrc htrg hun lt)

end Final

end Cert.KernelIdeal.Whole

end
-- ==== Proof.Ref.Ops.lean ====
import proofs.«422586_j33337536151702_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ nullary main_cst (constant S_ .f32 0x3F800000#32),
    unary main_cst main_v0 (broadcastInDim S8192 ![] bcast_S_S8192),
    nullary main_cst_0 (constant S_ .f32 0x00000000#32),
    unary main_cst_0 main_v1 (broadcastInDim S64 ![] bcast_S_S64),
    unary main_arg3 main_v2 (broadcastInDim S8192x1 ![0] bcast_S8192_S8192x1_0),
    ternary main_v1 main_v2 main_v0 main_v3 (fun x i u => Host.scatterAdd scatter_S64_S8192x1_S8192_n_0_0_1 x i u),
    nullary main_cst_1 (constant S_ .f32 0x3F800000#32),
    unary main_cst_1 main_v4 (broadcastInDim S8192 ![] bcast_S_S8192),
    nullary main_cst_2 (constant S_ .f32 0x00000000#32),
    unary main_cst_2 main_v5 (broadcastInDim S64 ![] bcast_S_S64),
    unary main_arg4 main_v6 (broadcastInDim S8192x1 ![0] bcast_S8192_S8192x1_0),
    ternary main_v5 main_v6 main_v4 main_v7 (fun x i u => Host.scatterAdd scatter_S64_S8192x1_S8192_n_0_0_1 x i u),
    nullary main_cst_3 (constant S_ .f32 0x00000000#32),
    unary main_cst_3 main_v8 (broadcastInDim S64x1024 ![] bcast_S_S64x1024),
    unary main_arg3 main_v9 (broadcastInDim S8192x1 ![0] bcast_S8192_S8192x1_0),
    ternary main_v8 main_v9 main_arg0 main_v10 (fun x i u => Host.scatterAdd scatter_S64x1024_S8192x1_S8192x1024_1_0_0_1 x i u),
    nullary main_cst_4 (constant S_ .f32 0x00000000#32),
    unary main_cst_4 main_v11 (broadcastInDim S64x1024 ![] bcast_S_S64x1024),
    unary main_arg4 main_v12 (broadcastInDim S8192x1 ![0] bcast_S8192_S8192x1_0),
    ternary main_v11 main_v12 main_arg1 main_v13 (fun x i u => Host.scatterAdd scatter_S64x1024_S8192x1_S8192x1024_1_0_0_1 x i u),
    nullary main_cst_5 (constant S_ .f32 0x3F800000#32),
    unary main_cst_5 main_v14 (broadcastInDim S64 ![] bcast_S_S64),
    binary main_v3 main_v14 main_v15 maximumf,
    unary main_v15 main_v16 (broadcastInDim S64x1 ![0] bcast_S64_S64x1_0),
    unary main_v16 main_v17 (broadcastInDim S64x1024 ![0, 1] bcast_S64x1_S64x1024_0_1),
    binary main_v10 main_v17 main_v18 Host.divf,
    nullary main_cst_6 (constant S_ .f32 0x3F800000#32),
    unary main_cst_6 main_v19 (broadcastInDim S64 ![] bcast_S_S64),
    binary main_v7 main_v19 main_v20 maximumf,
    unary main_v20 main_v21 (broadcastInDim S64x1 ![0] bcast_S64_S64x1_0),
    unary main_v21 main_v22 (broadcastInDim S64x1024 ![0, 1] bcast_S64x1_S64x1024_0_1),
    binary main_v13 main_v22 main_v23 Host.divf,
    binary main_v10 main_v13 main_v24 addf,
    binary main_v3 main_v7 main_v25 addf,
    nullary main_cst_7 (constant S_ .f32 0x3F800000#32),
    unary main_cst_7 main_v26 (broadcastInDim S64 ![] bcast_S_S64),
    binary main_v25 main_v26 main_v27 maximumf,
    unary main_v27 main_v28 (broadcastInDim S64x1 ![0] bcast_S64_S64x1_0),
    unary main_v28 main_v29 (broadcastInDim S64x1024 ![0, 1] bcast_S64x1_S64x1024_0_1),
    binary main_v24 main_v29 main_v30 Host.divf,
    binary main_v18 main_v23 main_v31 subf,
    binary main_v31 main_v31 main_v32 mulf,
    nullary main_cst_8 (constant S_ .f32 0x00000000#32),
    binary main_v32 main_cst_8 main_v33 (fun x v => Host.reduceAdd x v reducesTo_S64x1024_S_d0_1 h_S_),
    nullary main_cst_9 (constant S_ .f32 0x47800000#32),
    binary main_v33 main_cst_9 main_v34 Host.divf,
    binary main_v18 main_v30 main_v35 subf,
    binary main_v35 main_v35 main_v36 mulf,
    nullary main_cst_10 (constant S_ .f32 0x00000000#32),
    binary main_v36 main_cst_10 main_v37 (fun x v => Host.reduceAdd x v reducesTo_S64x1024_S_d0_1 h_S_),
    nullary main_cst_11 (constant S_ .f32 0x47800000#32),
    binary main_v37 main_cst_11 main_v38 Host.divf,
    binary main_v34 main_v38 main_v39 addf,
    binary main_v23 main_v30 main_v40 subf,
    binary main_v40 main_v40 main_v41 mulf,
    nullary main_cst_12 (constant S_ .f32 0x00000000#32),
    binary main_v41 main_cst_12 main_v42 (fun x v => Host.reduceAdd x v reducesTo_S64x1024_S_d0_1 h_S_),
    nullary main_cst_13 (constant S_ .f32 0x47800000#32),
    binary main_v42 main_cst_13 main_v43 Host.divf,
    binary main_v39 main_v43 main_v44 addf,
    nullary main_cst_14 (constant S_ .f32 0x40400000#32),
    binary main_v44 main_cst_14 main_v45 Host.divf ]

abbrev ops2 : List (HloOp τ sig (Elt F)) :=
  [ nary ![main_arg0, main_arg1, main_arg2] main_v46 (fun u => concatenate S32768x1024 0 [⟨S8192x1024, u 0⟩, ⟨S8192x1024, u 1⟩, ⟨S16384x1024, u 2⟩] concatenates_S8192x1024_S8192x1024_S16384x1024_S32768x1024_d0),
    unary main_v18 main_v47 (transpose S1024x64 [1, 0] · transposes_S64x1024_S1024x64_1_0),
    binary main_v46 main_v47 main_v48 (fun l r => Host.dotGeneral dot_S32768x1024_S1024x64_S32768x64_1_0_0_1_n_n none l r),
    unary main_v23 main_v49 (transpose S1024x64 [1, 0] · transposes_S64x1024_S1024x64_1_0),
    binary main_v46 main_v49 main_v50 (fun l r => Host.dotGeneral dot_S32768x1024_S1024x64_S32768x64_1_0_0_1_n_n none l r),
    unary main_v30 main_v51 (transpose S1024x64 [1, 0] · transposes_S64x1024_S1024x64_1_0),
    binary main_v46 main_v51 main_v52 (fun l r => Host.dotGeneral dot_S32768x1024_S1024x64_S32768x64_1_0_0_1_n_n none l r) ]

-- The operations of @log_softmax's body, over its argument and one call's record.
abbrev lsm (a : TRef sig ⟨S8192x64, .f32⟩) (φ : fn_log_softmax.Bufs) : List (HloOp τ sig (Elt F)) :=
  [ TRef.nullary φ.cst (constant S_ .f32 0xFF800000#32),
    TRef.binary a φ.cst φ.v0 (fun x v => Host.reduce FloatOps.maximumf x v reducesTo_S8192x64_S8192_d1 h_S_),
    TRef.nullary φ.cst_0 (constant S_ .f32 0xFF800000#32),
    TRef.unary φ.cst_0 φ.v1 (broadcastInDim S8192 ![] bcast_S_S8192),
    TRef.binary φ.v1 φ.v0 φ.v2 maximumf,
    TRef.unary φ.v2 φ.v3 (broadcastInDim S8192x1 ![0] bcast_S8192_S8192x1_0),
    TRef.unary φ.v3 φ.v4 (broadcastInDim S8192x64 ![0, 1] bcast_S8192x1_S8192x64_0_1),
    TRef.binary a φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S8192x64_S8192_d1 h_S_),
    TRef.unary φ.v7 φ.v8 (broadcastInDim S8192x1 ![0] bcast_S8192_S8192x1_0),
    TRef.unary φ.v8 φ.v9 Host.log,
    TRef.unary φ.v9 φ.v10 (broadcastInDim S8192x64 ![0, 1] bcast_S8192x1_S8192x64_0_1),
    TRef.binary φ.v5 φ.v10 φ.v11 subf ]

-- The operations of @take_along_axis's body.
abbrev taa (a : TRef sig ⟨S8192x64, .f32⟩) (i : TRef sig ⟨S8192x1, .i32⟩) (φ : fn_take_along_axis.Bufs) :
    List (HloOp τ sig (Elt F)) :=
  [ TRef.nullary φ.c (constantI S_ 32 0#32),
    TRef.unary φ.c φ.v0 (broadcastInDim S8192x1 ![] bcast_S_S8192x1),
    TRef.binary i φ.v0 φ.v1 (cmpi .slt),
    TRef.nullary φ.c_0 (constantI S_ 32 64#32),
    TRef.unary φ.c_0 φ.v2 (broadcastInDim S8192x1 ![] bcast_S_S8192x1),
    TRef.binary i φ.v2 φ.v3 addi,
    TRef.ternary φ.v1 φ.v3 i φ.v4 select,
    TRef.reshape φ.v4 φ.v5 rfl shapeCasts_S8192x1_S8192x1x1,
    TRef.nullary φ.c_1 (constantI S1 32 63#32),
    TRef.nullary φ.c_2 (constantI S_ 32 0#32),
    TRef.unary φ.c_2 φ.v6 (broadcastInDim S8192x1x1 ![] bcast_S_S8192x1x1),
    TRef.binary φ.v5 φ.v6 φ.v7 (cmpi .sge),
    TRef.unary φ.c_1 φ.v8 (broadcastInDim S1x1x1 ![2] bcast_S1_S1x1x1_2),
    TRef.unary φ.v8 φ.v9 (broadcastInDim S8192x1x1 ![0, 1, 2] bcast_S1x1x1_S8192x1x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1x1_S8192x1_d2 h_S_),
    TRef.binary a φ.v5 φ.v13 (fun x j => Host.gather gather_S8192x64_S8192x1x1_S8192x1_n_1_0_0_1_2_11 x j),
    TRef.nullary φ.cst (constant S_ .f32 0x7FC00000#32),
    TRef.unary φ.cst φ.v14 (broadcastInDim S8192x1 ![] bcast_S_S8192x1),
    TRef.ternary φ.v12 φ.v13 φ.v14 φ.v15 select ]

-- The operations of @log_softmax_0's body.
abbrev lsmB (a : TRef sig ⟨S32768x64, .f32⟩) (φ : fn_log_softmax_0.Bufs) : List (HloOp τ sig (Elt F)) :=
  [ TRef.nullary φ.cst (constant S_ .f32 0xFF800000#32),
    TRef.binary a φ.cst φ.v0 (fun x v => Host.reduce FloatOps.maximumf x v reducesTo_S32768x64_S32768_d1 h_S_),
    TRef.nullary φ.cst_0 (constant S_ .f32 0xFF800000#32),
    TRef.unary φ.cst_0 φ.v1 (broadcastInDim S32768 ![] bcast_S_S32768),
    TRef.binary φ.v1 φ.v0 φ.v2 maximumf,
    TRef.unary φ.v2 φ.v3 (broadcastInDim S32768x1 ![0] bcast_S32768_S32768x1_0),
    TRef.unary φ.v3 φ.v4 (broadcastInDim S32768x64 ![0, 1] bcast_S32768x1_S32768x64_0_1),
    TRef.binary a φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S32768x64_S32768_d1 h_S_),
    TRef.unary φ.v7 φ.v8 (broadcastInDim S32768x1 ![0] bcast_S32768_S32768x1_0),
    TRef.unary φ.v8 φ.v9 Host.log,
    TRef.unary φ.v9 φ.v10 (broadcastInDim S32768x64 ![0, 1] bcast_S32768x1_S32768x64_0_1),
    TRef.binary φ.v5 φ.v10 φ.v11 subf ]

abbrev ops3 : List (HloOp τ sig (Elt F)) :=
  [ unary main_v48 main_v53 (extractStridedSlice S8192x64 ![0, 0] · slices_S32768x64_S8192x64_0_0) ] ++
  lsm (.of main_v53) main_call0 ++
  [ unary main_arg3 main_v55 (broadcastInDim S8192x1 ![0] bcast_S8192_S8192x1_0) ] ++
  taa (.of main_v54) (.of main_v55) main_call1 ++
  [ nullary main_cst_15 (constant S_ .f32 0x00000000#32),
    binary main_v56 main_cst_15 main_v57 (fun x v => Host.reduceAdd x v reducesTo_S8192x1_S_d0_1 h_S_),
    nullary main_cst_16 (constant S_ .f32 0x46000000#32),
    binary main_v57 main_cst_16 main_v58 Host.divf,
    unary main_v58 main_v59 Host.negf ]

abbrev ops4 : List (HloOp τ sig (Elt F)) :=
  [ unary main_v50 main_v60 (extractStridedSlice S8192x64 ![8192, 0] · slices_S32768x64_S8192x64_8192_0) ] ++
  lsm (.of main_v60) main_call2 ++
  [ unary main_arg4 main_v62 (broadcastInDim S8192x1 ![0] bcast_S8192_S8192x1_0) ] ++
  taa (.of main_v61) (.of main_v62) main_call3 ++
  [ nullary main_cst_17 (constant S_ .f32 0x00000000#32),
    binary main_v63 main_cst_17 main_v64 (fun x v => Host.reduceAdd x v reducesTo_S8192x1_S_d0_1 h_S_),
    nullary main_cst_18 (constant S_ .f32 0x46000000#32),
    binary main_v64 main_cst_18 main_v65 Host.divf,
    unary main_v65 main_v66 Host.negf ]

abbrev ops5 : List (HloOp τ sig (Elt F)) :=
  lsmB (.of main_v48) main_call4 ++
  lsmB (.of main_v50) main_call5 ++
  [ unary main_v68 main_v69 Host.exp,
    binary main_v68 main_v67 main_v70 subf,
    binary main_v69 main_v70 main_v71 mulf,
    nullary main_cst_19 (constant S_ .f32 0x00000000#32),
    binary main_v71 main_cst_19 main_v72 (fun x v => Host.reduceAdd x v reducesTo_S32768x64_S_d0_1 h_S_),
    nullary main_cst_20 (constant S_ .f32 0x4A000000#32),
    binary main_v72 main_cst_20 main_v73 Host.divf,
    unary main_v67 main_v74 Host.exp,
    binary main_v67 main_v68 main_v75 subf,
    binary main_v74 main_v75 main_v76 mulf,
    nullary main_cst_21 (constant S_ .f32 0x00000000#32),
    binary main_v76 main_cst_21 main_v77 (fun x v => Host.reduceAdd x v reducesTo_S32768x64_S_d0_1 h_S_),
    nullary main_cst_22 (constant S_ .f32 0x4A000000#32),
    binary main_v77 main_cst_22 main_v78 Host.divf,
    binary main_v73 main_v78 main_v79 addf,
    nullary main_cst_23 (constant S_ .f32 0x40000000#32),
    binary main_v79 main_cst_23 main_v80 Host.divf ]

abbrev ops6 : List (HloOp τ sig (Elt F)) :=
  lsmB (.of main_v48) main_call6 ++
  lsmB (.of main_v52) main_call7 ++
  [ unary main_v82 main_v83 Host.exp,
    binary main_v82 main_v81 main_v84 subf,
    binary main_v83 main_v84 main_v85 mulf,
    nullary main_cst_24 (constant S_ .f32 0x00000000#32),
    binary main_v85 main_cst_24 main_v86 (fun x v => Host.reduceAdd x v reducesTo_S32768x64_S_d0_1 h_S_),
    nullary main_cst_25 (constant S_ .f32 0x4A000000#32),
    binary main_v86 main_cst_25 main_v87 Host.divf,
    unary main_v81 main_v88 Host.exp,
    binary main_v81 main_v82 main_v89 subf,
    binary main_v88 main_v89 main_v90 mulf,
    nullary main_cst_26 (constant S_ .f32 0x00000000#32),
    binary main_v90 main_cst_26 main_v91 (fun x v => Host.reduceAdd x v reducesTo_S32768x64_S_d0_1 h_S_),
    nullary main_cst_27 (constant S_ .f32 0x4A000000#32),
    binary main_v91 main_cst_27 main_v92 Host.divf,
    binary main_v87 main_v92 main_v93 addf,
    nullary main_cst_28 (constant S_ .f32 0x40000000#32),
    binary main_v93 main_cst_28 main_v94 Host.divf,
    binary main_v80 main_v94 main_v95 addf ]

abbrev ops7 : List (HloOp τ sig (Elt F)) :=
  lsmB (.of main_v50) main_call8 ++
  lsmB (.of main_v52) main_call9 ++
  [ unary main_v97 main_v98 Host.exp,
    binary main_v97 main_v96 main_v99 subf,
    binary main_v98 main_v99 main_v100 mulf,
    nullary main_cst_29 (constant S_ .f32 0x00000000#32),
    binary main_v100 main_cst_29 main_v101 (fun x v => Host.reduceAdd x v reducesTo_S32768x64_S_d0_1 h_S_),
    nullary main_cst_30 (constant S_ .f32 0x4A000000#32),
    binary main_v101 main_cst_30 main_v102 Host.divf,
    unary main_v96 main_v103 Host.exp,
    binary main_v96 main_v97 main_v104 subf,
    binary main_v103 main_v104 main_v105 mulf,
    nullary main_cst_31 (constant S_ .f32 0x00000000#32),
    binary main_v105 main_cst_31 main_v106 (fun x v => Host.reduceAdd x v reducesTo_S32768x64_S_d0_1 h_S_),
    nullary main_cst_32 (constant S_ .f32 0x4A000000#32),
    binary main_v106 main_cst_32 main_v107 Host.divf,
    binary main_v102 main_v107 main_v108 addf,
    nullary main_cst_33 (constant S_ .f32 0x40000000#32),
    binary main_v108 main_cst_33 main_v109 Host.divf,
    binary main_v95 main_v109 main_v110 addf,
    nullary main_cst_34 (constant S_ .f32 0x40400000#32),
    binary main_v110 main_cst_34 main_v111 Host.divf ]

abbrev ops : List (HloOp τ sig (Elt F)) := ops1 ++ (ops2 ++ (ops3 ++ (ops4 ++ (ops5 ++ (ops6 ++ ops7)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, ops1, ops2, ops3, ops4, ops5, ops6, ops7, lsm, taa, lsmB, List.forall_append, List.forall_cons, List.Forall,
    nullary_bufs_sub, unary_bufs_sub, binary_bufs_sub, ternary_bufs_sub, reshape_bufs_sub, nary_bufs_sub, and_self]

end Cert.ReferenceIdeal.RunH

end
-- ==== Proof.Ref.Run.lean ====
import proofs.«422586_j33337536151702_2_alg».proof.Proof.Ref.Ops
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ)

abbrev U0 (c : Dev nD) : Valuation τ sig (Elt F) := launchContents m c
abbrev U1 (c : Dev nD) : Valuation τ sig (Elt F) := after ops1 (U0 m c)
abbrev U2 (c : Dev nD) : Valuation τ sig (Elt F) := after ops2 (U1 m c)
abbrev U3 (c : Dev nD) : Valuation τ sig (Elt F) := after ops3 (U2 m c)
abbrev U4 (c : Dev nD) : Valuation τ sig (Elt F) := after ops4 (U3 m c)
abbrev U5 (c : Dev nD) : Valuation τ sig (Elt F) := after ops5 (U4 m c)
abbrev U6 (c : Dev nD) : Valuation τ sig (Elt F) := after ops6 (U5 m c)
abbrev U7 (c : Dev nD) : Valuation τ sig (Elt F) := after ops7 (U6 m c)

theorem after_ops (c : Dev nD) : after (ops (F := F)) (U0 m c) = U7 m c := by
  simp only [ops, StableHlo.after_append]

theorem ops_fresh : ∀ op ∈ (ops : List (HloOp τ sig (Elt F))), op.fresh = ∅ := List.forall_iff_forall_mem.mp (by
  simp only [ops, ops1, ops2, ops3, ops4, ops5, ops6, ops7, lsm, taa, lsmB, List.forall_append, List.forall_cons, List.Forall]
  repeat' apply And.intro
  all_goals rfl)

theorem run_after (ρ : Dev nD → PrngReg) :
    θ_run defs (onTc (τ := τ) (main (F := F))) ⟨m, fun _ => 0, ρ⟩ fun r =>
      ∀ (c : Dev nD) (b : Ref sig .tc), r.2.mem ((c.tc : Thread nD τ).loc b) = U7 m c (Proc.devRef .tc b) :=
  (θ_run defs _ _).mono (fun r h c b => (h c b).trans (congrFun (after_ops m c) _))
    (run_seq scopedRefs_eq scopedSems_eq defs main (fun _ => ops) main_eq (fun _ => ops_sub) m ρ (fun _ => ops_fresh))

end Cert.ReferenceIdeal.RunH

end
-- ==== Proof.LibScatterGather.lean ====
import Idealize.ShloMosaic.Lib.ValueIdx
import Idealize.ShloMosaic.Lib.ValueIdxRank1
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

-- With one mapped axis and the index vector last, the start on that axis is the index word of the row the update index names.
theorem start0 {s u : Shape} {n w : Nat} (d : ScatterDims s ⟨2, ![n, 1]⟩ u) (a : Fin s.rank) (y0 : Fin u.rank)
    (hsd : d.scatterDimsToOperandDims = [a]) (hivd : d.indexVectorDim = 1) (hAll : ∀ y ∈ d.uScatter, y = y0)
    (idx : IVec ⟨2, ![n, 1]⟩ w) (j : u.Idx) (e : Fin n) (he : (j y0).val = e.val) :
    d.start j idx a = (idx (ix2 e (0 : Fin 1))).toInt := by
  have hm : a ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    exact he
  | ⟨1, _⟩ =>
    unfold ScatterDims.siIdx
    rw [dif_pos (by rw [hivd])]
    apply Fin.ext
    show List.idxOf a d.scatterDimsToOperandDims = 0
    rw [hsd]; simp

theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hst : d.start (ix2 e c) idx 0 = (idx (ix2 e (0 : Fin 1))).toInt :=
    start0 d 0 0 hsd hivd (fun y hy => by
      have h1 : y ∉ d.updateWindowDims := by have h0 := (List.mem_filter.1 hy).2; simpa using h0
      rw [huw] at h1
      have h3 : y.val ≠ 1 := fun e => h1 (List.mem_singleton.2 (Fin.ext e))
      have := y.isLt
      apply Fin.ext
      show y.val = 0
      change y.val < 2 at this
      omega) idx _ e rfl
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [hst, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [hst, hw0, h]
      simp
    | ⟨1, _⟩ =>
      show d.start (ix2 e c) idx 1 + (d.window (ix2 e c) 1 : ℤ) = (c.val : ℤ)
      rw [hs1, hw1]
      simp

theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  rw [Finset.sum_filter, sum_idx2]
  refine Finset.sum_congr rfl (fun e _ => ?_)
  by_cases hc : (idx (ix2 e (0 : Fin 1))).toInt = (v.val : ℤ)
  · rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · rw [if_neg hc]
    apply Finset.sum_eq_zero
    intro c _
    rw [if_neg (fun h => hc ((rows_lands d huw hiw hsd hivd idx e c v j).1 h).1)]

theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  have hst : d.start (ix1 e) idx 0 = (idx (ix2 e (0 : Fin 1))).toInt :=
    start0 d 0 0 hsd hivd (fun y _ => Subsingleton.elim (α := Fin 1) _ _) idx _ e rfl
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [hst, hw] at h0
    simpa using h0
  · intro h a
    match a with
    | ⟨0, _⟩ =>
      show d.start (ix1 e) idx 0 + (d.window (ix1 e) 0 : ℤ) = _
      rw [hst, hw, h]
      simp

theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  refine Fintype.sum_equiv idxEquiv1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

end Cert.Lib

end
-- ==== Proof.LibTakeAlong.lean ====
import Idealize.ShloMosaic.Lib.ValueIdx
import Idealize.ShloMosaic.PureOps.ShapeOps
import Idealize.ShloMosaic.PureOps.Dims

noncomputable section

namespace Cert.Lib

open Idealize.ShloMosaic Idealize.ShloMosaic.ValueIdx

theorem getElem_congr_both {β : Type} {l l' : List β} {k k' : Nat} (hl : l = l') (hk : k = k') (h : k < l.length)
    (h' : k' < l'.length) : l[k] = l'[k'] := by
  subst hl; subst hk; rfl

theorem along_batchDims {N C : Nat} (d : GatherDims ⟨2, ![N, C]⟩ ⟨3, ![N, 1, 1]⟩ ⟨2, ![N, 1]⟩)
    (hoff : d.offsetDims = []) : d.batchDims = [0, 1] := by
  show Shape.kept _ d.offsetDims = _
  rw [hoff]
  rfl

theorem along_siKept {N C : Nat} (d : GatherDims ⟨2, ![N, C]⟩ ⟨3, ![N, 1, 1]⟩ ⟨2, ![N, 1]⟩)
    (hivd : d.indexVectorDim = 2) : d.siKept = [0, 1] := by
  show (List.finRange 3).filter (fun b => decide (b.val ≠ d.indexVectorDim)) = _
  rw [hivd]
  rfl

theorem along_siCoord0 {N C : Nat} (d : GatherDims ⟨2, ![N, C]⟩ ⟨3, ![N, 1, 1]⟩ ⟨2, ![N, 1]⟩)
    (hoff : d.offsetDims = []) (hivd : d.indexVectorDim = 2) (p : Fin N) (u : Fin 1)
    (hb : (0 : Fin 3) ∈ d.siKept) : (d.siCoord (ix2 p u) 0 hb).val = p.val := by
  unfold GatherDims.siCoord
  simp only [Fin.val_cast]
  have hk : d.siKept.idxOf (0 : Fin 3) = 0 := by rw [along_siKept d hivd]; rfl
  have e : ∀ h, d.batchDims[d.siKept.idxOf (0 : Fin 3)]'h = (0 : Fin 2) := fun h =>
    getElem_congr_both (l' := [0, 1]) (k' := 0) (along_batchDims d hoff) hk h (by simp)
  rw [e]

theorem gather_along_col {α : Type} {N C w : Nat} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (p : Fin N) (u : Fin 1) (hC : 0 < C) :
    Host.gather d x idx (ix2 p u)
      = x (ix2 p ⟨min (idx (ix3 p (0 : Fin 1) (0 : Fin 1))).toInt.toNat (C - 1), by omega⟩) := by
  unfold Host.gather
  congr 1
  funext a
  apply Fin.ext
  match a with
  | ⟨0, _⟩ =>

    have hb0 : (0 : Fin 2) ∈ d.operandBatchingDims := by rw [hob]; exact List.mem_singleton.mpr rfl
    have hk0 : (0 : Fin 2) ∉ d.sKept := by rw [GatherDims.mem_sKept]; exact fun h => h.2 hb0
    show (d.operandIdx (ix2 p u) idx 0).val = p.val
    simp only [GatherDims.operandIdx, GatherDims.start_batching _ _ _ _ hb0, GatherDims.offCoord_eq_zero _ _ _ hk0,
      Nat.add_zero, Nat.zero_add]
    unfold GatherDims.batchCoord
    rw [dif_pos hb0]

    have hsbAll : ∀ y ∈ d.startIndicesBatchingDims, y = 0 := by
      intro y hy; rw [hsb] at hy; exact List.mem_singleton.1 hy
    have key : ∀ (b : Fin 3) (hb : b ∈ d.siKept), b = 0 → (d.siCoord (ix2 p u) b hb).val = p.val := by
      rintro b hb rfl
      exact along_siCoord0 d hoff hivd p u hb
    exact key _ _ (hsbAll _ (List.getElem_mem _))
  | ⟨1, _⟩ =>

    have hb1 : (1 : Fin 2) ∉ d.operandBatchingDims := by rw [hob]; simp
    have hk1 : (1 : Fin 2) ∉ d.sKept := by
      rw [GatherDims.mem_sKept, hcoll]; exact fun h => h.1 (List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)

    have hsi : ∀ c, d.siIdx (ix2 p u) c = ix3 p (0 : Fin 1) (0 : Fin 1) := by
      intro c
      funext b
      match b with
      | ⟨0, _⟩ =>
        unfold GatherDims.siIdx
        rw [dif_neg (by rw [hivd]; simp)]
        apply Fin.ext
        exact along_siCoord0 d hoff hivd p u _
      | ⟨1, _⟩ => exact Subsingleton.elim (α := Fin 1) _ _
      | ⟨2, _⟩ => exact Subsingleton.elim (α := Fin 1) _ _
    show (d.operandIdx (ix2 p u) idx 1).val = _
    simp only [GatherDims.operandIdx, GatherDims.batchCoord_eq_zero _ _ _ hb1, GatherDims.offCoord_eq_zero _ _ _ hk1,
      Nat.add_zero, GatherDims.start, dif_pos hm]
    rw [hsi, hsl]
    rfl

end Cert.Lib

end
-- ==== Proof.LibWrapTake.lean ====
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.RefStages.lean ====
import proofs.«422586_j33337536151702_2_alg».proof.Proof.Gen.ReferenceIdeal
import proofs.«422586_j33337536151702_2_alg».proof.Proof.Spec
import proofs.«422586_j33337536151702_2_alg».proof.Proof.LibScatterGather
import proofs.«422586_j33337536151702_2_alg».proof.Proof.LibTakeAlong
import proofs.«422586_j33337536151702_2_alg».proof.Proof.LibWrapTake
import proofs.«422586_j33337536151702_2_alg».proof.Proof.LibKeepdims
import Idealize.ShloMosaic.Lib.Pipeline.Value
import Idealize.ShloMosaic.Lib.IdealHost
import Idealize.ShloMosaic.Lib.StackMember
import Idealize.ShloMosaic.PureOps.Ideal.Laws

noncomputable section

open scoped BigOperators

namespace Cert.ReferenceIdeal.RefValue

open Cert.ReferenceIdeal Idealize.ShloMosaic Idealize.ShloMosaic.TcCoe Idealize.SL.Sem Idealize.ShloMosaic.ValueIdx

section Layout
variable {α : Type}

theorem bcast_col_apply {n : Nat} (h : (⟨1, ![n]⟩ : Shape).BroadcastsInDim ⟨2, ![n, 1]⟩ (![0] : Fin 1 → Fin 2))
    (x : (⟨1, ![n]⟩ : Shape).Idx → α) (e : Fin n) (u : Fin 1) :
    broadcastInDim ⟨2, ![n, 1]⟩ ![0] h x (ix2 e u) = x (ix1 e) :=
  broadcastInDim_apply _ h x (ix2 e u) (ix1 e) (fun a => match a with
    | ⟨0, _⟩ => by
      show e.val = if n = 1 then 0 else e.val
      have := e.isLt
      split <;> omega)

theorem bcast_rows_apply {n m : Nat} (h : (⟨2, ![n, 1]⟩ : Shape).BroadcastsInDim ⟨2, ![n, m]⟩ (![0, 1] : Fin 2 → Fin 2))
    (x : (⟨2, ![n, 1]⟩ : Shape).Idx → α) (r : Fin n) (c : Fin m) :
    broadcastInDim ⟨2, ![n, m]⟩ ![0, 1] h x (ix2 r c) = x (ix2 r (0 : Fin 1)) :=
  broadcastInDim_apply _ h x (ix2 r c) (ix2 r (0 : Fin 1)) (fun a => match a with
    | ⟨0, _⟩ => by
      show r.val = if n = 1 then 0 else r.val
      have := r.isLt
      split <;> omega
    | ⟨1, _⟩ => (if_pos rfl).symm)

end Layout

theorem toInt_eq_class_iff (w : BitVec 32) (c : Fin 64) : w.toInt = (c.val : ℤ) ↔ w = BitVec.ofNat 32 c.val := by
  have hc : (BitVec.ofNat 32 c.val).toInt = (c.val : ℤ) :=
    StableHlo.Predicate.toInt_ofNat_small c.val (by have := c.isLt; omega)
  constructor
  · intro h
    exact BitVec.eq_of_toInt_eq (h.trans hc.symm)
  · rintro rfl
    exact hc

section Stages
variable [Facts]
open Facts₀ Facts

def cntVec (l : IVec S8192 32) : FVec Ideal S64 .f32 :=
  Host.scatterAdd scatter_S64_S8192x1_S8192_n_0_0_1
    (broadcastInDim S64 ![] bcast_S_S64 (constant S_ .f32 0x00000000#32))
    (broadcastInDim S8192x1 ![0] bcast_S8192_S8192x1_0 l)
    (broadcastInDim S8192 ![] bcast_S_S8192 (constant S_ .f32 0x3F800000#32))

theorem cntVec_apply (l : IVec S8192 32) (c : Fin 64) : cntVec l (ix1 c) = Spec.segCnt l c := by
  unfold cntVec Spec.segCnt
  rw [Cert.Lib.scatterAdd_vec _ rfl rfl rfl rfl, broadcastInDim_scalar_apply]
  show Ideal.ofBits .f32 0x00000000#32 + _ = _
  rw [Ideal.ofBits_zero_f32, zero_add]
  refine Finset.sum_congr rfl fun e _ => ?_
  rw [bcast_col_apply, broadcastInDim_scalar_apply]
  simp only [toInt_eq_class_iff]
  rfl

def sumVec (x : FVec Ideal S8192x1024 .f32) (l : IVec S8192 32) : FVec Ideal S64x1024 .f32 :=
  Host.scatterAdd scatter_S64x1024_S8192x1_S8192x1024_1_0_0_1
    (broadcastInDim S64x1024 ![] bcast_S_S64x1024 (constant S_ .f32 0x00000000#32))
    (broadcastInDim S8192x1 ![0] bcast_S8192_S8192x1_0 l)
    x

theorem sumVec_apply (x : FVec Ideal S8192x1024 .f32) (l : IVec S8192 32) (c : Fin 64) (j : Fin 1024) :
    sumVec x l (ix2 c j) = Spec.segSum x l c j := by
  unfold sumVec Spec.segSum
  rw [Cert.Lib.scatterAdd_rows _ rfl rfl rfl rfl, broadcastInDim_scalar_apply]
  show Ideal.ofBits .f32 0x00000000#32 + _ = _
  rw [Ideal.ofBits_zero_f32, zero_add]
  refine Finset.sum_congr rfl fun e _ => ?_
  rw [bcast_col_apply]
  simp only [toInt_eq_class_iff]

def meanVec (s : FVec Ideal S64x1024 .f32) (n : FVec Ideal S64 .f32) : FVec Ideal S64x1024 .f32 :=
  Host.divf s (broadcastInDim S64x1024 ![0, 1] bcast_S64x1_S64x1024_0_1 (broadcastInDim S64x1 ![0] bcast_S64_S64x1_0
    (maximumf n (broadcastInDim S64 ![] bcast_S_S64 (constant S_ .f32 0x3F800000#32)))))

theorem meanVec_apply (s : FVec Ideal S64x1024 .f32) (n : FVec Ideal S64 .f32) (c : Fin 64) (j : Fin 1024) :
    meanVec s n (ix2 c j) = Ideal.div (s (ix2 c j)) (max (n (ix1 c)) (Ideal.ofBits .f32 0x3F800000#32)) := by
  unfold meanVec
  show Ideal.div (s (ix2 c j)) (broadcastInDim _ _ _ _ (ix2 c j)) = _
  rw [bcast_rows_apply, bcast_col_apply]
  show Ideal.div _ (max (n (ix1 c)) (broadcastInDim _ _ _ _ (ix1 c))) = _
  rw [broadcastInDim_scalar_apply]
  rfl

theorem mean_total {n m : Nat} (hr : (⟨2, ![n, m]⟩ : Shape).ReducesTo [0, 1] S_) (v : FVec Ideal ⟨2, ![n, m]⟩ .f32)
    (d : BitVec 32) (i : S_.Idx) :
    Host.divf (Host.reduceAdd v (constant S_ .f32 0x00000000#32) hr h_S_) (constant S_ .f32 d) i
      = Ideal.div (∑ a : Fin n, ∑ b : Fin m, v (ix2 a b)) (Ideal.ofBits .f32 d) := by
  simp only [Host.divf, Host.reduceAdd, Ideal.hostReduceAdd_def, Ideal.hostDivf_def]
  rw [Ideal.hostReduceAdd_total hr (fun b => b.elim0)]
  show Ideal.div (Ideal.ofBits .f32 0x00000000#32 + _) (Ideal.ofBits .f32 d) = _
  rw [Ideal.ofBits_zero_f32, zero_add, sum_idx2]

def mseVec (a b : FVec Ideal S64x1024 .f32) : FVec Ideal S_ .f32 :=
  Host.divf (Host.reduceAdd (mulf (subf a b) (subf a b)) (constant S_ .f32 0x00000000#32) reducesTo_S64x1024_S_d0_1 h_S_)
    (constant S_ .f32 0x47800000#32)

theorem mseVec_apply (a b : FVec Ideal S64x1024 .f32) (i : S_.Idx) :
    mseVec a b i = Spec.mse (fun c j => a (ix2 c j)) (fun c j => b (ix2 c j)) :=
  mean_total _ _ _ i

theorem col_keep {n N m : Nat} (r' : Fin n) (r : Fin N) (q : Fin m) :
    ∀ b : Fin 2, b ≠ 0 → ((ix2 r' q) b).val = ((ix2 r q) b).val
  | ⟨0, _⟩, hb => absurd rfl hb
  | ⟨1, _⟩, _ => rfl

def featsVec (x0 x1 : FVec Ideal S8192x1024 .f32) (x2 : FVec Ideal S16384x1024 .f32) : FVec Ideal S32768x1024 .f32 :=
  concatenate S32768x1024 0 [⟨S8192x1024, x0⟩, ⟨S8192x1024, x1⟩, ⟨S16384x1024, x2⟩]
    concatenates_S8192x1024_S8192x1024_S16384x1024_S32768x1024_d0

theorem featsVec_apply (x0 x1 : FVec Ideal S8192x1024 .f32) (x2 : FVec Ideal S16384x1024 .f32) (r : Fin 32768) (q : Fin 1024) :
    featsVec x0 x1 x2 (ix2 r q) = Spec.feats x0 x1 x2 r q := by
  unfold featsVec Spec.feats
  by_cases h₁ : r.val < 8192
  · rw [dif_pos h₁]
    exact concatenate_apply_piece 0 _ _ (ix2 r q) 0 (by simp) S8192x1024 x0 rfl rfl 0 rfl
      (ix2 (⟨r.val, h₁⟩ : Fin 8192) q) (col_keep _ r q) (by show 0 + r.val = r.val; omega)
  · rw [dif_neg h₁]
    by_cases h₂ : r.val < 16384
    · rw [dif_pos h₂]
      exact concatenate_apply_piece 0 _ _ (ix2 r q) 1 (by simp) S8192x1024 x1 rfl rfl 8192 (by simp)
        (ix2 (⟨r.val - 8192, by omega⟩ : Fin 8192) q) (col_keep _ r q) (by show 8192 + (r.val - 8192) = r.val; omega)
    · rw [dif_neg h₂]
      have := r.isLt
      exact concatenate_apply_piece 0 _ _ (ix2 r q) 2 (by simp) S16384x1024 x2 rfl rfl 16384 (by simp)
        (ix2 (⟨r.val - 16384, by omega⟩ : Fin 16384) q) (col_keep _ r q) (by show 16384 + (r.val - 16384) = r.val; omega)

def projVec (f : FVec Ideal S32768x1024 .f32) (u : FVec Ideal S64x1024 .f32) : FVec Ideal S32768x64 .f32 :=
  Host.dotGeneral dot_S32768x1024_S1024x64_S32768x64_1_0_0_1_n_n none f
    (transpose S1024x64 [1, 0] u transposes_S64x1024_S1024x64_1_0)

theorem projVec_apply (f : FVec Ideal S32768x1024 .f32) (u : FVec Ideal S64x1024 .f32) (r : Fin 32768) (c : Fin 64) :
    projVec f u (ix2 r c) = ∑ q : Fin 1024, f (ix2 r q) * u (ix2 c q) := by
  unfold projVec
  rw [show dot_S32768x1024_S1024x64_S32768x64_1_0_0_1_n_n = DotDims.plain 32768 1024 64 from rfl,
    StackMember.dotGeneral_plain_apply]
  refine Finset.sum_congr rfl fun q _ => congrArg (f (ix2 r q) * ·) ?_
  exact transpose_apply [1, 0] u transposes_S64x1024_S1024x64_1_0 _ (ix2 c q) (fun b => match b with
    | ⟨0, _⟩ => rfl
    | ⟨1, _⟩ => rfl)

def lsmVec {n : Nat} (hr : (⟨2, ![n, 64]⟩ : Shape).ReducesTo [1] ⟨1, ![n]⟩)
    (b0 : S_.BroadcastsInDim ⟨1, ![n]⟩ (![] : Fin 0 → Fin 1))
    (b1 : (⟨1, ![n]⟩ : Shape).BroadcastsInDim ⟨2, ![n, 1]⟩ (![0] : Fin 1 → Fin 2))
    (b2 : (⟨2, ![n, 1]⟩ : Shape).BroadcastsInDim ⟨2, ![n, 64]⟩ (![0, 1] : Fin 2 → Fin 2))
    (x : FVec Ideal ⟨2, ![n, 64]⟩ .f32) : FVec Ideal ⟨2, ![n, 64]⟩ .f32 :=
  subf
    (subf x (broadcastInDim ⟨2, ![n, 64]⟩ ![0, 1] b2 (broadcastInDim ⟨2, ![n, 1]⟩ ![0] b1
      (maximumf (broadcastInDim ⟨1, ![n]⟩ ![] b0 (constant S_ .f32 0xFF800000#32))
        (Host.reduce FloatOps.maximumf x (constant S_ .f32 0xFF800000#32) hr h_S_)))))
    (broadcastInDim ⟨2, ![n, 64]⟩ ![0, 1] b2 (Host.log (broadcastInDim ⟨2, ![n, 1]⟩ ![0] b1
      (Host.reduceAdd
        (Host.exp (subf x (broadcastInDim ⟨2, ![n, 64]⟩ ![0, 1] b2 (broadcastInDim ⟨2, ![n, 1]⟩ ![0] b1
          (maximumf (broadcastInDim ⟨1, ![n]⟩ ![] b0 (constant S_ .f32 0xFF800000#32))
            (Host.reduce FloatOps.maximumf x (constant S_ .f32 0xFF800000#32) hr h_S_))))))
        (constant S_ .f32 0x00000000#32) hr h_S_))))

theorem lsmVec_apply {n : Nat} (hr : (⟨2, ![n, 64]⟩ : Shape).ReducesTo [1] ⟨1, ![n]⟩)
    (hr' : (⟨2, ![n, 64]⟩ : Shape).Reduces [1] ⟨1, ![n]⟩)
    (b0 : S_.BroadcastsInDim ⟨1, ![n]⟩ (![] : Fin 0 → Fin 1))
    (b1 : (⟨1, ![n]⟩ : Shape).BroadcastsInDim ⟨2, ![n, 1]⟩ (![0] : Fin 1 → Fin 2))
    (b2 : (⟨2, ![n, 1]⟩ : Shape).BroadcastsInDim ⟨2, ![n, 64]⟩ (![0, 1] : Fin 2 → Fin 2))
    (x : FVec Ideal ⟨2, ![n, 64]⟩ .f32) (r : Fin n) (c : Fin 64) :
    lsmVec hr b0 b1 b2 x (ix2 r c) = Spec.logSoftmax (fun k => x (ix2 r k)) c := by

  have hshift : ∀ k : Fin 64,
      (broadcastInDim ⟨2, ![n, 64]⟩ ![0, 1] b2 (broadcastInDim ⟨2, ![n, 1]⟩ ![0] b1
        (maximumf (broadcastInDim ⟨1, ![n]⟩ ![] b0 (constant S_ .f32 0xFF800000#32))
          (Host.reduce FloatOps.maximumf x (constant S_ .f32 0xFF800000#32) hr h_S_)))) (ix2 r k)
        = Spec.rowShift (fun k => x (ix2 r k)) := by
    intro k
    rw [bcast_rows_apply, bcast_col_apply]
    show max (broadcastInDim _ _ _ _ (ix1 r)) (Host.reduce _ _ _ _ _ (ix1 r)) = _
    rw [broadcastInDim_scalar_apply, Cert.Keepdims.hostReduce_max_rows (φ := .f32) x _ hr hr' h_S_ r]
    rfl
  unfold lsmVec Spec.logSoftmax
  show (x (ix2 r c) - _) - (broadcastInDim _ _ _ _ (ix2 r c)) = _
  rw [hshift c, bcast_rows_apply]
  show _ - Ideal.log (broadcastInDim _ _ _ _ (ix2 r (0 : Fin 1))) = _
  rw [bcast_col_apply]
  simp only [Host.reduceAdd, Ideal.hostReduceAdd_def]
  rw [Ideal.hostReduceAdd_single hr hr']
  show _ - Ideal.log (Ideal.ofBits .f32 0x00000000#32 + _) = _
  rw [Ideal.ofBits_zero_f32, zero_add]
  congr 2
  refine Finset.sum_congr rfl fun k _ => ?_
  have hk : hr'.lift (ix1 r) k = ix2 r k := funext fun a => Fin.ext (by
    match a with
    | ⟨0, _⟩ => rfl
    | ⟨1, _⟩ => rfl)
  rw [hk]
  exact congrArg (fun t => Ideal.exp (x (ix2 r k) - t)) (hshift k)

def klHalfVec (la lb : FVec Ideal S32768x64 .f32) : FVec Ideal S_ .f32 :=
  Host.divf (Host.reduceAdd (mulf (Host.exp lb) (subf lb la)) (constant S_ .f32 0x00000000#32) reducesTo_S32768x64_S_d0_1 h_S_)
    (constant S_ .f32 0x4A000000#32)

theorem klHalfVec_apply (la lb : FVec Ideal S32768x64 .f32) (i : S_.Idx) :
    klHalfVec la lb i
      = Ideal.div (∑ r : Fin 32768, ∑ c : Fin 64, Ideal.exp (lb (ix2 r c)) * (lb (ix2 r c) - la (ix2 r c)))
          (Ideal.ofBits .f32 0x4A000000#32) :=
  mean_total _ _ _ i

def symKlVec (la lb : FVec Ideal S32768x64 .f32) : FVec Ideal S_ .f32 :=
  Host.divf (addf (klHalfVec la lb) (klHalfVec lb la)) (constant S_ .f32 0x40000000#32)

def wrapIdx (l : IVec S8192 32) : IVec S8192x1x1 32 :=
  shapeCast _
    (select
      (cmpi .slt (broadcastInDim S8192x1 ![0] bcast_S8192_S8192x1_0 l)
        (broadcastInDim S8192x1 ![] bcast_S_S8192x1 (constantI S_ 32 0#32)))
      (addi (broadcastInDim S8192x1 ![0] bcast_S8192_S8192x1_0 l)
        (broadcastInDim S8192x1 ![] bcast_S_S8192x1 (constantI S_ 32 64#32)))
      (broadcastInDim S8192x1 ![0] bcast_S8192_S8192x1_0 l))
    shapeCasts_S8192x1_S8192x1x1

theorem wrapIdx_apply (l : IVec S8192 32) (r : Fin 8192) (u v : Fin 1) (h : 0 ≤ (l (ix1 r)).toInt) :
    wrapIdx l (ix3 r u v) = l (ix1 r) := by
  unfold wrapIdx
  rw [shapeCast_apply _ shapeCasts_S8192x1_S8192x1x1 (ix3 r u v) (ix2 r (0 : Fin 1)) (by
    rewrite [Shape.rowMajor_val_two, Shape.rowMajor_val_three]
    have hu := u.isLt
    have hv := v.isLt
    show r.val * 1 + 0 = (r.val * 1 + u.val) * 1 + v.val
    omega)]
  show Scalar.select (IntOp.cmpi .slt (broadcastInDim _ _ _ l (ix2 r 0)) (broadcastInDim _ _ _ _ (ix2 r 0)))
    (IntOp.addi (broadcastInDim _ _ _ l (ix2 r 0)) (broadcastInDim _ _ _ _ (ix2 r 0))) (broadcastInDim _ _ _ l (ix2 r 0)) = _
  rw [bcast_col_apply, broadcastInDim_scalar_apply]
  have h0 : (0#32 : BitVec 32).toInt = 0 := by decide
  have hc : IntOp.cmpi .slt (l (ix1 r)) (constantI S_ 32 0#32 ix0) = 0#1 :=
    eq_zero_of_ne_one (fun h1 => by
      have h2 := IntOp.cmpi_slt.1 h1
      have h3 : (constantI S_ 32 0#32 ix0).toInt = 0 := h0
      omega)
  rw [hc, select_zero]

def maskVec (v : IVec S8192x1x1 32) : IVec S8192x1 1 :=
  Host.reduce IntOp.andi
    (andi (cmpi .sge v (broadcastInDim S8192x1x1 ![] bcast_S_S8192x1x1 (constantI S_ 32 0#32)))
      (cmpi .sle v (broadcastInDim S8192x1x1 ![0, 1, 2] bcast_S1x1x1_S8192x1x1_0_1_2
        (broadcastInDim S1x1x1 ![2] bcast_S1_S1x1x1_2 (constantI S1 32 63#32)))))
    (constantI S_ 1 1#1) reducesTo_S8192x1x1_S8192x1_d2 h_S_

theorem maskVec_one (v : IVec S8192x1x1 32) (h : ∀ i, 0 ≤ (v i).toInt ∧ (v i).toInt ≤ 63) (j : S8192x1.Idx) :
    maskVec v j = 1#1 := by
  unfold maskVec
  refine Cert.LibWrapTake.reduce_andi_one_of_all _ _ _ _ (fun _ => rfl) (fun i => ?_) j
  show IntOp.andi (IntOp.cmpi .sge (v i) (broadcastInDim _ _ _ _ i)) (IntOp.cmpi .sle (v i) (broadcastInDim _ _ _ _ i)) = 1#1
  rw [broadcastInDim_scalar_apply,
    broadcastInDim_apply _ bcast_S1x1x1_S8192x1x1_0_1_2 _ i (ix3 (0 : Fin 1) (0 : Fin 1) (0 : Fin 1)) (fun a => match a with
      | ⟨0, _⟩ | ⟨1, _⟩ | ⟨2, _⟩ => (if_pos rfl).symm),
    broadcastInDim_apply _ bcast_S1_S1x1x1_2 _ (ix3 (0 : Fin 1) (0 : Fin 1) (0 : Fin 1)) (ix1 (0 : Fin 1)) (fun a => match a with
      | ⟨0, _⟩ => (if_pos rfl).symm)]
  have h0 : (constantI S_ 32 0#32 ix0).toInt = 0 := by decide
  have h63 : (constantI S1 32 63#32 (ix1 (0 : Fin 1))).toInt = 63 := by decide
  refine IntOp.andi_eq_one.2 ⟨IntOp.cmpi_sge.2 ?_, IntOp.cmpi_sle.2 ?_⟩
  · rw [h0]; exact (h i).1
  · rw [h63]; exact (h i).2

def takeVec (logp : FVec Ideal S8192x64 .f32) (l : IVec S8192 32) : FVec Ideal S8192x1 .f32 :=
  select (maskVec (wrapIdx l))
    (Host.gather gather_S8192x64_S8192x1x1_S8192x1_n_1_0_0_1_2_11 logp (wrapIdx l))
    (broadcastInDim S8192x1 ![] bcast_S_S8192x1 (constant S_ .f32 0x7FC00000#32))

theorem takeVec_apply (logp : FVec Ideal S8192x64 .f32) (l : IVec S8192 32)
    (h : ∀ r : Fin 8192, 0 ≤ (l (ix1 r)).toInt ∧ (l (ix1 r)).toInt < 64) (r : Fin 8192) (u : Fin 1) :
    takeVec logp l (ix2 r u) = logp (ix2 r (Spec.labIdx (l (ix1 r)))) := by
  have hw : ∀ i : S8192x1x1.Idx, wrapIdx l i = l (ix1 (i 0)) := by
    intro i
    obtain ⟨a, b, c, rfl⟩ : ∃ a b c, i = ix3 a b c := ⟨i 0, i 1, i 2, eq_ix3 i⟩
    exact wrapIdx_apply l a b c (h a).1
  unfold takeVec
  show Scalar.select (maskVec (wrapIdx l) (ix2 r u)) (Host.gather _ logp (wrapIdx l) (ix2 r u)) _ = _
  rw [maskVec_one _ (fun i => by rw [hw i]; have := h (i 0); omega), select_one,
    Cert.Lib.gather_along_col _ rfl rfl rfl rfl rfl rfl logp _ r u (by decide)]
  refine congrArg (fun t => logp (ix2 r t)) (Fin.ext ?_)
  have h1 := (h r).1
  have h2 := (h r).2
  show min (wrapIdx l (ix3 r (0 : Fin 1) (0 : Fin 1))).toInt.toNat (64 - 1) = (l (ix1 r)).toNat % 64
  rw [hw]
  show min (l (ix1 r)).toInt.toNat (64 - 1) = (l (ix1 r)).toNat % 64
  have h3 : (l (ix1 r)).toInt = ((l (ix1 r)).toNat : ℤ) := by
    rw [BitVec.toInt_eq_toNat_cond]
    split
    · rfl
    · rename_i hm
      rw [BitVec.toInt_eq_toNat_cond, if_neg hm] at h1
      have := (l (ix1 r)).isLt
      omega
  omega

def ceVec (logp : FVec Ideal S8192x64 .f32) (l : IVec S8192 32) : FVec Ideal S_ .f32 :=
  Host.negf (Host.divf
    (Host.reduceAdd (takeVec logp l) (constant S_ .f32 0x00000000#32) reducesTo_S8192x1_S_d0_1 h_S_)
    (constant S_ .f32 0x46000000#32))

theorem ceVec_apply (logp : FVec Ideal S8192x64 .f32) (l : IVec S8192 32)
    (h : ∀ r : Fin 8192, 0 ≤ (l (ix1 r)).toInt ∧ (l (ix1 r)).toInt < 64) (i : S_.Idx) :
    ceVec logp l i
      = -(Ideal.div (∑ r : Fin 8192, logp (ix2 r (Spec.labIdx (l (ix1 r))))) (Ideal.ofBits .f32 0x46000000#32)) := by
  unfold ceVec
  simp only [Host.negf, Ideal.hostNegf_def, Ideal.negf_def]
  rw [mean_total]
  refine congrArg (fun t => -(Ideal.div t (Ideal.ofBits .f32 0x46000000#32))) (Finset.sum_congr rfl fun r _ => ?_)
  rw [Fin.sum_univ_one]
  exact takeVec_apply logp l h r 0

section Composed
variable (x0 x1 : FVec Ideal S8192x1024 .f32) (x2 : FVec Ideal S16384x1024 .f32) (x3 x4 : IVec S8192 32)

def uSVec : FVec Ideal S64x1024 .f32 := meanVec (sumVec x0 x3) (cntVec x3)

def uTVec : FVec Ideal S64x1024 .f32 := meanVec (sumVec x1 x4) (cntVec x4)

def uSTVec : FVec Ideal S64x1024 .f32 :=
  meanVec (addf (sumVec x0 x3) (sumVec x1 x4)) (addf (cntVec x3) (cntVec x4))

theorem uSVec_fun : (fun c j => uSVec x0 x3 (ix2 c j)) = Spec.uS x0 x3 := by
  funext c j
  unfold uSVec
  rw [meanVec_apply, sumVec_apply, cntVec_apply]
  rfl

theorem uTVec_fun : (fun c j => uTVec x1 x4 (ix2 c j)) = Spec.uT x1 x4 :=
  uSVec_fun x1 x4

theorem uSTVec_fun : (fun c j => uSTVec x0 x1 x3 x4 (ix2 c j)) = Spec.uST x0 x1 x3 x4 := by
  funext c j
  unfold uSTVec
  rw [meanVec_apply, addf_apply, addf_apply, sumVec_apply, sumVec_apply, cntVec_apply, cntVec_apply]
  rfl

def mmdVec : FVec Ideal S_ .f32 :=
  Host.divf
    (addf (addf (mseVec (uSVec x0 x3) (uTVec x1 x4)) (mseVec (uSVec x0 x3) (uSTVec x0 x1 x3 x4)))
      (mseVec (uTVec x1 x4) (uSTVec x0 x1 x3 x4)))
    (constant S_ .f32 0x40400000#32)

theorem mmdVec_apply (i : S_.Idx) : mmdVec x0 x1 x3 x4 i = Spec.specMmd x0 x1 x2 x3 x4 := by
  unfold mmdVec Spec.specMmd
  show Ideal.div (mseVec _ _ i + mseVec _ _ i + mseVec _ _ i) (Ideal.ofBits .f32 0x40400000#32) = _
  rw [mseVec_apply, mseVec_apply, mseVec_apply, uSVec_fun, uTVec_fun, uSTVec_fun]

end Composed

def lsmBig (x : FVec Ideal S32768x64 .f32) : FVec Ideal S32768x64 .f32 :=
  lsmVec reducesTo_S32768x64_S32768_d1 bcast_S_S32768 bcast_S32768_S32768x1_0 bcast_S32768x1_S32768x64_0_1 x

theorem lsmBig_apply (x : FVec Ideal S32768x64 .f32) (r : Fin 32768) (c : Fin 64) :
    lsmBig x (ix2 r c) = Spec.logSoftmax (fun k => x (ix2 r k)) c :=
  lsmVec_apply _ (by decide) _ _ _ x r c

def lsmSmall (x : FVec Ideal S8192x64 .f32) : FVec Ideal S8192x64 .f32 :=
  lsmVec reducesTo_S8192x64_S8192_d1 bcast_S_S8192 bcast_S8192_S8192x1_0 bcast_S8192x1_S8192x64_0_1 x

theorem lsmSmall_apply (x : FVec Ideal S8192x64 .f32) (r : Fin 8192) (c : Fin 64) :
    lsmSmall x (ix2 r c) = Spec.logSoftmax (fun k => x (ix2 r k)) c :=
  lsmVec_apply _ (by decide) _ _ _ x r c

theorem symKlVec_apply (a b : FVec Ideal S32768x64 .f32) (i : S_.Idx) :
    symKlVec (lsmBig a) (lsmBig b) i = Spec.symKl (fun r c => a (ix2 r c)) (fun r c => b (ix2 r c)) := by
  unfold symKlVec Spec.symKl Spec.klHalf
  show Ideal.div (klHalfVec _ _ i + klHalfVec _ _ i) (Ideal.ofBits .f32 0x40000000#32) = _
  rw [klHalfVec_apply, klHalfVec_apply]
  simp only [lsmBig_apply]

theorem slice_rows_apply (off : Nat) (hs : S32768x64.Slices ![off, 0] S8192x64) (x : FVec Ideal S32768x64 .f32)
    (r : Fin 8192) (k : Fin 64) (r' : Fin 32768) (hr : r'.val = off + r.val) :
    extractStridedSlice S8192x64 ![off, 0] x hs (ix2 r k) = x (ix2 r' k) :=
  extractStridedSlice_apply ![off, 0] x hs (ix2 r k) (ix2 r' k) (fun a => match a with
    | ⟨0, _⟩ => hr
    | ⟨1, _⟩ => by show k.val = 0 + k.val; omega)

-- The cross entropy read off the rows `off + r` of a logits matrix.
theorem ce_rows (off : Nat) (hs : S32768x64.Slices ![off, 0] S8192x64) (x : FVec Ideal S32768x64 .f32) (p : Spec.Logits)
    (hx : ∀ r k, x (ix2 r k) = p r k) (l : IVec S8192 32) (h : ∀ r : Fin 8192, 0 ≤ (l (ix1 r)).toInt ∧ (l (ix1 r)).toInt < 64)
    (row : Fin 8192 → Fin 32768) (hrow : ∀ r, (row r).val = off + r.val) (i : S_.Idx) :
    ceVec (lsmSmall (extractStridedSlice S8192x64 ![off, 0] x hs)) l i = Spec.crossEntropy (fun r => p (row r)) l := by
  unfold Spec.crossEntropy
  rw [ceVec_apply _ _ h]
  refine congrArg (fun t => -(Ideal.div t (Ideal.ofBits .f32 0x46000000#32))) (Finset.sum_congr rfl fun r _ => ?_)
  rw [lsmSmall_apply]
  exact congrArg (fun f => Spec.logSoftmax f _)
    (funext fun k => (slice_rows_apply off hs x r k (row r) (hrow r)).trans (hx _ k))

end Stages

end Cert.ReferenceIdeal.RefValue

end
-- ==== Proof.Ref.S1.lean ====
import proofs.«422586_j33337536151702_2_alg».proof.Proof.Ref.Run
import proofs.«422586_j33337536151702_2_alg».proof.Proof.RefStages

noncomputable section

namespace Cert.ReferenceIdeal.RunH

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.RefValue

section S1
variable (m : (ℓ : Loc nD τ sig) → Buf (Elt Ideal) ℓ) (c : Dev nD)

theorem uS_at (k : Fin 64) (j : Fin 1024) :
    (U1 m c (Proc.devRef .tc main_v18) : FVec Ideal S64x1024 .f32) (ix2 k j) = Cert.Spec.uS (m ((c.tc : Thread nD τ).loc main_arg0)) (m ((c.tc : Thread nD τ).loc main_arg3)) k j := by
  show StableHlo.after ops1 _ (Proc.devRef .tc main_v18) (ix2 k j) = _
  after_results_simp
  exact congrFun (congrFun (uSVec_fun (m ((c.tc : Thread nD τ).loc main_arg0)) (m ((c.tc : Thread nD τ).loc main_arg3))) k) j

theorem uT_at (k : Fin 64) (j : Fin 1024) :
    (U1 m c (Proc.devRef .tc main_v23) : FVec Ideal S64x1024 .f32) (ix2 k j) = Cert.Spec.uT (m ((c.tc : Thread nD τ).loc main_arg1)) (m ((c.tc : Thread nD τ).loc main_arg4)) k j := by
  show StableHlo.after ops1 _ (Proc.devRef .tc main_v23) (ix2 k j) = _
  after_results_simp
  exact congrFun (congrFun (uTVec_fun (m ((c.tc : Thread nD τ).loc main_arg1)) (m ((c.tc : Thread nD τ).loc main_arg4))) k) j

theorem uST_at (k : Fin 64) (j : Fin 1024) :
    (U1 m c (Proc.devRef .tc main_v30) : FVec Ideal S64x1024 .f32) (ix2 k j)
      = Cert.Spec.uST (m ((c.tc : Thread nD τ).loc main_arg0)) (m ((c.tc : Thread nD τ).loc main_arg1)) (m ((c.tc : Thread nD τ).loc main_arg3)) (m ((c.tc : Thread nD τ).loc main_arg4)) k j := by
  show StableHlo.after ops1 _ (Proc.devRef .tc main_v30) (ix2 k j) = _
  after_results_simp
  exact congrFun (congrFun (uSTVec_fun (m ((c.tc : Thread nD τ).loc main_arg0)) (m ((c.tc : Thread nD τ).loc main_arg1)) (m ((c.tc : Thread nD τ).loc main_arg3)) (m ((c.tc : Thread nD τ).loc main_arg4))) k) j

theorem mmd_at :
    U1 m c (Proc.devRef .tc main_v45) = fun _ => Cert.Spec.specMmd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after ops1 _ (Proc.devRef .tc main_v45) = _
  after_results_simp
  exact funext fun i => mmdVec_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i

end S1

end Cert.ReferenceIdeal.RunH

end
-- ==== Proof.Ref.S2.lean ====
import proofs.«422586_j33337536151702_2_alg».proof.Proof.Ref.Run
import proofs.«422586_j33337536151702_2_alg».proof.Proof.RefStages
import proofs.«422586_j33337536151702_2_alg».proof.Proof.Spec
import proofs.«422586_j33337536151702_2_alg».proof.Proof.LibNary3
import Idealize.ShloMosaic.Lib.ValueIdx

noncomputable section

open scoped BigOperators

namespace Cert.ReferenceIdeal.RunH

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.RefValue (featsVec featsVec_apply projVec projVec_apply)

local macro "results3" : tactic =>
  `(tactic| (simp (disch := decide) only [StableHlo.after_cons, StableHlo.after_nil,
      StableHlo.nullary_result', StableHlo.unary_result', StableHlo.binary_result', StableHlo.reshape_result',
      Cert.Lib.nary3_result',
      StableHlo.nullary_result_ne', StableHlo.unary_result_ne', StableHlo.binary_result_ne', StableHlo.reshape_result_ne',
      StableHlo.nary_result_ne']))

section Terms
variable (W : Valuation τ sig (Elt Ideal))

def featsOf : FVec Ideal S32768x1024 .f32 :=
  featsVec (W (Proc.devRef .tc main_arg0)) (W (Proc.devRef .tc main_arg1)) (W (Proc.devRef .tc main_arg2))

theorem v48_term : after (ops2 (F := Ideal)) W (Proc.devRef .tc main_v48)
    = projVec (featsOf W) (W (Proc.devRef .tc main_v18)) := by
  results3; rfl

theorem v50_term : after (ops2 (F := Ideal)) W (Proc.devRef .tc main_v50)
    = projVec (featsOf W) (W (Proc.devRef .tc main_v23)) := by
  results3; rfl

theorem v52_term : after (ops2 (F := Ideal)) W (Proc.devRef .tc main_v52)
    = projVec (featsOf W) (W (Proc.devRef .tc main_v30)) := by
  results3; rfl

end Terms

section Values
variable (W : Valuation τ sig (Elt Ideal)) (src trg : Spec.Feat) (un : Spec.FeatUn) (ls lt : Spec.Lab)

theorem featsOf_apply (hA0 : (W (Proc.devRef .tc main_arg0) : Spec.Feat) = src)
    (hA1 : (W (Proc.devRef .tc main_arg1) : Spec.Feat) = trg)
    (hA2 : (W (Proc.devRef .tc main_arg2) : Spec.FeatUn) = un) (r : Fin 32768) (q : Fin 1024) :
    featsOf W (ix2 r q) = Spec.feats src trg un r q := by
  subst hA0 hA1 hA2
  exact featsVec_apply _ _ _ r q

theorem proj_apply (hA0 : (W (Proc.devRef .tc main_arg0) : Spec.Feat) = src)
    (hA1 : (W (Proc.devRef .tc main_arg1) : Spec.Feat) = trg)
    (hA2 : (W (Proc.devRef .tc main_arg2) : Spec.FeatUn) = un)
    (u : FVec Ideal S64x1024 .f32) (um : Spec.Means) (hu : ∀ k j, u (ix2 k j) = um k j)
    (r : Fin 32768) (k : Fin 64) :
    projVec (featsOf W) u (ix2 r k) = Spec.proj (Spec.feats src trg un) um r k := by
  rw [projVec_apply]
  exact Finset.sum_congr rfl fun q _ => by rw [featsOf_apply W src trg un hA0 hA1 hA2, hu]

theorem pS_after (hA0 : (W (Proc.devRef .tc main_arg0) : Spec.Feat) = src)
    (hA1 : (W (Proc.devRef .tc main_arg1) : Spec.Feat) = trg)
    (hA2 : (W (Proc.devRef .tc main_arg2) : Spec.FeatUn) = un)
    (h18 : ∀ k j, (W (Proc.devRef .tc main_v18) : FVec Ideal S64x1024 .f32) (ix2 k j) = Spec.uS src ls k j)
    (r : Fin 32768) (k : Fin 64) :
    (after (ops2 (F := Ideal)) W (Proc.devRef .tc main_v48) : FVec Ideal S32768x64 .f32) (ix2 r k)
      = Spec.pS src trg un ls r k :=
  (congrFun (v48_term W) (ix2 r k)).trans (proj_apply W src trg un hA0 hA1 hA2 _ _ h18 r k)

theorem pT_after (hA0 : (W (Proc.devRef .tc main_arg0) : Spec.Feat) = src)
    (hA1 : (W (Proc.devRef .tc main_arg1) : Spec.Feat) = trg)
    (hA2 : (W (Proc.devRef .tc main_arg2) : Spec.FeatUn) = un)
    (h23 : ∀ k j, (W (Proc.devRef .tc main_v23) : FVec Ideal S64x1024 .f32) (ix2 k j) = Spec.uT trg lt k j)
    (r : Fin 32768) (k : Fin 64) :
    (after (ops2 (F := Ideal)) W (Proc.devRef .tc main_v50) : FVec Ideal S32768x64 .f32) (ix2 r k)
      = Spec.pT src trg un lt r k :=
  (congrFun (v50_term W) (ix2 r k)).trans (proj_apply W src trg un hA0 hA1 hA2 _ _ h23 r k)

theorem pST_after (hA0 : (W (Proc.devRef .tc main_arg0) : Spec.Feat) = src)
    (hA1 : (W (Proc.devRef .tc main_arg1) : Spec.Feat) = trg)
    (hA2 : (W (Proc.devRef .tc main_arg2) : Spec.FeatUn) = un)
    (h30 : ∀ k j, (W (Proc.devRef .tc main_v30) : FVec Ideal S64x1024 .f32) (ix2 k j) = Spec.uST src trg ls lt k j)
    (r : Fin 32768) (k : Fin 64) :
    (after (ops2 (F := Ideal)) W (Proc.devRef .tc main_v52) : FVec Ideal S32768x64 .f32) (ix2 r k)
      = Spec.pST src trg un ls lt r k :=
  (congrFun (v52_term W) (ix2 r k)).trans (proj_apply W src trg un hA0 hA1 hA2 _ _ h30 r k)

end Values

end Cert.ReferenceIdeal.RunH

end
-- ==== Proof.Ref.S3.lean ====
import proofs.«422586_j33337536151702_2_alg».proof.Proof.Ref.Run
import proofs.«422586_j33337536151702_2_alg».proof.Proof.RefStages

noncomputable section

open scoped BigOperators

namespace Cert.ReferenceIdeal.RunH

open Cert.ReferenceIdeal Cert.ReferenceIdeal.Gen Idealize.ShloMosaic Idealize.ShloMosaic.TcCoe Idealize.SL.Sem Idealize.ShloMosaic.StableHlo
open Idealize.ShloMosaic.ValueIdx

section Term3
variable (W : Valuation τ sig (Elt Ideal))

set_option maxHeartbeats 4000000 in
set_option maxRecDepth 4096 in

theorem v59_term : after (ops3 (F := Ideal)) W (Proc.devRef .tc main_v59)
    = RefValue.ceVec (RefValue.lsmSmall (extractStridedSlice S8192x64 ![0, 0] (W (Proc.devRef .tc main_v48)) slices_S32768x64_S8192x64_0_0))
        (W (Proc.devRef .tc main_arg3)) := by
  simp only [ops3, lsm, taa, after_append, after_cons, after_nil]
  simp only [TRef.unary, TRef.binary, TRef.nullary, TRef.ternary, TRef.reshape, TRef.toBuf, TRef.ofBuf, cast_eq]
  after_results_simp
  rfl

end Term3

variable (m : (ℓ : Loc nD τ sig) → Buf (Elt Ideal) ℓ) (c : Dev nD)

set_option quotPrecheck false
local notation "𝐬" => (m ((c.tc : Thread nD τ).loc main_arg0) : Cert.Spec.Feat)
local notation "𝐭" => (m ((c.tc : Thread nD τ).loc main_arg1) : Cert.Spec.Feat)
local notation "𝐮" => (m ((c.tc : Thread nD τ).loc main_arg2) : Cert.Spec.FeatUn)
local notation "𝐥𝐬" => (m ((c.tc : Thread nD τ).loc main_arg3) : Cert.Spec.Lab)
local notation "𝐥𝐭" => (m ((c.tc : Thread nD τ).loc main_arg4) : Cert.Spec.Lab)

theorem ceS_at
    (hP : ∀ (r : Fin 32768) (k : Fin 64),
      (U2 m c (Proc.devRef .tc main_v48) : FVec Ideal S32768x64 .f32) (ix2 r k) = Cert.Spec.pS 𝐬 𝐭 𝐮 𝐥𝐬 r k)
    (hA3 : U2 m c (Proc.devRef .tc main_arg3) = m ((c.tc : Thread nD τ).loc main_arg3))
    (hls : ∀ r : S8192.Idx, 0 ≤ ((𝐥𝐬 : IVec S8192 32) r).toInt ∧ ((𝐥𝐬 : IVec S8192 32) r).toInt < 64) :
    U3 m c (Proc.devRef .tc main_v59) = fun _ => Cert.Spec.specCeS 𝐬 𝐭 𝐮 𝐥𝐬 𝐥𝐭 := by
  show after (ops3 (F := Ideal)) (U2 m c) (Proc.devRef .tc main_v59) = _
  rw [v59_term, hA3]
  exact funext fun i => RefValue.ce_rows 0 _ _ _ hP _ (fun r => hls (ix1 r)) (fun r => ⟨r.val, by omega⟩)
    (fun r => (Nat.zero_add _).symm) i

end Cert.ReferenceIdeal.RunH

end
-- ==== Proof.Ref.S4.lean ====
import proofs.«422586_j33337536151702_2_alg».proof.Proof.Ref.Run
import proofs.«422586_j33337536151702_2_alg».proof.Proof.RefStages

noncomputable section

namespace Cert.ReferenceIdeal.RunH

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.RefValue

section Terms
variable (W : Valuation τ sig (Elt Ideal))

set_option maxRecDepth 4096 in

theorem v66_term : after (ops4 (F := Ideal)) W (Proc.devRef .tc main_v66)
    = ceVec (lsmSmall (extractStridedSlice S8192x64 ![8192, 0] (W (Proc.devRef .tc main_v50)) slices_S32768x64_S8192x64_8192_0))
        (W (Proc.devRef .tc main_arg4)) := by
  simp only [ops4, lsm, taa, after_append, after_cons, after_nil]
  simp only [TRef.unary, TRef.binary, TRef.nullary, TRef.ternary, TRef.reshape, TRef.toBuf, TRef.ofBuf, cast_eq]
  after_results_simp; rfl

end Terms

section S4
variable (m : (ℓ : Loc nD τ sig) → Buf (Elt Ideal) ℓ) (c : Dev nD)

theorem ceT_at
    (hP : ∀ (r : Fin 32768) (k : Fin 64), (U3 m c (Proc.devRef .tc main_v50) : FVec Ideal S32768x64 .f32) (ix2 r k)
        = Cert.Spec.pT (m ((c.tc : Thread nD τ).loc main_arg0)) (m ((c.tc : Thread nD τ).loc main_arg1)) (m ((c.tc : Thread nD τ).loc main_arg2)) (m ((c.tc : Thread nD τ).loc main_arg4)) r k)
    (hA4 : U3 m c (Proc.devRef .tc main_arg4) = (m ((c.tc : Thread nD τ).loc main_arg4)))
    (hlt : ∀ r : S8192.Idx, 0 ≤ (((m ((c.tc : Thread nD τ).loc main_arg4)) : IVec S8192 32) r).toInt ∧ (((m ((c.tc : Thread nD τ).loc main_arg4)) : IVec S8192 32) r).toInt < 64) :
    U4 m c (Proc.devRef .tc main_v66)
      = fun _ => Cert.Spec.specCeT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after (ops4 (F := Ideal)) (U3 m c) (Proc.devRef .tc main_v66) = _
  rw [v66_term, hA4]
  exact funext fun i => ce_rows 8192 _ _ _ hP _ (fun r => hlt (ix1 r)) (fun r => ⟨8192 + r.val, by omega⟩) (fun _ => rfl) i

end S4

end Cert.ReferenceIdeal.RunH

end
-- ==== Proof.Ref.S5.lean ====
import proofs.«422586_j33337536151702_2_alg».proof.Proof.Ref.Run
import proofs.«422586_j33337536151702_2_alg».proof.Proof.RefStages

noncomputable section

open scoped BigOperators

namespace Cert.ReferenceIdeal.RunH

open Cert.ReferenceIdeal Cert.ReferenceIdeal.Gen Idealize.ShloMosaic Idealize.ShloMosaic.TcCoe Idealize.SL.Sem Idealize.ShloMosaic.StableHlo
open Idealize.ShloMosaic.ValueIdx

theorem klBlock (A B : FVec Ideal S32768x64 .f32) (a b : Cert.Spec.Logits)
    (hA : ∀ (r : Fin 32768) (k : Fin 64), A (ix2 r k) = a r k) (hB : ∀ (r : Fin 32768) (k : Fin 64), B (ix2 r k) = b r k)
    (i : S_.Idx) :
    RefValue.symKlVec (RefValue.lsmBig A) (RefValue.lsmBig B) i = Cert.Spec.symKl a b := by
  rw [RefValue.symKlVec_apply]
  have ea : (fun r c => A (ix2 r c)) = a := funext fun r => funext fun c => hA r c
  have eb : (fun r c => B (ix2 r c)) = b := funext fun r => funext fun c => hB r c
  rw [ea, eb]

set_option maxRecDepth 4096 in

theorem v80_term (W : Valuation τ sig (Elt Ideal)) :
    after (ops5 (F := Ideal)) W (Proc.devRef .tc main_v80)
      = RefValue.symKlVec (RefValue.lsmBig (W (Proc.devRef .tc main_v48))) (RefValue.lsmBig (W (Proc.devRef .tc main_v50))) := by
  simp only [ops5, lsmB, after_append, after_cons, after_nil]
  simp only [TRef.unary, TRef.binary, TRef.nullary, TRef.toBuf, TRef.ofBuf, cast_eq]
  after_results_simp
  rfl

section At
variable (m : (ℓ : Loc nD τ sig) → Buf (Elt Ideal) ℓ) (c : Dev nD)
  (src trg : Cert.Spec.Feat) (un : Cert.Spec.FeatUn) (ls lt : Cert.Spec.Lab)

theorem kl1_at
    (hPS : ∀ (r : Fin 32768) (k : Fin 64),
      (U4 m c (Proc.devRef .tc main_v48) : FVec Ideal S32768x64 .f32) (ix2 r k) = Cert.Spec.pS src trg un ls r k)
    (hPT : ∀ (r : Fin 32768) (k : Fin 64),
      (U4 m c (Proc.devRef .tc main_v50) : FVec Ideal S32768x64 .f32) (ix2 r k) = Cert.Spec.pT src trg un lt r k) :
    (U5 m c (Proc.devRef .tc main_v80) : FVec Ideal S_ .f32) ix0
      = Cert.Spec.symKl (Cert.Spec.pS src trg un ls) (Cert.Spec.pT src trg un lt) := by
  show after (ops5 (F := Ideal)) (U4 m c) (Proc.devRef .tc main_v80) ix0 = _
  rw [v80_term]
  exact klBlock _ _ _ _ hPS hPT ix0

end At

end Cert.ReferenceIdeal.RunH

end
-- ==== Proof.Ref.S6.lean ====
import proofs.«422586_j33337536151702_2_alg».proof.Proof.Ref.Run
import proofs.«422586_j33337536151702_2_alg».proof.Proof.RefStages
import proofs.«422586_j33337536151702_2_alg».proof.Proof.Ref.S5

noncomputable section

open scoped BigOperators

namespace Cert.ReferenceIdeal.RunH

open Cert.ReferenceIdeal Cert.ReferenceIdeal.Gen Idealize.ShloMosaic Idealize.ShloMosaic.TcCoe Idealize.SL.Sem Idealize.ShloMosaic.StableHlo
open Idealize.ShloMosaic.ValueIdx

set_option maxRecDepth 4096 in

theorem v95_term (W : Valuation τ sig (Elt Ideal)) :
    after (ops6 (F := Ideal)) W (Proc.devRef .tc main_v95)
      = addf (F := Ideal) (W (Proc.devRef .tc main_v80))
          (RefValue.symKlVec (RefValue.lsmBig (W (Proc.devRef .tc main_v48))) (RefValue.lsmBig (W (Proc.devRef .tc main_v52)))) := by
  simp only [ops6, lsmB, after_append, after_cons, after_nil]
  simp only [TRef.unary, TRef.binary, TRef.nullary, TRef.toBuf, TRef.ofBuf, cast_eq]
  after_results_simp
  rfl

section At
variable (m : (ℓ : Loc nD τ sig) → Buf (Elt Ideal) ℓ) (c : Dev nD)
  (src trg : Cert.Spec.Feat) (un : Cert.Spec.FeatUn) (ls lt : Cert.Spec.Lab)

theorem kl2_at
    (hPS : ∀ (r : Fin 32768) (k : Fin 64),
      (U5 m c (Proc.devRef .tc main_v48) : FVec Ideal S32768x64 .f32) (ix2 r k) = Cert.Spec.pS src trg un ls r k)
    (hPST : ∀ (r : Fin 32768) (k : Fin 64),
      (U5 m c (Proc.devRef .tc main_v52) : FVec Ideal S32768x64 .f32) (ix2 r k) = Cert.Spec.pST src trg un ls lt r k)
    (h80 : (U5 m c (Proc.devRef .tc main_v80) : FVec Ideal S_ .f32) ix0
      = Cert.Spec.symKl (Cert.Spec.pS src trg un ls) (Cert.Spec.pT src trg un lt)) :
    (U6 m c (Proc.devRef .tc main_v95) : FVec Ideal S_ .f32) ix0
      = Cert.Spec.symKl (Cert.Spec.pS src trg un ls) (Cert.Spec.pT src trg un lt)
        + Cert.Spec.symKl (Cert.Spec.pS src trg un ls) (Cert.Spec.pST src trg un ls lt) := by
  show after (ops6 (F := Ideal)) (U5 m c) (Proc.devRef .tc main_v95) ix0 = _
  rw [v95_term, addf_apply, h80]
  exact congrArg _ (klBlock _ _ _ _ hPS hPST ix0)

end At

end Cert.ReferenceIdeal.RunH

end
-- ==== Proof.Ref.S7.lean ====
import proofs.«422586_j33337536151702_2_alg».proof.Proof.Ref.Run
import proofs.«422586_j33337536151702_2_alg».proof.Proof.Ref.S5
import proofs.«422586_j33337536151702_2_alg».proof.Proof.RefStages

noncomputable section

open scoped BigOperators

namespace Cert.ReferenceIdeal.RunH

open Cert.ReferenceIdeal Cert.ReferenceIdeal.Gen Idealize.ShloMosaic Idealize.ShloMosaic.TcCoe Idealize.SL.Sem Idealize.ShloMosaic.StableHlo
open Idealize.ShloMosaic.ValueIdx

set_option maxRecDepth 4096 in

theorem v111_term (W : Valuation τ sig (Elt Ideal)) :
    after (ops7 (F := Ideal)) W (Proc.devRef .tc main_v111)
      = Host.divf
          (addf (W (Proc.devRef .tc main_v95) : FVec Ideal S_ .f32)
            (RefValue.symKlVec (RefValue.lsmBig (W (Proc.devRef .tc main_v50))) (RefValue.lsmBig (W (Proc.devRef .tc main_v52)))))
          (constant (F := Ideal) S_ .f32 0x40400000#32) := by
  simp only [ops7, lsmB, after_append, after_cons, after_nil]
  simp only [TRef.unary, TRef.binary, TRef.nullary, TRef.toBuf, TRef.ofBuf, cast_eq]
  after_results_simp
  rfl

theorem third_apply (x : FVec Ideal S_ .f32) (A B : FVec Ideal S32768x64 .f32) (i : S_.Idx) :
    Host.divf (addf x (RefValue.symKlVec (RefValue.lsmBig A) (RefValue.lsmBig B))) (constant (F := Ideal) S_ .f32 0x40400000#32) i
      = Ideal.div (x i + RefValue.symKlVec (RefValue.lsmBig A) (RefValue.lsmBig B) i) (Ideal.ofBits .f32 0x40400000#32) := rfl

section At
variable (m : (ℓ : Loc nD τ sig) → Buf (Elt Ideal) ℓ) (c : Dev nD)
  (src trg : Cert.Spec.Feat) (un : Cert.Spec.FeatUn) (ls lt : Cert.Spec.Lab)

theorem tpn_at
    (hPT : ∀ (r : Fin 32768) (k : Fin 64),
      (U6 m c (Proc.devRef .tc main_v50) : FVec Ideal S32768x64 .f32) (ix2 r k) = Cert.Spec.pT src trg un lt r k)
    (hPST : ∀ (r : Fin 32768) (k : Fin 64),
      (U6 m c (Proc.devRef .tc main_v52) : FVec Ideal S32768x64 .f32) (ix2 r k) = Cert.Spec.pST src trg un ls lt r k)
    (h95 : (U6 m c (Proc.devRef .tc main_v95) : FVec Ideal S_ .f32) ix0
      = Cert.Spec.symKl (Cert.Spec.pS src trg un ls) (Cert.Spec.pT src trg un lt)
        + Cert.Spec.symKl (Cert.Spec.pS src trg un ls) (Cert.Spec.pST src trg un ls lt)) :
    U7 m c (Proc.devRef .tc main_v111) = fun _ => Cert.Spec.specTpn src trg un ls lt := by
  funext i
  rw [ValueIdx.eq_ix0 i]
  show after (ops7 (F := Ideal)) (U6 m c) (Proc.devRef .tc main_v111) ix0 = _
  rw [v111_term, third_apply, h95, klBlock _ _ _ _ hPT hPST ix0]
  rfl

end At

end Cert.ReferenceIdeal.RunH

end
-- ==== Proof.Ref.Final.lean ====
import proofs.«422586_j33337536151702_2_alg».proof.Proof.Ref.S1
import proofs.«422586_j33337536151702_2_alg».proof.Proof.Ref.S2
import proofs.«422586_j33337536151702_2_alg».proof.Proof.Ref.S3
import proofs.«422586_j33337536151702_2_alg».proof.Proof.Ref.S4
import proofs.«422586_j33337536151702_2_alg».proof.Proof.Ref.S5
import proofs.«422586_j33337536151702_2_alg».proof.Proof.Ref.S6
import proofs.«422586_j33337536151702_2_alg».proof.Proof.Ref.S7

noncomputable section

namespace Cert.ReferenceIdeal.RunH

open Cert.ReferenceIdeal Cert.ReferenceIdeal.Gen Idealize.ShloMosaic Idealize.ShloMosaic.TcCoe Idealize.SL.Sem Idealize.ShloMosaic.StableHlo
open Idealize.ShloMosaic.ValueIdx

section Keep
variable {F : FTy → Type} [FloatOps F]

theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

-- A stretch of operations with a list holding every reference it writes.
structure Stretch (F : FTy → Type) [FloatOps F] where
  ops : List (HloOp τ sig (Elt F))
  W : List (Ref sig .tc)
  hw : ops.Forall fun op => op.writes ⊆ (W.map (Proc.devRef (τ := τ) .tc)).toFinset := by
    simp only [lsm, taa, lsmB, List.forall_append, List.forall_cons, List.Forall,
      nullary_writes, unary_writes, binary_writes, ternary_writes, reshape_writes, nary_writes]
    repeat' apply And.intro
    all_goals exact singleton_sub_of_mem (by decide)

-- A reference that none of a run of stretches writes keeps its contents through all of them.
theorem kept (b : Ref sig .tc) : ∀ (ss : List (Stretch F)) (V : Valuation τ sig (Elt F)), (∀ s ∈ ss, b ∉ s.W) →
    ss.foldl (fun V s => after s.ops V) V (Proc.devRef .tc b) = V (Proc.devRef .tc b)
  | [], _, _ => rfl
  | s :: ss, V, h => (kept b ss _ fun t ht => h t (List.mem_cons_of_mem _ ht)).trans
      (after_of_writes_sub s.ops V s.hw (h s List.mem_cons_self))

-- The references one call of each function writes: one per value of its body.
def lsmW (φ : fn_log_softmax.Bufs) : List (Ref sig .tc) :=
  [φ.cst.ref, φ.v0.ref, φ.cst_0.ref, φ.v1.ref, φ.v2.ref, φ.v3.ref, φ.v4.ref, φ.v5.ref, φ.v6.ref, φ.cst_1.ref,
    φ.v7.ref, φ.v8.ref, φ.v9.ref, φ.v10.ref, φ.v11.ref]
def taaW (φ : fn_take_along_axis.Bufs) : List (Ref sig .tc) :=
  [φ.c.ref, φ.v0.ref, φ.v1.ref, φ.c_0.ref, φ.v2.ref, φ.v3.ref, φ.v4.ref, φ.v5.ref, φ.c_1.ref, φ.c_2.ref, φ.v6.ref, φ.v7.ref,
    φ.v8.ref, φ.v9.ref, φ.v10.ref, φ.v11.ref, φ.c_3.ref, φ.v12.ref, φ.v13.ref, φ.cst.ref, φ.v14.ref, φ.v15.ref]
def lsmBW (φ : fn_log_softmax_0.Bufs) : List (Ref sig .tc) :=
  [φ.cst.ref, φ.v0.ref, φ.cst_0.ref, φ.v1.ref, φ.v2.ref, φ.v3.ref, φ.v4.ref, φ.v5.ref, φ.v6.ref, φ.cst_1.ref,
    φ.v7.ref, φ.v8.ref, φ.v9.ref, φ.v10.ref, φ.v11.ref]

def st1 : Stretch F where
  ops := ops1
  W := [main_cst, main_v0, main_cst_0, main_v1, main_v2, main_v3, main_cst_1, main_v4,
      main_cst_2, main_v5, main_v6, main_v7, main_cst_3, main_v8, main_v9, main_v10,
      main_cst_4, main_v11, main_v12, main_v13, main_cst_5, main_v14, main_v15, main_v16,
      main_v17, main_v18, main_cst_6, main_v19, main_v20, main_v21, main_v22, main_v23,
      main_v24, main_v25, main_cst_7, main_v26, main_v27, main_v28, main_v29, main_v30,
      main_v31, main_v32, main_cst_8, main_v33, main_cst_9, main_v34, main_v35, main_v36,
      main_cst_10, main_v37, main_cst_11, main_v38, main_v39, main_v40, main_v41, main_cst_12,
      main_v42, main_cst_13, main_v43, main_v44, main_cst_14, main_v45]

def st2 : Stretch F where
  ops := ops2
  W := [main_v46, main_v47, main_v48, main_v49, main_v50, main_v51, main_v52]

def st3 : Stretch F where
  ops := ops3
  W := main_v53 :: lsmW main_call0 ++ main_v55 :: taaW main_call1 ++ [main_cst_15, main_v57, main_cst_16, main_v58, main_v59]

def st4 : Stretch F where
  ops := ops4
  W := main_v60 :: lsmW main_call2 ++ main_v62 :: taaW main_call3 ++ [main_cst_17, main_v64, main_cst_18, main_v65, main_v66]

def st5 : Stretch F where
  ops := ops5
  W := lsmBW main_call4 ++ lsmBW main_call5 ++
    [main_v69, main_v70, main_v71, main_cst_19, main_v72, main_cst_20, main_v73, main_v74, main_v75, main_v76,
      main_cst_21, main_v77, main_cst_22, main_v78, main_v79, main_cst_23, main_v80]

def st6 : Stretch F where
  ops := ops6
  W := lsmBW main_call6 ++ lsmBW main_call7 ++
    [main_v83, main_v84, main_v85, main_cst_24, main_v86, main_cst_25, main_v87, main_v88, main_v89, main_v90,
      main_cst_26, main_v91, main_cst_27, main_v92, main_v93, main_cst_28, main_v94, main_v95]

def st7 : Stretch F where
  ops := ops7
  W := lsmBW main_call8 ++ lsmBW main_call9 ++
    [main_v98, main_v99, main_v100, main_cst_29, main_v101, main_cst_30, main_v102, main_v103, main_v104, main_v105,
      main_cst_31, main_v106, main_cst_32, main_v107, main_v108, main_cst_33, main_v109, main_v110, main_cst_34, main_v111]

end Keep

section Thread
variable (m : (ℓ : Loc nD τ sig) → Buf (Elt Ideal) ℓ) (c : Dev nD)

theorem pS_run (r : Fin 32768) (k : Fin 64) :
    (U2 m c (Proc.devRef .tc main_v48) : FVec Ideal S32768x64 .f32) (ix2 r k)
      = Spec.pS (m ((c.tc : Thread nD τ).loc main_arg0)) (m ((c.tc : Thread nD τ).loc main_arg1))
          (m ((c.tc : Thread nD τ).loc main_arg2)) (m ((c.tc : Thread nD τ).loc main_arg3)) r k :=
  pS_after (U1 m c) _ _ _ _ (kept main_arg0 [st1] (U0 m c) (by decide)) (kept main_arg1 [st1] (U0 m c) (by decide)) (kept main_arg2 [st1] (U0 m c) (by decide)) (uS_at m c) r k

theorem pT_run (r : Fin 32768) (k : Fin 64) :
    (U2 m c (Proc.devRef .tc main_v50) : FVec Ideal S32768x64 .f32) (ix2 r k)
      = Spec.pT (m ((c.tc : Thread nD τ).loc main_arg0)) (m ((c.tc : Thread nD τ).loc main_arg1))
          (m ((c.tc : Thread nD τ).loc main_arg2)) (m ((c.tc : Thread nD τ).loc main_arg4)) r k :=
  pT_after (U1 m c) _ _ _ _ (kept main_arg0 [st1] (U0 m c) (by decide)) (kept main_arg1 [st1] (U0 m c) (by decide)) (kept main_arg2 [st1] (U0 m c) (by decide)) (uT_at m c) r k

theorem pST_run (r : Fin 32768) (k : Fin 64) :
    (U2 m c (Proc.devRef .tc main_v52) : FVec Ideal S32768x64 .f32) (ix2 r k)
      = Spec.pST (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r k :=
  pST_after (U1 m c) _ _ _ _ _ (kept main_arg0 [st1] (U0 m c) (by decide)) (kept main_arg1 [st1] (U0 m c) (by decide)) (kept main_arg2 [st1] (U0 m c) (by decide)) (uST_at m c) r k

end Thread

section Run
variable (m : (ℓ : Loc nD τ sig) → Buf (Elt Ideal) ℓ)

theorem run_h (ρ : Dev nD → PrngReg)
    (hl : ∀ c : Dev nD,
      (∀ r : S8192.Idx, 0 ≤ ((m ((c.tc : Thread nD τ).loc main_arg3) : IVec S8192 32) r).toInt
      ∧ ((m ((c.tc : Thread nD τ).loc main_arg3) : IVec S8192 32) r).toInt < 64)
      ∧ (∀ r : S8192.Idx, 0 ≤ ((m ((c.tc : Thread nD τ).loc main_arg4) : IVec S8192 32) r).toInt
      ∧ ((m ((c.tc : Thread nD τ).loc main_arg4) : IVec S8192 32) r).toInt < 64)) :
    θ_run defs (onTc (τ := τ) (main (F := Ideal))) ⟨m, fun _ => 0, ρ⟩ fun r => ∀ c : Dev nD,
      r.2.mem ((c.tc : Thread nD τ).loc main_v111) = (fun _ => Spec.specTpn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)))
      ∧ r.2.mem ((c.tc : Thread nD τ).loc main_v59) = (fun _ => Spec.specCeS (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)))
      ∧ r.2.mem ((c.tc : Thread nD τ).loc main_v66) = (fun _ => Spec.specCeT (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)))
      ∧ r.2.mem ((c.tc : Thread nD τ).loc main_v45) = (fun _ => Spec.specMmd (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v111).trans (tpn_at m c _ _ _ _ _ (fun r k => by rw [show U6 m c (Proc.devRef .tc main_v50) = U2 m c (Proc.devRef .tc main_v50) from kept main_v50 [st3, st4, st5, st6] (U2 m c) (by decide)]; exact pT_run m c r k)
      (fun r k => by rw [show U6 m c (Proc.devRef .tc main_v52) = U2 m c (Proc.devRef .tc main_v52) from kept main_v52 [st3, st4, st5, st6] (U2 m c) (by decide)]; exact pST_run m c r k)
      (kl2_at m c _ _ _ _ _ (fun r k => by rw [show U5 m c (Proc.devRef .tc main_v48) = U2 m c (Proc.devRef .tc main_v48) from kept main_v48 [st3, st4, st5] (U2 m c) (by decide)]; exact pS_run m c r k)
        (fun r k => by rw [show U5 m c (Proc.devRef .tc main_v52) = U2 m c (Proc.devRef .tc main_v52) from kept main_v52 [st3, st4, st5] (U2 m c) (by decide)]; exact pST_run m c r k)
        (kl1_at m c _ _ _ _ _ (fun r k => by rw [show U4 m c (Proc.devRef .tc main_v48) = U2 m c (Proc.devRef .tc main_v48) from kept main_v48 [st3, st4] (U2 m c) (by decide)]; exact pS_run m c r k)
          (fun r k => by rw [show U4 m c (Proc.devRef .tc main_v50) = U2 m c (Proc.devRef .tc main_v50) from kept main_v50 [st3, st4] (U2 m c) (by decide)]; exact pT_run m c r k)))),
      (h c main_v59).trans ((kept main_v59 [st4, st5, st6, st7] (U3 m c) (by decide)).trans (ceS_at m c (pS_run m c) (kept main_arg3 [st1, st2] (U0 m c) (by decide)) (hl c).1)),
      (h c main_v66).trans ((kept main_v66 [st5, st6, st7] (U4 m c) (by decide)).trans (ceT_at m c (fun r k => by rw [show U3 m c (Proc.devRef .tc main_v50) = U2 m c (Proc.devRef .tc main_v50) from kept main_v50 [st3] (U2 m c) (by decide)]; exact pT_run m c r k)
        (kept main_arg4 [st1, st2, st3] (U0 m c) (by decide)) (hl c).2)),
      (h c main_v45).trans ((kept main_v45 [st2, st3, st4, st5, st6, st7] (U1 m c) (by decide)).trans (mmd_at m c)),
      (h c main_arg0).trans (kept main_arg0 [st1, st2, st3, st4, st5, st6, st7] (U0 m c) (by decide)),
      (h c main_arg1).trans (kept main_arg1 [st1, st2, st3, st4, st5, st6, st7] (U0 m c) (by decide)),
      (h c main_arg2).trans (kept main_arg2 [st1, st2, st3, st4, st5, st6, st7] (U0 m c) (by decide)),
      (h c main_arg3).trans (kept main_arg3 [st1, st2, st3, st4, st5, st6, st7] (U0 m c) (by decide)),
      (h c main_arg4).trans (kept main_arg4 [st1, st2, st3, st4, st5, st6, st7] (U0 m c) (by decide))⟩)
    (run_after m ρ)

end Run

end Cert.ReferenceIdeal.RunH

end
-- ==== Proof.PreFacts.lean ====
import proofs.«422586_j33337536151702_2_alg».proof.Pre_finite_inputs
import proofs.«422586_j33337536151702_2_alg».proof.Proof.Gen.Pre_finite_inputs
import Idealize.ShloMosaic.Lib.Affine
import Idealize.ShloMosaic.Lib.ValueIdx
import Idealize.ShloMosaic.Lib.ReduceAll
import Idealize.ShloMosaic.Lib.StableHlo.Predicate
import Idealize.ShloMosaic.PureOps.Ideal

noncomputable section

namespace Cert.PreFacts

open Idealize.ShloMosaic Idealize.ShloMosaic.ValueIdx
open Cert.Pre_finite_inputs (S8192x1024 S16384x1024 S8192 S_)

instance subsingleton_scalar_idx : Subsingleton S_.Idx := ⟨fun a b => funext fun d => d.elim0⟩

section generic

variable {F : FTy → Type} [FloatOps F]
variable (a0 a1 : FVec F S8192x1024 .f32) (a2 : FVec F S16384x1024 .f32) (a3 a4 : IVec S8192 32)

theorem conjuncts (h : Cert.Pre_finite_inputs.fn (F := F) a0 a1 a2 a3 a4 = (fun _ => 1#1)) :
    (∀ i, FloatOps.cmpf .olt (FloatOps.hostAbsf (a0 i)) (FloatOps.ofBits .f32 0x7F800000#32) = 1#1)
    ∧ (∀ i, FloatOps.cmpf .olt (FloatOps.hostAbsf (a1 i)) (FloatOps.ofBits .f32 0x7F800000#32) = 1#1)
    ∧ (∀ i, FloatOps.cmpf .olt (FloatOps.hostAbsf (a2 i)) (FloatOps.ofBits .f32 0x7F800000#32) = 1#1)
    ∧ (∀ i, IntOp.cmpi .sge (a3 i) 0#32 = 1#1 ∧ IntOp.cmpi .slt (a3 i) 64#32 = 1#1)
    ∧ (∀ i, IntOp.cmpi .sge (a4 i) 0#32 = 1#1 ∧ IntOp.cmpi .slt (a4 i) 64#32 = 1#1) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact Host.reduce_andi_all _ _ _ _ _ h0' i
  · exact Host.reduce_andi_all _ _ _ _ _ h1 i
  · exact Host.reduce_andi_all _ _ _ _ _ h2 i
  · exact IntOp.andi_eq_one.1 (Host.reduce_andi_all _ _ _ _ _ h3 i)
  · exact IntOp.andi_eq_one.1 (Host.reduce_andi_all _ _ _ _ _ h4 i)

-- The two signed comparisons of a label against 0 and 64, read as integer bounds.
theorem signed_of_cmpi {w : BitVec 32} (h : IntOp.cmpi .sge w 0#32 = 1#1 ∧ IntOp.cmpi .slt w 64#32 = 1#1) :
    0 ≤ w.toInt ∧ w.toInt < 64 := by
  have hge := IntOp.cmpi_sge.1 h.1
  have hlt := IntOp.cmpi_slt.1 h.2
  rw [show (0#32 : BitVec 32).toInt = 0 by decide] at hge
  rw [show (64#32 : BitVec 32).toInt = 64 by decide] at hlt
  exact ⟨hge, hlt⟩

theorem label_signed (h : Cert.Pre_finite_inputs.fn (F := F) a0 a1 a2 a3 a4 = (fun _ => 1#1)) :
    (∀ i : S8192.Idx, 0 ≤ (a3 i).toInt ∧ (a3 i).toInt < 64) ∧ (∀ i : S8192.Idx, 0 ≤ (a4 i).toInt ∧ (a4 i).toInt < 64) := by
  obtain ⟨-, -, -, h3, h4⟩ := conjuncts a0 a1 a2 a3 a4 h
  exact ⟨fun i => signed_of_cmpi (h3 i), fun i => signed_of_cmpi (h4 i)⟩

-- A word whose signed value lies in [0, 64) has that value as its unsigned one.
theorem toNat_lt_of_toInt {w : BitVec 32} (h : 0 ≤ w.toInt ∧ w.toInt < 64) : w.toNat < 64 := by
  obtain ⟨h0, h1⟩ := h
  have hw := w.isLt
  rw [BitVec.toInt_eq_toNat_cond] at h0 h1
  split at h0 <;> omega

theorem labels_toNat_lt_a3 (h : Cert.Pre_finite_inputs.fn (F := F) a0 a1 a2 a3 a4 = (fun _ => 1#1)) :
    ∀ r : Fin 8192, (a3 (ValueIdx.ix1 r)).toNat < 64 :=
  fun r => toNat_lt_of_toInt ((label_signed a0 a1 a2 a3 a4 h).1 (ValueIdx.ix1 r))

theorem labels_toNat_lt_a4 (h : Cert.Pre_finite_inputs.fn (F := F) a0 a1 a2 a3 a4 = (fun _ => 1#1)) :
    ∀ r : Fin 8192, (a4 (ValueIdx.ix1 r)).toNat < 64 :=
  fun r => toNat_lt_of_toInt ((label_signed a0 a1 a2 a3 a4 h).2 (ValueIdx.ix1 r))

end generic

theorem ofBits_pinf : Ideal.ofBits .f32 0x7F800000#32 = (⊤ : EReal) := by
  simp [Ideal.ofBits, Ideal.ieee]

-- An entry whose absolute value is below plus infinity is neither infinity, so it is a real number.
theorem real_of_abs_lt (x : EReal)
    (hx : FloatOps.cmpf (F := Ideal) (φ := .f32) .olt (FloatOps.hostAbsf (F := Ideal) (φ := .f32) x) (FloatOps.ofBits .f32 0x7F800000#32) = 1#1) :
    ∃ r : ℝ, x = (r : EReal) := by
  have hx' : Ideal.cmp .olt (max x (-x)) (Ideal.ofBits .f32 0x7F800000#32) = 1#1 := hx
  rw [ofBits_pinf] at hx'
  simp only [Ideal.cmp, StableHlo.Predicate.ofBool_eq_one_iff, decide_eq_true_eq, max_lt_iff] at hx'
  refine ⟨x.toReal, (EReal.coe_toReal (ne_of_lt hx'.1) fun hb => ?_).symm⟩
  rw [hb] at hx'
  exact absurd hx'.2 (by simp)

section ideal

variable (a0 a1 : FVec Ideal S8192x1024 .f32) (a2 : FVec Ideal S16384x1024 .f32) (a3 a4 : IVec S8192 32)

theorem real_entries (h : Cert.Pre_finite_inputs.fn (F := Ideal) a0 a1 a2 a3 a4 = (fun _ => 1#1)) :
    (∀ i, ∃ x : ℝ, a0 i = (x : EReal)) ∧ (∀ i, ∃ x : ℝ, a1 i = (x : EReal)) ∧ (∀ i, ∃ x : ℝ, a2 i = (x : EReal)) := by
  obtain ⟨h0, h1, h2, -, -⟩ := conjuncts a0 a1 a2 a3 a4 h
  exact ⟨fun i => real_of_abs_lt _ (h0 i), fun i => real_of_abs_lt _ (h1 i), fun i => real_of_abs_lt _ (h2 i)⟩

end ideal

end Cert.PreFacts

end
-- ==== Proof.lean ====
import proofs.«422586_j33337536151702_2_alg».proof.Defs
import proofs.«422586_j33337536151702_2_alg».proof.Proof.Gen.Kernel
import proofs.«422586_j33337536151702_2_alg».proof.Proof.Gen.KernelIdeal
import proofs.«422586_j33337536151702_2_alg».proof.Proof.Gen.ReferenceIdeal
import proofs.«422586_j33337536151702_2_alg».proof.Proof.Gen.Pre_finite_inputs
import proofs.«422586_j33337536151702_2_alg».proof.Proof.K.Whole
import proofs.«422586_j33337536151702_2_alg».proof.Proof.K.Args
import proofs.«422586_j33337536151702_2_alg».proof.Proof.KI.Whole
import proofs.«422586_j33337536151702_2_alg».proof.Proof.KI.Carry
import proofs.«422586_j33337536151702_2_alg».proof.Proof.KI.KernelValue
import proofs.«422586_j33337536151702_2_alg».proof.Proof.Ref.Final
import proofs.«422586_j33337536151702_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m g _ =>
  (θ_run (Cert.Kernel.defs (F := Bits)) _ _).mono (fun r h c =>
    ⟨(h c _ (Cert.Kernel.Whole.mem_uc Cert.Kernel.main_arg0 (by decide))).trans (Cert.Kernel.Whole.W7_main_arg0 m c),
     (h c _ (Cert.Kernel.Whole.mem_uc Cert.Kernel.main_arg1 (by decide))).trans (Cert.Kernel.Whole.W7_main_arg1 m c),
     (h c _ (Cert.Kernel.Whole.mem_uc Cert.Kernel.main_arg2 (by decide))).trans (Cert.Kernel.Whole.W7_main_arg2 m c),
     (h c _ (Cert.Kernel.Whole.mem_uc Cert.Kernel.main_arg3 (by decide))).trans (Cert.Kernel.Whole.W7_main_arg3 m c),
     (h c _ (Cert.Kernel.Whole.mem_uc Cert.Kernel.main_arg4 (by decide))).trans (Cert.Kernel.Whole.W7_main_arg4 m c)⟩)
    (Cert.Kernel.Whole.run_all (F := Bits) m g)

theorem frame_ki : Cert.frame_KernelIdeal (hKernelIdeal := Cert.KernelIdeal.Gen.facts) (hPre_finite_inputs := Cert.Pre_finite_inputs.Gen.facts) := fun m g _ =>
  (θ_run (Cert.KernelIdeal.defs (F := Ideal)) _ _).mono (fun r h c =>
    ⟨(h c _ (Cert.KernelIdeal.Whole.mem_uc Cert.KernelIdeal.main_arg0 (by decide))).trans (Cert.KernelIdeal.Whole.W7_main_arg0 m c),
     (h c _ (Cert.KernelIdeal.Whole.mem_uc Cert.KernelIdeal.main_arg1 (by decide))).trans (Cert.KernelIdeal.Whole.W7_main_arg1 m c),
     (h c _ (Cert.KernelIdeal.Whole.mem_uc Cert.KernelIdeal.main_arg2 (by decide))).trans (Cert.KernelIdeal.Whole.W7_main_arg2 m c),
     (h c _ (Cert.KernelIdeal.Whole.mem_uc Cert.KernelIdeal.main_arg3 (by decide))).trans (Cert.KernelIdeal.Whole.W7_main_arg3 m c),
     (h c _ (Cert.KernelIdeal.Whole.mem_uc Cert.KernelIdeal.main_arg4 (by decide))).trans (Cert.KernelIdeal.Whole.W7_main_arg4 m c)⟩)
    (Cert.KernelIdeal.Whole.run_all (F := Ideal) m g)

theorem frame_ri : Cert.frame_ReferenceIdeal (hReferenceIdeal := Cert.ReferenceIdeal.Gen.facts) (hPre_finite_inputs := Cert.Pre_finite_inputs.Gen.facts) := fun m g hpre =>
  (θ_run (Cert.ReferenceIdeal.defs (F := Ideal)) _ _).mono (fun _ h c => (h c).2.2.2.2)
    (Cert.ReferenceIdeal.RunH.run_h m g fun c => Cert.PreFacts.label_signed _ _ _ _ _ (hpre c))

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hsigned := fun c => Cert.PreFacts.label_signed _ _ _ _ _ (hpre c)
  have hnat3 := fun c => Cert.PreFacts.labels_toNat_lt_a3 _ _ _ _ _ (hpre c)
  have hnat4 := fun c => Cert.PreFacts.labels_toNat_lt_a4 _ _ _ _ _ (hpre c)
  have hreal := fun c => Cert.PreFacts.real_entries _ _ _ _ _ (hpre c)
  refine ⟨fun c => fun _ => Cert.Spec.specTpn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => fun _ => Cert.Spec.specCeS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => fun _ => Cert.Spec.specCeT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => fun _ => Cert.Spec.specMmd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run (Cert.KernelIdeal.defs (F := Ideal)) _ _).mono (fun r h c => ?_) (Cert.KernelIdeal.Whole.run_all (F := Ideal) m g)
    obtain ⟨h70, h63, h64, h40⟩ := Cert.KernelIdeal.Whole.results_eq m c (hnat3 c) (hnat4 c) (hreal c).1 (hreal c).2.1 (hreal c).2.2
    exact ⟨(h c _ (Cert.KernelIdeal.Whole.mem_uc Cert.KernelIdeal.main_v70 (by decide))).trans h70,
      (h c _ (Cert.KernelIdeal.Whole.mem_uc Cert.KernelIdeal.main_v63 (by decide))).trans h63,
      (h c _ (Cert.KernelIdeal.Whole.mem_uc Cert.KernelIdeal.main_v64 (by decide))).trans h64,
      (h c _ (Cert.KernelIdeal.Whole.mem_uc Cert.KernelIdeal.main_v40 (by decide))).trans h40,
      (h c _ (Cert.KernelIdeal.Whole.mem_uc Cert.KernelIdeal.main_arg0 (by decide))).trans (Cert.KernelIdeal.Whole.W7_main_arg0 m c),
      (h c _ (Cert.KernelIdeal.Whole.mem_uc Cert.KernelIdeal.main_arg1 (by decide))).trans (Cert.KernelIdeal.Whole.W7_main_arg1 m c),
      (h c _ (Cert.KernelIdeal.Whole.mem_uc Cert.KernelIdeal.main_arg2 (by decide))).trans (Cert.KernelIdeal.Whole.W7_main_arg2 m c),
      (h c _ (Cert.KernelIdeal.Whole.mem_uc Cert.KernelIdeal.main_arg3 (by decide))).trans (Cert.KernelIdeal.Whole.W7_main_arg3 m c),
      (h c _ (Cert.KernelIdeal.Whole.mem_uc Cert.KernelIdeal.main_arg4 (by decide))).trans (Cert.KernelIdeal.Whole.W7_main_arg4 m c)⟩
  · have hl' : ∀ c, _ := fun c => by
      have := hsigned c
      rw [← (hagree c).2.2.2.1, ← (hagree c).2.2.2.2] at this
      exact this
    refine (θ_run (Cert.ReferenceIdeal.defs (F := Ideal)) _ _).mono (fun r h c => ?_) (Cert.ReferenceIdeal.RunH.run_h m' g' hl')
    obtain ⟨r0, r1, r2, r3, a0, a1, a2, a3, a4⟩ := h c
    refine ⟨r0.trans ?_, r1.trans ?_, r2.trans ?_, r3.trans ?_, a0, a1, a2, a3, a4⟩ <;>
      (simp only [(hagree c).1, (hagree c).2.1, (hagree c).2.2.1, (hagree c).2.2.2.1, (hagree c).2.2.2.2] <;> rfl)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
